-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v173)) (v1 : (c : Dev Cert.KernelIdeal.nD) → Buf (Elt Ideal) ((c.tc : Thread Cert.KernelIdeal.nD Cert.KernelIdeal.τ).loc Cert.KernelIdeal.main_v221)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v173) = v0 c
          ∧ r.2.mem ((c.tc : Thread Cert.KernelIdeal.nD Cert.KernelIdeal.τ).loc Cert.KernelIdeal.main_v221) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_v291) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1200000 : Shape := ⟨2, ![2, 1200000]⟩
abbrev S1200000 : Shape := ⟨1, ![1200000]⟩
abbrev S256x64 : Shape := ⟨2, ![256, 64]⟩
abbrev S64 : Shape := ⟨1, ![64]⟩
abbrev S8x64x64 : Shape := ⟨3, ![8, 64, 64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S8x64x64 .f32) (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8x64x64 .f32 := Host.absf main_arg5
  let main_cst_6 : FVec F S_ .f32 := constant S_ .f32 0x7F800000#32
  let main_v20 : FVec F S8x64x64 .f32 := broadcastInDim S8x64x64 ![] bcast_S_S8x64x64 main_cst_6
  let main_v21 : IVec S8x64x64 1 := cmpf .olt main_v19 main_v20
  let main_c_7 : IVec S_ 1 := constantI S_ 1 1#1
  let main_v22 : IVec S_ 1 := (fun x v => Host.reduce IntOp.andi x v reducesTo_S8x64x64_S_d0_1_2 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S2x1200000 32) (main_arg2 : FVec F S1200000 .f32) (main_arg3 : FVec F S256x64 .f32) (main_arg4 : FVec F S64 .f32) (main_arg5 : FVec F S8x64x64 .f32) (main_arg6 : FVec F S64x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x256 : Shape := ⟨2, ![100000, 256]⟩
abbrev S2x1200000 : Shape := ⟨2, ![2, 1200000]⟩
abbrev S1200000 : Shape := ⟨1, ![1200000]⟩
abbrev S256x64 : Shape := ⟨2, ![256, 64]⟩
abbrev S64 : Shape := ⟨1, ![64]⟩
abbrev S8x64x64 : Shape := ⟨3, ![8, 64, 64]⟩
abbrev S64x40 : Shape := ⟨2, ![64, 40]⟩
abbrev S40 : Shape := ⟨1, ![40]⟩
abbrev S1x1200000 : Shape := ⟨2, ![1, 1200000]⟩
abbrev S_ : Shape := ⟨0, ![]⟩
abbrev S100000 : Shape := ⟨1, ![100000]⟩
abbrev S1200000x1 : Shape := ⟨2, ![1200000, 1]⟩
abbrev S100000x64 : Shape := ⟨2, ![100000, 64]⟩
abbrev S5000x256 : Shape := ⟨2, ![5000, 256]⟩
abbrev S5000x64 : Shape := ⟨2, ![5000, 64]⟩
abbrev S1x64 : Shape := ⟨2, ![1, 64]⟩
abbrev S1200000x64 : Shape := ⟨2, ![1200000, 64]⟩
abbrev S1x64x64 : Shape := ⟨3, ![1, 64, 64]⟩
abbrev S64x64 : Shape := ⟨2, ![64, 64]⟩
abbrev S100000x40 : Shape := ⟨2, ![100000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 295
  | .vmem => 84
  | .smem => 0
  | _ => 0

abbrev hbmTy0_0 (i : Nat) : BufTy := match i % 128 with
  | 0 => ⟨S100000x256, .f32⟩
  | 1 => ⟨S2x1200000, .i32⟩
  | 2 => ⟨S1200000, .f32⟩
  | 3 => ⟨S256x64, .f32⟩
  | 4 => ⟨S64, .f32⟩
  | 5 => ⟨S8x64x64, .f32⟩
  | 6 => ⟨S64x40, .f32⟩
  | 7 => ⟨S40, .f32⟩
  | 8 => ⟨S1x1200000, .i32⟩
  | 9 => ⟨S1200000, .i32⟩
  | 10 => ⟨S1x1200000, .i32⟩
  | 11 => ⟨S1200000, .i32⟩
  | 12 => ⟨S1x1200000, .i32⟩
  | 13 => ⟨S1200000, .i32⟩
  | 14 => ⟨S1x1200000, .i32⟩
  | 15 => ⟨S1200000, .i32⟩
  | 16 => ⟨S_, .f32⟩
  | 17 => ⟨S100000, .f32⟩
  | 18 => ⟨S1200000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S1200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000, .f32⟩
  | 54 => ⟨S1200000, .f32⟩
  | 55 => ⟨S_, .f32⟩
  | 56 => ⟨S1200000, .f32⟩
  | 57 => ⟨S1200000, .f32⟩
  | 58 => ⟨S100000x64, .bf16⟩
  | 59 => ⟨S1200000x1, .f32⟩
  | 60 => ⟨S_, .i32⟩
  | 61 => ⟨S1200000, .i32⟩
  | 62 => ⟨S1200000, .i1⟩
  | 63 => ⟨S_, .i32⟩
  | 64 => ⟨S1200000, .i32⟩
  | 65 => ⟨S1200000, .i32⟩
  | 66 => ⟨S1200000, .i32⟩
  | 67 => ⟨S1200000x1, .i32⟩
  | 68 => ⟨S1200000x64, .bf16⟩
  | 69 => ⟨S1200000x64, .f32⟩
  | 70 => ⟨S1200000x64, .f32⟩
  | 71 => ⟨S1200000x64, .f32⟩
  | 72 => ⟨S_, .f32⟩
  | 73 => ⟨S100000x64, .f32⟩
  | 74 => ⟨S1200000x1, .i32⟩
  | 75 => ⟨S100000x64, .f32⟩
  | 76 => ⟨S1x64x64, .f32⟩
  | 77 => ⟨S64x64, .f32⟩
  | 78 => ⟨S100000x64, .bf16⟩
  | 79 => ⟨S1200000x1, .f32⟩
  | 80 => ⟨S_, .i32⟩
  | 81 => ⟨S1200000, .i32⟩
  | 82 => ⟨S1200000, .i1⟩
  | 83 => ⟨S_, .i32⟩
  | 84 => ⟨S1200000, .i32⟩
  | 85 => ⟨S1200000, .i32⟩
  | 86 => ⟨S1200000, .i32⟩
  | 87 => ⟨S1200000x1, .i32⟩
  | 88 => ⟨S1200000x64, .bf16⟩
  | 89 => ⟨S1200000x64, .f32⟩
  | 90 => ⟨S1200000x64, .f32⟩
  | 91 => ⟨S1200000x64, .f32⟩
  | 92 => ⟨S_, .f32⟩
  | 93 => ⟨S100000x64, .f32⟩
  | 94 => ⟨S1200000x1, .i32⟩
  | 95 => ⟨S100000x64, .f32⟩
  | 96 => ⟨S1x64x64, .f32⟩
  | 97 => ⟨S64x64, .f32⟩
  | 98 => ⟨S100000x64, .bf16⟩
  | 99 => ⟨S1200000x1, .f32⟩
  | 100 => ⟨S_, .i32⟩
  | 101 => ⟨S1200000, .i32⟩
  | 102 => ⟨S1200000, .i1⟩
  | 103 => ⟨S_, .i32⟩
  | 104 => ⟨S1200000, .i32⟩
  | 105 => ⟨S1200000, .i32⟩
  | 106 => ⟨S1200000, .i32⟩
  | 107 => ⟨S1200000x1, .i32⟩
  | 108 => ⟨S1200000x64, .bf16⟩
  | 109 => ⟨S1200000x64, .f32⟩
  | 110 => ⟨S1200000x64, .f32⟩
  | 111 => ⟨S1200000x64, .f32⟩
  | 112 => ⟨S_, .f32⟩
  | 113 => ⟨S100000x64, .f32⟩
  | 114 => ⟨S1200000x1, .i32⟩
  | 115 => ⟨S100000x64, .f32⟩
  | 116 => ⟨S1x64x64, .f32⟩
  | 117 => ⟨S64x64, .f32⟩
  | 118 => ⟨S100000x64, .bf16⟩
  | 119 => ⟨S1200000x1, .f32⟩
  | 120 => ⟨S_, .i32⟩
  | 121 => ⟨S1200000, .i32⟩
  | 122 => ⟨S1200000, .i1⟩
  | 123 => ⟨S_, .i32⟩
  | 124 => ⟨S1200000, .i32⟩
  | 125 => ⟨S1200000, .i32⟩
  | 126 => ⟨S1200000, .i32⟩
  | 127 => ⟨S1200000x1, .i32⟩
  | _ => ⟨S100000x256, .f32⟩

abbrev hbmTy0_1 (i : Nat) : BufTy := match i % 128 with
  | 0 => ⟨S1200000x64, .bf16⟩
  | 1 => ⟨S1200000x64, .f32⟩
  | 2 => ⟨S1200000x64, .f32⟩
  | 3 => ⟨S1200000x64, .f32⟩
  | 4 => ⟨S_, .f32⟩
  | 5 => ⟨S100000x64, .f32⟩
  | 6 => ⟨S1200000x1, .i32⟩
  | 7 => ⟨S100000x64, .f32⟩
  | 8 => ⟨S1x64x64, .f32⟩
  | 9 => ⟨S64x64, .f32⟩
  | 10 => ⟨S100000x64, .bf16⟩
  | 11 => ⟨S1200000x1, .f32⟩
  | 12 => ⟨S_, .i32⟩
  | 13 => ⟨S1200000, .i32⟩
  | 14 => ⟨S1200000, .i1⟩
  | 15 => ⟨S_, .i32⟩
  | 16 => ⟨S1200000, .i32⟩
  | 17 => ⟨S1200000, .i32⟩
  | 18 => ⟨S1200000, .i32⟩
  | 19 => ⟨S1200000x1, .i32⟩
  | 20 => ⟨S1200000x64, .bf16⟩
  | 21 => ⟨S1200000x64, .f32⟩
  | 22 => ⟨S1200000x64, .f32⟩
  | 23 => ⟨S1200000x64, .f32⟩
  | 24 => ⟨S_, .f32⟩
  | 25 => ⟨S100000x64, .f32⟩
  | 26 => ⟨S1200000x1, .i32⟩
  | 27 => ⟨S100000x64, .f32⟩
  | 28 => ⟨S1x64x64, .f32⟩
  | 29 => ⟨S64x64, .f32⟩
  | 30 => ⟨S100000x64, .bf16⟩
  | 31 => ⟨S1200000x1, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000x64, .bf16⟩
  | 41 => ⟨S1200000x64, .f32⟩
  | 42 => ⟨S1200000x64, .f32⟩
  | 43 => ⟨S1200000x64, .f32⟩
  | 44 => ⟨S_, .f32⟩
  | 45 => ⟨S100000x64, .f32⟩
  | 46 => ⟨S1200000x1, .i32⟩
  | 47 => ⟨S100000x64, .f32⟩
  | 48 => ⟨S1x64x64, .f32⟩
  | 49 => ⟨S64x64, .f32⟩
  | 50 => ⟨S100000x64, .bf16⟩
  | 51 => ⟨S1200000x1, .f32⟩
  | 52 => ⟨S_, .i32⟩
  | 53 => ⟨S1200000, .i32⟩
  | 54 => ⟨S1200000, .i1⟩
  | 55 => ⟨S_, .i32⟩
  | 56 => ⟨S1200000, .i32⟩
  | 57 => ⟨S1200000, .i32⟩
  | 58 => ⟨S1200000, .i32⟩
  | 59 => ⟨S1200000x1, .i32⟩
  | 60 => ⟨S1200000x64, .bf16⟩
  | 61 => ⟨S1200000x64, .f32⟩
  | 62 => ⟨S1200000x64, .f32⟩
  | 63 => ⟨S1200000x64, .f32⟩
  | 64 => ⟨S_, .f32⟩
  | 65 => ⟨S100000x64, .f32⟩
  | 66 => ⟨S1200000x1, .i32⟩
  | 67 => ⟨S100000x64, .f32⟩
  | 68 => ⟨S1x64x64, .f32⟩
  | 69 => ⟨S64x64, .f32⟩
  | 70 => ⟨S100000x64, .bf16⟩
  | 71 => ⟨S1200000x1, .f32⟩
  | 72 => ⟨S_, .i32⟩
  | 73 => ⟨S1200000, .i32⟩
  | 74 => ⟨S1200000, .i1⟩
  | 75 => ⟨S_, .i32⟩
  | 76 => ⟨S1200000, .i32⟩
  | 77 => ⟨S1200000, .i32⟩
  | 78 => ⟨S1200000, .i32⟩
  | 79 => ⟨S1200000x1, .i32⟩
  | 80 => ⟨S1200000x64, .bf16⟩
  | 81 => ⟨S1200000x64, .f32⟩
  | 82 => ⟨S1200000x64, .f32⟩
  | 83 => ⟨S1200000x64, .f32⟩
  | 84 => ⟨S_, .f32⟩
  | 85 => ⟨S100000x64, .f32⟩
  | 86 => ⟨S1200000x1, .i32⟩
  | 87 => ⟨S100000x64, .f32⟩
  | 88 => ⟨S1x64x64, .f32⟩
  | 89 => ⟨S64x64, .f32⟩
  | 90 => ⟨S100000x64, .bf16⟩
  | 91 => ⟨S100000x40, .f32⟩
  | 92 => ⟨S64x64, .i32⟩
  | 93 => ⟨S64x64, .i32⟩
  | 94 => ⟨S_, .i32⟩
  | 95 => ⟨S64x64, .i32⟩
  | 96 => ⟨S64x64, .i32⟩
  | 97 => ⟨S64x64, .i1⟩
  | 98 => ⟨S64x64, .f32⟩
  | 99 => ⟨S1x64x64, .f32⟩
  | 100 => ⟨S64x64, .f32⟩
  | 101 => ⟨S_, .f32⟩
  | 102 => ⟨S64x64, .f32⟩
  | 103 => ⟨S64x64, .f32⟩
  | 104 => ⟨S64x64, .f32⟩
  | 105 => ⟨S64x64, .f32⟩
  | 106 => ⟨S_, .f32⟩
  | 107 => ⟨S_, .f32⟩
  | 108 => ⟨S_, .f32⟩
  | 109 => ⟨S1x64x64, .f32⟩
  | 110 => ⟨S64x64, .f32⟩
  | 111 => ⟨S64x64, .f32⟩
  | 112 => ⟨S64x64, .f32⟩
  | 113 => ⟨S_, .f32⟩
  | 114 => ⟨S_, .f32⟩
  | 115 => ⟨S_, .f32⟩
  | 116 => ⟨S_, .f32⟩
  | 117 => ⟨S1x64x64, .f32⟩
  | 118 => ⟨S64x64, .f32⟩
  | 119 => ⟨S64x64, .f32⟩
  | 120 => ⟨S64x64, .f32⟩
  | 121 => ⟨S_, .f32⟩
  | 122 => ⟨S_, .f32⟩
  | 123 => ⟨S_, .f32⟩
  | 124 => ⟨S_, .f32⟩
  | 125 => ⟨S1x64x64, .f32⟩
  | 126 => ⟨S64x64, .f32⟩
  | 127 => ⟨S64x64, .f32⟩
  | _ => ⟨S100000x256, .f32⟩

abbrev hbmTy0_2 (i : Nat) : BufTy := match i % 128 with
  | 0 => ⟨S64x64, .f32⟩
  | 1 => ⟨S_, .f32⟩
  | 2 => ⟨S_, .f32⟩
  | 3 => ⟨S_, .f32⟩
  | 4 => ⟨S_, .f32⟩
  | 5 => ⟨S1x64x64, .f32⟩
  | 6 => ⟨S64x64, .f32⟩
  | 7 => ⟨S64x64, .f32⟩
  | 8 => ⟨S64x64, .f32⟩
  | 9 => ⟨S_, .f32⟩
  | 10 => ⟨S_, .f32⟩
  | 11 => ⟨S_, .f32⟩
  | 12 => ⟨S_, .f32⟩
  | 13 => ⟨S1x64x64, .f32⟩
  | 14 => ⟨S64x64, .f32⟩
  | 15 => ⟨S64x64, .f32⟩
  | 16 => ⟨S64x64, .f32⟩
  | 17 => ⟨S_, .f32⟩
  | 18 => ⟨S_, .f32⟩
  | 19 => ⟨S_, .f32⟩
  | 20 => ⟨S_, .f32⟩
  | 21 => ⟨S1x64x64, .f32⟩
  | 22 => ⟨S64x64, .f32⟩
  | 23 => ⟨S64x64, .f32⟩
  | 24 => ⟨S64x64, .f32⟩
  | 25 => ⟨S_, .f32⟩
  | 26 => ⟨S_, .f32⟩
  | 27 => ⟨S_, .f32⟩
  | 28 => ⟨S_, .f32⟩
  | 29 => ⟨S1x64x64, .f32⟩
  | 30 => ⟨S64x64, .f32⟩
  | 31 => ⟨S64x64, .f32⟩
  | 32 => ⟨S64x64, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S64, .f32⟩
  | .local _ .vmem, ⟨4, _⟩ => ⟨S5000x64, .bf16⟩
  | .local _ .vmem, ⟨5, _⟩ => ⟨S5000x64, .bf16⟩
  | .local _ .vmem, ⟨6, _⟩ => ⟨S5000x64, .f32⟩
  | .local _ .vmem, ⟨7, _⟩ => ⟨S5000x64, .f32⟩
  | .local _ .vmem, ⟨8, _⟩ => ⟨S5000x64, .bf16⟩
  | .local _ .vmem, ⟨9, _⟩ => ⟨S5000x64, .bf16⟩
  | .local _ .vmem, ⟨10, _⟩ => ⟨S5000x64, .bf16⟩
  | .local _ .vmem, ⟨11, _⟩ => ⟨S5000x64, .bf16⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x64, .bf16⟩
  | .local _ .vmem, ⟨18, _⟩ => ⟨S5000x64, .bf16⟩
  | .local _ .vmem, ⟨19, _⟩ => ⟨S5000x64, .bf16⟩
  | .local _ .vmem, ⟨20, _⟩ => ⟨S5000x64, .bf16⟩
  | .local _ .vmem, ⟨21, _⟩ => ⟨S64x64, .f32⟩
  | .local _ .vmem, ⟨22, _⟩ => ⟨S5000x64, .bf16⟩
  | .local _ .vmem, ⟨23, _⟩ => ⟨S5000x64, .bf16⟩
  | .local _ .vmem, ⟨24, _⟩ => ⟨S5000x64, .f32⟩
  | .local _ .vmem, ⟨25, _⟩ => ⟨S5000x64, .f32⟩
  | .local _ .vmem, ⟨26, _⟩ => ⟨S5000x64, .bf16⟩
  | .local _ .vmem, ⟨27, _⟩ => ⟨S5000x64, .bf16⟩
  | .local _ .vmem, ⟨28, _⟩ => ⟨S5000x64, .bf16⟩
  | .local _ .vmem, ⟨29, _⟩ => ⟨S5000x64, .bf16⟩
  | .local _ .vmem, ⟨30, _⟩ => ⟨S64x64, .f32⟩
  | .local _ .vmem, ⟨31, _⟩ => ⟨S5000x64, .bf16⟩
  | .local _ .vmem, ⟨32, _⟩ => ⟨S5000x64, .bf16⟩
  | .local _ .vmem, ⟨33, _⟩ => ⟨S5000x64, .f32⟩
  | .local _ .vmem, ⟨34, _⟩ => ⟨S5000x64, .f32⟩
  | .local _ .vmem, ⟨35, _⟩ => ⟨S5000x64, .bf16⟩
  | .local _ .vmem, ⟨36, _⟩ => ⟨S5000x64, .bf16⟩
  | .local _ .vmem, ⟨37, _⟩ => ⟨S5000x64, .bf16⟩
  | .local _ .vmem, ⟨38, _⟩ => ⟨S5000x64, .bf16⟩
  | .local _ .vmem, ⟨39, _⟩ => ⟨S64x64, .f32⟩
  | .local _ .vmem, ⟨40, _⟩ => ⟨S5000x64, .bf16⟩
  | .local _ .vmem, ⟨41, _⟩ => ⟨S5000x64, .bf16⟩
  | .local _ .vmem, ⟨42, _⟩ => ⟨S5000x64, .f32⟩
  | .local _ .vmem, ⟨43, _⟩ => ⟨S5000x64, .f32⟩
  | .local _ .vmem, ⟨44, _⟩ => ⟨S5000x64, .bf16⟩
  | .local _ .vmem, ⟨45, _⟩ => ⟨S5000x64, .bf16⟩
  | .local _ .vmem, ⟨46, _⟩ => ⟨S5000x64, .bf16⟩
  | .local _ .vmem, ⟨47, _⟩ => ⟨S5000x64, .bf16⟩
  | .local _ .vmem, ⟨48, _⟩ => ⟨S64x64, .f32⟩
  | .local _ .vmem, ⟨49, _⟩ => ⟨S5000x64, .bf16⟩
  | .local _ .vmem, ⟨50, _⟩ => ⟨S5000x64, .bf16⟩
  | .local _ .vmem, ⟨51, _⟩ => ⟨S5000x64, .f32⟩
  | .local _ .vmem, ⟨52, _⟩ => ⟨S5000x64, .f32⟩
  | .local _ .vmem, ⟨53, _⟩ => ⟨S5000x64, .bf16⟩
  | .local _ .vmem, ⟨54, _⟩ => ⟨S5000x64, .bf16⟩
  | .local _ .vmem, ⟨55, _⟩ => ⟨S5000x64, .bf16⟩
  | .local _ .vmem, ⟨56, _⟩ => ⟨S5000x64, .bf16⟩
  | .local _ .vmem, ⟨57, _⟩ => ⟨S64x64, .f32⟩
  | .local _ .vmem, ⟨58, _⟩ => ⟨S5000x64, .bf16⟩
  | .local _ .vmem, ⟨59, _⟩ => ⟨S5000x64, .bf16⟩
  | .local _ .vmem, ⟨60, _⟩ => ⟨S5000x64, .f32⟩
  | .local _ .vmem, ⟨61, _⟩ => ⟨S5000x64, .f32⟩
  | .local _ .vmem, ⟨62, _⟩ => ⟨S5000x64, .bf16⟩
  | .local _ .vmem, ⟨63, _⟩ => ⟨S5000x64, .bf16⟩
  | .local _ .vmem, ⟨64, _⟩ => ⟨S5000x64, .bf16⟩
  | .local _ .vmem, ⟨65, _⟩ => ⟨S5000x64, .bf16⟩
  | .local _ .vmem, ⟨66, _⟩ => ⟨S64x64, .f32⟩
  | .local _ .vmem, ⟨67, _⟩ => ⟨S5000x64, .bf16⟩
  | .local _ .vmem, ⟨68, _⟩ => ⟨S5000x64, .bf16⟩
  | .local _ .vmem, ⟨69, _⟩ => ⟨S5000x64, .f32⟩
  | .local _ .vmem, ⟨70, _⟩ => ⟨S5000x64, .f32⟩
  | .local _ .vmem, ⟨71, _⟩ => ⟨S5000x64, .bf16⟩
  | .local _ .vmem, ⟨72, _⟩ => ⟨S5000x64, .bf16⟩
  | .local _ .vmem, ⟨73, _⟩ => ⟨S5000x64, .bf16⟩
  | .local _ .vmem, ⟨74, _⟩ => ⟨S5000x64, .bf16⟩
  | .local _ .vmem, ⟨75, _⟩ => ⟨S64x64, .f32⟩
  | .local _ .vmem, ⟨76, _⟩ => ⟨S5000x64, .bf16⟩
  | .local _ .vmem, ⟨77, _⟩ => ⟨S5000x64, .bf16⟩
  | .local _ .vmem, ⟨78, _⟩ => ⟨S5000x64, .bf16⟩
  | .local _ .vmem, ⟨79, _⟩ => ⟨S5000x64, .bf16⟩
  | .local _ .vmem, ⟨80, _⟩ => ⟨S64x40, .f32⟩
  | .local _ .vmem, ⟨81, _⟩ => ⟨S40, .f32⟩
  | .local _ .vmem, ⟨82, _⟩ => ⟨S5000x40, .f32⟩
  | .local _ .vmem, ⟨83, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_c_17 : Ref sig .tc := ⟨.hbm, 120, rfl⟩
abbrev main_v89 : Ref sig .tc := ⟨.hbm, 121, rfl⟩
abbrev main_v90 : Ref sig .tc := ⟨.hbm, 122, rfl⟩
abbrev main_c_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_19 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_20 : Ref sig .tc := ⟨.hbm, 140, rfl⟩
abbrev main_v106 : Ref sig .tc := ⟨.hbm, 141, rfl⟩
abbrev main_v107 : Ref sig .tc := ⟨.hbm, 142, rfl⟩
abbrev main_c_21 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_22 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_23 : Ref sig .tc := ⟨.hbm, 160, rfl⟩
abbrev main_v123 : Ref sig .tc := ⟨.hbm, 161, rfl⟩
abbrev main_v124 : Ref sig .tc := ⟨.hbm, 162, rfl⟩
abbrev main_c_24 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_25 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_c_26 : Ref sig .tc := ⟨.hbm, 180, rfl⟩
abbrev main_v140 : Ref sig .tc := ⟨.hbm, 181, rfl⟩
abbrev main_v141 : Ref sig .tc := ⟨.hbm, 182, rfl⟩
abbrev main_c_27 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_28 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_c_29 : Ref sig .tc := ⟨.hbm, 200, rfl⟩
abbrev main_v157 : Ref sig .tc := ⟨.hbm, 201, rfl⟩
abbrev main_v158 : Ref sig .tc := ⟨.hbm, 202, rfl⟩
abbrev main_c_30 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_31 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_c_32 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_cst_33 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_call2_v0 : Ref sig .tc := ⟨.hbm, 233, rfl⟩
abbrev main_call2_cst : Ref sig .tc := ⟨.hbm, 234, rfl⟩
abbrev main_call2_v1 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_call3_v0 : Ref sig .tc := ⟨.hbm, 240, rfl⟩
abbrev main_call3_cst : Ref sig .tc := ⟨.hbm, 241, rfl⟩
abbrev main_call3_v1 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_call4_v0 : Ref sig .tc := ⟨.hbm, 248, rfl⟩
abbrev main_call4_cst : Ref sig .tc := ⟨.hbm, 249, rfl⟩
abbrev main_call4_v1 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_call5_v0 : Ref sig .tc := ⟨.hbm, 256, rfl⟩
abbrev main_call5_cst : Ref sig .tc := ⟨.hbm, 257, rfl⟩
abbrev main_call5_v1 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_call6_v0 : Ref sig .tc := ⟨.hbm, 264, rfl⟩
abbrev main_call6_cst : Ref sig .tc := ⟨.hbm, 265, rfl⟩
abbrev main_call6_v1 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_call7_v0 : Ref sig .tc := ⟨.hbm, 272, rfl⟩
abbrev main_call7_cst : Ref sig .tc := ⟨.hbm, 273, rfl⟩
abbrev main_call7_v1 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_call8_v0 : Ref sig .tc := ⟨.hbm, 280, rfl⟩
abbrev main_call8_cst : Ref sig .tc := ⟨.hbm, 281, rfl⟩
abbrev main_call8_v1 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_call9_v0 : Ref sig .tc := ⟨.hbm, 288, rfl⟩
abbrev main_call9_cst : Ref sig .tc := ⟨.hbm, 289, rfl⟩
abbrev main_call9_v1 : Ref sig .tc := ⟨.hbm, 290, rfl⟩
abbrev main_v219 : Ref sig .tc := ⟨.hbm, 291, rfl⟩
abbrev main_v220 : Ref sig .tc := ⟨.hbm, 292, rfl⟩
abbrev main_cst_34 : Ref sig .tc := ⟨.hbm, 293, rfl⟩
abbrev main_v221 : Ref sig .tc := ⟨.hbm, 294, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg4_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg4_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg4_1 : Ref sig .tc := ⟨.vmem, 68, rfl⟩
abbrev cc8_stg0_0 : Ref sig .tc := ⟨.vmem, 69, rfl⟩
abbrev cc8_stg0_1 : Ref sig .tc := ⟨.vmem, 70, rfl⟩
abbrev cc8_stg1_0 : Ref sig .tc := ⟨.vmem, 71, rfl⟩
abbrev cc8_stg1_1 : Ref sig .tc := ⟨.vmem, 72, rfl⟩
abbrev cc8_stg2_0 : Ref sig .tc := ⟨.vmem, 73, rfl⟩
abbrev cc8_stg2_1 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg4_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg3_0 : Ref sig .tc := ⟨.vmem, 82, rfl⟩
abbrev cc9_stg3_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem4_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem2_1 : DmaSem sig := 56
abbrev cc6_sem3_0 : DmaSem sig := 57
abbrev cc6_sem4_0 : DmaSem sig := 58
abbrev cc6_sem4_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem2_1 : DmaSem sig := 65
abbrev cc7_sem3_0 : DmaSem sig := 66
abbrev cc7_sem4_0 : DmaSem sig := 67
abbrev cc7_sem4_1 : DmaSem sig := 68
abbrev cc8_sem0_0 : DmaSem sig := 69
abbrev cc8_sem0_1 : DmaSem sig := 70
abbrev cc8_sem1_0 : DmaSem sig := 71
abbrev cc8_sem1_1 : DmaSem sig := 72
abbrev cc8_sem2_0 : DmaSem sig := 73
abbrev cc8_sem2_1 : DmaSem sig := 74
abbrev cc8_sem3_0 : DmaSem sig := 75
abbrev cc8_sem4_0 : DmaSem sig := 76
abbrev cc8_sem4_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem3_0 : DmaSem sig := 82
abbrev cc9_sem3_1 : DmaSem sig := 83

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x64 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x40 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S40 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x40 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S8x64x64_S1x64x64_0_0_0 : S8x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S64x64 : S_.BroadcastsInDim S64x64 (![] : Fin 0 → Fin S64x64.rank)
  reducesTo_S64x64_S_d0_1 : S64x64.ReducesTo [0, 1] S_
  h_S_ : 0 < S_.numel
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S5000x256_S256x64_S5000x64_1_0_0_1_n_n_wf : DotDims.WF S5000x256 S256x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .bf16 = 32 ∨ (Rect.block (s := S100000x64) S5000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .bf16 = 32 ∨ (Rect.block (s := S100000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .bf16 = 32 ∨ (Rect.block (s := S100000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .bf16 = 32 ∨ (Rect.block (s := S100000x64) S5000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .bf16 = 32 ∨ (Rect.block (s := S100000x64) S5000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .bf16 = 32 ∨ (Rect.block (s := S100000x64) S5000x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .bf16 = 32 ∨ (Rect.block (s := S100000x64) S5000x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .bf16 = 32 ∨ (Rect.block (s := S100000x64) S5000x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .bf16 = 32 ∨ (Rect.block (s := S100000x64) S5000x64.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .bf16 = 32 ∨ (Rect.block (s := S100000x64) S5000x64.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .bf16 = 32 ∨ (Rect.block (s := S100000x64) S5000x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .bf16 = 32 ∨ (Rect.block (s := S100000x64) S5000x64.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .bf16 = 32 ∨ (Rect.block (s := S100000x64) S5000x64.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .bf16 = 32 ∨ (Rect.block (s := S100000x64) S5000x64.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .bf16 = 32 ∨ (Rect.block (s := S100000x64) S5000x64.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .bf16 = 32 ∨ (Rect.block (s := S100000x64) S5000x64.size (cc6_transform_4 i) (hinb6_4 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .bf16 = 32 ∨ (Rect.block (s := S100000x64) S5000x64.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .bf16 = 32 ∨ (Rect.block (s := S100000x64) S5000x64.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .bf16 = 32 ∨ (Rect.block (s := S100000x64) S5000x64.size (cc7_transform_4 i) (hinb7_4 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .bf16 = 32 ∨ (Rect.block (s := S100000x64) S5000x64.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .bf16 = 32 ∨ (Rect.block (s := S100000x64) S5000x64.size (cc8_transform_2 i) (hinb8_2 i)).WholeWords (EltTy.packing .bf16)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S100000x64.size a
  hwx8_4 : ∀ i : grid8.Coords, EltTy.bits .bf16 = 32 ∨ (Rect.block (s := S100000x64) S5000x64.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .bf16 = 32 ∨ (Rect.block (s := S100000x64) S5000x64.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x40.size a ≤ S64x40.size a
  hwx9_1 : ∀ i : grid9.Coords, EltTy.bits .f32 = 32 ∨ (Rect.block (s := S64x40) S64x40.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S40.size a ≤ S40.size a
  hwx9_2 : ∀ i : grid9.Coords, EltTy.bits .f32 = 32 ∨ (Rect.block (s := S40) S40.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x40.size a ≤ S100000x40.size a
  hwx9_3 : ∀ i : grid9.Coords, EltTy.bits .f32 = 32 ∨ (Rect.block (s := S100000x40) S5000x40.size (cc9_transform_3 i) (hinb9_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v67) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v69) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v84) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v86) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v101) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v103) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v104) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v118) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v36) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v120) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v135) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v121) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v36) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v137) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v138) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v152) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v138) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v36) S5000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v154) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v155) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v169) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v155) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v36) S5000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v171) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v172) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v172) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg6) S64x40.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg7) S40.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v173) S5000x40.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x256 : Shape := ⟨2, ![100000, 256]⟩
abbrev S2x1200000 : Shape := ⟨2, ![2, 1200000]⟩
abbrev S1200000 : Shape := ⟨1, ![1200000]⟩
abbrev S256x64 : Shape := ⟨2, ![256, 64]⟩
abbrev S64 : Shape := ⟨1, ![64]⟩
abbrev S8x64x64 : Shape := ⟨3, ![8, 64, 64]⟩
abbrev S64x40 : Shape := ⟨2, ![64, 40]⟩
abbrev S40 : Shape := ⟨1, ![40]⟩
abbrev S1x1200000 : Shape := ⟨2, ![1, 1200000]⟩
abbrev S_ : Shape := ⟨0, ![]⟩
abbrev S100000 : Shape := ⟨1, ![100000]⟩
abbrev S1200000x1 : Shape := ⟨2, ![1200000, 1]⟩
abbrev S100000x64 : Shape := ⟨2, ![100000, 64]⟩
abbrev S1x64 : Shape := ⟨2, ![1, 64]⟩
abbrev S1200000x64 : Shape := ⟨2, ![1200000, 64]⟩
abbrev S1x64x64 : Shape := ⟨3, ![1, 64, 64]⟩
abbrev S64x64 : Shape := ⟨2, ![64, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 420
  | .vmem => 0
  | .smem => 0
  | _ => 0

abbrev hbmTy0_0 (i : Nat) : BufTy := match i % 128 with
  | 0 => ⟨S100000x256, .f32⟩
  | 1 => ⟨S2x1200000, .i32⟩
  | 2 => ⟨S1200000, .f32⟩
  | 3 => ⟨S256x64, .f32⟩
  | 4 => ⟨S64, .f32⟩
  | 5 => ⟨S8x64x64, .f32⟩
  | 6 => ⟨S64x40, .f32⟩
  | 7 => ⟨S40, .f32⟩
  | 8 => ⟨S1x1200000, .i32⟩
  | 9 => ⟨S1200000, .i32⟩
  | 10 => ⟨S1x1200000, .i32⟩
  | 11 => ⟨S1200000, .i32⟩
  | 12 => ⟨S1x1200000, .i32⟩
  | 13 => ⟨S1200000, .i32⟩
  | 14 => ⟨S1x1200000, .i32⟩
  | 15 => ⟨S1200000, .i32⟩
  | 16 => ⟨S_, .f32⟩
  | 17 => ⟨S100000, .f32⟩
  | 18 => ⟨S1200000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S1200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000, .f32⟩
  | 54 => ⟨S1200000, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S1200000x1, .f32⟩
  | 63 => ⟨S_, .i32⟩
  | 64 => ⟨S1200000, .i32⟩
  | 65 => ⟨S1200000, .i1⟩
  | 66 => ⟨S_, .i32⟩
  | 67 => ⟨S1200000, .i32⟩
  | 68 => ⟨S1200000, .i32⟩
  | 69 => ⟨S1200000, .i32⟩
  | 70 => ⟨S1200000x1, .i32⟩
  | 71 => ⟨S1200000x64, .f32⟩
  | 72 => ⟨S1200000x64, .f32⟩
  | 73 => ⟨S1200000x64, .f32⟩
  | 74 => ⟨S_, .f32⟩
  | 75 => ⟨S100000x64, .f32⟩
  | 76 => ⟨S1200000x1, .i32⟩
  | 77 => ⟨S100000x64, .f32⟩
  | 78 => ⟨S_, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S1x64x64, .f32⟩
  | 90 => ⟨S64x64, .f32⟩
  | 91 => ⟨S100000x64, .f32⟩
  | 92 => ⟨S_, .f32⟩
  | 93 => ⟨S100000x64, .f32⟩
  | 94 => ⟨S100000x64, .f32⟩
  | 95 => ⟨S1200000x1, .f32⟩
  | 96 => ⟨S_, .i32⟩
  | 97 => ⟨S1200000, .i32⟩
  | 98 => ⟨S1200000, .i1⟩
  | 99 => ⟨S_, .i32⟩
  | 100 => ⟨S1200000, .i32⟩
  | 101 => ⟨S1200000, .i32⟩
  | 102 => ⟨S1200000, .i32⟩
  | 103 => ⟨S1200000x1, .i32⟩
  | 104 => ⟨S1200000x64, .f32⟩
  | 105 => ⟨S1200000x64, .f32⟩
  | 106 => ⟨S1200000x64, .f32⟩
  | 107 => ⟨S_, .f32⟩
  | 108 => ⟨S100000x64, .f32⟩
  | 109 => ⟨S1200000x1, .i32⟩
  | 110 => ⟨S100000x64, .f32⟩
  | 111 => ⟨S_, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S1x64x64, .f32⟩
  | 123 => ⟨S64x64, .f32⟩
  | 124 => ⟨S100000x64, .f32⟩
  | 125 => ⟨S_, .f32⟩
  | 126 => ⟨S100000x64, .f32⟩
  | 127 => ⟨S100000x64, .f32⟩
  | _ => ⟨S100000x256, .f32⟩

abbrev hbmTy0_1 (i : Nat) : BufTy := match i % 128 with
  | 0 => ⟨S1200000x1, .f32⟩
  | 1 => ⟨S_, .i32⟩
  | 2 => ⟨S1200000, .i32⟩
  | 3 => ⟨S1200000, .i1⟩
  | 4 => ⟨S_, .i32⟩
  | 5 => ⟨S1200000, .i32⟩
  | 6 => ⟨S1200000, .i32⟩
  | 7 => ⟨S1200000, .i32⟩
  | 8 => ⟨S1200000x1, .i32⟩
  | 9 => ⟨S1200000x64, .f32⟩
  | 10 => ⟨S1200000x64, .f32⟩
  | 11 => ⟨S1200000x64, .f32⟩
  | 12 => ⟨S_, .f32⟩
  | 13 => ⟨S100000x64, .f32⟩
  | 14 => ⟨S1200000x1, .i32⟩
  | 15 => ⟨S100000x64, .f32⟩
  | 16 => ⟨S_, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | 27 => ⟨S1x64x64, .f32⟩
  | 28 => ⟨S64x64, .f32⟩
  | 29 => ⟨S100000x64, .f32⟩
  | 30 => ⟨S_, .f32⟩
  | 31 => ⟨S100000x64, .f32⟩
  | 32 => ⟨S100000x64, .f32⟩
  | 33 => ⟨S1200000x1, .f32⟩
  | 34 => ⟨S_, .i32⟩
  | 35 => ⟨S1200000, .i32⟩
  | 36 => ⟨S1200000, .i1⟩
  | 37 => ⟨S_, .i32⟩
  | 38 => ⟨S1200000, .i32⟩
  | 39 => ⟨S1200000, .i32⟩
  | 40 => ⟨S1200000, .i32⟩
  | 41 => ⟨S1200000x1, .i32⟩
  | 42 => ⟨S1200000x64, .f32⟩
  | 43 => ⟨S1200000x64, .f32⟩
  | 44 => ⟨S1200000x64, .f32⟩
  | 45 => ⟨S_, .f32⟩
  | 46 => ⟨S100000x64, .f32⟩
  | 47 => ⟨S1200000x1, .i32⟩
  | 48 => ⟨S100000x64, .f32⟩
  | 49 => ⟨S_, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S1x64x64, .f32⟩
  | 61 => ⟨S64x64, .f32⟩
  | 62 => ⟨S100000x64, .f32⟩
  | 63 => ⟨S_, .f32⟩
  | 64 => ⟨S100000x64, .f32⟩
  | 65 => ⟨S100000x64, .f32⟩
  | 66 => ⟨S1200000x1, .f32⟩
  | 67 => ⟨S_, .i32⟩
  | 68 => ⟨S1200000, .i32⟩
  | 69 => ⟨S1200000, .i1⟩
  | 70 => ⟨S_, .i32⟩
  | 71 => ⟨S1200000, .i32⟩
  | 72 => ⟨S1200000, .i32⟩
  | 73 => ⟨S1200000, .i32⟩
  | 74 => ⟨S1200000x1, .i32⟩
  | 75 => ⟨S1200000x64, .f32⟩
  | 76 => ⟨S1200000x64, .f32⟩
  | 77 => ⟨S1200000x64, .f32⟩
  | 78 => ⟨S_, .f32⟩
  | 79 => ⟨S100000x64, .f32⟩
  | 80 => ⟨S1200000x1, .i32⟩
  | 81 => ⟨S100000x64, .f32⟩
  | 82 => ⟨S_, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S1x64x64, .f32⟩
  | 94 => ⟨S64x64, .f32⟩
  | 95 => ⟨S100000x64, .f32⟩
  | 96 => ⟨S_, .f32⟩
  | 97 => ⟨S100000x64, .f32⟩
  | 98 => ⟨S100000x64, .f32⟩
  | 99 => ⟨S1200000x1, .f32⟩
  | 100 => ⟨S_, .i32⟩
  | 101 => ⟨S1200000, .i32⟩
  | 102 => ⟨S1200000, .i1⟩
  | 103 => ⟨S_, .i32⟩
  | 104 => ⟨S1200000, .i32⟩
  | 105 => ⟨S1200000, .i32⟩
  | 106 => ⟨S1200000, .i32⟩
  | 107 => ⟨S1200000x1, .i32⟩
  | 108 => ⟨S1200000x64, .f32⟩
  | 109 => ⟨S1200000x64, .f32⟩
  | 110 => ⟨S1200000x64, .f32⟩
  | 111 => ⟨S_, .f32⟩
  | 112 => ⟨S100000x64, .f32⟩
  | 113 => ⟨S1200000x1, .i32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x64, .f32⟩
  | 126 => ⟨S1x64x64, .f32⟩
  | 127 => ⟨S64x64, .f32⟩
  | _ => ⟨S100000x256, .f32⟩

abbrev hbmTy0_2 (i : Nat) : BufTy := match i % 128 with
  | 0 => ⟨S100000x64, .f32⟩
  | 1 => ⟨S_, .f32⟩
  | 2 => ⟨S100000x64, .f32⟩
  | 3 => ⟨S100000x64, .f32⟩
  | 4 => ⟨S1200000x1, .f32⟩
  | 5 => ⟨S_, .i32⟩
  | 6 => ⟨S1200000, .i32⟩
  | 7 => ⟨S1200000, .i1⟩
  | 8 => ⟨S_, .i32⟩
  | 9 => ⟨S1200000, .i32⟩
  | 10 => ⟨S1200000, .i32⟩
  | 11 => ⟨S1200000, .i32⟩
  | 12 => ⟨S1200000x1, .i32⟩
  | 13 => ⟨S1200000x64, .f32⟩
  | 14 => ⟨S1200000x64, .f32⟩
  | 15 => ⟨S1200000x64, .f32⟩
  | 16 => ⟨S_, .f32⟩
  | 17 => ⟨S100000x64, .f32⟩
  | 18 => ⟨S1200000x1, .i32⟩
  | 19 => ⟨S100000x64, .f32⟩
  | 20 => ⟨S_, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S1x64x64, .f32⟩
  | 32 => ⟨S64x64, .f32⟩
  | 33 => ⟨S100000x64, .f32⟩
  | 34 => ⟨S_, .f32⟩
  | 35 => ⟨S100000x64, .f32⟩
  | 36 => ⟨S100000x64, .f32⟩
  | 37 => ⟨S1200000x1, .f32⟩
  | 38 => ⟨S_, .i32⟩
  | 39 => ⟨S1200000, .i32⟩
  | 40 => ⟨S1200000, .i1⟩
  | 41 => ⟨S_, .i32⟩
  | 42 => ⟨S1200000, .i32⟩
  | 43 => ⟨S1200000, .i32⟩
  | 44 => ⟨S1200000, .i32⟩
  | 45 => ⟨S1200000x1, .i32⟩
  | 46 => ⟨S1200000x64, .f32⟩
  | 47 => ⟨S1200000x64, .f32⟩
  | 48 => ⟨S1200000x64, .f32⟩
  | 49 => ⟨S_, .f32⟩
  | 50 => ⟨S100000x64, .f32⟩
  | 51 => ⟨S1200000x1, .i32⟩
  | 52 => ⟨S100000x64, .f32⟩
  | 53 => ⟨S_, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S100000x64, .f32⟩
  | 64 => ⟨S1x64x64, .f32⟩
  | 65 => ⟨S64x64, .f32⟩
  | 66 => ⟨S100000x64, .f32⟩
  | 67 => ⟨S_, .f32⟩
  | 68 => ⟨S100000x64, .f32⟩
  | 69 => ⟨S100000x64, .f32⟩
  | 70 => ⟨S100000x40, .f32⟩
  | 71 => ⟨S1x40, .f32⟩
  | 72 => ⟨S100000x40, .f32⟩
  | 73 => ⟨S100000x40, .f32⟩
  | 74 => ⟨S_, .f32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x40, .f32⟩
  | 81 => ⟨S100000x40, .f32⟩
  | 82 => ⟨S100000x40, .f32⟩
  | 83 => ⟨S_, .f32⟩
  | 84 => ⟨S100000, .f32⟩
  | 85 => ⟨S100000x1, .f32⟩
  | 86 => ⟨S100000x1, .f32⟩
  | 87 => ⟨S100000x40, .f32⟩
  | 88 => ⟨S100000x40, .f32⟩
  | 89 => ⟨S64x64, .i32⟩
  | 90 => ⟨S64x64, .i32⟩
  | 91 => ⟨S_, .i32⟩
  | 92 => ⟨S64x64, .i32⟩
  | 93 => ⟨S64x64, .i32⟩
  | 94 => ⟨S64x64, .i1⟩
  | 95 => ⟨S64x64, .f32⟩
  | 96 => ⟨S1x64x64, .f32⟩
  | 97 => ⟨S64x64, .f32⟩
  | 98 => ⟨S_, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S_, .f32⟩
  | 105 => ⟨S_, .f32⟩
  | 106 => ⟨S1x64x64, .f32⟩
  | 107 => ⟨S64x64, .f32⟩
  | 108 => ⟨S64x64, .f32⟩
  | 109 => ⟨S64x64, .f32⟩
  | 110 => ⟨S_, .f32⟩
  | 111 => ⟨S_, .f32⟩
  | 112 => ⟨S_, .f32⟩
  | 113 => ⟨S_, .f32⟩
  | 114 => ⟨S1x64x64, .f32⟩
  | 115 => ⟨S64x64, .f32⟩
  | 116 => ⟨S64x64, .f32⟩
  | 117 => ⟨S64x64, .f32⟩
  | 118 => ⟨S_, .f32⟩
  | 119 => ⟨S_, .f32⟩
  | 120 => ⟨S_, .f32⟩
  | 121 => ⟨S_, .f32⟩
  | 122 => ⟨S1x64x64, .f32⟩
  | 123 => ⟨S64x64, .f32⟩
  | 124 => ⟨S64x64, .f32⟩
  | 125 => ⟨S64x64, .f32⟩
  | 126 => ⟨S_, .f32⟩
  | 127 => ⟨S_, .f32⟩
  | _ => ⟨S100000x256, .f32⟩

abbrev hbmTy0_3 (i : Nat) : BufTy := match i % 128 with
  | 0 => ⟨S_, .f32⟩
  | 1 => ⟨S_, .f32⟩
  | 2 => ⟨S1x64x64, .f32⟩
  | 3 => ⟨S64x64, .f32⟩
  | 4 => ⟨S64x64, .f32⟩
  | 5 => ⟨S64x64, .f32⟩
  | 6 => ⟨S_, .f32⟩
  | 7 => ⟨S_, .f32⟩
  | 8 => ⟨S_, .f32⟩
  | 9 => ⟨S_, .f32⟩
  | 10 => ⟨S1x64x64, .f32⟩
  | 11 => ⟨S64x64, .f32⟩
  | 12 => ⟨S64x64, .f32⟩
  | 13 => ⟨S64x64, .f32⟩
  | 14 => ⟨S_, .f32⟩
  | 15 => ⟨S_, .f32⟩
  | 16 => ⟨S_, .f32⟩
  | 17 => ⟨S_, .f32⟩
  | 18 => ⟨S1x64x64, .f32⟩
  | 19 => ⟨S64x64, .f32⟩
  | 20 => ⟨S64x64, .f32⟩
  | 21 => ⟨S64x64, .f32⟩
  | 22 => ⟨S_, .f32⟩
  | 23 => ⟨S_, .f32⟩
  | 24 => ⟨S_, .f32⟩
  | 25 => ⟨S_, .f32⟩
  | 26 => ⟨S1x64x64, .f32⟩
  | 27 => ⟨S64x64, .f32⟩
  | 28 => ⟨S64x64, .f32⟩
  | 29 => ⟨S64x64, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call2_cst : Ref sig .tc := ⟨.hbm, 59, rfl⟩
abbrev main_call2_v0 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call3_cst : Ref sig .tc := ⟨.hbm, 92, rfl⟩
abbrev main_call3_v0 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_cst_17 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call4_cst : Ref sig .tc := ⟨.hbm, 125, rfl⟩
abbrev main_call4_v0 : Ref sig .tc := ⟨.hbm, 126, rfl⟩
abbrev main_v88 : Ref sig .tc := ⟨.hbm, 127, rfl⟩
abbrev main_v89 : Ref sig .tc := ⟨.hbm, 128, rfl⟩
abbrev main_c_19 : Ref sig .tc := ⟨.hbm, 129, rfl⟩
abbrev main_v90 : Ref sig .tc := ⟨.hbm, 130, rfl⟩
abbrev main_v91 : Ref sig .tc := ⟨.hbm, 131, rfl⟩
abbrev main_c_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_22 : Ref sig .tc := ⟨.hbm, 144, rfl⟩
abbrev main_v102 : Ref sig .tc := ⟨.hbm, 145, rfl⟩
abbrev main_v103 : Ref sig .tc := ⟨.hbm, 146, rfl⟩
abbrev main_cst_23 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_24 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_call5_cst : Ref sig .tc := ⟨.hbm, 158, rfl⟩
abbrev main_call5_v0 : Ref sig .tc := ⟨.hbm, 159, rfl⟩
abbrev main_v113 : Ref sig .tc := ⟨.hbm, 160, rfl⟩
abbrev main_v114 : Ref sig .tc := ⟨.hbm, 161, rfl⟩
abbrev main_c_25 : Ref sig .tc := ⟨.hbm, 162, rfl⟩
abbrev main_v115 : Ref sig .tc := ⟨.hbm, 163, rfl⟩
abbrev main_v116 : Ref sig .tc := ⟨.hbm, 164, rfl⟩
abbrev main_c_26 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_27 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_28 : Ref sig .tc := ⟨.hbm, 177, rfl⟩
abbrev main_v127 : Ref sig .tc := ⟨.hbm, 178, rfl⟩
abbrev main_v128 : Ref sig .tc := ⟨.hbm, 179, rfl⟩
abbrev main_cst_29 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_30 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_call6_cst : Ref sig .tc := ⟨.hbm, 191, rfl⟩
abbrev main_call6_v0 : Ref sig .tc := ⟨.hbm, 192, rfl⟩
abbrev main_v138 : Ref sig .tc := ⟨.hbm, 193, rfl⟩
abbrev main_v139 : Ref sig .tc := ⟨.hbm, 194, rfl⟩
abbrev main_c_31 : Ref sig .tc := ⟨.hbm, 195, rfl⟩
abbrev main_v140 : Ref sig .tc := ⟨.hbm, 196, rfl⟩
abbrev main_v141 : Ref sig .tc := ⟨.hbm, 197, rfl⟩
abbrev main_c_32 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_33 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_34 : Ref sig .tc := ⟨.hbm, 210, rfl⟩
abbrev main_v152 : Ref sig .tc := ⟨.hbm, 211, rfl⟩
abbrev main_v153 : Ref sig .tc := ⟨.hbm, 212, rfl⟩
abbrev main_cst_35 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_cst_36 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_call7_cst : Ref sig .tc := ⟨.hbm, 224, rfl⟩
abbrev main_call7_v0 : Ref sig .tc := ⟨.hbm, 225, rfl⟩
abbrev main_v163 : Ref sig .tc := ⟨.hbm, 226, rfl⟩
abbrev main_v164 : Ref sig .tc := ⟨.hbm, 227, rfl⟩
abbrev main_c_37 : Ref sig .tc := ⟨.hbm, 228, rfl⟩
abbrev main_v165 : Ref sig .tc := ⟨.hbm, 229, rfl⟩
abbrev main_v166 : Ref sig .tc := ⟨.hbm, 230, rfl⟩
abbrev main_c_38 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_cst_39 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_40 : Ref sig .tc := ⟨.hbm, 243, rfl⟩
abbrev main_v177 : Ref sig .tc := ⟨.hbm, 244, rfl⟩
abbrev main_v178 : Ref sig .tc := ⟨.hbm, 245, rfl⟩
abbrev main_cst_41 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_cst_42 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_call8_cst : Ref sig .tc := ⟨.hbm, 257, rfl⟩
abbrev main_call8_v0 : Ref sig .tc := ⟨.hbm, 258, rfl⟩
abbrev main_v188 : Ref sig .tc := ⟨.hbm, 259, rfl⟩
abbrev main_v189 : Ref sig .tc := ⟨.hbm, 260, rfl⟩
abbrev main_c_43 : Ref sig .tc := ⟨.hbm, 261, rfl⟩
abbrev main_v190 : Ref sig .tc := ⟨.hbm, 262, rfl⟩
abbrev main_v191 : Ref sig .tc := ⟨.hbm, 263, rfl⟩
abbrev main_c_44 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_cst_45 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_cst_46 : Ref sig .tc := ⟨.hbm, 276, rfl⟩
abbrev main_v202 : Ref sig .tc := ⟨.hbm, 277, rfl⟩
abbrev main_v203 : Ref sig .tc := ⟨.hbm, 278, rfl⟩
abbrev main_cst_47 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_cst_48 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_call9_cst : Ref sig .tc := ⟨.hbm, 290, rfl⟩
abbrev main_call9_v0 : Ref sig .tc := ⟨.hbm, 291, rfl⟩
abbrev main_v213 : Ref sig .tc := ⟨.hbm, 292, rfl⟩
abbrev main_v214 : Ref sig .tc := ⟨.hbm, 293, rfl⟩
abbrev main_c_49 : Ref sig .tc := ⟨.hbm, 294, rfl⟩
abbrev main_v215 : Ref sig .tc := ⟨.hbm, 295, rfl⟩
abbrev main_v216 : Ref sig .tc := ⟨.hbm, 296, rfl⟩
abbrev main_c_50 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_cst_51 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_cst_52 : Ref sig .tc := ⟨.hbm, 309, rfl⟩
abbrev main_v227 : Ref sig .tc := ⟨.hbm, 310, rfl⟩
abbrev main_v228 : Ref sig .tc := ⟨.hbm, 311, rfl⟩
abbrev main_cst_53 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_cst_54 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_call10_cst : Ref sig .tc := ⟨.hbm, 323, rfl⟩
abbrev main_call10_v0 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_call11_cst : Ref sig .tc := ⟨.hbm, 330, rfl⟩
abbrev main_call11_v0 : Ref sig .tc := ⟨.hbm, 331, rfl⟩
abbrev main_call11_cst_0 : Ref sig .tc := ⟨.hbm, 332, rfl⟩
abbrev main_call11_v1 : Ref sig .tc := ⟨.hbm, 333, rfl⟩
abbrev main_call11_v2 : Ref sig .tc := ⟨.hbm, 334, rfl⟩
abbrev main_call11_v3 : Ref sig .tc := ⟨.hbm, 335, rfl⟩
abbrev main_call11_v4 : Ref sig .tc := ⟨.hbm, 336, rfl⟩
abbrev main_call11_v5 : Ref sig .tc := ⟨.hbm, 337, rfl⟩
abbrev main_call11_v6 : Ref sig .tc := ⟨.hbm, 338, rfl⟩
abbrev main_call11_cst_1 : Ref sig .tc := ⟨.hbm, 339, rfl⟩
abbrev main_call11_v7 : Ref sig .tc := ⟨.hbm, 340, rfl⟩
abbrev main_call11_v8 : Ref sig .tc := ⟨.hbm, 341, rfl⟩
abbrev main_call11_v9 : Ref sig .tc := ⟨.hbm, 342, rfl⟩
abbrev main_call11_v10 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_c_55 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_cst_56 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_call12_v0 : Ref sig .tc := ⟨.hbm, 358, rfl⟩
abbrev main_call12_cst : Ref sig .tc := ⟨.hbm, 359, rfl⟩
abbrev main_call12_v1 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_v258 : Ref sig .tc := ⟨.hbm, 364, rfl⟩
abbrev main_call13_v0 : Ref sig .tc := ⟨.hbm, 365, rfl⟩
abbrev main_call13_cst : Ref sig .tc := ⟨.hbm, 366, rfl⟩
abbrev main_call13_v1 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_call14_v0 : Ref sig .tc := ⟨.hbm, 373, rfl⟩
abbrev main_call14_cst : Ref sig .tc := ⟨.hbm, 374, rfl⟩
abbrev main_call14_v1 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_v267 : Ref sig .tc := ⟨.hbm, 379, rfl⟩
abbrev main_v268 : Ref sig .tc := ⟨.hbm, 380, rfl⟩
abbrev main_call15_v0 : Ref sig .tc := ⟨.hbm, 381, rfl⟩
abbrev main_call15_cst : Ref sig .tc := ⟨.hbm, 382, rfl⟩
abbrev main_call15_v1 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_v273 : Ref sig .tc := ⟨.hbm, 388, rfl⟩
abbrev main_call16_v0 : Ref sig .tc := ⟨.hbm, 389, rfl⟩
abbrev main_call16_cst : Ref sig .tc := ⟨.hbm, 390, rfl⟩
abbrev main_call16_v1 : Ref sig .tc := ⟨.hbm, 391, rfl⟩
abbrev main_v274 : Ref sig .tc := ⟨.hbm, 392, rfl⟩
abbrev main_v275 : Ref sig .tc := ⟨.hbm, 393, rfl⟩
abbrev main_v276 : Ref sig .tc := ⟨.hbm, 394, rfl⟩
abbrev main_v277 : Ref sig .tc := ⟨.hbm, 395, rfl⟩
abbrev main_v278 : Ref sig .tc := ⟨.hbm, 396, rfl⟩
abbrev main_call17_v0 : Ref sig .tc := ⟨.hbm, 397, rfl⟩
abbrev main_call17_cst : Ref sig .tc := ⟨.hbm, 398, rfl⟩
abbrev main_call17_v1 : Ref sig .tc := ⟨.hbm, 399, rfl⟩
abbrev main_v279 : Ref sig .tc := ⟨.hbm, 400, rfl⟩
abbrev main_v280 : Ref sig .tc := ⟨.hbm, 401, rfl⟩
abbrev main_v281 : Ref sig .tc := ⟨.hbm, 402, rfl⟩
abbrev main_v282 : Ref sig .tc := ⟨.hbm, 403, rfl⟩
abbrev main_v283 : Ref sig .tc := ⟨.hbm, 404, rfl⟩
abbrev main_call18_v0 : Ref sig .tc := ⟨.hbm, 405, rfl⟩
abbrev main_call18_cst : Ref sig .tc := ⟨.hbm, 406, rfl⟩
abbrev main_call18_v1 : Ref sig .tc := ⟨.hbm, 407, rfl⟩
abbrev main_v284 : Ref sig .tc := ⟨.hbm, 408, rfl⟩
abbrev main_v285 : Ref sig .tc := ⟨.hbm, 409, rfl⟩
abbrev main_v286 : Ref sig .tc := ⟨.hbm, 410, rfl⟩
abbrev main_v287 : Ref sig .tc := ⟨.hbm, 411, rfl⟩
abbrev main_v288 : Ref sig .tc := ⟨.hbm, 412, rfl⟩
abbrev main_call19_v0 : Ref sig .tc := ⟨.hbm, 413, rfl⟩
abbrev main_call19_cst : Ref sig .tc := ⟨.hbm, 414, rfl⟩
abbrev main_call19_v1 : Ref sig .tc := ⟨.hbm, 415, rfl⟩
abbrev main_v289 : Ref sig .tc := ⟨.hbm, 416, rfl⟩
abbrev main_v290 : Ref sig .tc := ⟨.hbm, 417, rfl⟩
abbrev main_cst_57 : Ref sig .tc := ⟨.hbm, 418, rfl⟩
abbrev main_v291 : Ref sig .tc := ⟨.hbm, 419, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1200000x1_S1200000x64_0_1 : S1200000x1.BroadcastsInDim S1200000x64 (![0, 1] : Fin 2 → Fin S1200000x64.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  bcast_S_S64x64 : S_.BroadcastsInDim S64x64 (![] : Fin 0 → Fin S64x64.rank)
  reducesTo_S64x64_S_d0_1 : S64x64.ReducesTo [0, 1] S_
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x256_S256x64_S100000x64_1_0_0_1_n_n_wf : DotDims.WF S100000x256 S256x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRegions.lean ====
/- The program's host stretches, the contents between its items and its segment programs; each stretch writes only the buffers of its list. -/
import proofs.«173786_j46231027974388_2_alg».proof.Proof.Gen.Kernel.Launch
import Idealize.ShloMosaic.Lib.Pipeline.Frame
import Idealize.ShloMosaic.Lib.Pipeline.Regions

set_option maxRecDepth 2028

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := StableHlo.after hostOps0_3 (V3 m c)

abbrev V5 (c : Dev nD) : Valuation τ sig (Elt F) := StableHlo.after hostOps0_4 (V4 m c)

abbrev V6 (c : Dev nD) : Valuation τ sig (Elt F) := Function.update (V5 m c) main_v36 (outs 6 main_v36 c)

abbrev V7 (c : Dev nD) : Valuation τ sig (Elt F) := StableHlo.after hostOps1 (V6 m outs c)

abbrev V8 (c : Dev nD) : Valuation τ sig (Elt F) := Function.update (V7 m outs c) main_v53 (outs 8 main_v53 c)

abbrev V9 (c : Dev nD) : Valuation τ sig (Elt F) := StableHlo.after hostOps2 (V8 m outs c)

abbrev V10 (c : Dev nD) : Valuation τ sig (Elt F) := Function.update (V9 m outs c) main_v70 (outs 10 main_v70 c)

abbrev V11 (c : Dev nD) : Valuation τ sig (Elt F) := StableHlo.after hostOps3 (V10 m outs c)

abbrev V12 (c : Dev nD) : Valuation τ sig (Elt F) := Function.update (V11 m outs c) main_v87 (outs 12 main_v87 c)

abbrev V13 (c : Dev nD) : Valuation τ sig (Elt F) := StableHlo.after hostOps4 (V12 m outs c)

abbrev V14 (c : Dev nD) : Valuation τ sig (Elt F) := Function.update (V13 m outs c) main_v104 (outs 14 main_v104 c)

abbrev V15 (c : Dev nD) : Valuation τ sig (Elt F) := StableHlo.after hostOps5 (V14 m outs c)

abbrev V16 (c : Dev nD) : Valuation τ sig (Elt F) := Function.update (V15 m outs c) main_v121 (outs 16 main_v121 c)

abbrev V17 (c : Dev nD) : Valuation τ sig (Elt F) := StableHlo.after hostOps6 (V16 m outs c)

abbrev V18 (c : Dev nD) : Valuation τ sig (Elt F) := Function.update (V17 m outs c) main_v138 (outs 18 main_v138 c)

abbrev V19 (c : Dev nD) : Valuation τ sig (Elt F) := StableHlo.after hostOps7 (V18 m outs c)

abbrev V20 (c : Dev nD) : Valuation τ sig (Elt F) := Function.update (V19 m outs c) main_v155 (outs 20 main_v155 c)

abbrev V21 (c : Dev nD) : Valuation τ sig (Elt F) := StableHlo.after hostOps8 (V20 m outs c)

abbrev V22 (c : Dev nD) : Valuation τ sig (Elt F) := Function.update (V21 m outs c) main_v172 (outs 22 main_v172 c)

abbrev V23 (c : Dev nD) : Valuation τ sig (Elt F) := Function.update (V22 m outs c) main_v173 (outs 23 main_v173 c)

abbrev V24 (c : Dev nD) : Valuation τ sig (Elt F) := StableHlo.after hostOps10 (V23 m outs c)

abbrev V25 (c : Dev nD) : Valuation τ sig (Elt F) := StableHlo.after hostOps10_1 (V24 m outs c)

abbrev V26 (c : Dev nD) : Valuation τ sig (Elt F) := StableHlo.after hostOps10_2 (V25 m outs c)

abbrev V27 (c : Dev nD) : Valuation τ sig (Elt F) := StableHlo.after hostOps10_3 (V26 m outs c)

abbrev V28 (c : Dev nD) : Valuation τ sig (Elt F) := StableHlo.after hostOps10_4 (V27 m outs c)

abbrev V29 (c : Dev nD) : Valuation τ sig (Elt F) := StableHlo.after hostOps10_5 (V28 m outs c)

abbrev V30 (c : Dev nD) : Valuation τ sig (Elt F) := StableHlo.after hostOps10_6 (V29 m outs c)

abbrev V31 (c : Dev nD) : Valuation τ sig (Elt F) := StableHlo.after hostOps10_7 (V30 m outs c)

abbrev V32 (c : Dev nD) : Valuation τ sig (Elt F) := StableHlo.after hostOps10_8 (V31 m outs c)

abbrev V33 (c : Dev nD) : Valuation τ sig (Elt F) := StableHlo.after hostOps10_9 (V32 m outs c)

abbrev V34 (c : Dev nD) : Valuation τ sig (Elt F) := StableHlo.after hostOps10_10 (V33 m outs c)

abbrev V35 (c : Dev nD) : Valuation τ sig (Elt F) := StableHlo.after hostOps10_11 (V34 m outs c)

abbrev V36 (c : Dev nD) : Valuation τ sig (Elt F) := StableHlo.after hostOps10_12 (V35 m outs c)

abbrev V37 (c : Dev nD) : Valuation τ sig (Elt F) := StableHlo.after hostOps10_13 (V36 m outs c)

abbrev V38 (c : Dev nD) : Valuation τ sig (Elt F) := StableHlo.after hostOps10_14 (V37 m outs c)

abbrev V39 (c : Dev nD) : Valuation τ sig (Elt F) := StableHlo.after hostOps10_15 (V38 m outs c)

abbrev V40 (c : Dev nD) : Valuation τ sig (Elt F) := StableHlo.after hostOps10_16 (V39 m outs c)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5, main_v6, main_v7, main_cst, main_v8, main_v9, main_v10, main_cst_0, main_v11, main_v12, main_cst_1, main_v13, main_v14, main_cst_2]
/-- An operation that writes one buffer of the list writes inside the list. -/
theorem writes_sub_of {op : HloOp τ sig (Elt F)} {Wl : List (Ref sig .tc)} {y : Ref sig .tc} (h : op.writes = {Proc.devRef .tc y}) (hy : y ∈ Wl) :
    op.writes ⊆ (Wl.map (Proc.devRef (τ := τ) .tc)).toFinset := by
  rw [h, Finset.singleton_subset_iff, List.mem_toFinset]; exact List.mem_map_of_mem hy

theorem hostOps0_writes : (hostOps0 : List (HloOp τ sig (Elt F))).Forall fun op => op.writes ⊆ (hostOps0_W.map (Proc.devRef (τ := τ) .tc)).toFinset := by
  simp only [List.Forall]; repeat' apply And.intro
  all_goals exact writes_sub_of rfl (by decide)
theorem hostOps0_1_fresh : (hostOps0_1 : List (HloOp τ sig (Elt F))).Forall fun op => op.fresh = ∅ := by
  simp only [List.Forall]; repeat' constructor

abbrev hostOps0_1_W : List (Ref sig .tc) := [main_call0_v0, main_call0_v1, main_v15]
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals exact writes_sub_of rfl (by decide)
theorem hostOps0_2_fresh : (hostOps0_2 : List (HloOp τ sig (Elt F))).Forall fun op => op.fresh = ∅ := by
  simp only [List.Forall]; repeat' constructor

abbrev hostOps0_2_W : List (Ref sig .tc) := [main_v16, main_cst_3]
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals exact writes_sub_of rfl (by decide)
theorem hostOps0_3_fresh : (hostOps0_3 : List (HloOp τ sig (Elt F))).Forall fun op => op.fresh = ∅ := by
  simp only [List.Forall]; repeat' constructor

abbrev hostOps0_3_W : List (Ref sig .tc) := [main_call1_v0, main_call1_v1, main_v17]
theorem hostOps0_3_writes : (hostOps0_3 : List (HloOp τ sig (Elt F))).Forall fun op => op.writes ⊆ (hostOps0_3_W.map (Proc.devRef (τ := τ) .tc)).toFinset := by
  simp only [List.Forall]; repeat' apply And.intro
  all_goals exact writes_sub_of rfl (by decide)
theorem hostOps0_4_fresh : (hostOps0_4 : List (HloOp τ sig (Elt F))).Forall fun op => op.fresh = ∅ := by
  simp only [List.Forall]; repeat' constructor

abbrev hostOps0_4_W : List (Ref sig .tc) := [main_c, main_v18, main_v19, main_c_4, main_v20, main_v21, main_v22, main_v23, main_v24, main_v25, main_c_5, main_v26, main_v27, main_c_6, main_v28, main_v29, main_v30, main_v31, main_v32, main_v33, main_cst_7, main_v34, main_v35]
theorem hostOps0_4_writes : (hostOps0_4 : List (HloOp τ sig (Elt F))).Forall fun op => op.writes ⊆ (hostOps0_4_W.map (Proc.devRef (τ := τ) .tc)).toFinset := by
  simp only [List.Forall]; repeat' apply And.intro
  all_goals exact writes_sub_of rfl (by decide)
theorem hostOps1_fresh : (hostOps1 : List (HloOp τ sig (Elt F))).Forall fun op => op.fresh = ∅ := by
  simp only [List.Forall]; repeat' constructor

abbrev hostOps1_W : List (Ref sig .tc) := [main_v37, main_c_8, main_v38, main_v39, main_c_9, main_v40, main_v41, main_v42, main_v43, main_v44, main_v45, main_v46, main_v47, main_cst_10, main_v48, main_v49, main_v50, main_v51, main_v52]
theorem hostOps1_writes : (hostOps1 : List (HloOp τ sig (Elt F))).Forall fun op => op.writes ⊆ (hostOps1_W.map (Proc.devRef (τ := τ) .tc)).toFinset := by
  simp only [List.Forall]; repeat' apply And.intro
  all_goals exact writes_sub_of rfl (by decide)
theorem hostOps2_fresh : (hostOps2 : List (HloOp τ sig (Elt F))).Forall fun op => op.fresh = ∅ := by
  simp only [List.Forall]; repeat' constructor

abbrev hostOps2_W : List (Ref sig .tc) := [main_v54, main_c_11, main_v55, main_v56, main_c_12, main_v57, main_v58, main_v59, main_v60, main_v61, main_v62, main_v63, main_v64, main_cst_13, main_v65, main_v66, main_v67, main_v68, main_v69]
theorem hostOps2_writes : (hostOps2 : List (HloOp τ sig (Elt F))).Forall fun op => op.writes ⊆ (hostOps2_W.map (Proc.devRef (τ := τ) .tc)).toFinset := by
  simp only [List.Forall]; repeat' apply And.intro
  all_goals exact writes_sub_of rfl (by decide)
theorem hostOps3_fresh : (hostOps3 : List (HloOp τ sig (Elt F))).Forall fun op => op.fresh = ∅ := by
  simp only [List.Forall]; repeat' constructor

abbrev hostOps3_W : List (Ref sig .tc) := [main_v71, main_c_14, main_v72, main_v73, main_c_15, main_v74, main_v75, main_v76, main_v77, main_v78, main_v79, main_v80, main_v81, main_cst_16, main_v82, main_v83, main_v84, main_v85, main_v86]
theorem hostOps3_writes : (hostOps3 : List (HloOp τ sig (Elt F))).Forall fun op => op.writes ⊆ (hostOps3_W.map (Proc.devRef (τ := τ) .tc)).toFinset := by
  simp only [List.Forall]; repeat' apply And.intro
  all_goals exact writes_sub_of rfl (by decide)
theorem hostOps4_fresh : (hostOps4 : List (HloOp τ sig (Elt F))).Forall fun op => op.fresh = ∅ := by
  simp only [List.Forall]; repeat' constructor

abbrev hostOps4_W : List (Ref sig .tc) := [main_v88, main_c_17, main_v89, main_v90, main_c_18, main_v91, main_v92, main_v93, main_v94, main_v95, main_v96, main_v97, main_v98, main_cst_19, main_v99, main_v100, main_v101, main_v102, main_v103]
theorem hostOps4_writes : (hostOps4 : List (HloOp τ sig (Elt F))).Forall fun op => op.writes ⊆ (hostOps4_W.map (Proc.devRef (τ := τ) .tc)).toFinset := by
  simp only [List.Forall]; repeat' apply And.intro
  all_goals exact writes_sub_of rfl (by decide)
theorem hostOps5_fresh : (hostOps5 : List (HloOp τ sig (Elt F))).Forall fun op => op.fresh = ∅ := by
  simp only [List.Forall]; repeat' constructor

abbrev hostOps5_W : List (Ref sig .tc) := [main_v105, main_c_20, main_v106, main_v107, main_c_21, main_v108, main_v109, main_v110, main_v111, main_v112, main_v113, main_v114, main_v115, main_cst_22, main_v116, main_v117, main_v118, main_v119, main_v120]
theorem hostOps5_writes : (hostOps5 : List (HloOp τ sig (Elt F))).Forall fun op => op.writes ⊆ (hostOps5_W.map (Proc.devRef (τ := τ) .tc)).toFinset := by
  simp only [List.Forall]; repeat' apply And.intro
  all_goals exact writes_sub_of rfl (by decide)
theorem hostOps6_fresh : (hostOps6 : List (HloOp τ sig (Elt F))).Forall fun op => op.fresh = ∅ := by
  simp only [List.Forall]; repeat' constructor

abbrev hostOps6_W : List (Ref sig .tc) := [main_v122, main_c_23, main_v123, main_v124, main_c_24, main_v125, main_v126, main_v127, main_v128, main_v129, main_v130, main_v131, main_v132, main_cst_25, main_v133, main_v134, main_v135, main_v136, main_v137]
theorem hostOps6_writes : (hostOps6 : List (HloOp τ sig (Elt F))).Forall fun op => op.writes ⊆ (hostOps6_W.map (Proc.devRef (τ := τ) .tc)).toFinset := by
  simp only [List.Forall]; repeat' apply And.intro
  all_goals exact writes_sub_of rfl (by decide)
theorem hostOps7_fresh : (hostOps7 : List (HloOp τ sig (Elt F))).Forall fun op => op.fresh = ∅ := by
  simp only [List.Forall]; repeat' constructor

abbrev hostOps7_W : List (Ref sig .tc) := [main_v139, main_c_26, main_v140, main_v141, main_c_27, main_v142, main_v143, main_v144, main_v145, main_v146, main_v147, main_v148, main_v149, main_cst_28, main_v150, main_v151, main_v152, main_v153, main_v154]
theorem hostOps7_writes : (hostOps7 : List (HloOp τ sig (Elt F))).Forall fun op => op.writes ⊆ (hostOps7_W.map (Proc.devRef (τ := τ) .tc)).toFinset := by
  simp only [List.Forall]; repeat' apply And.intro
  all_goals exact writes_sub_of rfl (by decide)
theorem hostOps8_fresh : (hostOps8 : List (HloOp τ sig (Elt F))).Forall fun op => op.fresh = ∅ := by
  simp only [List.Forall]; repeat' constructor

abbrev hostOps8_W : List (Ref sig .tc) := [main_v156, main_c_29, main_v157, main_v158, main_c_30, main_v159, main_v160, main_v161, main_v162, main_v163, main_v164, main_v165, main_v166, main_cst_31, main_v167, main_v168, main_v169, main_v170, main_v171]
theorem hostOps8_writes : (hostOps8 : List (HloOp τ sig (Elt F))).Forall fun op => op.writes ⊆ (hostOps8_W.map (Proc.devRef (τ := τ) .tc)).toFinset := by
  simp only [List.Forall]; repeat' apply And.intro
  all_goals exact writes_sub_of rfl (by decide)
theorem hostOps10_fresh : (hostOps10 : List (HloOp τ sig (Elt F))).Forall fun op => op.fresh = ∅ := by
  simp only [List.Forall]; repeat' constructor

abbrev hostOps10_W : List (Ref sig .tc) := [main_v174, main_v175, main_c_32, main_v176, main_v177, main_v178, main_v179, main_v180, main_v181, main_cst_33, main_v182, main_v183, main_v184]
theorem hostOps10_writes : (hostOps10 : List (HloOp τ sig (Elt F))).Forall fun op => op.writes ⊆ (hostOps10_W.map (Proc.devRef (τ := τ) .tc)).toFinset := by
  simp only [List.Forall]; repeat' apply And.intro
  all_goals exact writes_sub_of rfl (by decide)
theorem hostOps10_1_fresh : (hostOps10_1 : List (HloOp τ sig (Elt F))).Forall fun op => op.fresh = ∅ := by
  simp only [List.Forall]; repeat' constructor

abbrev hostOps10_1_W : List (Ref sig .tc) := [main_call2_v0, main_call2_cst, main_call2_v1, main_v185]
theorem hostOps10_1_writes : (hostOps10_1 : List (HloOp τ sig (Elt F))).Forall fun op => op.writes ⊆ (hostOps10_1_W.map (Proc.devRef (τ := τ) .tc)).toFinset := by
  simp only [List.Forall]; repeat' apply And.intro
  all_goals exact writes_sub_of rfl (by decide)
theorem hostOps10_2_fresh : (hostOps10_2 : List (HloOp τ sig (Elt F))).Forall fun op => op.fresh = ∅ := by
  simp only [List.Forall]; repeat' constructor

abbrev hostOps10_2_W : List (Ref sig .tc) := [main_v186, main_v187, main_v188]
theorem hostOps10_2_writes : (hostOps10_2 : List (HloOp τ sig (Elt F))).Forall fun op => op.writes ⊆ (hostOps10_2_W.map (Proc.devRef (τ := τ) .tc)).toFinset := by
  simp only [List.Forall]; repeat' apply And.intro
  all_goals exact writes_sub_of rfl (by decide)
theorem hostOps10_3_fresh : (hostOps10_3 : List (HloOp τ sig (Elt F))).Forall fun op => op.fresh = ∅ := by
  simp only [List.Forall]; repeat' constructor

abbrev hostOps10_3_W : List (Ref sig .tc) := [main_call3_v0, main_call3_cst, main_call3_v1, main_v189]
theorem hostOps10_3_writes : (hostOps10_3 : List (HloOp τ sig (Elt F))).Forall fun op => op.writes ⊆ (hostOps10_3_W.map (Proc.devRef (τ := τ) .tc)).toFinset := by
  simp only [List.Forall]; repeat' apply And.intro
  all_goals exact writes_sub_of rfl (by decide)
theorem hostOps10_4_fresh : (hostOps10_4 : List (HloOp τ sig (Elt F))).Forall fun op => op.fresh = ∅ := by
  simp only [List.Forall]; repeat' constructor

abbrev hostOps10_4_W : List (Ref sig .tc) := [main_v190, main_v191, main_v192, main_v193]
theorem hostOps10_4_writes : (hostOps10_4 : List (HloOp τ sig (Elt F))).Forall fun op => op.writes ⊆ (hostOps10_4_W.map (Proc.devRef (τ := τ) .tc)).toFinset := by
  simp only [List.Forall]; repeat' apply And.intro
  all_goals exact writes_sub_of rfl (by decide)
theorem hostOps10_5_fresh : (hostOps10_5 : List (HloOp τ sig (Elt F))).Forall fun op => op.fresh = ∅ := by
  simp only [List.Forall]; repeat' constructor

abbrev hostOps10_5_W : List (Ref sig .tc) := [main_call4_v0, main_call4_cst, main_call4_v1, main_v194]
theorem hostOps10_5_writes : (hostOps10_5 : List (HloOp τ sig (Elt F))).Forall fun op => op.writes ⊆ (hostOps10_5_W.map (Proc.devRef (τ := τ) .tc)).toFinset := by
  simp only [List.Forall]; repeat' apply And.intro
  all_goals exact writes_sub_of rfl (by decide)
theorem hostOps10_6_fresh : (hostOps10_6 : List (HloOp τ sig (Elt F))).Forall fun op => op.fresh = ∅ := by
  simp only [List.Forall]; repeat' constructor

abbrev hostOps10_6_W : List (Ref sig .tc) := [main_v195, main_v196, main_v197, main_v198]
theorem hostOps10_6_writes : (hostOps10_6 : List (HloOp τ sig (Elt F))).Forall fun op => op.writes ⊆ (hostOps10_6_W.map (Proc.devRef (τ := τ) .tc)).toFinset := by
  simp only [List.Forall]; repeat' apply And.intro
  all_goals exact writes_sub_of rfl (by decide)
theorem hostOps10_7_fresh : (hostOps10_7 : List (HloOp τ sig (Elt F))).Forall fun op => op.fresh = ∅ := by
  simp only [List.Forall]; repeat' constructor

abbrev hostOps10_7_W : List (Ref sig .tc) := [main_call5_v0, main_call5_cst, main_call5_v1, main_v199]
theorem hostOps10_7_writes : (hostOps10_7 : List (HloOp τ sig (Elt F))).Forall fun op => op.writes ⊆ (hostOps10_7_W.map (Proc.devRef (τ := τ) .tc)).toFinset := by
  simp only [List.Forall]; repeat' apply And.intro
  all_goals exact writes_sub_of rfl (by decide)
theorem hostOps10_8_fresh : (hostOps10_8 : List (HloOp τ sig (Elt F))).Forall fun op => op.fresh = ∅ := by
  simp only [List.Forall]; repeat' constructor

abbrev hostOps10_8_W : List (Ref sig .tc) := [main_v200, main_v201, main_v202, main_v203]
theorem hostOps10_8_writes : (hostOps10_8 : List (HloOp τ sig (Elt F))).Forall fun op => op.writes ⊆ (hostOps10_8_W.map (Proc.devRef (τ := τ) .tc)).toFinset := by
  simp only [List.Forall]; repeat' apply And.intro
  all_goals exact writes_sub_of rfl (by decide)
theorem hostOps10_9_fresh : (hostOps10_9 : List (HloOp τ sig (Elt F))).Forall fun op => op.fresh = ∅ := by
  simp only [List.Forall]; repeat' constructor

abbrev hostOps10_9_W : List (Ref sig .tc) := [main_call6_v0, main_call6_cst, main_call6_v1, main_v204]
theorem hostOps10_9_writes : (hostOps10_9 : List (HloOp τ sig (Elt F))).Forall fun op => op.writes ⊆ (hostOps10_9_W.map (Proc.devRef (τ := τ) .tc)).toFinset := by
  simp only [List.Forall]; repeat' apply And.intro
  all_goals exact writes_sub_of rfl (by decide)
theorem hostOps10_10_fresh : (hostOps10_10 : List (HloOp τ sig (Elt F))).Forall fun op => op.fresh = ∅ := by
  simp only [List.Forall]; repeat' constructor

abbrev hostOps10_10_W : List (Ref sig .tc) := [main_v205, main_v206, main_v207, main_v208]
theorem hostOps10_10_writes : (hostOps10_10 : List (HloOp τ sig (Elt F))).Forall fun op => op.writes ⊆ (hostOps10_10_W.map (Proc.devRef (τ := τ) .tc)).toFinset := by
  simp only [List.Forall]; repeat' apply And.intro
  all_goals exact writes_sub_of rfl (by decide)
theorem hostOps10_11_fresh : (hostOps10_11 : List (HloOp τ sig (Elt F))).Forall fun op => op.fresh = ∅ := by
  simp only [List.Forall]; repeat' constructor

abbrev hostOps10_11_W : List (Ref sig .tc) := [main_call7_v0, main_call7_cst, main_call7_v1, main_v209]
theorem hostOps10_11_writes : (hostOps10_11 : List (HloOp τ sig (Elt F))).Forall fun op => op.writes ⊆ (hostOps10_11_W.map (Proc.devRef (τ := τ) .tc)).toFinset := by
  simp only [List.Forall]; repeat' apply And.intro
  all_goals exact writes_sub_of rfl (by decide)
theorem hostOps10_12_fresh : (hostOps10_12 : List (HloOp τ sig (Elt F))).Forall fun op => op.fresh = ∅ := by
  simp only [List.Forall]; repeat' constructor

abbrev hostOps10_12_W : List (Ref sig .tc) := [main_v210, main_v211, main_v212, main_v213]
theorem hostOps10_12_writes : (hostOps10_12 : List (HloOp τ sig (Elt F))).Forall fun op => op.writes ⊆ (hostOps10_12_W.map (Proc.devRef (τ := τ) .tc)).toFinset := by
  simp only [List.Forall]; repeat' apply And.intro
  all_goals exact writes_sub_of rfl (by decide)
theorem hostOps10_13_fresh : (hostOps10_13 : List (HloOp τ sig (Elt F))).Forall fun op => op.fresh = ∅ := by
  simp only [List.Forall]; repeat' constructor

abbrev hostOps10_13_W : List (Ref sig .tc) := [main_call8_v0, main_call8_cst, main_call8_v1, main_v214]
theorem hostOps10_13_writes : (hostOps10_13 : List (HloOp τ sig (Elt F))).Forall fun op => op.writes ⊆ (hostOps10_13_W.map (Proc.devRef (τ := τ) .tc)).toFinset := by
  simp only [List.Forall]; repeat' apply And.intro
  all_goals exact writes_sub_of rfl (by decide)
theorem hostOps10_14_fresh : (hostOps10_14 : List (HloOp τ sig (Elt F))).Forall fun op => op.fresh = ∅ := by
  simp only [List.Forall]; repeat' constructor

abbrev hostOps10_14_W : List (Ref sig .tc) := [main_v215, main_v216, main_v217, main_v218]
theorem hostOps10_14_writes : (hostOps10_14 : List (HloOp τ sig (Elt F))).Forall fun op => op.writes ⊆ (hostOps10_14_W.map (Proc.devRef (τ := τ) .tc)).toFinset := by
  simp only [List.Forall]; repeat' apply And.intro
  all_goals exact writes_sub_of rfl (by decide)
theorem hostOps10_15_fresh : (hostOps10_15 : List (HloOp τ sig (Elt F))).Forall fun op => op.fresh = ∅ := by
  simp only [List.Forall]; repeat' constructor

abbrev hostOps10_15_W : List (Ref sig .tc) := [main_call9_v0, main_call9_cst, main_call9_v1, main_v219]
theorem hostOps10_15_writes : (hostOps10_15 : List (HloOp τ sig (Elt F))).Forall fun op => op.writes ⊆ (hostOps10_15_W.map (Proc.devRef (τ := τ) .tc)).toFinset := by
  simp only [List.Forall]; repeat' apply And.intro
  all_goals exact writes_sub_of rfl (by decide)
theorem hostOps10_16_fresh : (hostOps10_16 : List (HloOp τ sig (Elt F))).Forall fun op => op.fresh = ∅ := by
  simp only [List.Forall]; repeat' constructor

abbrev hostOps10_16_W : List (Ref sig .tc) := [main_v220, main_cst_34, main_v221]
theorem hostOps10_16_writes : (hostOps10_16 : List (HloOp τ sig (Elt F))).Forall fun op => op.writes ⊆ (hostOps10_16_W.map (Proc.devRef (τ := τ) .tc)).toFinset := by
  simp only [List.Forall]; repeat' apply And.intro
  all_goals exact writes_sub_of rfl (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ hostOps0_3_W) : V4 m c r = V3 m c r :=
  StableHlo.after_of_writes_sub hostOps0_3 _ hostOps0_3_writes h
theorem V5_of (c : Dev nD) (r : Ref sig .tc) (h : r ∉ hostOps0_4_W) : V5 m c r = V4 m c r :=
  StableHlo.after_of_writes_sub hostOps0_4 _ hostOps0_4_writes h
theorem V6_of (c : Dev nD) (r : Ref sig .tc) (h : r ∉ ([main_v36] : List (Ref sig .tc))) : V6 m outs c r = V5 m c r := by
  simp only [V6, Function.update_of_ne (StableHlo.devRef_ne_of_ne (List.ne_of_not_mem_cons h) : (Proc.devRef .tc r : DevRef τ sig) ≠ Proc.devRef .tc main_v36)]
theorem V7_of (c : Dev nD) (r : Ref sig .tc) (h : r ∉ hostOps1_W) : V7 m outs c r = V6 m outs c r :=
  StableHlo.after_of_writes_sub hostOps1 _ hostOps1_writes h
theorem V8_of (c : Dev nD) (r : Ref sig .tc) (h : r ∉ ([main_v53] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v53)]
theorem V9_of (c : Dev nD) (r : Ref sig .tc) (h : r ∉ hostOps2_W) : V9 m outs c r = V8 m outs c r :=
  StableHlo.after_of_writes_sub hostOps2 _ hostOps2_writes h
theorem V10_of (c : Dev nD) (r : Ref sig .tc) (h : r ∉ ([main_v70] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v70)]
theorem V11_of (c : Dev nD) (r : Ref sig .tc) (h : r ∉ hostOps3_W) : V11 m outs c r = V10 m outs c r :=
  StableHlo.after_of_writes_sub hostOps3 _ hostOps3_writes h
theorem V12_of (c : Dev nD) (r : Ref sig .tc) (h : r ∉ ([main_v87] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v87)]
theorem V13_of (c : Dev nD) (r : Ref sig .tc) (h : r ∉ hostOps4_W) : V13 m outs c r = V12 m outs c r :=
  StableHlo.after_of_writes_sub hostOps4 _ hostOps4_writes h
theorem V14_of (c : Dev nD) (r : Ref sig .tc) (h : r ∉ ([main_v104] : List (Ref sig .tc))) : V14 m outs c r = V13 m outs c r := by
  simp only [V14, Function.update_of_ne (StableHlo.devRef_ne_of_ne (List.ne_of_not_mem_cons h) : (Proc.devRef .tc r : DevRef τ sig) ≠ Proc.devRef .tc main_v104)]
theorem V15_of (c : Dev nD) (r : Ref sig .tc) (h : r ∉ hostOps5_W) : V15 m outs c r = V14 m outs c r :=
  StableHlo.after_of_writes_sub hostOps5 _ hostOps5_writes h
theorem V16_of (c : Dev nD) (r : Ref sig .tc) (h : r ∉ ([main_v121] : List (Ref sig .tc))) : V16 m outs c r = V15 m outs c r := by
  simp only [V16, Function.update_of_ne (StableHlo.devRef_ne_of_ne (List.ne_of_not_mem_cons h) : (Proc.devRef .tc r : DevRef τ sig) ≠ Proc.devRef .tc main_v121)]
theorem V17_of (c : Dev nD) (r : Ref sig .tc) (h : r ∉ hostOps6_W) : V17 m outs c r = V16 m outs c r :=
  StableHlo.after_of_writes_sub hostOps6 _ hostOps6_writes h
theorem V18_of (c : Dev nD) (r : Ref sig .tc) (h : r ∉ ([main_v138] : List (Ref sig .tc))) : V18 m outs c r = V17 m outs c r := by
  simp only [V18, Function.update_of_ne (StableHlo.devRef_ne_of_ne (List.ne_of_not_mem_cons h) : (Proc.devRef .tc r : DevRef τ sig) ≠ Proc.devRef .tc main_v138)]
theorem V19_of (c : Dev nD) (r : Ref sig .tc) (h : r ∉ hostOps7_W) : V19 m outs c r = V18 m outs c r :=
  StableHlo.after_of_writes_sub hostOps7 _ hostOps7_writes h
theorem V20_of (c : Dev nD) (r : Ref sig .tc) (h : r ∉ ([main_v155] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v155)]
theorem V21_of (c : Dev nD) (r : Ref sig .tc) (h : r ∉ hostOps8_W) : V21 m outs c r = V20 m outs c r :=
  StableHlo.after_of_writes_sub hostOps8 _ hostOps8_writes h
theorem V22_of (c : Dev nD) (r : Ref sig .tc) (h : r ∉ ([main_v172] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v172)]
theorem V23_of (c : Dev nD) (r : Ref sig .tc) (h : r ∉ ([main_v173] : List (Ref sig .tc))) : V23 m outs c r = V22 m outs c r := by
  simp only [V23, Function.update_of_ne (StableHlo.devRef_ne_of_ne (List.ne_of_not_mem_cons h) : (Proc.devRef .tc r : DevRef τ sig) ≠ Proc.devRef .tc main_v173)]
theorem V24_of (c : Dev nD) (r : Ref sig .tc) (h : r ∉ hostOps10_W) : V24 m outs c r = V23 m outs c r :=
  StableHlo.after_of_writes_sub hostOps10 _ hostOps10_writes h
theorem V25_of (c : Dev nD) (r : Ref sig .tc) (h : r ∉ hostOps10_1_W) : V25 m outs c r = V24 m outs c r :=
  StableHlo.after_of_writes_sub hostOps10_1 _ hostOps10_1_writes h
theorem V26_of (c : Dev nD) (r : Ref sig .tc) (h : r ∉ hostOps10_2_W) : V26 m outs c r = V25 m outs c r :=
  StableHlo.after_of_writes_sub hostOps10_2 _ hostOps10_2_writes h
theorem V27_of (c : Dev nD) (r : Ref sig .tc) (h : r ∉ hostOps10_3_W) : V27 m outs c r = V26 m outs c r :=
  StableHlo.after_of_writes_sub hostOps10_3 _ hostOps10_3_writes h
theorem V28_of (c : Dev nD) (r : Ref sig .tc) (h : r ∉ hostOps10_4_W) : V28 m outs c r = V27 m outs c r :=
  StableHlo.after_of_writes_sub hostOps10_4 _ hostOps10_4_writes h
theorem V29_of (c : Dev nD) (r : Ref sig .tc) (h : r ∉ hostOps10_5_W) : V29 m outs c r = V28 m outs c r :=
  StableHlo.after_of_writes_sub hostOps10_5 _ hostOps10_5_writes h
theorem V30_of (c : Dev nD) (r : Ref sig .tc) (h : r ∉ hostOps10_6_W) : V30 m outs c r = V29 m outs c r :=
  StableHlo.after_of_writes_sub hostOps10_6 _ hostOps10_6_writes h
theorem V31_of (c : Dev nD) (r : Ref sig .tc) (h : r ∉ hostOps10_7_W) : V31 m outs c r = V30 m outs c r :=
  StableHlo.after_of_writes_sub hostOps10_7 _ hostOps10_7_writes h
theorem V32_of (c : Dev nD) (r : Ref sig .tc) (h : r ∉ hostOps10_8_W) : V32 m outs c r = V31 m outs c r :=
  StableHlo.after_of_writes_sub hostOps10_8 _ hostOps10_8_writes h
theorem V33_of (c : Dev nD) (r : Ref sig .tc) (h : r ∉ hostOps10_9_W) : V33 m outs c r = V32 m outs c r :=
  StableHlo.after_of_writes_sub hostOps10_9 _ hostOps10_9_writes h
theorem V34_of (c : Dev nD) (r : Ref sig .tc) (h : r ∉ hostOps10_10_W) : V34 m outs c r = V33 m outs c r :=
  StableHlo.after_of_writes_sub hostOps10_10 _ hostOps10_10_writes h
theorem V35_of (c : Dev nD) (r : Ref sig .tc) (h : r ∉ hostOps10_11_W) : V35 m outs c r = V34 m outs c r :=
  StableHlo.after_of_writes_sub hostOps10_11 _ hostOps10_11_writes h
theorem V36_of (c : Dev nD) (r : Ref sig .tc) (h : r ∉ hostOps10_12_W) : V36 m outs c r = V35 m outs c r :=
  StableHlo.after_of_writes_sub hostOps10_12 _ hostOps10_12_writes h
theorem V37_of (c : Dev nD) (r : Ref sig .tc) (h : r ∉ hostOps10_13_W) : V37 m outs c r = V36 m outs c r :=
  StableHlo.after_of_writes_sub hostOps10_13 _ hostOps10_13_writes h
theorem V38_of (c : Dev nD) (r : Ref sig .tc) (h : r ∉ hostOps10_14_W) : V38 m outs c r = V37 m outs c r :=
  StableHlo.after_of_writes_sub hostOps10_14 _ hostOps10_14_writes h
theorem V39_of (c : Dev nD) (r : Ref sig .tc) (h : r ∉ hostOps10_15_W) : V39 m outs c r = V38 m outs c r :=
  StableHlo.after_of_writes_sub hostOps10_15 _ hostOps10_15_writes h
theorem V40_of (c : Dev nD) (r : Ref sig .tc) (h : r ∉ hostOps10_16_W) : V40 m outs c r = V39 m outs c r :=
  StableHlo.after_of_writes_sub hostOps10_16 _ hostOps10_16_writes h

abbrev argRefs : List (Ref sig .tc) := [main_arg0, main_arg1, main_arg2, main_arg3, main_arg4, main_arg5, main_arg6, main_arg7]

/-- No stretch writes an argument buffer and no region's output is one, so each ends as launched. -/
theorem V40_arg (c : Dev nD) (r : Ref sig .tc) (hr : r ∈ argRefs) : V40 m outs c r = m ((c : Thread nD τ).loc r) := by
  have k : ∀ {l : List (Ref sig .tc)}, (∀ r ∈ argRefs, r ∉ l) → r ∉ l := fun h => h r hr
  exact (V40_of m outs c r (k (by decide))).trans <| (V39_of m outs c r (k (by decide))).trans <| (V38_of m outs c r (k (by decide))).trans <| (V37_of m outs c r (k (by decide))).trans <| (V36_of m outs c r (k (by decide))).trans <| (V35_of m outs c r (k (by decide))).trans <| (V34_of m outs c r (k (by decide))).trans <| (V33_of m outs c r (k (by decide))).trans <| (V32_of m outs c r (k (by decide))).trans <| (V31_of m outs c r (k (by decide))).trans <| (V30_of m outs c r (k (by decide))).trans <| (V29_of m outs c r (k (by decide))).trans <| (V28_of m outs c r (k (by decide))).trans <| (V27_of m outs c r (k (by decide))).trans <| (V26_of m outs c r (k (by decide))).trans <| (V25_of m outs c r (k (by decide))).trans <| (V24_of m outs c r (k (by decide))).trans <| (V23_of m outs c r (k (by decide))).trans <| (V22_of m outs c r (k (by decide))).trans <| (V21_of m outs c r (k (by decide))).trans <| (V20_of m outs c r (k (by decide))).trans <| (V19_of m outs c r (k (by decide))).trans <| (V18_of m outs c r (k (by decide))).trans <| (V17_of m outs c r (k (by decide))).trans <| (V16_of m outs c r (k (by decide))).trans <| (V15_of m outs c r (k (by decide))).trans <| (V14_of m outs c r (k (by decide))).trans <| (V13_of m outs c r (k (by decide))).trans <| (V12_of m outs c r (k (by decide))).trans <| (V11_of m outs c r (k (by decide))).trans <| (V10_of m outs c r (k (by decide))).trans <| (V9_of m outs c r (k (by decide))).trans <| (V8_of m outs c r (k (by decide))).trans <| (V7_of m outs c r (k (by decide))).trans <| (V6_of m outs c r (k (by decide))).trans <| (V5_of m c r (k (by decide))).trans <| (V4_of m c r (k (by decide))).trans <| (V3_of m c r (k (by decide))).trans <| (V2_of m c r (k (by decide))).trans <| (V1_of m c r (k (by decide))).trans rfl

theorem V40_main_arg0 (c : Dev nD) : V40 m outs c main_arg0 = m ((c : Thread nD τ).loc main_arg0) := V40_arg m outs c main_arg0 (by decide)

theorem V40_main_arg1 (c : Dev nD) : V40 m outs c main_arg1 = m ((c : Thread nD τ).loc main_arg1) := V40_arg m outs c main_arg1 (by decide)

theorem V40_main_arg2 (c : Dev nD) : V40 m outs c main_arg2 = m ((c : Thread nD τ).loc main_arg2) := V40_arg m outs c main_arg2 (by decide)

theorem V40_main_arg3 (c : Dev nD) : V40 m outs c main_arg3 = m ((c : Thread nD τ).loc main_arg3) := V40_arg m outs c main_arg3 (by decide)

theorem V40_main_arg4 (c : Dev nD) : V40 m outs c main_arg4 = m ((c : Thread nD τ).loc main_arg4) := V40_arg m outs c main_arg4 (by decide)

theorem V40_main_arg5 (c : Dev nD) : V40 m outs c main_arg5 = m ((c : Thread nD τ).loc main_arg5) := V40_arg m outs c main_arg5 (by decide)

theorem V40_main_arg6 (c : Dev nD) : V40 m outs c main_arg6 = m ((c : Thread nD τ).loc main_arg6) := V40_arg m outs c main_arg6 (by decide)

theorem V40_main_arg7 (c : Dev nD) : V40 m outs c main_arg7 = m ((c : Thread nD τ).loc main_arg7) := V40_arg m outs c main_arg7 (by decide)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 11 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg1 : HostSeg (Ix := Ix) (Name := ℕ) (U := U) (Lvl := Lvl) (pcfgs (F := F)) defs₀ 𝒱₀ L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) (E 0)

def seg3 : HostSeg (Ix := Ix) (Name := ℕ) (U := U) (Lvl := Lvl) (pcfgs (F := F)) defs₀ 𝒱₀ L lv :=
  HostSeg.ofOps _ _ _ _ _ (Pipeline.ucRefs τ sig) hostOps0_3
    (fun op h => Pipeline.sub_ucRefs op ((List.forall_iff_forall_mem.mp hostOps0_3_sub) op h))
    (fun op h => (List.forall_iff_forall_mem.mp hostOps0_3_fresh) op h) (V3 m) (E 0)

def seg4 : HostSeg (Ix := Ix) (Name := ℕ) (U := U) (Lvl := Lvl) (pcfgs (F := F)) defs₀ 𝒱₀ L lv :=
  HostSeg.ofOps _ _ _ _ _ (Pipeline.ucRefs τ sig) hostOps0_4
    (fun op h => Pipeline.sub_ucRefs op ((List.forall_iff_forall_mem.mp hostOps0_4_sub) op h))
    (fun op h => (List.forall_iff_forall_mem.mp hostOps0_4_fresh) op h) (V4 m) (E 0)

def seg6 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V6 m outs) (E 1)

def seg8 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V8 m outs) (E 2)

def seg10 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V10 m outs) (E 3)

def seg12 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V12 m outs) (E 4)

def seg14 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V14 m outs) (E 5)

def seg16 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (V16 m outs) (E 6)

def seg18 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V18 m outs) (E 7)

def seg20 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (V20 m outs) (E 8)

def seg23 : HostSeg (Ix := Ix) (Name := ℕ) (U := U) (Lvl := Lvl) (pcfgs (F := F)) defs₀ 𝒱₀ L lv :=
  HostSeg.ofOps _ _ _ _ _ (Pipeline.ucRefs τ sig) hostOps10
    (fun op h => Pipeline.sub_ucRefs op ((List.forall_iff_forall_mem.mp hostOps10_sub) op h))
    (fun op h => (List.forall_iff_forall_mem.mp hostOps10_fresh) op h) (V23 m outs) (E 10)

def seg24 : HostSeg (Ix := Ix) (Name := ℕ) (U := U) (Lvl := Lvl) (pcfgs (F := F)) defs₀ 𝒱₀ L lv :=
  HostSeg.ofOps _ _ _ _ _ (Pipeline.ucRefs τ sig) hostOps10_1
    (fun op h => Pipeline.sub_ucRefs op ((List.forall_iff_forall_mem.mp hostOps10_1_sub) op h))
    (fun op h => (List.forall_iff_forall_mem.mp hostOps10_1_fresh) op h) (V24 m outs) (E 10)

def seg25 : HostSeg (Ix := Ix) (Name := ℕ) (U := U) (Lvl := Lvl) (pcfgs (F := F)) defs₀ 𝒱₀ L lv :=
  HostSeg.ofOps _ _ _ _ _ (Pipeline.ucRefs τ sig) hostOps10_2
    (fun op h => Pipeline.sub_ucRefs op ((List.forall_iff_forall_mem.mp hostOps10_2_sub) op h))
    (fun op h => (List.forall_iff_forall_mem.mp hostOps10_2_fresh) op h) (V25 m outs) (E 10)

def seg26 : HostSeg (Ix := Ix) (Name := ℕ) (U := U) (Lvl := Lvl) (pcfgs (F := F)) defs₀ 𝒱₀ L lv :=
  HostSeg.ofOps _ _ _ _ _ (Pipeline.ucRefs τ sig) hostOps10_3
    (fun op h => Pipeline.sub_ucRefs op ((List.forall_iff_forall_mem.mp hostOps10_3_sub) op h))
    (fun op h => (List.forall_iff_forall_mem.mp hostOps10_3_fresh) op h) (V26 m outs) (E 10)

def seg27 : HostSeg (Ix := Ix) (Name := ℕ) (U := U) (Lvl := Lvl) (pcfgs (F := F)) defs₀ 𝒱₀ L lv :=
  HostSeg.ofOps _ _ _ _ _ (Pipeline.ucRefs τ sig) hostOps10_4
    (fun op h => Pipeline.sub_ucRefs op ((List.forall_iff_forall_mem.mp hostOps10_4_sub) op h))
    (fun op h => (List.forall_iff_forall_mem.mp hostOps10_4_fresh) op h) (V27 m outs) (E 10)

def seg28 : HostSeg (Ix := Ix) (Name := ℕ) (U := U) (Lvl := Lvl) (pcfgs (F := F)) defs₀ 𝒱₀ L lv :=
  HostSeg.ofOps _ _ _ _ _ (Pipeline.ucRefs τ sig) hostOps10_5
    (fun op h => Pipeline.sub_ucRefs op ((List.forall_iff_forall_mem.mp hostOps10_5_sub) op h))
    (fun op h => (List.forall_iff_forall_mem.mp hostOps10_5_fresh) op h) (V28 m outs) (E 10)

def seg29 : HostSeg (Ix := Ix) (Name := ℕ) (U := U) (Lvl := Lvl) (pcfgs (F := F)) defs₀ 𝒱₀ L lv :=
  HostSeg.ofOps _ _ _ _ _ (Pipeline.ucRefs τ sig) hostOps10_6
    (fun op h => Pipeline.sub_ucRefs op ((List.forall_iff_forall_mem.mp hostOps10_6_sub) op h))
    (fun op h => (List.forall_iff_forall_mem.mp hostOps10_6_fresh) op h) (V29 m outs) (E 10)

def seg30 : HostSeg (Ix := Ix) (Name := ℕ) (U := U) (Lvl := Lvl) (pcfgs (F := F)) defs₀ 𝒱₀ L lv :=
  HostSeg.ofOps _ _ _ _ _ (Pipeline.ucRefs τ sig) hostOps10_7
    (fun op h => Pipeline.sub_ucRefs op ((List.forall_iff_forall_mem.mp hostOps10_7_sub) op h))
    (fun op h => (List.forall_iff_forall_mem.mp hostOps10_7_fresh) op h) (V30 m outs) (E 10)

def seg31 : HostSeg (Ix := Ix) (Name := ℕ) (U := U) (Lvl := Lvl) (pcfgs (F := F)) defs₀ 𝒱₀ L lv :=
  HostSeg.ofOps _ _ _ _ _ (Pipeline.ucRefs τ sig) hostOps10_8
    (fun op h => Pipeline.sub_ucRefs op ((List.forall_iff_forall_mem.mp hostOps10_8_sub) op h))
    (fun op h => (List.forall_iff_forall_mem.mp hostOps10_8_fresh) op h) (V31 m outs) (E 10)

def seg32 : HostSeg (Ix := Ix) (Name := ℕ) (U := U) (Lvl := Lvl) (pcfgs (F := F)) defs₀ 𝒱₀ L lv :=
  HostSeg.ofOps _ _ _ _ _ (Pipeline.ucRefs τ sig) hostOps10_9
    (fun op h => Pipeline.sub_ucRefs op ((List.forall_iff_forall_mem.mp hostOps10_9_sub) op h))
    (fun op h => (List.forall_iff_forall_mem.mp hostOps10_9_fresh) op h) (V32 m outs) (E 10)

def seg33 : HostSeg (Ix := Ix) (Name := ℕ) (U := U) (Lvl := Lvl) (pcfgs (F := F)) defs₀ 𝒱₀ L lv :=
  HostSeg.ofOps _ _ _ _ _ (Pipeline.ucRefs τ sig) hostOps10_10
    (fun op h => Pipeline.sub_ucRefs op ((List.forall_iff_forall_mem.mp hostOps10_10_sub) op h))
    (fun op h => (List.forall_iff_forall_mem.mp hostOps10_10_fresh) op h) (V33 m outs) (E 10)

def seg34 : HostSeg (Ix := Ix) (Name := ℕ) (U := U) (Lvl := Lvl) (pcfgs (F := F)) defs₀ 𝒱₀ L lv :=
  HostSeg.ofOps _ _ _ _ _ (Pipeline.ucRefs τ sig) hostOps10_11
    (fun op h => Pipeline.sub_ucRefs op ((List.forall_iff_forall_mem.mp hostOps10_11_sub) op h))
    (fun op h => (List.forall_iff_forall_mem.mp hostOps10_11_fresh) op h) (V34 m outs) (E 10)

def seg35 : HostSeg (Ix := Ix) (Name := ℕ) (U := U) (Lvl := Lvl) (pcfgs (F := F)) defs₀ 𝒱₀ L lv :=
  HostSeg.ofOps _ _ _ _ _ (Pipeline.ucRefs τ sig) hostOps10_12
    (fun op h => Pipeline.sub_ucRefs op ((List.forall_iff_forall_mem.mp hostOps10_12_sub) op h))
    (fun op h => (List.forall_iff_forall_mem.mp hostOps10_12_fresh) op h) (V35 m outs) (E 10)

def seg36 : HostSeg (Ix := Ix) (Name := ℕ) (U := U) (Lvl := Lvl) (pcfgs (F := F)) defs₀ 𝒱₀ L lv :=
  HostSeg.ofOps _ _ _ _ _ (Pipeline.ucRefs τ sig) hostOps10_13
    (fun op h => Pipeline.sub_ucRefs op ((List.forall_iff_forall_mem.mp hostOps10_13_sub) op h))
    (fun op h => (List.forall_iff_forall_mem.mp hostOps10_13_fresh) op h) (V36 m outs) (E 10)

def seg37 : HostSeg (Ix := Ix) (Name := ℕ) (U := U) (Lvl := Lvl) (pcfgs (F := F)) defs₀ 𝒱₀ L lv :=
  HostSeg.ofOps _ _ _ _ _ (Pipeline.ucRefs τ sig) hostOps10_14
    (fun op h => Pipeline.sub_ucRefs op ((List.forall_iff_forall_mem.mp hostOps10_14_sub) op h))
    (fun op h => (List.forall_iff_forall_mem.mp hostOps10_14_fresh) op h) (V37 m outs) (E 10)

def seg38 : HostSeg (Ix := Ix) (Name := ℕ) (U := U) (Lvl := Lvl) (pcfgs (F := F)) defs₀ 𝒱₀ L lv :=
  HostSeg.ofOps _ _ _ _ _ (Pipeline.ucRefs τ sig) hostOps10_15
    (fun op h => Pipeline.sub_ucRefs op ((List.forall_iff_forall_mem.mp hostOps10_15_sub) op h))
    (fun op h => (List.forall_iff_forall_mem.mp hostOps10_15_fresh) op h) (V38 m outs) (E 10)

def seg39 : HostSeg (Ix := Ix) (Name := ℕ) (U := U) (Lvl := Lvl) (pcfgs (F := F)) defs₀ 𝒱₀ L lv :=
  HostSeg.ofOps _ _ _ _ _ (Pipeline.ucRefs τ sig) hostOps10_16
    (fun op h => Pipeline.sub_ucRefs op ((List.forall_iff_forall_mem.mp hostOps10_16_sub) op h))
    (fun op h => (List.forall_iff_forall_mem.mp hostOps10_16_fresh) op h) (V39 m outs) (E 10)

end Segs

section

variable {Ix : Type} [DecidableEq Ix] {U : Type} [URA U] {Lvl : Type} [Preorder Lvl]

abbrev adm : (p : Fin 10) → (pcfgs (F := F) p).Adm := fun p => (cfgs p).toPCfg_adm

abbrev segs (𝒱₀ : Variants) (L : GSem nD τ sig → Finset Ix) (lv : GSem nD τ sig → Ix → Lvl) (E : Fin 11 → Dev nD → sProp (MT nD τ sig Ix (Elt F) ℕ U Lvl)) (ι : Ix)
    (pdats : (p : Fin 10) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (c : Dev nD) :
    List (Seg (pcfgs (F := F)) adm pdats ι defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E), .region R0, .host (seg6 m outs 𝒱₀ L lv E), .region R1, .host (seg8 m outs 𝒱₀ L lv E), .region R2, .host (seg10 m outs 𝒱₀ L lv E), .region R3, .host (seg12 m outs 𝒱₀ L lv E), .region R4, .host (seg14 m outs 𝒱₀ L lv E), .region R5, .host (seg16 m outs 𝒱₀ L lv E), .region R6, .host (seg18 m outs 𝒱₀ L lv E), .region R7, .host (seg20 m outs 𝒱₀ L lv E), .region R8, .region R9, .host (seg23 m outs 𝒱₀ L lv E), .host (seg24 m outs 𝒱₀ L lv E), .host (seg25 m outs 𝒱₀ L lv E), .host (seg26 m outs 𝒱₀ L lv E), .host (seg27 m outs 𝒱₀ L lv E), .host (seg28 m outs 𝒱₀ L lv E), .host (seg29 m outs 𝒱₀ L lv E), .host (seg30 m outs 𝒱₀ L lv E), .host (seg31 m outs 𝒱₀ L lv E), .host (seg32 m outs 𝒱₀ L lv E), .host (seg33 m outs 𝒱₀ L lv E), .host (seg34 m outs 𝒱₀ L lv E), .host (seg35 m outs 𝒱₀ L lv E), .host (seg36 m outs 𝒱₀ L lv E), .host (seg37 m outs 𝒱₀ L lv E), .host (seg38 m outs 𝒱₀ L lv E), .host (seg39 m outs 𝒱₀ L lv E)]

end

end Cert.Kernel.Gen

end
-- ==== Proof.K.RunCond.lean ====
/- The program's run with every buffer's final contents, given one segment record per region. -/
import proofs.«173786_j46231027974388_2_alg».proof.Proof.KernelRegions

set_option maxRecDepth 2028

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 10) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 11 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE10 : ∀ c : Dev nD, E 10 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V22 m outs c) ∗ E 9 c) ⊢ R9.pre c)
    (hpost9 : ∀ c : Dev nD, R9.post c ⊢ iprop(StableHlo.held (c : Thread nD τ) (Pipeline.ucRefs τ sig) (V23 m outs c) ∗ E 10 c)) :
    θ_run defs (onTc (τ := τ) (main (F := F))) ⟨m, fun _ => 0, ρ⟩ (fun r => ∀ c : Dev nD,
      ∀ b ∈ Pipeline.ucRefs τ sig, r.2.mem ((c : Thread nD τ).1, b) = V40 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9)
    (fun c Q => by
      rewrite [main_chain c, Seg.run_eq_chain,
        show (segs m outs 𝒱₀ L lv E ι pdats R0 R1 R2 R3 R4 R5 R6 R7 R8 R9 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          StableHlo.seq hostOps10_1,
          StableHlo.seq hostOps10_2,
          StableHlo.seq hostOps10_3,
          StableHlo.seq hostOps10_4,
          StableHlo.seq hostOps10_5,
          StableHlo.seq hostOps10_6,
          StableHlo.seq hostOps10_7,
          StableHlo.seq hostOps10_8,
          StableHlo.seq hostOps10_9,
          StableHlo.seq hostOps10_10,
          StableHlo.seq hostOps10_11,
          StableHlo.seq hostOps10_12,
          StableHlo.seq hostOps10_13,
          StableHlo.seq hostOps10_14,
          StableHlo.seq hostOps10_15,
          StableHlo.seq hostOps10_16 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V40 m outs c))
    (hch := fun c => ⟨.rfl, .rfl, .rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, (hpost8 c).trans (hpre9 c), hpost9 c, .rfl, .rfl, .rfl, .rfl, .rfl, .rfl, .rfl, .rfl, .rfl, .rfl, .rfl, .rfl, .rfl, .rfl, .rfl, .rfl, sep_mono .rfl (hE10 c)⟩)
    (hinit := ?_) (QY := fun c s => ∀ b ∈ Pipeline.ucRefs τ sig, s.mem ((c : Thread nD τ).1, b) = V40 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (V40 m outs c) s')
    isplitl [Hh] <;> iassumption

end Cert.Kernel.Hand

end
-- ==== Proof.K.Region0.lean ====
/- Region 0: what the body leaves in its output tile as a function of its three input tiles, the body's run, and the proof data at any entry contents. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S64 := Rect.unit (s := S64) ![0] S64.size inb_S64_S64_0
abbrev r0_o : Rect S5000x64 := Rect.unit (s := S5000x64) ![0, 0] S5000x64.size inb_S5000x64_S5000x64_0_0

/-- The output tile as a function of the three input tiles: one store over the whole tile. -/
def out0_3 (x0 : Vec F S5000x256 .f32) (x1 : Vec F S256x64 .f32) (x2 : Vec F S64 .f32) : Vec F S5000x64 .bf16 :=
  View.canon [⟨r0_o, k0_pay1 (View.ld x0 r0_0) (View.ld x1 r0_1) (View.ld x2 r0_2)⟩]

/-- The region's proof data at entry contents `V`: an input tile stays its block, the output tile is `out0_3` of them. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

theorem A_eq0 (q : Fin cfg0.W → PosShare TreeShare) (c : Dev nD) (w : Fin cfg0.W) : (dat0 V q c).A w = V c (Pipeline.arrRef spec0 w) := by
  dsimp only [dat0]

theorem after0_3 (q : Fin cfg0.W → PosShare TreeShare) (c : Dev nD) (t : Fin cfg0.N) :
    (dat0 V q c).after 3 t = out0_3 (iblk0 V c 0 t) (iblk0 V c 1 t) (iblk0 V c 2 t) := by dsimp only [dat0]

/-- The body writes no input window, so what it finds in one is what it leaves there. -/
theorem before0_in (q : Fin cfg0.W → PosShare TreeShare) (c : Dev nD) (w : Fin cfg0.W) (hw : (cfg0.win w).isOut = false) (t : Fin cfg0.N) (d) :
    (dat0 V q c).before w t d = (dat0 V q c).after w t := by
  match w, hw with
  | ⟨0, _⟩, _ | ⟨1, _⟩, _ | ⟨2, _⟩, _ =>
    exact ((dat0 V q c).before_in_eq_fetched _ rfl (fun _ => rfl) (fun _ _ _ => rfl) (fun _ => rfl) t d).trans rfl
  | ⟨3, _⟩, hw => exact Bool.noConfusion hw

/-- The body only loads its inputs and its one store covers the output tile, so the tile ends at `out0_3` of the inputs whatever it held. -/
theorem sound_kernel0 (c : Dev nD) (E : Set ℕ) (i : grid0.Coords)
    (arg1 : Memref sig .tc .vmem S5000x256 .f32) (harg1 : arg1.IsWhole)
    (arg2 : Memref sig .tc .vmem S256x64 .f32) (harg2 : arg2.IsWhole)
    (arg3 : Memref sig .tc .vmem S64 .f32) (harg3 : arg3.IsWhole)
    (arg4 : Memref sig .tc .vmem S5000x64 .bf16) (harg4 : arg4.IsWhole)
    (x0 : Vec F S5000x256 .f32) (x1 : Vec F S256x64 .f32) (x2 : Vec F S64 .f32) (K : PUnit → sProp 𝕄) :
    iprop(ownsTc c arg1 fullShare x0 ∗ ownsTc c arg2 fullShare x1
        ∗ ownsTc c arg3 fullShare x2 ∗ (∃ d, ownsTc c arg4 fullShare d)
        ∗ (iprop(ownsTc c arg4 fullShare (out0_3 x0 x1 x2) ∗ ownsTc c arg1 fullShare x0
            ∗ ownsTc c arg2 fullShare x1 ∗ ownsTc c arg3 fullShare x2) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold ownsTc owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H3]
  · iexists _; isplitr
    swap; · iexact H3
    ipureintro; exact View.read_writes_eq_canon _ _ _ (View.cover_of_tiled _ S5000x64.size (by rfl))
  sl_close

theorem after0_out (q : Fin cfg0.W → PosShare TreeShare) (c : Dev nD) (t : Fin cfg0.N) : (dat0 V q c).after 3 t =
    out0_3 ((dat0 V q c).after 0 t) ((dat0 V q c).after 1 t) ((dat0 V q c).after 2 t) := by dsimp only [dat0]

/-- The inputs are as the body leaves them, so the body's triple applies at every point. -/
theorem sound_body0 (q : Fin cfg0.W → PosShare TreeShare) (c : Dev nD) (t : Fin cfg0.N) :
    iprop((dat0 V q c).Φ t.castSucc ∗ (dat0 V q c).owesAt () t.castSucc
      ∗ (∃ d, ownsTc c (st0_0 t) fullShare ((dat0 V q c).before 0 t d))
      ∗ (∃ d, ownsTc c (st0_1 t) fullShare ((dat0 V q c).before 1 t d))
      ∗ (∃ d, ownsTc c (st0_2 t) fullShare ((dat0 V q c).before 2 t d))
      ∗ (∃ d, ownsTc c (st0_3 t) fullShare ((dat0 V q c).before 3 t d)))
    ⊢ wp frame (wpE (defs₀ (F := F)) Variants.none c none) Set.univ (bodyAt0 t) (fun _ =>
      iprop((dat0 V q c).Φ t.succ ∗ (dat0 V q c).owesAt () t.succ
        ∗ ownsTc c (st0_0 t) fullShare ((dat0 V q c).after 0 t)
        ∗ ownsTc c (st0_1 t) fullShare ((dat0 V q c).after 1 t)
        ∗ ownsTc c (st0_2 t) fullShare ((dat0 V q c).after 2 t)
        ∗ ownsTc c (st0_3 t) fullShare ((dat0 V q c).after 3 t))) := by
  unfold bodyAt0
  simp only [before0_in V q c 0 rfl, before0_in V q c 1 rfl, before0_in V q c 2 rfl, after0_out]
  rewrite [show (dat0 V q c).Φ t.succ = (dat0 V q c).Φ t.castSucc from rfl,
    show (dat0 V q c).owesAt () t.succ = (dat0 V q c).owesAt () t.castSucc from rfl]
  iintro ⟨HΦ, Ho, ⟨%d0, H0⟩, ⟨%d1, H1⟩, ⟨%d2, H2⟩, ⟨%d3, H3⟩⟩
  iapply (sound_kernel0 c Set.univ _ _ _ _ _ _ _ _ _ _ _ _ _)
  iframe H0 H1 H2
  isplitl [H3]; · iexists _; iexact H3
  iintro ⟨H3, H0, H1, H2⟩
  iframe HΦ Ho H0 H1 H2
  iexact H3

theorem body_obligation0 (q : Fin cfg0.W → PosShare TreeShare) (c : Dev nD) :
    BodyObligation (dat0 (F := F) V q c) (defs₀ (F := F)) Variants.none () Set.univ := fun t => by
  rw [bigSep_W0, bigSep_W0]
  exact sound_body0 V q c t

end Cert.Kernel.Hand

end
-- ==== Proof.K.LayerKernel.lean ====
/- The one kernel the eight layer regions run: what it leaves in its output tile as a function of its four input tiles, and its run. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tileRect : Rect S5000x64 := Rect.unit (s := S5000x64) ![0, 0] S5000x64.size inb_S5000x64_S5000x64_0_0
abbrev weightRect : Rect S64x64 := Rect.unit (s := S64x64) ![0, 0] S64x64.size inb_S64x64_S64x64_0_0

/-- The eight layer regions call one function: each printed copy is this one. -/
abbrev layerKernel := @cc2__layer_kernel F _

/-- The output tile as a function of the four input tiles: one store over the whole tile. -/
def layerOut (x0 : Vec F S5000x64 .f32) (x1 : Vec F S5000x64 .bf16) (x2 : Vec F S5000x64 .bf16) (x3 : Vec F S64x64 .f32) : Vec F S5000x64 .bf16 :=
  View.canon [⟨tileRect, k2_pay1 (View.ld x0 tileRect) (View.ld x1 tileRect) (View.ld x2 tileRect) (View.ld x3 weightRect)⟩]

/-- The body only loads its inputs and its one store covers the output tile, so the tile ends at `layerOut` of the inputs whatever it held. -/
theorem sound_layerKernel (c : Dev nD) (E : Set ℕ) (i : grid2.Coords)
    (arg0 : Memref sig .tc .vmem S5000x64 .f32) (harg0 : arg0.IsWhole) (arg1 : Memref sig .tc .vmem S5000x64 .bf16) (harg1 : arg1.IsWhole)
    (arg2 : Memref sig .tc .vmem S5000x64 .bf16) (harg2 : arg2.IsWhole) (arg3 : Memref sig .tc .vmem S64x64 .f32) (harg3 : arg3.IsWhole)
    (arg4 : Memref sig .tc .vmem S5000x64 .bf16) (harg4 : arg4.IsWhole)
    (x0 : Vec F S5000x64 .f32) (x1 : Vec F S5000x64 .bf16) (x2 : Vec F S5000x64 .bf16) (x3 : Vec F S64x64 .f32) (K : PUnit → sProp 𝕄) :
    iprop(ownsTc c arg0 fullShare x0 ∗ ownsTc c arg1 fullShare x1 ∗ ownsTc c arg2 fullShare x2
        ∗ ownsTc c arg3 fullShare x3 ∗ (∃ d, ownsTc c arg4 fullShare d)
        ∗ (iprop(ownsTc c arg4 fullShare (layerOut x0 x1 x2 x3) ∗ ownsTc c arg0 fullShare x0 ∗ ownsTc c arg1 fullShare x1 ∗ ownsTc c arg2 fullShare x2
        ∗ ownsTc c arg3 fullShare x3) -∗ K ⟨⟩))
      ⊢ wp frame (wpE (defs₀ (F := F)) Variants.none c none) E (layerKernel i arg0 harg0 arg1 harg1 arg2 harg2 arg3 harg3 arg4 harg4) K := by
  unfold layerKernel
  simp only [cc2__layer_kernel_eq_skeleton]; unfold cc2__layer_kernel_skel
  unfold ownsTc owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H4]
  · iexists _; isplitr
    swap; · iexact H4
    ipureintro; exact View.read_writes_eq_canon _ _ _ (View.cover_of_tiled _ S5000x64.size (by rfl))
  sl_close

end Cert.Kernel.Hand

end
-- ==== Proof.K.Region1.lean ====
/- Region 1 (one layer's row-tile kernel): what the body leaves in its output tile as a function of its four input tiles, the body's run, and the proof data at any entry contents. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import proofs.«173786_j46231027974388_2_alg».proof.Proof.K.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data at entry contents `V`: an input tile stays its block, the output tile is `layerOut` of them. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => layerOut (iblk1 V c 0 t) (iblk1 V c 1 t) (iblk1 V c 2 t) (iblk1 V c 3 t)
  Φ _ := Pipeline.ΦA spec1 c
  q := q
  owed _ := 0

theorem A_eq1 (q : Fin cfg1.W → PosShare TreeShare) (c : Dev nD) (w : Fin cfg1.W) : (dat1 V q c).A w = V c (Pipeline.arrRef spec1 w) := by
  dsimp only [dat1]

theorem after1_4 (q : Fin cfg1.W → PosShare TreeShare) (c : Dev nD) (t : Fin cfg1.N) :
    (dat1 V q c).after 4 t = layerOut (iblk1 V c 0 t) (iblk1 V c 1 t) (iblk1 V c 2 t) (iblk1 V c 3 t) := by dsimp only [dat1]

/-- The body writes no input window, so what it finds in one is what it leaves there. -/
theorem before1_in (q : Fin cfg1.W → PosShare TreeShare) (c : Dev nD) (w : Fin cfg1.W) (hw : (cfg1.win w).isOut = false) (t : Fin cfg1.N) (d) :
    (dat1 V q c).before w t d = (dat1 V q c).after w t := by
  match w, hw with
  | ⟨0, _⟩, _ | ⟨1, _⟩, _ | ⟨2, _⟩, _ | ⟨3, _⟩, _ =>
    exact ((dat1 V q c).before_in_eq_fetched _ rfl (fun _ => rfl) (fun _ _ _ => rfl) (fun _ => rfl) t d).trans rfl
  | ⟨4, _⟩, hw => exact Bool.noConfusion hw

theorem after1_out (q : Fin cfg1.W → PosShare TreeShare) (c : Dev nD) (t : Fin cfg1.N) : (dat1 V q c).after 4 t =
    layerOut ((dat1 V q c).after 0 t) ((dat1 V q c).after 1 t) ((dat1 V q c).after 2 t) ((dat1 V q c).after 3 t) := by dsimp only [dat1]

/-- The inputs are as the body leaves them, so the body's triple applies at every point. -/
theorem sound_body1 (q : Fin cfg1.W → PosShare TreeShare) (c : Dev nD) (t : Fin cfg1.N) :
    iprop((dat1 V q c).Φ t.castSucc ∗ (dat1 V q c).owesAt () t.castSucc
      ∗ (∃ d, ownsTc c (st1_0 t) fullShare ((dat1 V q c).before 0 t d))
      ∗ (∃ d, ownsTc c (st1_1 t) fullShare ((dat1 V q c).before 1 t d))
      ∗ (∃ d, ownsTc c (st1_2 t) fullShare ((dat1 V q c).before 2 t d))
      ∗ (∃ d, ownsTc c (st1_3 t) fullShare ((dat1 V q c).before 3 t d))
      ∗ (∃ d, ownsTc c (st1_4 t) fullShare ((dat1 V q c).before 4 t d)))
    ⊢ wp frame (wpE (defs₀ (F := F)) Variants.none c none) Set.univ (bodyAt1 t) (fun _ =>
      iprop((dat1 V q c).Φ t.succ ∗ (dat1 V q c).owesAt () t.succ
        ∗ ownsTc c (st1_0 t) fullShare ((dat1 V q c).after 0 t)
        ∗ ownsTc c (st1_1 t) fullShare ((dat1 V q c).after 1 t)
        ∗ ownsTc c (st1_2 t) fullShare ((dat1 V q c).after 2 t)
        ∗ ownsTc c (st1_3 t) fullShare ((dat1 V q c).after 3 t)
        ∗ ownsTc c (st1_4 t) fullShare ((dat1 V q c).after 4 t))) := by
  unfold bodyAt1
  rw [show @cc1__layer_kernel F _ _ = layerKernel from rfl]
  simp only [before1_in V q c 0 rfl, before1_in V q c 1 rfl, before1_in V q c 2 rfl, before1_in V q c 3 rfl, after1_out]
  rewrite [show (dat1 V q c).Φ t.succ = (dat1 V q c).Φ t.castSucc from rfl,
    show (dat1 V q c).owesAt () t.succ = (dat1 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation1 (q : Fin cfg1.W → PosShare TreeShare) (c : Dev nD) :
    BodyObligation (dat1 (F := F) V q c) (defs₀ (F := F)) Variants.none () Set.univ := fun t => by
  rw [bigSep_W1, bigSep_W1]
  exact sound_body1 V q c t

end Cert.Kernel.Hand

end
-- ==== Proof.K.Region2.lean ====
/- Region 2 (one layer's row-tile kernel): what the body leaves in its output tile as a function of its four input tiles, the body's run, and the proof data at any entry contents. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import proofs.«173786_j46231027974388_2_alg».proof.Proof.K.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data at entry contents `V`: an input tile stays its block, the output tile is `layerOut` of them. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => layerOut (iblk2 V c 0 t) (iblk2 V c 1 t) (iblk2 V c 2 t) (iblk2 V c 3 t)
  Φ _ := Pipeline.ΦA spec2 c
  q := q
  owed _ := 0

theorem A_eq2 (q : Fin cfg2.W → PosShare TreeShare) (c : Dev nD) (w : Fin cfg2.W) : (dat2 V q c).A w = V c (Pipeline.arrRef spec2 w) := by
  dsimp only [dat2]

theorem after2_4 (q : Fin cfg2.W → PosShare TreeShare) (c : Dev nD) (t : Fin cfg2.N) :
    (dat2 V q c).after 4 t = layerOut (iblk2 V c 0 t) (iblk2 V c 1 t) (iblk2 V c 2 t) (iblk2 V c 3 t) := by dsimp only [dat2]

/-- The body writes no input window, so what it finds in one is what it leaves there. -/
theorem before2_in (q : Fin cfg2.W → PosShare TreeShare) (c : Dev nD) (w : Fin cfg2.W) (hw : (cfg2.win w).isOut = false) (t : Fin cfg2.N) (d) :
    (dat2 V q c).before w t d = (dat2 V q c).after w t := by
  match w, hw with
  | ⟨0, _⟩, _ | ⟨1, _⟩, _ | ⟨2, _⟩, _ | ⟨3, _⟩, _ =>
    exact ((dat2 V q c).before_in_eq_fetched _ rfl (fun _ => rfl) (fun _ _ _ => rfl) (fun _ => rfl) t d).trans rfl
  | ⟨4, _⟩, hw => exact Bool.noConfusion hw

theorem after2_out (q : Fin cfg2.W → PosShare TreeShare) (c : Dev nD) (t : Fin cfg2.N) : (dat2 V q c).after 4 t =
    layerOut ((dat2 V q c).after 0 t) ((dat2 V q c).after 1 t) ((dat2 V q c).after 2 t) ((dat2 V q c).after 3 t) := by dsimp only [dat2]

/-- The inputs are as the body leaves them, so the body's triple applies at every point. -/
theorem sound_body2 (q : Fin cfg2.W → PosShare TreeShare) (c : Dev nD) (t : Fin cfg2.N) :
    iprop((dat2 V q c).Φ t.castSucc ∗ (dat2 V q c).owesAt () t.castSucc
      ∗ (∃ d, ownsTc c (st2_0 t) fullShare ((dat2 V q c).before 0 t d))
      ∗ (∃ d, ownsTc c (st2_1 t) fullShare ((dat2 V q c).before 1 t d))
      ∗ (∃ d, ownsTc c (st2_2 t) fullShare ((dat2 V q c).before 2 t d))
      ∗ (∃ d, ownsTc c (st2_3 t) fullShare ((dat2 V q c).before 3 t d))
      ∗ (∃ d, ownsTc c (st2_4 t) fullShare ((dat2 V q c).before 4 t d)))
    ⊢ wp frame (wpE (defs₀ (F := F)) Variants.none c none) Set.univ (bodyAt2 t) (fun _ =>
      iprop((dat2 V q c).Φ t.succ ∗ (dat2 V q c).owesAt () t.succ
        ∗ ownsTc c (st2_0 t) fullShare ((dat2 V q c).after 0 t)
        ∗ ownsTc c (st2_1 t) fullShare ((dat2 V q c).after 1 t)
        ∗ ownsTc c (st2_2 t) fullShare ((dat2 V q c).after 2 t)
        ∗ ownsTc c (st2_3 t) fullShare ((dat2 V q c).after 3 t)
        ∗ ownsTc c (st2_4 t) fullShare ((dat2 V q c).after 4 t))) := by
  unfold bodyAt2
  rw [show @cc2__layer_kernel F _ _ = layerKernel from rfl]
  simp only [before2_in V q c 0 rfl, before2_in V q c 1 rfl, before2_in V q c 2 rfl, before2_in V q c 3 rfl, after2_out]
  rewrite [show (dat2 V q c).Φ t.succ = (dat2 V q c).Φ t.castSucc from rfl,
    show (dat2 V q c).owesAt () t.succ = (dat2 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation2 (q : Fin cfg2.W → PosShare TreeShare) (c : Dev nD) :
    BodyObligation (dat2 (F := F) V q c) (defs₀ (F := F)) Variants.none () Set.univ := fun t => by
  rw [bigSep_W2, bigSep_W2]
  exact sound_body2 V q c t

end Cert.Kernel.Hand

end
-- ==== Proof.K.Region3.lean ====
/- Region 3 (one layer's row-tile kernel): what the body leaves in its output tile as a function of its four input tiles, the body's run, and the proof data at any entry contents. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import proofs.«173786_j46231027974388_2_alg».proof.Proof.K.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The region's proof data at entry contents `V`: an input tile stays its block, the output tile is `layerOut` of them. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => layerOut (iblk3 V c 0 t) (iblk3 V c 1 t) (iblk3 V c 2 t) (iblk3 V c 3 t)
  Φ _ := Pipeline.ΦA spec3 c
  q := q
  owed _ := 0

theorem A_eq3 (q : Fin cfg3.W → PosShare TreeShare) (c : Dev nD) (w : Fin cfg3.W) : (dat3 V q c).A w = V c (Pipeline.arrRef spec3 w) := by
  dsimp only [dat3]

theorem after3_4 (q : Fin cfg3.W → PosShare TreeShare) (c : Dev nD) (t : Fin cfg3.N) :
    (dat3 V q c).after 4 t = layerOut (iblk3 V c 0 t) (iblk3 V c 1 t) (iblk3 V c 2 t) (iblk3 V c 3 t) := by dsimp only [dat3]

/-- The body writes no input window, so what it finds in one is what it leaves there. -/
theorem before3_in (q : Fin cfg3.W → PosShare TreeShare) (c : Dev nD) (w : Fin cfg3.W) (hw : (cfg3.win w).isOut = false) (t : Fin cfg3.N) (d) :
    (dat3 V q c).before w t d = (dat3 V q c).after w t := by
  match w, hw with
  | ⟨0, _⟩, _ | ⟨1, _⟩, _ | ⟨2, _⟩, _ | ⟨3, _⟩, _ =>
    exact ((dat3 V q c).before_in_eq_fetched _ rfl (fun _ => rfl) (fun _ _ _ => rfl) (fun _ => rfl) t d).trans rfl
  | ⟨4, _⟩, hw => exact Bool.noConfusion hw

theorem after3_out (q : Fin cfg3.W → PosShare TreeShare) (c : Dev nD) (t : Fin cfg3.N) : (dat3 V q c).after 4 t =
    layerOut ((dat3 V q c).after 0 t) ((dat3 V q c).after 1 t) ((dat3 V q c).after 2 t) ((dat3 V q c).after 3 t) := by dsimp only [dat3]

/-- The inputs are as the body leaves them, so the body's triple applies at every point. -/
theorem sound_body3 (q : Fin cfg3.W → PosShare TreeShare) (c : Dev nD) (t : Fin cfg3.N) :
    iprop((dat3 V q c).Φ t.castSucc ∗ (dat3 V q c).owesAt () t.castSucc
      ∗ (∃ d, ownsTc c (st3_0 t) fullShare ((dat3 V q c).before 0 t d))
      ∗ (∃ d, ownsTc c (st3_1 t) fullShare ((dat3 V q c).before 1 t d))
      ∗ (∃ d, ownsTc c (st3_2 t) fullShare ((dat3 V q c).before 2 t d))
      ∗ (∃ d, ownsTc c (st3_3 t) fullShare ((dat3 V q c).before 3 t d))
      ∗ (∃ d, ownsTc c (st3_4 t) fullShare ((dat3 V q c).before 4 t d)))
    ⊢ wp frame (wpE (defs₀ (F := F)) Variants.none c none) Set.univ (bodyAt3 t) (fun _ =>
      iprop((dat3 V q c).Φ t.succ ∗ (dat3 V q c).owesAt () t.succ
        ∗ ownsTc c (st3_0 t) fullShare ((dat3 V q c).after 0 t)
        ∗ ownsTc c (st3_1 t) fullShare ((dat3 V q c).after 1 t)
        ∗ ownsTc c (st3_2 t) fullShare ((dat3 V q c).after 2 t)
        ∗ ownsTc c (st3_3 t) fullShare ((dat3 V q c).after 3 t)
        ∗ ownsTc c (st3_4 t) fullShare ((dat3 V q c).after 4 t))) := by
  unfold bodyAt3
  rw [show @cc3__layer_kernel F _ _ = layerKernel from rfl]
  simp only [before3_in V q c 0 rfl, before3_in V q c 1 rfl, before3_in V q c 2 rfl, before3_in V q c 3 rfl, after3_out]
  rewrite [show (dat3 V q c).Φ t.succ = (dat3 V q c).Φ t.castSucc from rfl,
    show (dat3 V q c).owesAt () t.succ = (dat3 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation3 (q : Fin cfg3.W → PosShare TreeShare) (c : Dev nD) :
    BodyObligation (dat3 (F := F) V q c) (defs₀ (F := F)) Variants.none () Set.univ := fun t => by
  rw [bigSep_W3, bigSep_W3]
  exact sound_body3 V q c t

end Cert.Kernel.Hand

end
-- ==== Proof.K.Region4.lean ====
/- Region 4 (one layer's row-tile kernel): what the body leaves in its output tile as a function of its four input tiles, the body's run, and the proof data at any entry contents. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import proofs.«173786_j46231027974388_2_alg».proof.Proof.K.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The region's proof data at entry contents `V`: an input tile stays its block, the output tile is `layerOut` of them. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => layerOut (iblk4 V c 0 t) (iblk4 V c 1 t) (iblk4 V c 2 t) (iblk4 V c 3 t)
  Φ _ := Pipeline.ΦA spec4 c
  q := q
  owed _ := 0

theorem A_eq4 (q : Fin cfg4.W → PosShare TreeShare) (c : Dev nD) (w : Fin cfg4.W) : (dat4 V q c).A w = V c (Pipeline.arrRef spec4 w) := by
  dsimp only [dat4]

theorem after4_4 (q : Fin cfg4.W → PosShare TreeShare) (c : Dev nD) (t : Fin cfg4.N) :
    (dat4 V q c).after 4 t = layerOut (iblk4 V c 0 t) (iblk4 V c 1 t) (iblk4 V c 2 t) (iblk4 V c 3 t) := by dsimp only [dat4]

/-- The body writes no input window, so what it finds in one is what it leaves there. -/
theorem before4_in (q : Fin cfg4.W → PosShare TreeShare) (c : Dev nD) (w : Fin cfg4.W) (hw : (cfg4.win w).isOut = false) (t : Fin cfg4.N) (d) :
    (dat4 V q c).before w t d = (dat4 V q c).after w t := by
  match w, hw with
  | ⟨0, _⟩, _ | ⟨1, _⟩, _ | ⟨2, _⟩, _ | ⟨3, _⟩, _ =>
    exact ((dat4 V q c).before_in_eq_fetched _ rfl (fun _ => rfl) (fun _ _ _ => rfl) (fun _ => rfl) t d).trans rfl
  | ⟨4, _⟩, hw => exact Bool.noConfusion hw

theorem after4_out (q : Fin cfg4.W → PosShare TreeShare) (c : Dev nD) (t : Fin cfg4.N) : (dat4 V q c).after 4 t =
    layerOut ((dat4 V q c).after 0 t) ((dat4 V q c).after 1 t) ((dat4 V q c).after 2 t) ((dat4 V q c).after 3 t) := by dsimp only [dat4]

/-- The inputs are as the body leaves them, so the body's triple applies at every point. -/
theorem sound_body4 (q : Fin cfg4.W → PosShare TreeShare) (c : Dev nD) (t : Fin cfg4.N) :
    iprop((dat4 V q c).Φ t.castSucc ∗ (dat4 V q c).owesAt () t.castSucc
      ∗ (∃ d, ownsTc c (st4_0 t) fullShare ((dat4 V q c).before 0 t d))
      ∗ (∃ d, ownsTc c (st4_1 t) fullShare ((dat4 V q c).before 1 t d))
      ∗ (∃ d, ownsTc c (st4_2 t) fullShare ((dat4 V q c).before 2 t d))
      ∗ (∃ d, ownsTc c (st4_3 t) fullShare ((dat4 V q c).before 3 t d))
      ∗ (∃ d, ownsTc c (st4_4 t) fullShare ((dat4 V q c).before 4 t d)))
    ⊢ wp frame (wpE (defs₀ (F := F)) Variants.none c none) Set.univ (bodyAt4 t) (fun _ =>
      iprop((dat4 V q c).Φ t.succ ∗ (dat4 V q c).owesAt () t.succ
        ∗ ownsTc c (st4_0 t) fullShare ((dat4 V q c).after 0 t)
        ∗ ownsTc c (st4_1 t) fullShare ((dat4 V q c).after 1 t)
        ∗ ownsTc c (st4_2 t) fullShare ((dat4 V q c).after 2 t)
        ∗ ownsTc c (st4_3 t) fullShare ((dat4 V q c).after 3 t)
        ∗ ownsTc c (st4_4 t) fullShare ((dat4 V q c).after 4 t))) := by
  unfold bodyAt4
  rw [show @cc4__layer_kernel F _ _ = layerKernel from rfl]
  simp only [before4_in V q c 0 rfl, before4_in V q c 1 rfl, before4_in V q c 2 rfl, before4_in V q c 3 rfl, after4_out]
  rewrite [show (dat4 V q c).Φ t.succ = (dat4 V q c).Φ t.castSucc from rfl,
    show (dat4 V q c).owesAt () t.succ = (dat4 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation4 (q : Fin cfg4.W → PosShare TreeShare) (c : Dev nD) :
    BodyObligation (dat4 (F := F) V q c) (defs₀ (F := F)) Variants.none () Set.univ := fun t => by
  rw [bigSep_W4, bigSep_W4]
  exact sound_body4 V q c t

end Cert.Kernel.Hand

end
-- ==== Proof.K.Region5.lean ====
/- Region 5 (one layer's row-tile kernel): what the body leaves in its output tile as a function of its four input tiles, the body's run, and the proof data at any entry contents. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import proofs.«173786_j46231027974388_2_alg».proof.Proof.K.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The region's proof data at entry contents `V`: an input tile stays its block, the output tile is `layerOut` of them. -/
def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => layerOut (iblk5 V c 0 t) (iblk5 V c 1 t) (iblk5 V c 2 t) (iblk5 V c 3 t)
  Φ _ := Pipeline.ΦA spec5 c
  q := q
  owed _ := 0

theorem A_eq5 (q : Fin cfg5.W → PosShare TreeShare) (c : Dev nD) (w : Fin cfg5.W) : (dat5 V q c).A w = V c (Pipeline.arrRef spec5 w) := by
  dsimp only [dat5]

theorem after5_4 (q : Fin cfg5.W → PosShare TreeShare) (c : Dev nD) (t : Fin cfg5.N) :
    (dat5 V q c).after 4 t = layerOut (iblk5 V c 0 t) (iblk5 V c 1 t) (iblk5 V c 2 t) (iblk5 V c 3 t) := by dsimp only [dat5]

/-- The body writes no input window, so what it finds in one is what it leaves there. -/
theorem before5_in (q : Fin cfg5.W → PosShare TreeShare) (c : Dev nD) (w : Fin cfg5.W) (hw : (cfg5.win w).isOut = false) (t : Fin cfg5.N) (d) :
    (dat5 V q c).before w t d = (dat5 V q c).after w t := by
  match w, hw with
  | ⟨0, _⟩, _ | ⟨1, _⟩, _ | ⟨2, _⟩, _ | ⟨3, _⟩, _ =>
    exact ((dat5 V q c).before_in_eq_fetched _ rfl (fun _ => rfl) (fun _ _ _ => rfl) (fun _ => rfl) t d).trans rfl
  | ⟨4, _⟩, hw => exact Bool.noConfusion hw

theorem after5_out (q : Fin cfg5.W → PosShare TreeShare) (c : Dev nD) (t : Fin cfg5.N) : (dat5 V q c).after 4 t =
    layerOut ((dat5 V q c).after 0 t) ((dat5 V q c).after 1 t) ((dat5 V q c).after 2 t) ((dat5 V q c).after 3 t) := by dsimp only [dat5]

/-- The inputs are as the body leaves them, so the body's triple applies at every point. -/
theorem sound_body5 (q : Fin cfg5.W → PosShare TreeShare) (c : Dev nD) (t : Fin cfg5.N) :
    iprop((dat5 V q c).Φ t.castSucc ∗ (dat5 V q c).owesAt () t.castSucc
      ∗ (∃ d, ownsTc c (st5_0 t) fullShare ((dat5 V q c).before 0 t d))
      ∗ (∃ d, ownsTc c (st5_1 t) fullShare ((dat5 V q c).before 1 t d))
      ∗ (∃ d, ownsTc c (st5_2 t) fullShare ((dat5 V q c).before 2 t d))
      ∗ (∃ d, ownsTc c (st5_3 t) fullShare ((dat5 V q c).before 3 t d))
      ∗ (∃ d, ownsTc c (st5_4 t) fullShare ((dat5 V q c).before 4 t d)))
    ⊢ wp frame (wpE (defs₀ (F := F)) Variants.none c none) Set.univ (bodyAt5 t) (fun _ =>
      iprop((dat5 V q c).Φ t.succ ∗ (dat5 V q c).owesAt () t.succ
        ∗ ownsTc c (st5_0 t) fullShare ((dat5 V q c).after 0 t)
        ∗ ownsTc c (st5_1 t) fullShare ((dat5 V q c).after 1 t)
        ∗ ownsTc c (st5_2 t) fullShare ((dat5 V q c).after 2 t)
        ∗ ownsTc c (st5_3 t) fullShare ((dat5 V q c).after 3 t)
        ∗ ownsTc c (st5_4 t) fullShare ((dat5 V q c).after 4 t))) := by
  unfold bodyAt5
  rw [show @cc5__layer_kernel F _ _ = layerKernel from rfl]
  simp only [before5_in V q c 0 rfl, before5_in V q c 1 rfl, before5_in V q c 2 rfl, before5_in V q c 3 rfl, after5_out]
  rewrite [show (dat5 V q c).Φ t.succ = (dat5 V q c).Φ t.castSucc from rfl,
    show (dat5 V q c).owesAt () t.succ = (dat5 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation5 (q : Fin cfg5.W → PosShare TreeShare) (c : Dev nD) :
    BodyObligation (dat5 (F := F) V q c) (defs₀ (F := F)) Variants.none () Set.univ := fun t => by
  rw [bigSep_W5, bigSep_W5]
  exact sound_body5 V q c t

end Cert.Kernel.Hand

end
-- ==== Proof.K.Region6.lean ====
/- Region 6 (one layer's row-tile kernel): what the body leaves in its output tile as a function of its four input tiles, the body's run, and the proof data at any entry contents. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import proofs.«173786_j46231027974388_2_alg».proof.Proof.K.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The region's proof data at entry contents `V`: an input tile stays its block, the output tile is `layerOut` of them. -/
def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => layerOut (iblk6 V c 0 t) (iblk6 V c 1 t) (iblk6 V c 2 t) (iblk6 V c 3 t)
  Φ _ := Pipeline.ΦA spec6 c
  q := q
  owed _ := 0

theorem A_eq6 (q : Fin cfg6.W → PosShare TreeShare) (c : Dev nD) (w : Fin cfg6.W) : (dat6 V q c).A w = V c (Pipeline.arrRef spec6 w) := by
  dsimp only [dat6]

theorem after6_4 (q : Fin cfg6.W → PosShare TreeShare) (c : Dev nD) (t : Fin cfg6.N) :
    (dat6 V q c).after 4 t = layerOut (iblk6 V c 0 t) (iblk6 V c 1 t) (iblk6 V c 2 t) (iblk6 V c 3 t) := by dsimp only [dat6]

/-- The body writes no input window, so what it finds in one is what it leaves there. -/
theorem before6_in (q : Fin cfg6.W → PosShare TreeShare) (c : Dev nD) (w : Fin cfg6.W) (hw : (cfg6.win w).isOut = false) (t : Fin cfg6.N) (d) :
    (dat6 V q c).before w t d = (dat6 V q c).after w t := by
  match w, hw with
  | ⟨0, _⟩, _ | ⟨1, _⟩, _ | ⟨2, _⟩, _ | ⟨3, _⟩, _ =>
    exact ((dat6 V q c).before_in_eq_fetched _ rfl (fun _ => rfl) (fun _ _ _ => rfl) (fun _ => rfl) t d).trans rfl
  | ⟨4, _⟩, hw => exact Bool.noConfusion hw

theorem after6_out (q : Fin cfg6.W → PosShare TreeShare) (c : Dev nD) (t : Fin cfg6.N) : (dat6 V q c).after 4 t =
    layerOut ((dat6 V q c).after 0 t) ((dat6 V q c).after 1 t) ((dat6 V q c).after 2 t) ((dat6 V q c).after 3 t) := by dsimp only [dat6]

/-- The inputs are as the body leaves them, so the body's triple applies at every point. -/
theorem sound_body6 (q : Fin cfg6.W → PosShare TreeShare) (c : Dev nD) (t : Fin cfg6.N) :
    iprop((dat6 V q c).Φ t.castSucc ∗ (dat6 V q c).owesAt () t.castSucc
      ∗ (∃ d, ownsTc c (st6_0 t) fullShare ((dat6 V q c).before 0 t d))
      ∗ (∃ d, ownsTc c (st6_1 t) fullShare ((dat6 V q c).before 1 t d))
      ∗ (∃ d, ownsTc c (st6_2 t) fullShare ((dat6 V q c).before 2 t d))
      ∗ (∃ d, ownsTc c (st6_3 t) fullShare ((dat6 V q c).before 3 t d))
      ∗ (∃ d, ownsTc c (st6_4 t) fullShare ((dat6 V q c).before 4 t d)))
    ⊢ wp frame (wpE (defs₀ (F := F)) Variants.none c none) Set.univ (bodyAt6 t) (fun _ =>
      iprop((dat6 V q c).Φ t.succ ∗ (dat6 V q c).owesAt () t.succ
        ∗ ownsTc c (st6_0 t) fullShare ((dat6 V q c).after 0 t)
        ∗ ownsTc c (st6_1 t) fullShare ((dat6 V q c).after 1 t)
        ∗ ownsTc c (st6_2 t) fullShare ((dat6 V q c).after 2 t)
        ∗ ownsTc c (st6_3 t) fullShare ((dat6 V q c).after 3 t)
        ∗ ownsTc c (st6_4 t) fullShare ((dat6 V q c).after 4 t))) := by
  unfold bodyAt6
  rw [show @cc6__layer_kernel F _ _ = layerKernel from rfl]
  simp only [before6_in V q c 0 rfl, before6_in V q c 1 rfl, before6_in V q c 2 rfl, before6_in V q c 3 rfl, after6_out]
  rewrite [show (dat6 V q c).Φ t.succ = (dat6 V q c).Φ t.castSucc from rfl,
    show (dat6 V q c).owesAt () t.succ = (dat6 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation6 (q : Fin cfg6.W → PosShare TreeShare) (c : Dev nD) :
    BodyObligation (dat6 (F := F) V q c) (defs₀ (F := F)) Variants.none () Set.univ := fun t => by
  rw [bigSep_W6, bigSep_W6]
  exact sound_body6 V q c t

end Cert.Kernel.Hand

end
-- ==== Proof.K.Region7.lean ====
/- Region 7 (one layer's row-tile kernel): what the body leaves in its output tile as a function of its four input tiles, the body's run, and the proof data at any entry contents. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import proofs.«173786_j46231027974388_2_alg».proof.Proof.K.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The region's proof data at entry contents `V`: an input tile stays its block, the output tile is `layerOut` of them. -/
def dat7 (q : Fin cfg7.W → PosShare TreeShare) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => layerOut (iblk7 V c 0 t) (iblk7 V c 1 t) (iblk7 V c 2 t) (iblk7 V c 3 t)
  Φ _ := Pipeline.ΦA spec7 c
  q := q
  owed _ := 0

theorem A_eq7 (q : Fin cfg7.W → PosShare TreeShare) (c : Dev nD) (w : Fin cfg7.W) : (dat7 V q c).A w = V c (Pipeline.arrRef spec7 w) := by
  dsimp only [dat7]

theorem after7_4 (q : Fin cfg7.W → PosShare TreeShare) (c : Dev nD) (t : Fin cfg7.N) :
    (dat7 V q c).after 4 t = layerOut (iblk7 V c 0 t) (iblk7 V c 1 t) (iblk7 V c 2 t) (iblk7 V c 3 t) := by dsimp only [dat7]

/-- The body writes no input window, so what it finds in one is what it leaves there. -/
theorem before7_in (q : Fin cfg7.W → PosShare TreeShare) (c : Dev nD) (w : Fin cfg7.W) (hw : (cfg7.win w).isOut = false) (t : Fin cfg7.N) (d) :
    (dat7 V q c).before w t d = (dat7 V q c).after w t := by
  match w, hw with
  | ⟨0, _⟩, _ | ⟨1, _⟩, _ | ⟨2, _⟩, _ | ⟨3, _⟩, _ =>
    exact ((dat7 V q c).before_in_eq_fetched _ rfl (fun _ => rfl) (fun _ _ _ => rfl) (fun _ => rfl) t d).trans rfl
  | ⟨4, _⟩, hw => exact Bool.noConfusion hw

theorem after7_out (q : Fin cfg7.W → PosShare TreeShare) (c : Dev nD) (t : Fin cfg7.N) : (dat7 V q c).after 4 t =
    layerOut ((dat7 V q c).after 0 t) ((dat7 V q c).after 1 t) ((dat7 V q c).after 2 t) ((dat7 V q c).after 3 t) := by dsimp only [dat7]

/-- The inputs are as the body leaves them, so the body's triple applies at every point. -/
theorem sound_body7 (q : Fin cfg7.W → PosShare TreeShare) (c : Dev nD) (t : Fin cfg7.N) :
    iprop((dat7 V q c).Φ t.castSucc ∗ (dat7 V q c).owesAt () t.castSucc
      ∗ (∃ d, ownsTc c (st7_0 t) fullShare ((dat7 V q c).before 0 t d))
      ∗ (∃ d, ownsTc c (st7_1 t) fullShare ((dat7 V q c).before 1 t d))
      ∗ (∃ d, ownsTc c (st7_2 t) fullShare ((dat7 V q c).before 2 t d))
      ∗ (∃ d, ownsTc c (st7_3 t) fullShare ((dat7 V q c).before 3 t d))
      ∗ (∃ d, ownsTc c (st7_4 t) fullShare ((dat7 V q c).before 4 t d)))
    ⊢ wp frame (wpE (defs₀ (F := F)) Variants.none c none) Set.univ (bodyAt7 t) (fun _ =>
      iprop((dat7 V q c).Φ t.succ ∗ (dat7 V q c).owesAt () t.succ
        ∗ ownsTc c (st7_0 t) fullShare ((dat7 V q c).after 0 t)
        ∗ ownsTc c (st7_1 t) fullShare ((dat7 V q c).after 1 t)
        ∗ ownsTc c (st7_2 t) fullShare ((dat7 V q c).after 2 t)
        ∗ ownsTc c (st7_3 t) fullShare ((dat7 V q c).after 3 t)
        ∗ ownsTc c (st7_4 t) fullShare ((dat7 V q c).after 4 t))) := by
  unfold bodyAt7
  rw [show @cc7__layer_kernel F _ _ = layerKernel from rfl]
  simp only [before7_in V q c 0 rfl, before7_in V q c 1 rfl, before7_in V q c 2 rfl, before7_in V q c 3 rfl, after7_out]
  rewrite [show (dat7 V q c).Φ t.succ = (dat7 V q c).Φ t.castSucc from rfl,
    show (dat7 V q c).owesAt () t.succ = (dat7 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation7 (q : Fin cfg7.W → PosShare TreeShare) (c : Dev nD) :
    BodyObligation (dat7 (F := F) V q c) (defs₀ (F := F)) Variants.none () Set.univ := fun t => by
  rw [bigSep_W7, bigSep_W7]
  exact sound_body7 V q c t

end Cert.Kernel.Hand

end
-- ==== Proof.K.Region8.lean ====
/- Region 8 (one layer's row-tile kernel): what the body leaves in its output tile as a function of its four input tiles, the body's run, and the proof data at any entry contents. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import proofs.«173786_j46231027974388_2_alg».proof.Proof.K.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The region's proof data at entry contents `V`: an input tile stays its block, the output tile is `layerOut` of them. -/
def dat8 (q : Fin cfg8.W → PosShare TreeShare) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => layerOut (iblk8 V c 0 t) (iblk8 V c 1 t) (iblk8 V c 2 t) (iblk8 V c 3 t)
  Φ _ := Pipeline.ΦA spec8 c
  q := q
  owed _ := 0

theorem A_eq8 (q : Fin cfg8.W → PosShare TreeShare) (c : Dev nD) (w : Fin cfg8.W) : (dat8 V q c).A w = V c (Pipeline.arrRef spec8 w) := by
  dsimp only [dat8]

theorem after8_4 (q : Fin cfg8.W → PosShare TreeShare) (c : Dev nD) (t : Fin cfg8.N) :
    (dat8 V q c).after 4 t = layerOut (iblk8 V c 0 t) (iblk8 V c 1 t) (iblk8 V c 2 t) (iblk8 V c 3 t) := by dsimp only [dat8]

/-- The body writes no input window, so what it finds in one is what it leaves there. -/
theorem before8_in (q : Fin cfg8.W → PosShare TreeShare) (c : Dev nD) (w : Fin cfg8.W) (hw : (cfg8.win w).isOut = false) (t : Fin cfg8.N) (d) :
    (dat8 V q c).before w t d = (dat8 V q c).after w t := by
  match w, hw with
  | ⟨0, _⟩, _ | ⟨1, _⟩, _ | ⟨2, _⟩, _ | ⟨3, _⟩, _ =>
    exact ((dat8 V q c).before_in_eq_fetched _ rfl (fun _ => rfl) (fun _ _ _ => rfl) (fun _ => rfl) t d).trans rfl
  | ⟨4, _⟩, hw => exact Bool.noConfusion hw

theorem after8_out (q : Fin cfg8.W → PosShare TreeShare) (c : Dev nD) (t : Fin cfg8.N) : (dat8 V q c).after 4 t =
    layerOut ((dat8 V q c).after 0 t) ((dat8 V q c).after 1 t) ((dat8 V q c).after 2 t) ((dat8 V q c).after 3 t) := by dsimp only [dat8]

/-- The inputs are as the body leaves them, so the body's triple applies at every point. -/
theorem sound_body8 (q : Fin cfg8.W → PosShare TreeShare) (c : Dev nD) (t : Fin cfg8.N) :
    iprop((dat8 V q c).Φ t.castSucc ∗ (dat8 V q c).owesAt () t.castSucc
      ∗ (∃ d, ownsTc c (st8_0 t) fullShare ((dat8 V q c).before 0 t d))
      ∗ (∃ d, ownsTc c (st8_1 t) fullShare ((dat8 V q c).before 1 t d))
      ∗ (∃ d, ownsTc c (st8_2 t) fullShare ((dat8 V q c).before 2 t d))
      ∗ (∃ d, ownsTc c (st8_3 t) fullShare ((dat8 V q c).before 3 t d))
      ∗ (∃ d, ownsTc c (st8_4 t) fullShare ((dat8 V q c).before 4 t d)))
    ⊢ wp frame (wpE (defs₀ (F := F)) Variants.none c none) Set.univ (bodyAt8 t) (fun _ =>
      iprop((dat8 V q c).Φ t.succ ∗ (dat8 V q c).owesAt () t.succ
        ∗ ownsTc c (st8_0 t) fullShare ((dat8 V q c).after 0 t)
        ∗ ownsTc c (st8_1 t) fullShare ((dat8 V q c).after 1 t)
        ∗ ownsTc c (st8_2 t) fullShare ((dat8 V q c).after 2 t)
        ∗ ownsTc c (st8_3 t) fullShare ((dat8 V q c).after 3 t)
        ∗ ownsTc c (st8_4 t) fullShare ((dat8 V q c).after 4 t))) := by
  unfold bodyAt8
  rw [show @cc8__layer_kernel F _ _ = layerKernel from rfl]
  simp only [before8_in V q c 0 rfl, before8_in V q c 1 rfl, before8_in V q c 2 rfl, before8_in V q c 3 rfl, after8_out]
  rewrite [show (dat8 V q c).Φ t.succ = (dat8 V q c).Φ t.castSucc from rfl,
    show (dat8 V q c).owesAt () t.succ = (dat8 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation8 (q : Fin cfg8.W → PosShare TreeShare) (c : Dev nD) :
    BodyObligation (dat8 (F := F) V q c) (defs₀ (F := F)) Variants.none () Set.univ := fun t => by
  rw [bigSep_W8, bigSep_W8]
  exact sound_body8 V q c t

end Cert.Kernel.Hand

end
-- ==== Proof.K.Region9.lean ====
/- Region 9: what the body leaves in its output tile as a function of its three input tiles, the body's run, and the proof data at any entry contents. -/
import proofs.«173786_j46231027974388_2_alg».proof.Proof.Gen.Kernel.Launch
import proofs.«173786_j46231027974388_2_alg».proof.Proof.Gen.Kernel.Skeleton
import proofs.«173786_j46231027974388_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S5000x64 := Rect.unit (s := S5000x64) ![0, 0] S5000x64.size inb_S5000x64_S5000x64_0_0
abbrev r9_1 : Rect S64x40 := Rect.unit (s := S64x40) ![0, 0] S64x40.size inb_S64x40_S64x40_0_0
abbrev r9_2 : Rect S40 := Rect.unit (s := S40) ![0] S40.size inb_S40_S40_0
abbrev r9_o : Rect S5000x40 := Rect.unit (s := S5000x40) ![0, 0] S5000x40.size inb_S5000x40_S5000x40_0_0

/-- The output tile as a function of the three input tiles: one store over the whole tile. -/
def out9_3 (x0 : Vec F S5000x64 .bf16) (x1 : Vec F S64x40 .f32) (x2 : Vec F S40 .f32) : Vec F S5000x40 .f32 :=
  View.canon [⟨r9_o, k9_pay1 (View.ld x0 r9_0) (View.ld x1 r9_1) (View.ld x2 r9_2)⟩]

/-- The region's proof data at entry contents `V`: an input tile stays its block, the output tile is `out9_3` of them. -/
def dat9 (q : Fin cfg9.W → PosShare TreeShare) (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q := q
  owed _ := 0

theorem A_eq9 (q : Fin cfg9.W → PosShare TreeShare) (c : Dev nD) (w : Fin cfg9.W) : (dat9 V q c).A w = V c (Pipeline.arrRef spec9 w) := by
  dsimp only [dat9]

theorem after9_3 (q : Fin cfg9.W → PosShare TreeShare) (c : Dev nD) (t : Fin cfg9.N) :
    (dat9 V q c).after 3 t = out9_3 (iblk9 V c 0 t) (iblk9 V c 1 t) (iblk9 V c 2 t) := by dsimp only [dat9]

/-- The body writes no input window, so what it finds in one is what it leaves there. -/
theorem before9_in (q : Fin cfg9.W → PosShare TreeShare) (c : Dev nD) (w : Fin cfg9.W) (hw : (cfg9.win w).isOut = false) (t : Fin cfg9.N) (d) :
    (dat9 V q c).before w t d = (dat9 V q c).after w t := by
  match w, hw with
  | ⟨0, _⟩, _ | ⟨1, _⟩, _ | ⟨2, _⟩, _ =>
    exact ((dat9 V q c).before_in_eq_fetched _ rfl (fun _ => rfl) (fun _ _ _ => rfl) (fun _ => rfl) t d).trans rfl
  | ⟨3, _⟩, hw => exact Bool.noConfusion hw

/-- The body only loads its inputs and its one store covers the output tile, so the tile ends at `out9_3` of the inputs whatever it held. -/
theorem sound_kernel9 (c : Dev nD) (E : Set ℕ) (i : grid9.Coords)
    (arg1 : Memref sig .tc .vmem S5000x64 .bf16) (harg1 : arg1.IsWhole)
    (arg2 : Memref sig .tc .vmem S64x40 .f32) (harg2 : arg2.IsWhole)
    (arg3 : Memref sig .tc .vmem S40 .f32) (harg3 : arg3.IsWhole)
    (arg4 : Memref sig .tc .vmem S5000x40 .f32) (harg4 : arg4.IsWhole)
    (x0 : Vec F S5000x64 .bf16) (x1 : Vec F S64x40 .f32) (x2 : Vec F S40 .f32) (K : PUnit → sProp 𝕄) :
    iprop(ownsTc c arg1 fullShare x0 ∗ ownsTc c arg2 fullShare x1
        ∗ ownsTc c arg3 fullShare x2 ∗ (∃ d, ownsTc c arg4 fullShare d)
        ∗ (iprop(ownsTc c arg4 fullShare (out9_3 x0 x1 x2) ∗ ownsTc c arg1 fullShare x0
            ∗ ownsTc c arg2 fullShare x1 ∗ ownsTc c arg3 fullShare x2) -∗ K ⟨⟩))
      ⊢ wp frame (wpE (defs₀ (F := F)) Variants.none c none) E (cc9__logits_kernel i arg1 harg1 arg2 harg2 arg3 harg3 arg4 harg4) K := by
  simp only [cc9__logits_kernel_eq_skeleton]; unfold cc9__logits_kernel_skel
  unfold ownsTc owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H3]
  · iexists _; isplitr
    swap; · iexact H3
    ipureintro; exact View.read_writes_eq_canon _ _ _ (View.cover_of_tiled _ S5000x40.size (by rfl))
  sl_close

theorem after9_out (q : Fin cfg9.W → PosShare TreeShare) (c : Dev nD) (t : Fin cfg9.N) : (dat9 V q c).after 3 t =
    out9_3 ((dat9 V q c).after 0 t) ((dat9 V q c).after 1 t) ((dat9 V q c).after 2 t) := by dsimp only [dat9]

/-- The inputs are as the body leaves them, so the body's triple applies at every point. -/
theorem sound_body9 (q : Fin cfg9.W → PosShare TreeShare) (c : Dev nD) (t : Fin cfg9.N) :
    iprop((dat9 V q c).Φ t.castSucc ∗ (dat9 V q c).owesAt () t.castSucc
      ∗ (∃ d, ownsTc c (st9_0 t) fullShare ((dat9 V q c).before 0 t d))
      ∗ (∃ d, ownsTc c (st9_1 t) fullShare ((dat9 V q c).before 1 t d))
      ∗ (∃ d, ownsTc c (st9_2 t) fullShare ((dat9 V q c).before 2 t d))
      ∗ (∃ d, ownsTc c (st9_3 t) fullShare ((dat9 V q c).before 3 t d)))
    ⊢ wp frame (wpE (defs₀ (F := F)) Variants.none c none) Set.univ (bodyAt9 t) (fun _ =>
      iprop((dat9 V q c).Φ t.succ ∗ (dat9 V q c).owesAt () t.succ
        ∗ ownsTc c (st9_0 t) fullShare ((dat9 V q c).after 0 t)
        ∗ ownsTc c (st9_1 t) fullShare ((dat9 V q c).after 1 t)
        ∗ ownsTc c (st9_2 t) fullShare ((dat9 V q c).after 2 t)
        ∗ ownsTc c (st9_3 t) fullShare ((dat9 V q c).after 3 t))) := by
  unfold bodyAt9
  simp only [before9_in V q c 0 rfl, before9_in V q c 1 rfl, before9_in V q c 2 rfl, after9_out]
  rewrite [show (dat9 V q c).Φ t.succ = (dat9 V q c).Φ t.castSucc from rfl,
    show (dat9 V q c).owesAt () t.succ = (dat9 V q c).owesAt () t.castSucc from rfl]
  iintro ⟨HΦ, Ho, ⟨%d0, H0⟩, ⟨%d1, H1⟩, ⟨%d2, H2⟩, ⟨%d3, H3⟩⟩
  iapply (sound_kernel9 c Set.univ _ _ _ _ _ _ _ _ _ _ _ _ _)
  iframe H0 H1 H2
  isplitl [H3]; · iexists _; iexact H3
  iintro ⟨H3, H0, H1, H2⟩
  iframe HΦ Ho H0 H1 H2
  iexact H3

theorem body_obligation9 (q : Fin cfg9.W → PosShare TreeShare) (c : Dev nD) :
    BodyObligation (dat9 (F := F) V q c) (defs₀ (F := F)) Variants.none () Set.univ := fun t => by
  rw [bigSep_W9, bigSep_W9]
  exact sound_body9 V q c t

end Cert.Kernel.Hand

end
-- ==== Proof.K.PDats.lean ====
/- The contents every core's buffers hold between two items of the program, each region's output named as what its write-backs leave. -/
import proofs.«173786_j46231027974388_2_alg».proof.Proof.KernelRegions
import proofs.«173786_j46231027974388_2_alg».proof.Proof.K.Region0
import proofs.«173786_j46231027974388_2_alg».proof.Proof.K.Region1
import proofs.«173786_j46231027974388_2_alg».proof.Proof.K.Region2
import proofs.«173786_j46231027974388_2_alg».proof.Proof.K.Region3
import proofs.«173786_j46231027974388_2_alg».proof.Proof.K.Region4
import proofs.«173786_j46231027974388_2_alg».proof.Proof.K.Region5
import proofs.«173786_j46231027974388_2_alg».proof.Proof.K.Region6
import proofs.«173786_j46231027974388_2_alg».proof.Proof.K.Region7
import proofs.«173786_j46231027974388_2_alg».proof.Proof.K.Region8
import proofs.«173786_j46231027974388_2_alg».proof.Proof.K.Region9

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev qfull {n : Nat} : Fin n → PosShare TreeShare := fun _ => fullShare

def q1 : Fin cfg1.W → PosShare TreeShare := fun w => match w with
  | ⟨0, _⟩ => fullShare
  | ⟨1, _⟩ => fullShare.left
  | ⟨2, _⟩ => fullShare.right
  | ⟨3, _⟩ => fullShare
  | ⟨4, _⟩ => fullShare

abbrev atTc (W : Dev nD → Valuation τ sig (Elt F)) : (c : Dev nD) → (b : Ref sig .tc) → Buf (Elt F) ((c : Thread nD τ).loc b) := fun c b => W c b

abbrev U5 (c : Dev nD) : Valuation τ sig (Elt F) := V5 m c

def o0 (c : Dev nD) : Buf (Elt F) ((c : Thread nD τ).loc main_v36) := (dat0 (atTc (U5 m)) qfull c).arrAt 3 cfg0.N

def U6 (c : Dev nD) : Valuation τ sig (Elt F) := Function.update (U5 m c) main_v36 (o0 m c)

def U7 (c : Dev nD) : Valuation τ sig (Elt F) := StableHlo.after hostOps1 (U6 m c)

def o1 (c : Dev nD) : Buf (Elt F) ((c : Thread nD τ).loc main_v53) := (dat1 (atTc (U7 m)) q1 c).arrAt 4 cfg1.N

def U8 (c : Dev nD) : Valuation τ sig (Elt F) := Function.update (U7 m c) main_v53 (o1 m c)

def U9 (c : Dev nD) : Valuation τ sig (Elt F) := StableHlo.after hostOps2 (U8 m c)

def o2 (c : Dev nD) : Buf (Elt F) ((c : Thread nD τ).loc main_v70) := (dat2 (atTc (U9 m)) qfull c).arrAt 4 cfg2.N

def U10 (c : Dev nD) : Valuation τ sig (Elt F) := Function.update (U9 m c) main_v70 (o2 m c)

def U11 (c : Dev nD) : Valuation τ sig (Elt F) := StableHlo.after hostOps3 (U10 m c)

def o3 (c : Dev nD) : Buf (Elt F) ((c : Thread nD τ).loc main_v87) := (dat3 (atTc (U11 m)) qfull c).arrAt 4 cfg3.N

def U12 (c : Dev nD) : Valuation τ sig (Elt F) := Function.update (U11 m c) main_v87 (o3 m c)

def U13 (c : Dev nD) : Valuation τ sig (Elt F) := StableHlo.after hostOps4 (U12 m c)

def o4 (c : Dev nD) : Buf (Elt F) ((c : Thread nD τ).loc main_v104) := (dat4 (atTc (U13 m)) qfull c).arrAt 4 cfg4.N

def U14 (c : Dev nD) : Valuation τ sig (Elt F) := Function.update (U13 m c) main_v104 (o4 m c)

def U15 (c : Dev nD) : Valuation τ sig (Elt F) := StableHlo.after hostOps5 (U14 m c)

def o5 (c : Dev nD) : Buf (Elt F) ((c : Thread nD τ).loc main_v121) := (dat5 (atTc (U15 m)) qfull c).arrAt 4 cfg5.N

def U16 (c : Dev nD) : Valuation τ sig (Elt F) := Function.update (U15 m c) main_v121 (o5 m c)

def U17 (c : Dev nD) : Valuation τ sig (Elt F) := StableHlo.after hostOps6 (U16 m c)

def o6 (c : Dev nD) : Buf (Elt F) ((c : Thread nD τ).loc main_v138) := (dat6 (atTc (U17 m)) qfull c).arrAt 4 cfg6.N

def U18 (c : Dev nD) : Valuation τ sig (Elt F) := Function.update (U17 m c) main_v138 (o6 m c)

def U19 (c : Dev nD) : Valuation τ sig (Elt F) := StableHlo.after hostOps7 (U18 m c)

def o7 (c : Dev nD) : Buf (Elt F) ((c : Thread nD τ).loc main_v155) := (dat7 (atTc (U19 m)) qfull c).arrAt 4 cfg7.N

def U20 (c : Dev nD) : Valuation τ sig (Elt F) := Function.update (U19 m c) main_v155 (o7 m c)

def U21 (c : Dev nD) : Valuation τ sig (Elt F) := StableHlo.after hostOps8 (U20 m c)

def o8 (c : Dev nD) : Buf (Elt F) ((c : Thread nD τ).loc main_v172) := (dat8 (atTc (U21 m)) qfull c).arrAt 4 cfg8.N

def U22 (c : Dev nD) : Valuation τ sig (Elt F) := Function.update (U21 m c) main_v172 (o8 m c)

def o9 (c : Dev nD) : Buf (Elt F) ((c : Thread nD τ).loc main_v173) := (dat9 (atTc (U22 m)) qfull c).arrAt 3 cfg9.N

def U23 (c : Dev nD) : Valuation τ sig (Elt F) := Function.update (U22 m c) main_v173 (o9 m c)

def outs : Outs (F := F) := fun J r c => match J with
  | 6 => U6 m c r
  | 8 => U8 m c r
  | 10 => U10 m c r
  | 12 => U12 m c r
  | 14 => U14 m c r
  | 16 => U16 m c r
  | 18 => U18 m c r
  | 20 => U20 m c r
  | 22 => U22 m c r
  | _ => U23 m c r

def pdats : (p : Fin 10) → (c : Dev nD) → Dat τ (Elt F) Unit ℕ (UR sig nD τ) ℕ (cfgs p) c
  | ⟨0, _⟩ => fun c => dat0 (atTc (U5 m)) qfull c
  | ⟨1, _⟩ => fun c => dat1 (atTc (U7 m)) q1 c
  | ⟨2, _⟩ => fun c => dat2 (atTc (U9 m)) qfull c
  | ⟨3, _⟩ => fun c => dat3 (atTc (U11 m)) qfull c
  | ⟨4, _⟩ => fun c => dat4 (atTc (U13 m)) qfull c
  | ⟨5, _⟩ => fun c => dat5 (atTc (U15 m)) qfull c
  | ⟨6, _⟩ => fun c => dat6 (atTc (U17 m)) qfull c
  | ⟨7, _⟩ => fun c => dat7 (atTc (U19 m)) qfull c
  | ⟨8, _⟩ => fun c => dat8 (atTc (U21 m)) qfull c
  | ⟨9, _⟩ => fun c => dat9 (atTc (U22 m)) qfull c

abbrev 𝒱₀ : Variants := Variants.none

abbrev L : GSem nD τ sig → Finset Unit := fun _ => ∅
abbrev lv : GSem nD τ sig → Unit → ℕ := fun _ _ => 0

local notation "𝕄" => MT nD τ sig Unit (Elt F) ℕ (UR sig nD τ) ℕ

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem V6_eq (c : Dev nD) : V6 m (outs m) c = U6 m c := by
  show Function.update (V5 m c) main_v36 (U6 m c main_v36) = U6 m c
  unfold U6; rw [Function.update_self]
theorem V7_eq (c : Dev nD) : V7 m (outs m) c = U7 m c := by
  show StableHlo.after hostOps1 (V6 m (outs m) c) = _
  rw [V6_eq]; rfl
theorem V8_eq (c : Dev nD) : V8 m (outs m) c = U8 m c := by
  show Function.update (V7 m (outs m) c) main_v53 (U8 m c main_v53) = U8 m c
  rw [V7_eq]; unfold U8; rw [Function.update_self]
theorem V9_eq (c : Dev nD) : V9 m (outs m) c = U9 m c := by
  show StableHlo.after hostOps2 (V8 m (outs m) c) = _
  rw [V8_eq]; rfl
theorem V10_eq (c : Dev nD) : V10 m (outs m) c = U10 m c := by
  show Function.update (V9 m (outs m) c) main_v70 (U10 m c main_v70) = U10 m c
  rw [V9_eq]; unfold U10; rw [Function.update_self]
theorem V11_eq (c : Dev nD) : V11 m (outs m) c = U11 m c := by
  show StableHlo.after hostOps3 (V10 m (outs m) c) = _
  rw [V10_eq]; rfl
theorem V12_eq (c : Dev nD) : V12 m (outs m) c = U12 m c := by
  show Function.update (V11 m (outs m) c) main_v87 (U12 m c main_v87) = U12 m c
  rw [V11_eq]; unfold U12; rw [Function.update_self]
theorem V13_eq (c : Dev nD) : V13 m (outs m) c = U13 m c := by
  show StableHlo.after hostOps4 (V12 m (outs m) c) = _
  rw [V12_eq]; rfl
theorem V14_eq (c : Dev nD) : V14 m (outs m) c = U14 m c := by
  show Function.update (V13 m (outs m) c) main_v104 (U14 m c main_v104) = U14 m c
  rw [V13_eq]; unfold U14; rw [Function.update_self]
theorem V15_eq (c : Dev nD) : V15 m (outs m) c = U15 m c := by
  show StableHlo.after hostOps5 (V14 m (outs m) c) = _
  rw [V14_eq]; rfl
theorem V16_eq (c : Dev nD) : V16 m (outs m) c = U16 m c := by
  show Function.update (V15 m (outs m) c) main_v121 (U16 m c main_v121) = U16 m c
  rw [V15_eq]; unfold U16; rw [Function.update_self]
theorem V17_eq (c : Dev nD) : V17 m (outs m) c = U17 m c := by
  show StableHlo.after hostOps6 (V16 m (outs m) c) = _
  rw [V16_eq]; rfl
theorem V18_eq (c : Dev nD) : V18 m (outs m) c = U18 m c := by
  show Function.update (V17 m (outs m) c) main_v138 (U18 m c main_v138) = U18 m c
  rw [V17_eq]; unfold U18; rw [Function.update_self]
theorem V19_eq (c : Dev nD) : V19 m (outs m) c = U19 m c := by
  show StableHlo.after hostOps7 (V18 m (outs m) c) = _
  rw [V18_eq]; rfl
theorem V20_eq (c : Dev nD) : V20 m (outs m) c = U20 m c := by
  show Function.update (V19 m (outs m) c) main_v155 (U20 m c main_v155) = U20 m c
  rw [V19_eq]; unfold U20; rw [Function.update_self]
theorem V21_eq (c : Dev nD) : V21 m (outs m) c = U21 m c := by
  show StableHlo.after hostOps8 (V20 m (outs m) c) = _
  rw [V20_eq]; rfl
theorem V22_eq (c : Dev nD) : V22 m (outs m) c = U22 m c := by
  show Function.update (V21 m (outs m) c) main_v172 (U22 m c main_v172) = U22 m c
  rw [V21_eq]; unfold U22; rw [Function.update_self]
theorem V23_eq (c : Dev nD) : V23 m (outs m) c = U23 m c := by
  show Function.update (V22 m (outs m) c) main_v173 (U23 m c main_v173) = U23 m c
  rw [V22_eq]; unfold U23; rw [Function.update_self]

end Cert.Kernel.Hand

end
-- ==== Proof.SegCommon.lean ====
/- A kernel region as a segment of a program, said once: the core's unscoped buffers split into the region's arrays and the rest at entry and join back at exit, the one output array updated. -/
import Idealize.ShloMosaic.Lib.Pipeline.RegionsLoop
import Idealize.ShloMosaic.Lib.Pipeline.Frame

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig}
variable {Val : EltTy → Type} {U : Type} [URA U] {Λ₀ : Idealize.SL.Sem.Labels} {P : Type} [Fintype P]

local notation "𝕄" => MT nD τ sig Unit Val ℕ U ℕ

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱 : Variants) (Lev : GSem nD τ sig → Finset Unit) (lev : GSem nD τ sig → Unit → ℕ)

/-- Every array is held whole and read off `W`, so the unscoped buffers at `W` are the arrays at entry beside the rest. -/
theorem arrays_of_held (p : P) (hw : WinFacts (pin pcs a p).spec) (harr : ∀ w, ((pin pcs a p).spec w).arr.IsWhole)
    (c : Dev nD) (hq : ∀ w, (pdats p c).q w = fullShare) (W : Valuation τ sig Val)
    (hA : ∀ w, (pdats p c).A w = W (arrRef (pin pcs a p).spec w)) :
    (StableHlo.held (c : Thread nD τ) (ucRefs τ sig) W : sProp 𝕄)
      ⊢ iprop((pdats p c).arrays ((pdats p c).arrAt · 0) ∗ unscopedRest (pin pcs a p).spec c fun b => W b) := by
  rw [← unscopedBufs_held]
  exact arrays_of_unscopedBufs pcs a pdats hw harr c ((pdats p c).share_full hq) (fun b => W b) hA

/-- An input array is never written and `o` is the one output: the arrays at exit and the rest are the buffers at `W` updated at `o`. -/
theorem held_of_arrays (p : P) (hw : WinFacts (pin pcs a p).spec) (harr : ∀ w, ((pin pcs a p).spec w).arr.IsWhole)
    (c : Dev nD) (hq : ∀ w, (pdats p c).q w = fullShare) (W : Valuation τ sig Val)
    (hA : ∀ w, (pdats p c).A w = W (arrRef (pin pcs a p).spec w)) (o : Fin (pin pcs a p).W)
    (ho : ∀ w, ((pin pcs a p).win w).isOut = true → w = o)
    (hne : ∀ w, ((pin pcs a p).win w).isOut = false →
      arrRef (pin pcs a p).spec w ≠ arrRef (pin pcs a p).spec o) :
    iprop((pdats p c).arrays ((pdats p c).arrAt · (pin pcs a p).N) ∗ unscopedRest (pin pcs a p).spec c fun b => W b)
      ⊢ (StableHlo.held (c : Thread nD τ) (ucRefs τ sig)
          (Function.update W (arrRef (pin pcs a p).spec o) ((pdats p c).arrAt o (pin pcs a p).N)) : sProp 𝕄) := by
  rw [← unscopedBufs_held]
  refine unscopedBufs_of_arrays pcs a hw harr c pdats ((pdats p c).share_full hq) (fun b => W b) _ _ (fun w => ?_) fun b hb => ?_
  · cases hio : ((pin pcs a p).win w).isOut
    · exact ((pdats p c).arrAt_in w hio _).trans ((hA w).trans (Function.update_of_ne (StableHlo.devRef_ne_of_ne (hne w hio)) _ _).symm)
    · obtain rfl := ho w hio; rw [Function.update_self]
  · exact Function.update_of_ne (StableHlo.devRef_ne_of_ne fun e => hb (Finset.mem_image.mpr ⟨o, Finset.mem_univ _, e.symm⟩)) _ _

/-- A region's record between two contents of the unscoped buffers, given the split at entry and the join at exit. -/
def regionOfHeld (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (V V' : Dev nD → Valuation τ sig Val)
    (hbody : ∀ c : Dev nD, BodyObligationLoose (pdats p c) defs₀ 𝒱 () Set.univ)
    (howed : ∀ c t, (pdats p c).owed t = 0) (hrec : ∀ c x, x ∈ (pdats p c).recorded 0) (hK : (pcs p).pre.K = 0)
    (hΦ0 : ∀ c, (pdats p c).Φ 0 = ΦA (pin pcs a p).spec c)
    (hΦN : ∀ c, (pdats p c).Φ (Fin.last _) = ΦA (pin pcs a p).spec c)
    (hsplit : ∀ c : Dev nD, (StableHlo.held (c : Thread nD τ) (ucRefs τ sig) (V c) : sProp 𝕄)
      ⊢ iprop((pdats p c).arrays ((pdats p c).arrAt · 0) ∗ unscopedRest (pin pcs a p).spec c fun b => V c b))
    (hjoin : ∀ c : Dev nD, iprop((pdats p c).arrays ((pdats p c).arrAt · (pin pcs a p).N) ∗ unscopedRest (pin pcs a p).spec c fun b => V c b)
      ⊢ (StableHlo.held (c : Thread nD τ) (ucRefs τ sig) (V' c) : sProp 𝕄)) :
    RegionSeg pcs a pdats () defs₀ 𝒱 Lev lev p where
  win := win
  block_pos := block_pos
  stage_whole := stage_whole
  K := PEmpty
  osem k := k.elim
  ho := OwnSemFacts.none _
  hbody := hbody
  hwaits := hwaits_of_owed_zero _ _ _ _ Lev lev p howed
  pre c := iprop(StableHlo.held (c : Thread nD τ) (ucRefs τ sig) (V c) ∗ (∃ r, prngReg c r) ∗ ∃ W, owes (c : Thread nD τ) (0 : CellTallies nD τ sig Unit) W)
  post c := iprop(StableHlo.held (c : Thread nD τ) (ucRefs τ sig) (V' c) ∗ (∃ r, prngReg c r) ∗ ∃ W, owes (c : Thread nD τ) (0 : CellTallies nD τ sig Unit) W)
  X c := iprop(∃ r, prngReg c r)
  Y c := iprop(∃ r, prngReg c r)
  Z c := unscopedRest (pin pcs a p).spec c fun b => V c b
  hentry c := by
    rw [ownSems0_none]
    have hs := hsplit c
    haveI : IsEmpty (Fin (pcs p).pre.K) := by rw [hK]; infer_instance
    iintro ⟨⟨Hub, Hp, HO⟩, -, -⟩
    ihave H := hs $$ Hub
    icases H with ⟨Ha, Hrest⟩
    imodintro
    isplitl [Ha]; · iexact Ha
    isplitr; · unfold prefHeld; rw [Finset.univ_eq_empty, BI.bigSep_empty]; iempintro
    isplitl [HO]
    · unfold Dat.owesAt owesWithin; rw [howed]
      icases HO with ⟨%W, HO⟩; iexists W; isplitr; · ipureintro; exact fun x _ => Or.inl (hrec c x)
      iexact HO
    isplitl [Hp]; · iexact Hp
    iexact Hrest
  hin c := by
    rw [hΦ0]; unfold ΦA
    iintro ⟨Hp, -, Hr⟩
    isplitl [Hr]; · iexact Hr
    iexact Hp
  hout c := by
    rw [ownSems0_none, hΦN]; unfold ΦA
    iintro ⟨Hr, Hp⟩
    isplitl [Hp]; · iexact Hp
    isplitr; · iempintro
    iexact Hr
  hexit c := by
    have hj := hjoin c
    iintro ⟨Ha, HO, HY, Hrest⟩
    imodintro
    isplitl [Ha Hrest]
    · iapply hj; isplitl [Ha] <;> iassumption
    isplitl [HY]; · iexact HY
    unfold Dat.owesAt owesWithin; rw [howed]
    icases HO with ⟨%W, -, HO⟩; iexists W; iexact HO

/-- Every array is held whole and `o` is the one output window, so the region leaves the entry contents updated at `o`'s array. -/
def regionOfOut (p : P) (lf : LaunchFacts (nD := nD) (τ := τ) (pin pcs a) p) (V V' : Dev nD → Valuation τ sig Val)
    (hbody : ∀ c : Dev nD, BodyObligationLoose (pdats p c) defs₀ 𝒱 () Set.univ)
    (howed : ∀ c t, (pdats p c).owed t = 0) (hrec : ∀ c x, x ∈ (pdats p c).recorded 0) (hK : (pcs p).pre.K = 0)
    (hΦ0 : ∀ c, (pdats p c).Φ 0 = ΦA (pin pcs a p).spec c)
    (hΦN : ∀ c, (pdats p c).Φ (Fin.last _) = ΦA (pin pcs a p).spec c)
    (hq : ∀ c w, (pdats p c).q w = fullShare) (hA : ∀ c w, (pdats p c).A w = V c (arrRef (pin pcs a p).spec w))
    (o : Fin (pin pcs a p).W) (ho : ∀ w, ((pin pcs a p).win w).isOut = true → w = o)
    (hne : ∀ w, ((pin pcs a p).win w).isOut = false → arrRef (pin pcs a p).spec w ≠ arrRef (pin pcs a p).spec o)
    (hV' : ∀ c, V' c = Function.update (V c) (arrRef (pin pcs a p).spec o) ((pdats p c).arrAt o (pin pcs a p).N)) :
    RegionSeg pcs a pdats () defs₀ 𝒱 Lev lev p :=
  regionOfHeld pcs a pdats defs₀ 𝒱 Lev lev p lf.win.to₀ lf.block_pos lf.stage_whole V V' hbody howed hrec hK hΦ0 hΦN
    (fun c => arrays_of_held pcs a pdats p lf.win lf.arr_whole c (hq c) (V c) (hA c))
    fun c => hV' c ▸ held_of_arrays pcs a pdats p lf.win lf.arr_whole c (hq c) (V c) (hA c) o ho hne

end Cert.Hand

end
-- ==== Proof.K.Seg0.lean ====
/- Region 0 as a segment: entered from the contents before it, left with its output array at what its write-backs leave. -/
import proofs.«173786_j46231027974388_2_alg».proof.Proof.K.PDats
import proofs.«173786_j46231027974388_2_alg».proof.Proof.SegCommon

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 0 enters at `U5` and leaves at `U6`: window 3 is its one output, on `main_v36`. -/
def reg0 : Pipeline.RegionSeg (pcfgs (F := F)) adm (pdats m) () defs₀ 𝒱₀ L lv 0 :=
  regionOfOut pcfgs adm (pdats m) defs₀ 𝒱₀ L lv 0 launch0 (U5 m) (U6 m)
    (fun c => (body_obligation0 (atTc (U5 m)) qfull c).loose) (fun _ _ => rfl) (fun _ _ => trivial) rfl (fun _ => rfl) (fun _ => rfl)
    (fun _ _ => rfl) (fun _ _ => rfl) (3 : Fin cfg0.W)
    (show ∀ w : Fin 4, (spec0 w).isOut = true → w = 3 by decide)
    (show ∀ w : Fin 4, (spec0 w).isOut = false → Pipeline.arrRef spec0 w ≠ main_v36 by decide) fun _ => rfl

end Cert.Kernel.Hand

end
-- ==== Proof.K.Seg1Entry.lean ====
/- Region 1's entry: the unscoped buffers are the five windows' arrays, two of them halves of one array, and the rest. -/
import proofs.«173786_j46231027974388_2_alg».proof.Proof.K.PDats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem img1 : Finset.univ.image (Pipeline.arrRef spec1) = {Pipeline.arrRef spec1 0, Pipeline.arrRef spec1 1, Pipeline.arrRef spec1 3, Pipeline.arrRef spec1 4} := by decide

section Arrays

variable (V : (c : Dev nD) → (b : Ref sig .tc) → Buf (Elt F) ((c : Thread nD τ).loc b)) (c : Dev nD)

theorem share1_0 : (dat1 V q1 c).share 0 = fullShare := by
  unfold Dat.share; rw [show (cfg1.win 0).isOut = false from rfl]; rfl
theorem share1_1 : (dat1 V q1 c).share 1 = fullShare.left := by
  unfold Dat.share; rw [show (cfg1.win 1).isOut = false from rfl]; rfl
theorem share1_2 : (dat1 V q1 c).share 2 = fullShare.right := by
  unfold Dat.share; rw [show (cfg1.win 2).isOut = false from rfl]; rfl
theorem share1_3 : (dat1 V q1 c).share 3 = fullShare := by
  unfold Dat.share; rw [show (cfg1.win 3).isOut = false from rfl]; rfl
theorem share1_4 : (dat1 V q1 c).share 4 = fullShare := by
  unfold Dat.share; rw [show (cfg1.win 4).isOut = true from rfl]; rfl

theorem win1 (w : Fin cfg1.W) :
    ((cfg1.win w).arr.view.loc (c : Thread nD τ) ↦[(cfg1.win w).arr.view.set]{(dat1 V q1 c).share w} (dat1 V q1 c).arrAt w 0 : sProp 𝕄)
      = ((c : Thread nD τ).loc (Pipeline.arrRef spec1 w) ↦{(dat1 V q1 c).share w} V c (Pipeline.arrRef spec1 w)) := by
  rw [(arr_whole1 w).set_eq_univ]; rfl

theorem arrays_of_arrBufs1 :
    (Pipeline.arrBufs (Ix := Unit) (Name := ℕ) (U := UR sig nD τ) (Lvl := ℕ) spec1 c (V c) : sProp 𝕄)
      ⊢ (dat1 V q1 c).arrays ((dat1 V q1 c).arrAt · 0) := by
  unfold Pipeline.arrBufs Dat.arrays
  rw [bigSep_congr (fun w _ => win1 V c w)]
  rw [img1, bigSep_W1, bigSep_insert (by decide), bigSep_insert (by decide), bigSep_insert (by decide), bigSep_singleton]
  rw [share1_0, share1_1, share1_2, share1_3, share1_4]
  rw [show Pipeline.arrRef spec1 2 = Pipeline.arrRef spec1 1 from by decide]
  have hsh : (((c : Thread nD τ).loc (Pipeline.arrRef spec1 1) ↦{fullShare} V c (Pipeline.arrRef spec1 1)) : sProp 𝕄)
      ⊢ iprop(((c : Thread nD τ).loc (Pipeline.arrRef spec1 1) ↦{fullShare.left} V c (Pipeline.arrRef spec1 1))
        ∗ ((c : Thread nD τ).loc (Pipeline.arrRef spec1 1) ↦{fullShare.right} V c (Pipeline.arrRef spec1 1))) :=
    (pointsTo_share (PosShare.mem_left_op_right fullShare)).1
  refine (show (iprop(((c : Thread nD τ).loc (Pipeline.arrRef spec1 0) ↦{fullShare} V c (Pipeline.arrRef spec1 0))
      ∗ ((c : Thread nD τ).loc (Pipeline.arrRef spec1 1) ↦{fullShare} V c (Pipeline.arrRef spec1 1))
      ∗ ((c : Thread nD τ).loc (Pipeline.arrRef spec1 3) ↦{fullShare} V c (Pipeline.arrRef spec1 3))
      ∗ ((c : Thread nD τ).loc (Pipeline.arrRef spec1 4) ↦{fullShare} V c (Pipeline.arrRef spec1 4))) : sProp 𝕄) ⊢ _ from ?_)
  iintro ⟨H0, H1, H3, H4⟩
  ihave H12 := hsh $$ H1
  icases H12 with ⟨H1, H2⟩
  isplitl [H0]; · iexact H0
  isplitl [H1]; · iexact H1
  isplitl [H2]; · iexact H2
  isplitl [H3]; · iexact H3
  iexact H4

end Arrays

theorem arrays_of_held1 (c : Dev nD) :
    (StableHlo.held (c : Thread nD τ) (Pipeline.ucRefs τ sig) (U7 m c) : sProp 𝕄)
      ⊢ iprop((pdats m 1 c).arrays ((pdats m 1 c).arrAt · 0)
          ∗ Pipeline.unscopedRest (Ix := Unit) (Name := ℕ) (U := UR sig nD τ) (Lvl := ℕ) spec1 c (atTc (U7 m) c)) := by
  rw [← Pipeline.unscopedBufs_held (Ix := Unit) (Name := ℕ) (U := UR sig nD τ) (Lvl := ℕ) c (U7 m c),
    Pipeline.unscopedBufs_split₀ cfgs 1 winFacts₀1.arr_unscoped c]
  exact sep_mono (arrays_of_arrBufs1 (atTc (U7 m)) c) .rfl

end Cert.Kernel.Hand

end
-- ==== Proof.K.Seg1Exit.lean ====
/- Region 1's exit: the five windows' arrays put back among the unscoped buffers. -/
import proofs.«173786_j46231027974388_2_alg».proof.Proof.K.PDats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hF1_0 (c : Dev nD) : (pdats m 1 c).arrAt 0 cfg1.N = atTc (U8 m) c (Pipeline.arrRef spec1 0) := by
  refine (((pdats m 1 c).arrAt_in 0 rfl _).trans (A_eq1 (atTc (U7 m)) q1 c 0)).trans ?_
  show U7 m c _ = U8 m c _
  simp only [U8, Function.update_of_ne (StableHlo.devRef_ne_of_ne (by decide) : (Proc.devRef .tc (Pipeline.arrRef spec1 0) : DevRef τ sig) ≠ Proc.devRef .tc main_v53)]
theorem hF1_1 (c : Dev nD) : (pdats m 1 c).arrAt 1 cfg1.N = atTc (U8 m) c (Pipeline.arrRef spec1 1) := by
  refine (((pdats m 1 c).arrAt_in 1 rfl _).trans (A_eq1 (atTc (U7 m)) q1 c 1)).trans ?_
  show U7 m c _ = U8 m c _
  simp only [U8, Function.update_of_ne (StableHlo.devRef_ne_of_ne (by decide) : (Proc.devRef .tc (Pipeline.arrRef spec1 1) : DevRef τ sig) ≠ Proc.devRef .tc main_v53)]
theorem hF1_2 (c : Dev nD) : (pdats m 1 c).arrAt 2 cfg1.N = atTc (U8 m) c (Pipeline.arrRef spec1 2) := by
  refine (((pdats m 1 c).arrAt_in 2 rfl _).trans (A_eq1 (atTc (U7 m)) q1 c 2)).trans ?_
  show U7 m c _ = U8 m c _
  simp only [U8, Function.update_of_ne (StableHlo.devRef_ne_of_ne (by decide) : (Proc.devRef .tc (Pipeline.arrRef spec1 2) : DevRef τ sig) ≠ Proc.devRef .tc main_v53)]
theorem hF1_3 (c : Dev nD) : (pdats m 1 c).arrAt 3 cfg1.N = atTc (U8 m) c (Pipeline.arrRef spec1 3) := by
  refine (((pdats m 1 c).arrAt_in 3 rfl _).trans (A_eq1 (atTc (U7 m)) q1 c 3)).trans ?_
  show U7 m c _ = U8 m c _
  simp only [U8, Function.update_of_ne (StableHlo.devRef_ne_of_ne (by decide) : (Proc.devRef .tc (Pipeline.arrRef spec1 3) : DevRef τ sig) ≠ Proc.devRef .tc main_v53)]
theorem hF1_4 (c : Dev nD) : (pdats m 1 c).arrAt 4 cfg1.N = atTc (U8 m) c (Pipeline.arrRef spec1 4) := by
  show _ = U8 m c _
  simp only [U8, Function.update_self]
  rfl

theorem hrest1 (c : Dev nD) : ∀ b, b ∉ Finset.univ.image (Pipeline.arrRef spec1) → atTc (U8 m) c b = atTc (U7 m) c b := by
  intro b hb
  have hne : b ≠ main_v53 := fun e => hb (by subst e; exact Finset.mem_image.mpr ⟨4, Finset.mem_univ _, rfl⟩)
  show U8 m c _ = U7 m c _
  simp only [U8, Function.update_of_ne (StableHlo.devRef_ne_of_ne hne : (Proc.devRef .tc b : DevRef τ sig) ≠ Proc.devRef .tc main_v53)]

def arrs1 : Fin 4 → Ref sig .tc := ![main_v50, main_v36, main_v52, main_v53]

theorem arrs1_inj : Function.Injective arrs1 := by decide

theorem image_arr1 : Finset.univ.image (Pipeline.arrRef spec1) = Finset.univ.map ⟨arrs1, arrs1_inj⟩ := by decide

theorem bigSep_4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem held_U8 (c : Dev nD) :
    (StableHlo.held (c : Thread nD τ) (Pipeline.ucRefs τ sig) (U8 m c) : sProp 𝕄)
      = iprop(Pipeline.arrBufs (Ix := Unit) (Name := ℕ) (U := UR sig nD τ) (Lvl := ℕ) spec1 c (atTc (U8 m) c)
          ∗ Pipeline.unscopedRest (Ix := Unit) (Name := ℕ) (U := UR sig nD τ) (Lvl := ℕ) spec1 c (atTc (U8 m) c)) :=
  (Pipeline.unscopedBufs_held (Ix := Unit) (Name := ℕ) (U := UR sig nD τ) (Lvl := ℕ) c (U8 m c)).symm.trans
    (Pipeline.unscopedBufs_split₀ cfgs 1 winFacts₀1.arr_unscoped c _)

def arrW (c : Dev nD) (w : Fin cfg1.W) : sProp 𝕄 :=
  View.loc (c : Thread nD τ) (cfg1.win w).arr.view ↦[(cfg1.win w).arr.view.set]{(pdats m 1 c).share w} (pdats m 1 c).arrAt w cfg1.N

def bufB (c : Dev nD) (b : Ref sig .tc) : sProp 𝕄 := (c : Thread nD τ).loc b ↦{fullShare} atTc (U8 m) c b

theorem arrays1_eq (c : Dev nD) :
    (pdats m 1 c).arrays ((pdats m 1 c).arrAt · cfg1.N) = iprop(arrW m c 0 ∗ arrW m c 1 ∗ arrW m c 2 ∗ arrW m c 3 ∗ arrW m c 4) :=
  bigSep_W1 _

theorem arrBufs1_eq (c : Dev nD) :
    (Pipeline.arrBufs (Ix := Unit) (Name := ℕ) (U := UR sig nD τ) (Lvl := ℕ) spec1 c (atTc (U8 m) c) : sProp 𝕄)
      = iprop(bufB m c main_v50 ∗ bufB m c main_v36 ∗ bufB m c main_v52 ∗ bufB m c main_v53) := by
  unfold Pipeline.arrBufs
  rw [image_arr1, bigSep_map, bigSep_4]
  rfl

theorem arrW_0 (c : Dev nD) : arrW m c 0 = ((c : Thread nD τ).loc main_v50 ↦{fullShare} atTc (U8 m) c main_v50 : sProp 𝕄) := by
  unfold arrW
  rw [hF1_0 m c, Memref.IsWhole.set_eq_univ (m := (cfg1.win 0).arr) (arr_whole1 0), show (pdats m 1 c).share 0 = fullShare from rfl]
theorem arrW_1 (c : Dev nD) : arrW m c 1 = ((c : Thread nD τ).loc main_v36 ↦{fullShare.left} atTc (U8 m) c main_v36 : sProp 𝕄) := by
  unfold arrW
  rw [hF1_1 m c, Memref.IsWhole.set_eq_univ (m := (cfg1.win 1).arr) (arr_whole1 1), show (pdats m 1 c).share 1 = fullShare.left from rfl]
theorem arrW_2 (c : Dev nD) : arrW m c 2 = ((c : Thread nD τ).loc main_v36 ↦{fullShare.right} atTc (U8 m) c main_v36 : sProp 𝕄) := by
  unfold arrW
  rw [hF1_2 m c, Memref.IsWhole.set_eq_univ (m := (cfg1.win 2).arr) (arr_whole1 2), show (pdats m 1 c).share 2 = fullShare.right from rfl]
theorem arrW_3 (c : Dev nD) : arrW m c 3 = ((c : Thread nD τ).loc main_v52 ↦{fullShare} atTc (U8 m) c main_v52 : sProp 𝕄) := by
  unfold arrW
  rw [hF1_3 m c, Memref.IsWhole.set_eq_univ (m := (cfg1.win 3).arr) (arr_whole1 3), show (pdats m 1 c).share 3 = fullShare from rfl]
theorem arrW_4 (c : Dev nD) : arrW m c 4 = ((c : Thread nD τ).loc main_v53 ↦{fullShare} atTc (U8 m) c main_v53 : sProp 𝕄) := by
  unfold arrW
  rw [hF1_4 m c, Memref.IsWhole.set_eq_univ (m := (cfg1.win 4).arr) (arr_whole1 4), show (pdats m 1 c).share 4 = fullShare from rfl]

theorem held_of_arrays1 (c : Dev nD) :
    iprop((pdats m 1 c).arrays ((pdats m 1 c).arrAt · cfg1.N)
        ∗ Pipeline.unscopedRest (Ix := Unit) (Name := ℕ) (U := UR sig nD τ) (Lvl := ℕ) spec1 c (atTc (U7 m) c))
      ⊢ (StableHlo.held (c : Thread nD τ) (Pipeline.ucRefs τ sig) (U8 m c) : sProp 𝕄) := by
  rw [held_U8]
  refine sep_mono ?_ (Entails.of_eq ?_)
  · rw [arrays1_eq, arrBufs1_eq, arrW_0, arrW_1, arrW_2, arrW_3, arrW_4]
    unfold bufB
    iintro ⟨H0, H1, H2, H3, H4⟩
    isplitl [H0]; · iexact H0
    isplitl [H1 H2]
    · iapply (pointsTo_share (PosShare.mem_left_op_right fullShare)).2
      isplitl [H1]; · iexact H1
      iexact H2
    isplitl [H3]; · iexact H3
    iexact H4
  · unfold Pipeline.unscopedRest
    exact bigSep_congr fun b hb => by rw [hrest1 m c b (Finset.mem_sdiff.mp hb).2]

end Cert.Kernel.Hand

end
-- ==== Proof.K.Seg1.lean ====
/- Region 1 as a segment; its windows 1 and 2 read one array, each at half its share. -/
import proofs.«173786_j46231027974388_2_alg».proof.Proof.K.Seg1Entry
import proofs.«173786_j46231027974388_2_alg».proof.Proof.K.Seg1Exit
import proofs.«173786_j46231027974388_2_alg».proof.Proof.SegCommon

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 1 enters at `U7` and leaves at `U8`; its windows 1 and 2 share one array, so its own split and join are cited. -/
def reg1 : Pipeline.RegionSeg (pcfgs (F := F)) adm (pdats m) () defs₀ 𝒱₀ L lv 1 :=
  regionOfHeld pcfgs adm (pdats m) defs₀ 𝒱₀ L lv 1 winFacts₀1 block_pos1 stage_whole1 (U7 m) (U8 m)
    (fun c => (body_obligation1 (atTc (U7 m)) q1 c).loose) (fun _ _ => rfl) (fun _ _ => trivial) rfl (fun _ => rfl) (fun _ => rfl)
    (arrays_of_held1 m) (held_of_arrays1 m)

end Cert.Kernel.Hand

end
-- ==== Proof.K.Seg2.lean ====
/- Region 2 as a segment: entered from the contents before it, left with its output array at what its write-backs leave. -/
import proofs.«173786_j46231027974388_2_alg».proof.Proof.K.PDats
import proofs.«173786_j46231027974388_2_alg».proof.Proof.SegCommon

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 2 enters at `U9` and leaves at `U10`: window 4 is its one output, on `main_v70`. -/
def reg2 : Pipeline.RegionSeg (pcfgs (F := F)) adm (pdats m) () defs₀ 𝒱₀ L lv 2 :=
  regionOfOut pcfgs adm (pdats m) defs₀ 𝒱₀ L lv 2 launch2 (U9 m) (U10 m)
    (fun c => (body_obligation2 (atTc (U9 m)) qfull c).loose) (fun _ _ => rfl) (fun _ _ => trivial) rfl (fun _ => rfl) (fun _ => rfl)
    (fun _ _ => rfl) (fun _ _ => rfl) (4 : Fin cfg2.W)
    (show ∀ w : Fin 5, (spec2 w).isOut = true → w = 4 by decide)
    (show ∀ w : Fin 5, (spec2 w).isOut = false → Pipeline.arrRef spec2 w ≠ main_v70 by decide) fun _ => rfl

end Cert.Kernel.Hand

end
-- ==== Proof.K.Seg3.lean ====
/- Region 3 as a segment: entered from the contents before it, left with its output array at what its write-backs leave. -/
import proofs.«173786_j46231027974388_2_alg».proof.Proof.K.PDats
import proofs.«173786_j46231027974388_2_alg».proof.Proof.SegCommon

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 3 enters at `U11` and leaves at `U12`: window 4 is its one output, on `main_v87`. -/
def reg3 : Pipeline.RegionSeg (pcfgs (F := F)) adm (pdats m) () defs₀ 𝒱₀ L lv 3 :=
  regionOfOut pcfgs adm (pdats m) defs₀ 𝒱₀ L lv 3 launch3 (U11 m) (U12 m)
    (fun c => (body_obligation3 (atTc (U11 m)) qfull c).loose) (fun _ _ => rfl) (fun _ _ => trivial) rfl (fun _ => rfl) (fun _ => rfl)
    (fun _ _ => rfl) (fun _ _ => rfl) (4 : Fin cfg3.W)
    (show ∀ w : Fin 5, (spec3 w).isOut = true → w = 4 by decide)
    (show ∀ w : Fin 5, (spec3 w).isOut = false → Pipeline.arrRef spec3 w ≠ main_v87 by decide) fun _ => rfl

end Cert.Kernel.Hand

end
-- ==== Proof.K.Seg4.lean ====
/- Region 4 as a segment: entered from the contents before it, left with its output array at what its write-backs leave. -/
import proofs.«173786_j46231027974388_2_alg».proof.Proof.K.PDats
import proofs.«173786_j46231027974388_2_alg».proof.Proof.SegCommon

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 4 enters at `U13` and leaves at `U14`: window 4 is its one output, on `main_v104`. -/
def reg4 : Pipeline.RegionSeg (pcfgs (F := F)) adm (pdats m) () defs₀ 𝒱₀ L lv 4 :=
  regionOfOut pcfgs adm (pdats m) defs₀ 𝒱₀ L lv 4 launch4 (U13 m) (U14 m)
    (fun c => (body_obligation4 (atTc (U13 m)) qfull c).loose) (fun _ _ => rfl) (fun _ _ => trivial) rfl (fun _ => rfl) (fun _ => rfl)
    (fun _ _ => rfl) (fun _ _ => rfl) (4 : Fin cfg4.W)
    (show ∀ w : Fin 5, (spec4 w).isOut = true → w = 4 by decide)
    (show ∀ w : Fin 5, (spec4 w).isOut = false → Pipeline.arrRef spec4 w ≠ main_v104 by decide) fun _ => rfl

end Cert.Kernel.Hand

end
-- ==== Proof.K.Seg5.lean ====
/- Region 5 as a segment: entered from the contents before it, left with its output array at what its write-backs leave. -/
import proofs.«173786_j46231027974388_2_alg».proof.Proof.K.PDats
import proofs.«173786_j46231027974388_2_alg».proof.Proof.SegCommon

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 5 enters at `U15` and leaves at `U16`: window 4 is its one output, on `main_v121`. -/
def reg5 : Pipeline.RegionSeg (pcfgs (F := F)) adm (pdats m) () defs₀ 𝒱₀ L lv 5 :=
  regionOfOut pcfgs adm (pdats m) defs₀ 𝒱₀ L lv 5 launch5 (U15 m) (U16 m)
    (fun c => (body_obligation5 (atTc (U15 m)) qfull c).loose) (fun _ _ => rfl) (fun _ _ => trivial) rfl (fun _ => rfl) (fun _ => rfl)
    (fun _ _ => rfl) (fun _ _ => rfl) (4 : Fin cfg5.W)
    (show ∀ w : Fin 5, (spec5 w).isOut = true → w = 4 by decide)
    (show ∀ w : Fin 5, (spec5 w).isOut = false → Pipeline.arrRef spec5 w ≠ main_v121 by decide) fun _ => rfl

end Cert.Kernel.Hand

end
-- ==== Proof.K.Seg6.lean ====
/- Region 6 as a segment: entered from the contents before it, left with its output array at what its write-backs leave. -/
import proofs.«173786_j46231027974388_2_alg».proof.Proof.K.PDats
import proofs.«173786_j46231027974388_2_alg».proof.Proof.SegCommon

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 6 enters at `U17` and leaves at `U18`: window 4 is its one output, on `main_v138`. -/
def reg6 : Pipeline.RegionSeg (pcfgs (F := F)) adm (pdats m) () defs₀ 𝒱₀ L lv 6 :=
  regionOfOut pcfgs adm (pdats m) defs₀ 𝒱₀ L lv 6 launch6 (U17 m) (U18 m)
    (fun c => (body_obligation6 (atTc (U17 m)) qfull c).loose) (fun _ _ => rfl) (fun _ _ => trivial) rfl (fun _ => rfl) (fun _ => rfl)
    (fun _ _ => rfl) (fun _ _ => rfl) (4 : Fin cfg6.W)
    (show ∀ w : Fin 5, (spec6 w).isOut = true → w = 4 by decide)
    (show ∀ w : Fin 5, (spec6 w).isOut = false → Pipeline.arrRef spec6 w ≠ main_v138 by decide) fun _ => rfl

end Cert.Kernel.Hand

end
-- ==== Proof.K.Seg7.lean ====
/- Region 7 as a segment: entered from the contents before it, left with its output array at what its write-backs leave. -/
import proofs.«173786_j46231027974388_2_alg».proof.Proof.K.PDats
import proofs.«173786_j46231027974388_2_alg».proof.Proof.SegCommon

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 7 enters at `U19` and leaves at `U20`: window 4 is its one output, on `main_v155`. -/
def reg7 : Pipeline.RegionSeg (pcfgs (F := F)) adm (pdats m) () defs₀ 𝒱₀ L lv 7 :=
  regionOfOut pcfgs adm (pdats m) defs₀ 𝒱₀ L lv 7 launch7 (U19 m) (U20 m)
    (fun c => (body_obligation7 (atTc (U19 m)) qfull c).loose) (fun _ _ => rfl) (fun _ _ => trivial) rfl (fun _ => rfl) (fun _ => rfl)
    (fun _ _ => rfl) (fun _ _ => rfl) (4 : Fin cfg7.W)
    (show ∀ w : Fin 5, (spec7 w).isOut = true → w = 4 by decide)
    (show ∀ w : Fin 5, (spec7 w).isOut = false → Pipeline.arrRef spec7 w ≠ main_v155 by decide) fun _ => rfl

end Cert.Kernel.Hand

end
-- ==== Proof.K.Seg8.lean ====
/- Region 8 as a segment: entered from the contents before it, left with its output array at what its write-backs leave. -/
import proofs.«173786_j46231027974388_2_alg».proof.Proof.K.PDats
import proofs.«173786_j46231027974388_2_alg».proof.Proof.SegCommon

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 8 enters at `U21` and leaves at `U22`: window 4 is its one output, on `main_v172`. -/
def reg8 : Pipeline.RegionSeg (pcfgs (F := F)) adm (pdats m) () defs₀ 𝒱₀ L lv 8 :=
  regionOfOut pcfgs adm (pdats m) defs₀ 𝒱₀ L lv 8 launch8 (U21 m) (U22 m)
    (fun c => (body_obligation8 (atTc (U21 m)) qfull c).loose) (fun _ _ => rfl) (fun _ _ => trivial) rfl (fun _ => rfl) (fun _ => rfl)
    (fun _ _ => rfl) (fun _ _ => rfl) (4 : Fin cfg8.W)
    (show ∀ w : Fin 5, (spec8 w).isOut = true → w = 4 by decide)
    (show ∀ w : Fin 5, (spec8 w).isOut = false → Pipeline.arrRef spec8 w ≠ main_v172 by decide) fun _ => rfl

end Cert.Kernel.Hand

end
-- ==== Proof.K.Seg9.lean ====
/- Region 9 as a segment: entered from the contents before it, left with its output array at what its write-backs leave. -/
import proofs.«173786_j46231027974388_2_alg».proof.Proof.K.PDats
import proofs.«173786_j46231027974388_2_alg».proof.Proof.SegCommon

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 9 enters at `U22` and leaves at `U23`: window 3 is its one output, on `main_v173`. -/
def reg9 : Pipeline.RegionSeg (pcfgs (F := F)) adm (pdats m) () defs₀ 𝒱₀ L lv 9 :=
  regionOfOut pcfgs adm (pdats m) defs₀ 𝒱₀ L lv 9 launch9 (U22 m) (U23 m)
    (fun c => (body_obligation9 (atTc (U22 m)) qfull c).loose) (fun _ _ => rfl) (fun _ _ => trivial) rfl (fun _ => rfl) (fun _ => rfl)
    (fun _ _ => rfl) (fun _ _ => rfl) (3 : Fin cfg9.W)
    (show ∀ w : Fin 4, (spec9 w).isOut = true → w = 3 by decide)
    (show ∀ w : Fin 4, (spec9 w).isOut = false → Pipeline.arrRef spec9 w ≠ main_v173 by decide) fun _ => rfl

end Cert.Kernel.Hand

end
-- ==== Proof.K.Run.lean ====
/- The program's run: the ten region records and the host stretches chained from launch to return; the arguments end as launched. -/
import proofs.«173786_j46231027974388_2_alg».proof.Proof.K.RunCond
import proofs.«173786_j46231027974388_2_alg».proof.Proof.K.Seg0
import proofs.«173786_j46231027974388_2_alg».proof.Proof.K.Seg1
import proofs.«173786_j46231027974388_2_alg».proof.Proof.K.Seg2
import proofs.«173786_j46231027974388_2_alg».proof.Proof.K.Seg3
import proofs.«173786_j46231027974388_2_alg».proof.Proof.K.Seg4
import proofs.«173786_j46231027974388_2_alg».proof.Proof.K.Seg5
import proofs.«173786_j46231027974388_2_alg».proof.Proof.K.Seg6
import proofs.«173786_j46231027974388_2_alg».proof.Proof.K.Seg7
import proofs.«173786_j46231027974388_2_alg».proof.Proof.K.Seg8
import proofs.«173786_j46231027974388_2_alg».proof.Proof.K.Seg9

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = V40 m (outs m) c b) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE10 := fun c => by iintro ⟨-, H⟩; iexact H)
    (R0 := reg0 m) (hpre0 := fun c => .rfl) (hpost0 := fun c => by rw [V6_eq]; exact .rfl)
    (R1 := reg1 m) (hpre1 := fun c => by rw [V7_eq]; exact .rfl) (hpost1 := fun c => by rw [V8_eq]; exact .rfl)
    (R2 := reg2 m) (hpre2 := fun c => by rw [V9_eq]; exact .rfl) (hpost2 := fun c => by rw [V10_eq]; exact .rfl)
    (R3 := reg3 m) (hpre3 := fun c => by rw [V11_eq]; exact .rfl) (hpost3 := fun c => by rw [V12_eq]; exact .rfl)
    (R4 := reg4 m) (hpre4 := fun c => by rw [V13_eq]; exact .rfl) (hpost4 := fun c => by rw [V14_eq]; exact .rfl)
    (R5 := reg5 m) (hpre5 := fun c => by rw [V15_eq]; exact .rfl) (hpost5 := fun c => by rw [V16_eq]; exact .rfl)
    (R6 := reg6 m) (hpre6 := fun c => by rw [V17_eq]; exact .rfl) (hpost6 := fun c => by rw [V18_eq]; exact .rfl)
    (R7 := reg7 m) (hpre7 := fun c => by rw [V19_eq]; exact .rfl) (hpost7 := fun c => by rw [V20_eq]; exact .rfl)
    (R8 := reg8 m) (hpre8 := fun c => by rw [V21_eq]; exact .rfl) (hpost8 := fun c => by rw [V22_eq]; exact .rfl)
    (R9 := reg9 m) (hpre9 := fun c => by rw [V22_eq]; exact .rfl) (hpost9 := fun c => by rw [V23_eq]; exact .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V40_main_arg0 m (outs m) c),
     (h c _ (mem_uc main_arg1 (by decide))).trans (V40_main_arg1 m (outs m) c),
     (h c _ (mem_uc main_arg2 (by decide))).trans (V40_main_arg2 m (outs m) c),
     (h c _ (mem_uc main_arg3 (by decide))).trans (V40_main_arg3 m (outs m) c),
     (h c _ (mem_uc main_arg4 (by decide))).trans (V40_main_arg4 m (outs m) c),
     (h c _ (mem_uc main_arg5 (by decide))).trans (V40_main_arg5 m (outs m) c),
     (h c _ (mem_uc main_arg6 (by decide))).trans (V40_main_arg6 m (outs m) c),
     (h c _ (mem_uc main_arg7 (by decide))).trans (V40_main_arg7 m (outs m) c)⟩) (run_all m ρ)

end Cert.Kernel.Hand

end
-- ==== Proof.KernelIdealRegions.lean ====
/- The program's host stretches, the contents between its items and its segment programs; each stretch writes only the buffers of its list. -/
import proofs.«173786_j46231027974388_2_alg».proof.Proof.Gen.KernelIdeal.Launch
import Idealize.ShloMosaic.Lib.Pipeline.Frame
import Idealize.ShloMosaic.Lib.Pipeline.Regions

set_option maxRecDepth 2028

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := StableHlo.after hostOps0_3 (V3 m c)

abbrev V5 (c : Dev nD) : Valuation τ sig (Elt F) := StableHlo.after hostOps0_4 (V4 m c)

abbrev V6 (c : Dev nD) : Valuation τ sig (Elt F) := Function.update (V5 m c) main_v36 (outs 6 main_v36 c)

abbrev V7 (c : Dev nD) : Valuation τ sig (Elt F) := StableHlo.after hostOps1 (V6 m outs c)

abbrev V8 (c : Dev nD) : Valuation τ sig (Elt F) := Function.update (V7 m outs c) main_v53 (outs 8 main_v53 c)

abbrev V9 (c : Dev nD) : Valuation τ sig (Elt F) := StableHlo.after hostOps2 (V8 m outs c)

abbrev V10 (c : Dev nD) : Valuation τ sig (Elt F) := Function.update (V9 m outs c) main_v70 (outs 10 main_v70 c)

abbrev V11 (c : Dev nD) : Valuation τ sig (Elt F) := StableHlo.after hostOps3 (V10 m outs c)

abbrev V12 (c : Dev nD) : Valuation τ sig (Elt F) := Function.update (V11 m outs c) main_v87 (outs 12 main_v87 c)

abbrev V13 (c : Dev nD) : Valuation τ sig (Elt F) := StableHlo.after hostOps4 (V12 m outs c)

abbrev V14 (c : Dev nD) : Valuation τ sig (Elt F) := Function.update (V13 m outs c) main_v104 (outs 14 main_v104 c)

abbrev V15 (c : Dev nD) : Valuation τ sig (Elt F) := StableHlo.after hostOps5 (V14 m outs c)

abbrev V16 (c : Dev nD) : Valuation τ sig (Elt F) := Function.update (V15 m outs c) main_v121 (outs 16 main_v121 c)

abbrev V17 (c : Dev nD) : Valuation τ sig (Elt F) := StableHlo.after hostOps6 (V16 m outs c)

abbrev V18 (c : Dev nD) : Valuation τ sig (Elt F) := Function.update (V17 m outs c) main_v138 (outs 18 main_v138 c)

abbrev V19 (c : Dev nD) : Valuation τ sig (Elt F) := StableHlo.after hostOps7 (V18 m outs c)

abbrev V20 (c : Dev nD) : Valuation τ sig (Elt F) := Function.update (V19 m outs c) main_v155 (outs 20 main_v155 c)

abbrev V21 (c : Dev nD) : Valuation τ sig (Elt F) := StableHlo.after hostOps8 (V20 m outs c)

abbrev V22 (c : Dev nD) : Valuation τ sig (Elt F) := Function.update (V21 m outs c) main_v172 (outs 22 main_v172 c)

abbrev V23 (c : Dev nD) : Valuation τ sig (Elt F) := Function.update (V22 m outs c) main_v173 (outs 23 main_v173 c)

abbrev V24 (c : Dev nD) : Valuation τ sig (Elt F) := StableHlo.after hostOps10 (V23 m outs c)

abbrev V25 (c : Dev nD) : Valuation τ sig (Elt F) := StableHlo.after hostOps10_1 (V24 m outs c)

abbrev V26 (c : Dev nD) : Valuation τ sig (Elt F) := StableHlo.after hostOps10_2 (V25 m outs c)

abbrev V27 (c : Dev nD) : Valuation τ sig (Elt F) := StableHlo.after hostOps10_3 (V26 m outs c)

abbrev V28 (c : Dev nD) : Valuation τ sig (Elt F) := StableHlo.after hostOps10_4 (V27 m outs c)

abbrev V29 (c : Dev nD) : Valuation τ sig (Elt F) := StableHlo.after hostOps10_5 (V28 m outs c)

abbrev V30 (c : Dev nD) : Valuation τ sig (Elt F) := StableHlo.after hostOps10_6 (V29 m outs c)

abbrev V31 (c : Dev nD) : Valuation τ sig (Elt F) := StableHlo.after hostOps10_7 (V30 m outs c)

abbrev V32 (c : Dev nD) : Valuation τ sig (Elt F) := StableHlo.after hostOps10_8 (V31 m outs c)

abbrev V33 (c : Dev nD) : Valuation τ sig (Elt F) := StableHlo.after hostOps10_9 (V32 m outs c)

abbrev V34 (c : Dev nD) : Valuation τ sig (Elt F) := StableHlo.after hostOps10_10 (V33 m outs c)

abbrev V35 (c : Dev nD) : Valuation τ sig (Elt F) := StableHlo.after hostOps10_11 (V34 m outs c)

abbrev V36 (c : Dev nD) : Valuation τ sig (Elt F) := StableHlo.after hostOps10_12 (V35 m outs c)

abbrev V37 (c : Dev nD) : Valuation τ sig (Elt F) := StableHlo.after hostOps10_13 (V36 m outs c)

abbrev V38 (c : Dev nD) : Valuation τ sig (Elt F) := StableHlo.after hostOps10_14 (V37 m outs c)

abbrev V39 (c : Dev nD) : Valuation τ sig (Elt F) := StableHlo.after hostOps10_15 (V38 m outs c)

abbrev V40 (c : Dev nD) : Valuation τ sig (Elt F) := StableHlo.after hostOps10_16 (V39 m outs c)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5, main_v6, main_v7, main_cst, main_v8, main_v9, main_v10, main_cst_0, main_v11, main_v12, main_cst_1, main_v13, main_v14, main_cst_2]
/-- An operation that writes one buffer of the list writes inside the list. -/
theorem writes_sub_of {op : HloOp τ sig (Elt F)} {Wl : List (Ref sig .tc)} {y : Ref sig .tc} (h : op.writes = {Proc.devRef .tc y}) (hy : y ∈ Wl) :
    op.writes ⊆ (Wl.map (Proc.devRef (τ := τ) .tc)).toFinset := by
  rw [h, Finset.singleton_subset_iff, List.mem_toFinset]; exact List.mem_map_of_mem hy

theorem hostOps0_writes : (hostOps0 : List (HloOp τ sig (Elt F))).Forall fun op => op.writes ⊆ (hostOps0_W.map (Proc.devRef (τ := τ) .tc)).toFinset := by
  simp only [List.Forall]; repeat' apply And.intro
  all_goals exact writes_sub_of rfl (by decide)
theorem hostOps0_1_fresh : (hostOps0_1 : List (HloOp τ sig (Elt F))).Forall fun op => op.fresh = ∅ := by
  simp only [List.Forall]; repeat' constructor

abbrev hostOps0_1_W : List (Ref sig .tc) := [main_call0_v0, main_call0_v1, main_v15]
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals exact writes_sub_of rfl (by decide)
theorem hostOps0_2_fresh : (hostOps0_2 : List (HloOp τ sig (Elt F))).Forall fun op => op.fresh = ∅ := by
  simp only [List.Forall]; repeat' constructor

abbrev hostOps0_2_W : List (Ref sig .tc) := [main_v16, main_cst_3]
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals exact writes_sub_of rfl (by decide)
theorem hostOps0_3_fresh : (hostOps0_3 : List (HloOp τ sig (Elt F))).Forall fun op => op.fresh = ∅ := by
  simp only [List.Forall]; repeat' constructor

abbrev hostOps0_3_W : List (Ref sig .tc) := [main_call1_v0, main_call1_v1, main_v17]
theorem hostOps0_3_writes : (hostOps0_3 : List (HloOp τ sig (Elt F))).Forall fun op => op.writes ⊆ (hostOps0_3_W.map (Proc.devRef (τ := τ) .tc)).toFinset := by
  simp only [List.Forall]; repeat' apply And.intro
  all_goals exact writes_sub_of rfl (by decide)
theorem hostOps0_4_fresh : (hostOps0_4 : List (HloOp τ sig (Elt F))).Forall fun op => op.fresh = ∅ := by
  simp only [List.Forall]; repeat' constructor

abbrev hostOps0_4_W : List (Ref sig .tc) := [main_c, main_v18, main_v19, main_c_4, main_v20, main_v21, main_v22, main_v23, main_v24, main_v25, main_c_5, main_v26, main_v27, main_c_6, main_v28, main_v29, main_v30, main_v31, main_v32, main_v33, main_cst_7, main_v34, main_v35]
theorem hostOps0_4_writes : (hostOps0_4 : List (HloOp τ sig (Elt F))).Forall fun op => op.writes ⊆ (hostOps0_4_W.map (Proc.devRef (τ := τ) .tc)).toFinset := by
  simp only [List.Forall]; repeat' apply And.intro
  all_goals exact writes_sub_of rfl (by decide)
theorem hostOps1_fresh : (hostOps1 : List (HloOp τ sig (Elt F))).Forall fun op => op.fresh = ∅ := by
  simp only [List.Forall]; repeat' constructor

abbrev hostOps1_W : List (Ref sig .tc) := [main_v37, main_c_8, main_v38, main_v39, main_c_9, main_v40, main_v41, main_v42, main_v43, main_v44, main_v45, main_v46, main_v47, main_cst_10, main_v48, main_v49, main_v50, main_v51, main_v52]
theorem hostOps1_writes : (hostOps1 : List (HloOp τ sig (Elt F))).Forall fun op => op.writes ⊆ (hostOps1_W.map (Proc.devRef (τ := τ) .tc)).toFinset := by
  simp only [List.Forall]; repeat' apply And.intro
  all_goals exact writes_sub_of rfl (by decide)
theorem hostOps2_fresh : (hostOps2 : List (HloOp τ sig (Elt F))).Forall fun op => op.fresh = ∅ := by
  simp only [List.Forall]; repeat' constructor

abbrev hostOps2_W : List (Ref sig .tc) := [main_v54, main_c_11, main_v55, main_v56, main_c_12, main_v57, main_v58, main_v59, main_v60, main_v61, main_v62, main_v63, main_v64, main_cst_13, main_v65, main_v66, main_v67, main_v68, main_v69]
theorem hostOps2_writes : (hostOps2 : List (HloOp τ sig (Elt F))).Forall fun op => op.writes ⊆ (hostOps2_W.map (Proc.devRef (τ := τ) .tc)).toFinset := by
  simp only [List.Forall]; repeat' apply And.intro
  all_goals exact writes_sub_of rfl (by decide)
theorem hostOps3_fresh : (hostOps3 : List (HloOp τ sig (Elt F))).Forall fun op => op.fresh = ∅ := by
  simp only [List.Forall]; repeat' constructor

abbrev hostOps3_W : List (Ref sig .tc) := [main_v71, main_c_14, main_v72, main_v73, main_c_15, main_v74, main_v75, main_v76, main_v77, main_v78, main_v79, main_v80, main_v81, main_cst_16, main_v82, main_v83, main_v84, main_v85, main_v86]
theorem hostOps3_writes : (hostOps3 : List (HloOp τ sig (Elt F))).Forall fun op => op.writes ⊆ (hostOps3_W.map (Proc.devRef (τ := τ) .tc)).toFinset := by
  simp only [List.Forall]; repeat' apply And.intro
  all_goals exact writes_sub_of rfl (by decide)
theorem hostOps4_fresh : (hostOps4 : List (HloOp τ sig (Elt F))).Forall fun op => op.fresh = ∅ := by
  simp only [List.Forall]; repeat' constructor

abbrev hostOps4_W : List (Ref sig .tc) := [main_v88, main_c_17, main_v89, main_v90, main_c_18, main_v91, main_v92, main_v93, main_v94, main_v95, main_v96, main_v97, main_v98, main_cst_19, main_v99, main_v100, main_v101, main_v102, main_v103]
theorem hostOps4_writes : (hostOps4 : List (HloOp τ sig (Elt F))).Forall fun op => op.writes ⊆ (hostOps4_W.map (Proc.devRef (τ := τ) .tc)).toFinset := by
  simp only [List.Forall]; repeat' apply And.intro
  all_goals exact writes_sub_of rfl (by decide)
theorem hostOps5_fresh : (hostOps5 : List (HloOp τ sig (Elt F))).Forall fun op => op.fresh = ∅ := by
  simp only [List.Forall]; repeat' constructor

abbrev hostOps5_W : List (Ref sig .tc) := [main_v105, main_c_20, main_v106, main_v107, main_c_21, main_v108, main_v109, main_v110, main_v111, main_v112, main_v113, main_v114, main_v115, main_cst_22, main_v116, main_v117, main_v118, main_v119, main_v120]
theorem hostOps5_writes : (hostOps5 : List (HloOp τ sig (Elt F))).Forall fun op => op.writes ⊆ (hostOps5_W.map (Proc.devRef (τ := τ) .tc)).toFinset := by
  simp only [List.Forall]; repeat' apply And.intro
  all_goals exact writes_sub_of rfl (by decide)
theorem hostOps6_fresh : (hostOps6 : List (HloOp τ sig (Elt F))).Forall fun op => op.fresh = ∅ := by
  simp only [List.Forall]; repeat' constructor

abbrev hostOps6_W : List (Ref sig .tc) := [main_v122, main_c_23, main_v123, main_v124, main_c_24, main_v125, main_v126, main_v127, main_v128, main_v129, main_v130, main_v131, main_v132, main_cst_25, main_v133, main_v134, main_v135, main_v136, main_v137]
theorem hostOps6_writes : (hostOps6 : List (HloOp τ sig (Elt F))).Forall fun op => op.writes ⊆ (hostOps6_W.map (Proc.devRef (τ := τ) .tc)).toFinset := by
  simp only [List.Forall]; repeat' apply And.intro
  all_goals exact writes_sub_of rfl (by decide)
theorem hostOps7_fresh : (hostOps7 : List (HloOp τ sig (Elt F))).Forall fun op => op.fresh = ∅ := by
  simp only [List.Forall]; repeat' constructor

abbrev hostOps7_W : List (Ref sig .tc) := [main_v139, main_c_26, main_v140, main_v141, main_c_27, main_v142, main_v143, main_v144, main_v145, main_v146, main_v147, main_v148, main_v149, main_cst_28, main_v150, main_v151, main_v152, main_v153, main_v154]
theorem hostOps7_writes : (hostOps7 : List (HloOp τ sig (Elt F))).Forall fun op => op.writes ⊆ (hostOps7_W.map (Proc.devRef (τ := τ) .tc)).toFinset := by
  simp only [List.Forall]; repeat' apply And.intro
  all_goals exact writes_sub_of rfl (by decide)
theorem hostOps8_fresh : (hostOps8 : List (HloOp τ sig (Elt F))).Forall fun op => op.fresh = ∅ := by
  simp only [List.Forall]; repeat' constructor

abbrev hostOps8_W : List (Ref sig .tc) := [main_v156, main_c_29, main_v157, main_v158, main_c_30, main_v159, main_v160, main_v161, main_v162, main_v163, main_v164, main_v165, main_v166, main_cst_31, main_v167, main_v168, main_v169, main_v170, main_v171]
theorem hostOps8_writes : (hostOps8 : List (HloOp τ sig (Elt F))).Forall fun op => op.writes ⊆ (hostOps8_W.map (Proc.devRef (τ := τ) .tc)).toFinset := by
  simp only [List.Forall]; repeat' apply And.intro
  all_goals exact writes_sub_of rfl (by decide)
theorem hostOps10_fresh : (hostOps10 : List (HloOp τ sig (Elt F))).Forall fun op => op.fresh = ∅ := by
  simp only [List.Forall]; repeat' constructor

abbrev hostOps10_W : List (Ref sig .tc) := [main_v174, main_v175, main_c_32, main_v176, main_v177, main_v178, main_v179, main_v180, main_v181, main_cst_33, main_v182, main_v183, main_v184]
theorem hostOps10_writes : (hostOps10 : List (HloOp τ sig (Elt F))).Forall fun op => op.writes ⊆ (hostOps10_W.map (Proc.devRef (τ := τ) .tc)).toFinset := by
  simp only [List.Forall]; repeat' apply And.intro
  all_goals exact writes_sub_of rfl (by decide)
theorem hostOps10_1_fresh : (hostOps10_1 : List (HloOp τ sig (Elt F))).Forall fun op => op.fresh = ∅ := by
  simp only [List.Forall]; repeat' constructor

abbrev hostOps10_1_W : List (Ref sig .tc) := [main_call2_v0, main_call2_cst, main_call2_v1, main_v185]
theorem hostOps10_1_writes : (hostOps10_1 : List (HloOp τ sig (Elt F))).Forall fun op => op.writes ⊆ (hostOps10_1_W.map (Proc.devRef (τ := τ) .tc)).toFinset := by
  simp only [List.Forall]; repeat' apply And.intro
  all_goals exact writes_sub_of rfl (by decide)
theorem hostOps10_2_fresh : (hostOps10_2 : List (HloOp τ sig (Elt F))).Forall fun op => op.fresh = ∅ := by
  simp only [List.Forall]; repeat' constructor

abbrev hostOps10_2_W : List (Ref sig .tc) := [main_v186, main_v187, main_v188]
theorem hostOps10_2_writes : (hostOps10_2 : List (HloOp τ sig (Elt F))).Forall fun op => op.writes ⊆ (hostOps10_2_W.map (Proc.devRef (τ := τ) .tc)).toFinset := by
  simp only [List.Forall]; repeat' apply And.intro
  all_goals exact writes_sub_of rfl (by decide)
theorem hostOps10_3_fresh : (hostOps10_3 : List (HloOp τ sig (Elt F))).Forall fun op => op.fresh = ∅ := by
  simp only [List.Forall]; repeat' constructor

abbrev hostOps10_3_W : List (Ref sig .tc) := [main_call3_v0, main_call3_cst, main_call3_v1, main_v189]
theorem hostOps10_3_writes : (hostOps10_3 : List (HloOp τ sig (Elt F))).Forall fun op => op.writes ⊆ (hostOps10_3_W.map (Proc.devRef (τ := τ) .tc)).toFinset := by
  simp only [List.Forall]; repeat' apply And.intro
  all_goals exact writes_sub_of rfl (by decide)
theorem hostOps10_4_fresh : (hostOps10_4 : List (HloOp τ sig (Elt F))).Forall fun op => op.fresh = ∅ := by
  simp only [List.Forall]; repeat' constructor

abbrev hostOps10_4_W : List (Ref sig .tc) := [main_v190, main_v191, main_v192, main_v193]
theorem hostOps10_4_writes : (hostOps10_4 : List (HloOp τ sig (Elt F))).Forall fun op => op.writes ⊆ (hostOps10_4_W.map (Proc.devRef (τ := τ) .tc)).toFinset := by
  simp only [List.Forall]; repeat' apply And.intro
  all_goals exact writes_sub_of rfl (by decide)
theorem hostOps10_5_fresh : (hostOps10_5 : List (HloOp τ sig (Elt F))).Forall fun op => op.fresh = ∅ := by
  simp only [List.Forall]; repeat' constructor

abbrev hostOps10_5_W : List (Ref sig .tc) := [main_call4_v0, main_call4_cst, main_call4_v1, main_v194]
theorem hostOps10_5_writes : (hostOps10_5 : List (HloOp τ sig (Elt F))).Forall fun op => op.writes ⊆ (hostOps10_5_W.map (Proc.devRef (τ := τ) .tc)).toFinset := by
  simp only [List.Forall]; repeat' apply And.intro
  all_goals exact writes_sub_of rfl (by decide)
theorem hostOps10_6_fresh : (hostOps10_6 : List (HloOp τ sig (Elt F))).Forall fun op => op.fresh = ∅ := by
  simp only [List.Forall]; repeat' constructor

abbrev hostOps10_6_W : List (Ref sig .tc) := [main_v195, main_v196, main_v197, main_v198]
theorem hostOps10_6_writes : (hostOps10_6 : List (HloOp τ sig (Elt F))).Forall fun op => op.writes ⊆ (hostOps10_6_W.map (Proc.devRef (τ := τ) .tc)).toFinset := by
  simp only [List.Forall]; repeat' apply And.intro
  all_goals exact writes_sub_of rfl (by decide)
theorem hostOps10_7_fresh : (hostOps10_7 : List (HloOp τ sig (Elt F))).Forall fun op => op.fresh = ∅ := by
  simp only [List.Forall]; repeat' constructor

abbrev hostOps10_7_W : List (Ref sig .tc) := [main_call5_v0, main_call5_cst, main_call5_v1, main_v199]
theorem hostOps10_7_writes : (hostOps10_7 : List (HloOp τ sig (Elt F))).Forall fun op => op.writes ⊆ (hostOps10_7_W.map (Proc.devRef (τ := τ) .tc)).toFinset := by
  simp only [List.Forall]; repeat' apply And.intro
  all_goals exact writes_sub_of rfl (by decide)
theorem hostOps10_8_fresh : (hostOps10_8 : List (HloOp τ sig (Elt F))).Forall fun op => op.fresh = ∅ := by
  simp only [List.Forall]; repeat' constructor

abbrev hostOps10_8_W : List (Ref sig .tc) := [main_v200, main_v201, main_v202, main_v203]
theorem hostOps10_8_writes : (hostOps10_8 : List (HloOp τ sig (Elt F))).Forall fun op => op.writes ⊆ (hostOps10_8_W.map (Proc.devRef (τ := τ) .tc)).toFinset := by
  simp only [List.Forall]; repeat' apply And.intro
  all_goals exact writes_sub_of rfl (by decide)
theorem hostOps10_9_fresh : (hostOps10_9 : List (HloOp τ sig (Elt F))).Forall fun op => op.fresh = ∅ := by
  simp only [List.Forall]; repeat' constructor

abbrev hostOps10_9_W : List (Ref sig .tc) := [main_call6_v0, main_call6_cst, main_call6_v1, main_v204]
theorem hostOps10_9_writes : (hostOps10_9 : List (HloOp τ sig (Elt F))).Forall fun op => op.writes ⊆ (hostOps10_9_W.map (Proc.devRef (τ := τ) .tc)).toFinset := by
  simp only [List.Forall]; repeat' apply And.intro
  all_goals exact writes_sub_of rfl (by decide)
theorem hostOps10_10_fresh : (hostOps10_10 : List (HloOp τ sig (Elt F))).Forall fun op => op.fresh = ∅ := by
  simp only [List.Forall]; repeat' constructor

abbrev hostOps10_10_W : List (Ref sig .tc) := [main_v205, main_v206, main_v207, main_v208]
theorem hostOps10_10_writes : (hostOps10_10 : List (HloOp τ sig (Elt F))).Forall fun op => op.writes ⊆ (hostOps10_10_W.map (Proc.devRef (τ := τ) .tc)).toFinset := by
  simp only [List.Forall]; repeat' apply And.intro
  all_goals exact writes_sub_of rfl (by decide)
theorem hostOps10_11_fresh : (hostOps10_11 : List (HloOp τ sig (Elt F))).Forall fun op => op.fresh = ∅ := by
  simp only [List.Forall]; repeat' constructor

abbrev hostOps10_11_W : List (Ref sig .tc) := [main_call7_v0, main_call7_cst, main_call7_v1, main_v209]
theorem hostOps10_11_writes : (hostOps10_11 : List (HloOp τ sig (Elt F))).Forall fun op => op.writes ⊆ (hostOps10_11_W.map (Proc.devRef (τ := τ) .tc)).toFinset := by
  simp only [List.Forall]; repeat' apply And.intro
  all_goals exact writes_sub_of rfl (by decide)
theorem hostOps10_12_fresh : (hostOps10_12 : List (HloOp τ sig (Elt F))).Forall fun op => op.fresh = ∅ := by
  simp only [List.Forall]; repeat' constructor

abbrev hostOps10_12_W : List (Ref sig .tc) := [main_v210, main_v211, main_v212, main_v213]
theorem hostOps10_12_writes : (hostOps10_12 : List (HloOp τ sig (Elt F))).Forall fun op => op.writes ⊆ (hostOps10_12_W.map (Proc.devRef (τ := τ) .tc)).toFinset := by
  simp only [List.Forall]; repeat' apply And.intro
  all_goals exact writes_sub_of rfl (by decide)
theorem hostOps10_13_fresh : (hostOps10_13 : List (HloOp τ sig (Elt F))).Forall fun op => op.fresh = ∅ := by
  simp only [List.Forall]; repeat' constructor

abbrev hostOps10_13_W : List (Ref sig .tc) := [main_call8_v0, main_call8_cst, main_call8_v1, main_v214]
theorem hostOps10_13_writes : (hostOps10_13 : List (HloOp τ sig (Elt F))).Forall fun op => op.writes ⊆ (hostOps10_13_W.map (Proc.devRef (τ := τ) .tc)).toFinset := by
  simp only [List.Forall]; repeat' apply And.intro
  all_goals exact writes_sub_of rfl (by decide)
theorem hostOps10_14_fresh : (hostOps10_14 : List (HloOp τ sig (Elt F))).Forall fun op => op.fresh = ∅ := by
  simp only [List.Forall]; repeat' constructor

abbrev hostOps10_14_W : List (Ref sig .tc) := [main_v215, main_v216, main_v217, main_v218]
theorem hostOps10_14_writes : (hostOps10_14 : List (HloOp τ sig (Elt F))).Forall fun op => op.writes ⊆ (hostOps10_14_W.map (Proc.devRef (τ := τ) .tc)).toFinset := by
  simp only [List.Forall]; repeat' apply And.intro
  all_goals exact writes_sub_of rfl (by decide)
theorem hostOps10_15_fresh : (hostOps10_15 : List (HloOp τ sig (Elt F))).Forall fun op => op.fresh = ∅ := by
  simp only [List.Forall]; repeat' constructor

abbrev hostOps10_15_W : List (Ref sig .tc) := [main_call9_v0, main_call9_cst, main_call9_v1, main_v219]
theorem hostOps10_15_writes : (hostOps10_15 : List (HloOp τ sig (Elt F))).Forall fun op => op.writes ⊆ (hostOps10_15_W.map (Proc.devRef (τ := τ) .tc)).toFinset := by
  simp only [List.Forall]; repeat' apply And.intro
  all_goals exact writes_sub_of rfl (by decide)
theorem hostOps10_16_fresh : (hostOps10_16 : List (HloOp τ sig (Elt F))).Forall fun op => op.fresh = ∅ := by
  simp only [List.Forall]; repeat' constructor

abbrev hostOps10_16_W : List (Ref sig .tc) := [main_v220, main_cst_34, main_v221]
theorem hostOps10_16_writes : (hostOps10_16 : List (HloOp τ sig (Elt F))).Forall fun op => op.writes ⊆ (hostOps10_16_W.map (Proc.devRef (τ := τ) .tc)).toFinset := by
  simp only [List.Forall]; repeat' apply And.intro
  all_goals exact writes_sub_of rfl (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ hostOps0_3_W) : V4 m c r = V3 m c r :=
  StableHlo.after_of_writes_sub hostOps0_3 _ hostOps0_3_writes h
theorem V5_of (c : Dev nD) (r : Ref sig .tc) (h : r ∉ hostOps0_4_W) : V5 m c r = V4 m c r :=
  StableHlo.after_of_writes_sub hostOps0_4 _ hostOps0_4_writes h
theorem V6_of (c : Dev nD) (r : Ref sig .tc) (h : r ∉ ([main_v36] : List (Ref sig .tc))) : V6 m outs c r = V5 m c r := by
  simp only [V6, Function.update_of_ne (StableHlo.devRef_ne_of_ne (List.ne_of_not_mem_cons h) : (Proc.devRef .tc r : DevRef τ sig) ≠ Proc.devRef .tc main_v36)]
theorem V7_of (c : Dev nD) (r : Ref sig .tc) (h : r ∉ hostOps1_W) : V7 m outs c r = V6 m outs c r :=
  StableHlo.after_of_writes_sub hostOps1 _ hostOps1_writes h
theorem V8_of (c : Dev nD) (r : Ref sig .tc) (h : r ∉ ([main_v53] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v53)]
theorem V9_of (c : Dev nD) (r : Ref sig .tc) (h : r ∉ hostOps2_W) : V9 m outs c r = V8 m outs c r :=
  StableHlo.after_of_writes_sub hostOps2 _ hostOps2_writes h
theorem V10_of (c : Dev nD) (r : Ref sig .tc) (h : r ∉ ([main_v70] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v70)]
theorem V11_of (c : Dev nD) (r : Ref sig .tc) (h : r ∉ hostOps3_W) : V11 m outs c r = V10 m outs c r :=
  StableHlo.after_of_writes_sub hostOps3 _ hostOps3_writes h
theorem V12_of (c : Dev nD) (r : Ref sig .tc) (h : r ∉ ([main_v87] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v87)]
theorem V13_of (c : Dev nD) (r : Ref sig .tc) (h : r ∉ hostOps4_W) : V13 m outs c r = V12 m outs c r :=
  StableHlo.after_of_writes_sub hostOps4 _ hostOps4_writes h
theorem V14_of (c : Dev nD) (r : Ref sig .tc) (h : r ∉ ([main_v104] : List (Ref sig .tc))) : V14 m outs c r = V13 m outs c r := by
  simp only [V14, Function.update_of_ne (StableHlo.devRef_ne_of_ne (List.ne_of_not_mem_cons h) : (Proc.devRef .tc r : DevRef τ sig) ≠ Proc.devRef .tc main_v104)]
theorem V15_of (c : Dev nD) (r : Ref sig .tc) (h : r ∉ hostOps5_W) : V15 m outs c r = V14 m outs c r :=
  StableHlo.after_of_writes_sub hostOps5 _ hostOps5_writes h
theorem V16_of (c : Dev nD) (r : Ref sig .tc) (h : r ∉ ([main_v121] : List (Ref sig .tc))) : V16 m outs c r = V15 m outs c r := by
  simp only [V16, Function.update_of_ne (StableHlo.devRef_ne_of_ne (List.ne_of_not_mem_cons h) : (Proc.devRef .tc r : DevRef τ sig) ≠ Proc.devRef .tc main_v121)]
theorem V17_of (c : Dev nD) (r : Ref sig .tc) (h : r ∉ hostOps6_W) : V17 m outs c r = V16 m outs c r :=
  StableHlo.after_of_writes_sub hostOps6 _ hostOps6_writes h
theorem V18_of (c : Dev nD) (r : Ref sig .tc) (h : r ∉ ([main_v138] : List (Ref sig .tc))) : V18 m outs c r = V17 m outs c r := by
  simp only [V18, Function.update_of_ne (StableHlo.devRef_ne_of_ne (List.ne_of_not_mem_cons h) : (Proc.devRef .tc r : DevRef τ sig) ≠ Proc.devRef .tc main_v138)]
theorem V19_of (c : Dev nD) (r : Ref sig .tc) (h : r ∉ hostOps7_W) : V19 m outs c r = V18 m outs c r :=
  StableHlo.after_of_writes_sub hostOps7 _ hostOps7_writes h
theorem V20_of (c : Dev nD) (r : Ref sig .tc) (h : r ∉ ([main_v155] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v155)]
theorem V21_of (c : Dev nD) (r : Ref sig .tc) (h : r ∉ hostOps8_W) : V21 m outs c r = V20 m outs c r :=
  StableHlo.after_of_writes_sub hostOps8 _ hostOps8_writes h
theorem V22_of (c : Dev nD) (r : Ref sig .tc) (h : r ∉ ([main_v172] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v172)]
theorem V23_of (c : Dev nD) (r : Ref sig .tc) (h : r ∉ ([main_v173] : List (Ref sig .tc))) : V23 m outs c r = V22 m outs c r := by
  simp only [V23, Function.update_of_ne (StableHlo.devRef_ne_of_ne (List.ne_of_not_mem_cons h) : (Proc.devRef .tc r : DevRef τ sig) ≠ Proc.devRef .tc main_v173)]
theorem V24_of (c : Dev nD) (r : Ref sig .tc) (h : r ∉ hostOps10_W) : V24 m outs c r = V23 m outs c r :=
  StableHlo.after_of_writes_sub hostOps10 _ hostOps10_writes h
theorem V25_of (c : Dev nD) (r : Ref sig .tc) (h : r ∉ hostOps10_1_W) : V25 m outs c r = V24 m outs c r :=
  StableHlo.after_of_writes_sub hostOps10_1 _ hostOps10_1_writes h
theorem V26_of (c : Dev nD) (r : Ref sig .tc) (h : r ∉ hostOps10_2_W) : V26 m outs c r = V25 m outs c r :=
  StableHlo.after_of_writes_sub hostOps10_2 _ hostOps10_2_writes h
theorem V27_of (c : Dev nD) (r : Ref sig .tc) (h : r ∉ hostOps10_3_W) : V27 m outs c r = V26 m outs c r :=
  StableHlo.after_of_writes_sub hostOps10_3 _ hostOps10_3_writes h
theorem V28_of (c : Dev nD) (r : Ref sig .tc) (h : r ∉ hostOps10_4_W) : V28 m outs c r = V27 m outs c r :=
  StableHlo.after_of_writes_sub hostOps10_4 _ hostOps10_4_writes h
theorem V29_of (c : Dev nD) (r : Ref sig .tc) (h : r ∉ hostOps10_5_W) : V29 m outs c r = V28 m outs c r :=
  StableHlo.after_of_writes_sub hostOps10_5 _ hostOps10_5_writes h
theorem V30_of (c : Dev nD) (r : Ref sig .tc) (h : r ∉ hostOps10_6_W) : V30 m outs c r = V29 m outs c r :=
  StableHlo.after_of_writes_sub hostOps10_6 _ hostOps10_6_writes h
theorem V31_of (c : Dev nD) (r : Ref sig .tc) (h : r ∉ hostOps10_7_W) : V31 m outs c r = V30 m outs c r :=
  StableHlo.after_of_writes_sub hostOps10_7 _ hostOps10_7_writes h
theorem V32_of (c : Dev nD) (r : Ref sig .tc) (h : r ∉ hostOps10_8_W) : V32 m outs c r = V31 m outs c r :=
  StableHlo.after_of_writes_sub hostOps10_8 _ hostOps10_8_writes h
theorem V33_of (c : Dev nD) (r : Ref sig .tc) (h : r ∉ hostOps10_9_W) : V33 m outs c r = V32 m outs c r :=
  StableHlo.after_of_writes_sub hostOps10_9 _ hostOps10_9_writes h
theorem V34_of (c : Dev nD) (r : Ref sig .tc) (h : r ∉ hostOps10_10_W) : V34 m outs c r = V33 m outs c r :=
  StableHlo.after_of_writes_sub hostOps10_10 _ hostOps10_10_writes h
theorem V35_of (c : Dev nD) (r : Ref sig .tc) (h : r ∉ hostOps10_11_W) : V35 m outs c r = V34 m outs c r :=
  StableHlo.after_of_writes_sub hostOps10_11 _ hostOps10_11_writes h
theorem V36_of (c : Dev nD) (r : Ref sig .tc) (h : r ∉ hostOps10_12_W) : V36 m outs c r = V35 m outs c r :=
  StableHlo.after_of_writes_sub hostOps10_12 _ hostOps10_12_writes h
theorem V37_of (c : Dev nD) (r : Ref sig .tc) (h : r ∉ hostOps10_13_W) : V37 m outs c r = V36 m outs c r :=
  StableHlo.after_of_writes_sub hostOps10_13 _ hostOps10_13_writes h
theorem V38_of (c : Dev nD) (r : Ref sig .tc) (h : r ∉ hostOps10_14_W) : V38 m outs c r = V37 m outs c r :=
  StableHlo.after_of_writes_sub hostOps10_14 _ hostOps10_14_writes h
theorem V39_of (c : Dev nD) (r : Ref sig .tc) (h : r ∉ hostOps10_15_W) : V39 m outs c r = V38 m outs c r :=
  StableHlo.after_of_writes_sub hostOps10_15 _ hostOps10_15_writes h
theorem V40_of (c : Dev nD) (r : Ref sig .tc) (h : r ∉ hostOps10_16_W) : V40 m outs c r = V39 m outs c r :=
  StableHlo.after_of_writes_sub hostOps10_16 _ hostOps10_16_writes h

abbrev argRefs : List (Ref sig .tc) := [main_arg0, main_arg1, main_arg2, main_arg3, main_arg4, main_arg5, main_arg6, main_arg7]

/-- No stretch writes an argument buffer and no region's output is one, so each ends as launched. -/
theorem V40_arg (c : Dev nD) (r : Ref sig .tc) (hr : r ∈ argRefs) : V40 m outs c r = m ((c : Thread nD τ).loc r) := by
  have k : ∀ {l : List (Ref sig .tc)}, (∀ r ∈ argRefs, r ∉ l) → r ∉ l := fun h => h r hr
  exact (V40_of m outs c r (k (by decide))).trans <| (V39_of m outs c r (k (by decide))).trans <| (V38_of m outs c r (k (by decide))).trans <| (V37_of m outs c r (k (by decide))).trans <| (V36_of m outs c r (k (by decide))).trans <| (V35_of m outs c r (k (by decide))).trans <| (V34_of m outs c r (k (by decide))).trans <| (V33_of m outs c r (k (by decide))).trans <| (V32_of m outs c r (k (by decide))).trans <| (V31_of m outs c r (k (by decide))).trans <| (V30_of m outs c r (k (by decide))).trans <| (V29_of m outs c r (k (by decide))).trans <| (V28_of m outs c r (k (by decide))).trans <| (V27_of m outs c r (k (by decide))).trans <| (V26_of m outs c r (k (by decide))).trans <| (V25_of m outs c r (k (by decide))).trans <| (V24_of m outs c r (k (by decide))).trans <| (V23_of m outs c r (k (by decide))).trans <| (V22_of m outs c r (k (by decide))).trans <| (V21_of m outs c r (k (by decide))).trans <| (V20_of m outs c r (k (by decide))).trans <| (V19_of m outs c r (k (by decide))).trans <| (V18_of m outs c r (k (by decide))).trans <| (V17_of m outs c r (k (by decide))).trans <| (V16_of m outs c r (k (by decide))).trans <| (V15_of m outs c r (k (by decide))).trans <| (V14_of m outs c r (k (by decide))).trans <| (V13_of m outs c r (k (by decide))).trans <| (V12_of m outs c r (k (by decide))).trans <| (V11_of m outs c r (k (by decide))).trans <| (V10_of m outs c r (k (by decide))).trans <| (V9_of m outs c r (k (by decide))).trans <| (V8_of m outs c r (k (by decide))).trans <| (V7_of m outs c r (k (by decide))).trans <| (V6_of m outs c r (k (by decide))).trans <| (V5_of m c r (k (by decide))).trans <| (V4_of m c r (k (by decide))).trans <| (V3_of m c r (k (by decide))).trans <| (V2_of m c r (k (by decide))).trans <| (V1_of m c r (k (by decide))).trans rfl

theorem V40_main_arg0 (c : Dev nD) : V40 m outs c main_arg0 = m ((c : Thread nD τ).loc main_arg0) := V40_arg m outs c main_arg0 (by decide)

theorem V40_main_arg1 (c : Dev nD) : V40 m outs c main_arg1 = m ((c : Thread nD τ).loc main_arg1) := V40_arg m outs c main_arg1 (by decide)

theorem V40_main_arg2 (c : Dev nD) : V40 m outs c main_arg2 = m ((c : Thread nD τ).loc main_arg2) := V40_arg m outs c main_arg2 (by decide)

theorem V40_main_arg3 (c : Dev nD) : V40 m outs c main_arg3 = m ((c : Thread nD τ).loc main_arg3) := V40_arg m outs c main_arg3 (by decide)

theorem V40_main_arg4 (c : Dev nD) : V40 m outs c main_arg4 = m ((c : Thread nD τ).loc main_arg4) := V40_arg m outs c main_arg4 (by decide)

theorem V40_main_arg5 (c : Dev nD) : V40 m outs c main_arg5 = m ((c : Thread nD τ).loc main_arg5) := V40_arg m outs c main_arg5 (by decide)

theorem V40_main_arg6 (c : Dev nD) : V40 m outs c main_arg6 = m ((c : Thread nD τ).loc main_arg6) := V40_arg m outs c main_arg6 (by decide)

theorem V40_main_arg7 (c : Dev nD) : V40 m outs c main_arg7 = m ((c : Thread nD τ).loc main_arg7) := V40_arg m outs c main_arg7 (by decide)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 11 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg1 : HostSeg (Ix := Ix) (Name := ℕ) (U := U) (Lvl := Lvl) (pcfgs (F := F)) defs₀ 𝒱₀ L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) (E 0)

def seg3 : HostSeg (Ix := Ix) (Name := ℕ) (U := U) (Lvl := Lvl) (pcfgs (F := F)) defs₀ 𝒱₀ L lv :=
  HostSeg.ofOps _ _ _ _ _ (Pipeline.ucRefs τ sig) hostOps0_3
    (fun op h => Pipeline.sub_ucRefs op ((List.forall_iff_forall_mem.mp hostOps0_3_sub) op h))
    (fun op h => (List.forall_iff_forall_mem.mp hostOps0_3_fresh) op h) (V3 m) (E 0)

def seg4 : HostSeg (Ix := Ix) (Name := ℕ) (U := U) (Lvl := Lvl) (pcfgs (F := F)) defs₀ 𝒱₀ L lv :=
  HostSeg.ofOps _ _ _ _ _ (Pipeline.ucRefs τ sig) hostOps0_4
    (fun op h => Pipeline.sub_ucRefs op ((List.forall_iff_forall_mem.mp hostOps0_4_sub) op h))
    (fun op h => (List.forall_iff_forall_mem.mp hostOps0_4_fresh) op h) (V4 m) (E 0)

def seg6 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V6 m outs) (E 1)

def seg8 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V8 m outs) (E 2)

def seg10 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V10 m outs) (E 3)

def seg12 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V12 m outs) (E 4)

def seg14 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V14 m outs) (E 5)

def seg16 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (V16 m outs) (E 6)

def seg18 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V18 m outs) (E 7)

def seg20 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (V20 m outs) (E 8)

def seg23 : HostSeg (Ix := Ix) (Name := ℕ) (U := U) (Lvl := Lvl) (pcfgs (F := F)) defs₀ 𝒱₀ L lv :=
  HostSeg.ofOps _ _ _ _ _ (Pipeline.ucRefs τ sig) hostOps10
    (fun op h => Pipeline.sub_ucRefs op ((List.forall_iff_forall_mem.mp hostOps10_sub) op h))
    (fun op h => (List.forall_iff_forall_mem.mp hostOps10_fresh) op h) (V23 m outs) (E 10)

def seg24 : HostSeg (Ix := Ix) (Name := ℕ) (U := U) (Lvl := Lvl) (pcfgs (F := F)) defs₀ 𝒱₀ L lv :=
  HostSeg.ofOps _ _ _ _ _ (Pipeline.ucRefs τ sig) hostOps10_1
    (fun op h => Pipeline.sub_ucRefs op ((List.forall_iff_forall_mem.mp hostOps10_1_sub) op h))
    (fun op h => (List.forall_iff_forall_mem.mp hostOps10_1_fresh) op h) (V24 m outs) (E 10)

def seg25 : HostSeg (Ix := Ix) (Name := ℕ) (U := U) (Lvl := Lvl) (pcfgs (F := F)) defs₀ 𝒱₀ L lv :=
  HostSeg.ofOps _ _ _ _ _ (Pipeline.ucRefs τ sig) hostOps10_2
    (fun op h => Pipeline.sub_ucRefs op ((List.forall_iff_forall_mem.mp hostOps10_2_sub) op h))
    (fun op h => (List.forall_iff_forall_mem.mp hostOps10_2_fresh) op h) (V25 m outs) (E 10)

def seg26 : HostSeg (Ix := Ix) (Name := ℕ) (U := U) (Lvl := Lvl) (pcfgs (F := F)) defs₀ 𝒱₀ L lv :=
  HostSeg.ofOps _ _ _ _ _ (Pipeline.ucRefs τ sig) hostOps10_3
    (fun op h => Pipeline.sub_ucRefs op ((List.forall_iff_forall_mem.mp hostOps10_3_sub) op h))
    (fun op h => (List.forall_iff_forall_mem.mp hostOps10_3_fresh) op h) (V26 m outs) (E 10)

def seg27 : HostSeg (Ix := Ix) (Name := ℕ) (U := U) (Lvl := Lvl) (pcfgs (F := F)) defs₀ 𝒱₀ L lv :=
  HostSeg.ofOps _ _ _ _ _ (Pipeline.ucRefs τ sig) hostOps10_4
    (fun op h => Pipeline.sub_ucRefs op ((List.forall_iff_forall_mem.mp hostOps10_4_sub) op h))
    (fun op h => (List.forall_iff_forall_mem.mp hostOps10_4_fresh) op h) (V27 m outs) (E 10)

def seg28 : HostSeg (Ix := Ix) (Name := ℕ) (U := U) (Lvl := Lvl) (pcfgs (F := F)) defs₀ 𝒱₀ L lv :=
  HostSeg.ofOps _ _ _ _ _ (Pipeline.ucRefs τ sig) hostOps10_5
    (fun op h => Pipeline.sub_ucRefs op ((List.forall_iff_forall_mem.mp hostOps10_5_sub) op h))
    (fun op h => (List.forall_iff_forall_mem.mp hostOps10_5_fresh) op h) (V28 m outs) (E 10)

def seg29 : HostSeg (Ix := Ix) (Name := ℕ) (U := U) (Lvl := Lvl) (pcfgs (F := F)) defs₀ 𝒱₀ L lv :=
  HostSeg.ofOps _ _ _ _ _ (Pipeline.ucRefs τ sig) hostOps10_6
    (fun op h => Pipeline.sub_ucRefs op ((List.forall_iff_forall_mem.mp hostOps10_6_sub) op h))
    (fun op h => (List.forall_iff_forall_mem.mp hostOps10_6_fresh) op h) (V29 m outs) (E 10)

def seg30 : HostSeg (Ix := Ix) (Name := ℕ) (U := U) (Lvl := Lvl) (pcfgs (F := F)) defs₀ 𝒱₀ L lv :=
  HostSeg.ofOps _ _ _ _ _ (Pipeline.ucRefs τ sig) hostOps10_7
    (fun op h => Pipeline.sub_ucRefs op ((List.forall_iff_forall_mem.mp hostOps10_7_sub) op h))
    (fun op h => (List.forall_iff_forall_mem.mp hostOps10_7_fresh) op h) (V30 m outs) (E 10)

def seg31 : HostSeg (Ix := Ix) (Name := ℕ) (U := U) (Lvl := Lvl) (pcfgs (F := F)) defs₀ 𝒱₀ L lv :=
  HostSeg.ofOps _ _ _ _ _ (Pipeline.ucRefs τ sig) hostOps10_8
    (fun op h => Pipeline.sub_ucRefs op ((List.forall_iff_forall_mem.mp hostOps10_8_sub) op h))
    (fun op h => (List.forall_iff_forall_mem.mp hostOps10_8_fresh) op h) (V31 m outs) (E 10)

def seg32 : HostSeg (Ix := Ix) (Name := ℕ) (U := U) (Lvl := Lvl) (pcfgs (F := F)) defs₀ 𝒱₀ L lv :=
  HostSeg.ofOps _ _ _ _ _ (Pipeline.ucRefs τ sig) hostOps10_9
    (fun op h => Pipeline.sub_ucRefs op ((List.forall_iff_forall_mem.mp hostOps10_9_sub) op h))
    (fun op h => (List.forall_iff_forall_mem.mp hostOps10_9_fresh) op h) (V32 m outs) (E 10)

def seg33 : HostSeg (Ix := Ix) (Name := ℕ) (U := U) (Lvl := Lvl) (pcfgs (F := F)) defs₀ 𝒱₀ L lv :=
  HostSeg.ofOps _ _ _ _ _ (Pipeline.ucRefs τ sig) hostOps10_10
    (fun op h => Pipeline.sub_ucRefs op ((List.forall_iff_forall_mem.mp hostOps10_10_sub) op h))
    (fun op h => (List.forall_iff_forall_mem.mp hostOps10_10_fresh) op h) (V33 m outs) (E 10)

def seg34 : HostSeg (Ix := Ix) (Name := ℕ) (U := U) (Lvl := Lvl) (pcfgs (F := F)) defs₀ 𝒱₀ L lv :=
  HostSeg.ofOps _ _ _ _ _ (Pipeline.ucRefs τ sig) hostOps10_11
    (fun op h => Pipeline.sub_ucRefs op ((List.forall_iff_forall_mem.mp hostOps10_11_sub) op h))
    (fun op h => (List.forall_iff_forall_mem.mp hostOps10_11_fresh) op h) (V34 m outs) (E 10)

def seg35 : HostSeg (Ix := Ix) (Name := ℕ) (U := U) (Lvl := Lvl) (pcfgs (F := F)) defs₀ 𝒱₀ L lv :=
  HostSeg.ofOps _ _ _ _ _ (Pipeline.ucRefs τ sig) hostOps10_12
    (fun op h => Pipeline.sub_ucRefs op ((List.forall_iff_forall_mem.mp hostOps10_12_sub) op h))
    (fun op h => (List.forall_iff_forall_mem.mp hostOps10_12_fresh) op h) (V35 m outs) (E 10)

def seg36 : HostSeg (Ix := Ix) (Name := ℕ) (U := U) (Lvl := Lvl) (pcfgs (F := F)) defs₀ 𝒱₀ L lv :=
  HostSeg.ofOps _ _ _ _ _ (Pipeline.ucRefs τ sig) hostOps10_13
    (fun op h => Pipeline.sub_ucRefs op ((List.forall_iff_forall_mem.mp hostOps10_13_sub) op h))
    (fun op h => (List.forall_iff_forall_mem.mp hostOps10_13_fresh) op h) (V36 m outs) (E 10)

def seg37 : HostSeg (Ix := Ix) (Name := ℕ) (U := U) (Lvl := Lvl) (pcfgs (F := F)) defs₀ 𝒱₀ L lv :=
  HostSeg.ofOps _ _ _ _ _ (Pipeline.ucRefs τ sig) hostOps10_14
    (fun op h => Pipeline.sub_ucRefs op ((List.forall_iff_forall_mem.mp hostOps10_14_sub) op h))
    (fun op h => (List.forall_iff_forall_mem.mp hostOps10_14_fresh) op h) (V37 m outs) (E 10)

def seg38 : HostSeg (Ix := Ix) (Name := ℕ) (U := U) (Lvl := Lvl) (pcfgs (F := F)) defs₀ 𝒱₀ L lv :=
  HostSeg.ofOps _ _ _ _ _ (Pipeline.ucRefs τ sig) hostOps10_15
    (fun op h => Pipeline.sub_ucRefs op ((List.forall_iff_forall_mem.mp hostOps10_15_sub) op h))
    (fun op h => (List.forall_iff_forall_mem.mp hostOps10_15_fresh) op h) (V38 m outs) (E 10)

def seg39 : HostSeg (Ix := Ix) (Name := ℕ) (U := U) (Lvl := Lvl) (pcfgs (F := F)) defs₀ 𝒱₀ L lv :=
  HostSeg.ofOps _ _ _ _ _ (Pipeline.ucRefs τ sig) hostOps10_16
    (fun op h => Pipeline.sub_ucRefs op ((List.forall_iff_forall_mem.mp hostOps10_16_sub) op h))
    (fun op h => (List.forall_iff_forall_mem.mp hostOps10_16_fresh) op h) (V39 m outs) (E 10)

end Segs

section

variable {Ix : Type} [DecidableEq Ix] {U : Type} [URA U] {Lvl : Type} [Preorder Lvl]

abbrev adm : (p : Fin 10) → (pcfgs (F := F) p).Adm := fun p => (cfgs p).toPCfg_adm

abbrev segs (𝒱₀ : Variants) (L : GSem nD τ sig → Finset Ix) (lv : GSem nD τ sig → Ix → Lvl) (E : Fin 11 → Dev nD → sProp (MT nD τ sig Ix (Elt F) ℕ U Lvl)) (ι : Ix)
    (pdats : (p : Fin 10) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (c : Dev nD) :
    List (Seg (pcfgs (F := F)) adm pdats ι defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E), .region R0, .host (seg6 m outs 𝒱₀ L lv E), .region R1, .host (seg8 m outs 𝒱₀ L lv E), .region R2, .host (seg10 m outs 𝒱₀ L lv E), .region R3, .host (seg12 m outs 𝒱₀ L lv E), .region R4, .host (seg14 m outs 𝒱₀ L lv E), .region R5, .host (seg16 m outs 𝒱₀ L lv E), .region R6, .host (seg18 m outs 𝒱₀ L lv E), .region R7, .host (seg20 m outs 𝒱₀ L lv E), .region R8, .region R9, .host (seg23 m outs 𝒱₀ L lv E), .host (seg24 m outs 𝒱₀ L lv E), .host (seg25 m outs 𝒱₀ L lv E), .host (seg26 m outs 𝒱₀ L lv E), .host (seg27 m outs 𝒱₀ L lv E), .host (seg28 m outs 𝒱₀ L lv E), .host (seg29 m outs 𝒱₀ L lv E), .host (seg30 m outs 𝒱₀ L lv E), .host (seg31 m outs 𝒱₀ L lv E), .host (seg32 m outs 𝒱₀ L lv E), .host (seg33 m outs 𝒱₀ L lv E), .host (seg34 m outs 𝒱₀ L lv E), .host (seg35 m outs 𝒱₀ L lv E), .host (seg36 m outs 𝒱₀ L lv E), .host (seg37 m outs 𝒱₀ L lv E), .host (seg38 m outs 𝒱₀ L lv E), .host (seg39 m outs 𝒱₀ L lv E)]

end

end Cert.KernelIdeal.Gen

end
-- ==== Proof.KI.RunCond.lean ====
/- The program's run with every buffer's final contents, given one segment record per region. -/
import proofs.«173786_j46231027974388_2_alg».proof.Proof.KernelIdealRegions

set_option maxRecDepth 2028

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 10) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 11 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE10 : ∀ c : Dev nD, E 10 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V22 m outs c) ∗ E 9 c) ⊢ R9.pre c)
    (hpost9 : ∀ c : Dev nD, R9.post c ⊢ iprop(StableHlo.held (c : Thread nD τ) (Pipeline.ucRefs τ sig) (V23 m outs c) ∗ E 10 c)) :
    θ_run defs (onTc (τ := τ) (main (F := F))) ⟨m, fun _ => 0, ρ⟩ (fun r => ∀ c : Dev nD,
      ∀ b ∈ Pipeline.ucRefs τ sig, r.2.mem ((c : Thread nD τ).1, b) = V40 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9)
    (fun c Q => by
      rewrite [main_chain c, Seg.run_eq_chain,
        show (segs m outs 𝒱₀ L lv E ι pdats R0 R1 R2 R3 R4 R5 R6 R7 R8 R9 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          StableHlo.seq hostOps10_1,
          StableHlo.seq hostOps10_2,
          StableHlo.seq hostOps10_3,
          StableHlo.seq hostOps10_4,
          StableHlo.seq hostOps10_5,
          StableHlo.seq hostOps10_6,
          StableHlo.seq hostOps10_7,
          StableHlo.seq hostOps10_8,
          StableHlo.seq hostOps10_9,
          StableHlo.seq hostOps10_10,
          StableHlo.seq hostOps10_11,
          StableHlo.seq hostOps10_12,
          StableHlo.seq hostOps10_13,
          StableHlo.seq hostOps10_14,
          StableHlo.seq hostOps10_15,
          StableHlo.seq hostOps10_16 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V40 m outs c))
    (hch := fun c => ⟨.rfl, .rfl, .rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, (hpost8 c).trans (hpre9 c), hpost9 c, .rfl, .rfl, .rfl, .rfl, .rfl, .rfl, .rfl, .rfl, .rfl, .rfl, .rfl, .rfl, .rfl, .rfl, .rfl, .rfl, sep_mono .rfl (hE10 c)⟩)
    (hinit := ?_) (QY := fun c s => ∀ b ∈ Pipeline.ucRefs τ sig, s.mem ((c : Thread nD τ).1, b) = V40 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (V40 m outs c) s')
    isplitl [Hh] <;> iassumption

end Cert.KernelIdeal.Hand

end
-- ==== Proof.KI.Region0.lean ====
/- Region 0: what the body leaves in its output tile as a function of its three input tiles, the body's run, and the proof data at any entry contents. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x256 := Rect.unit (s := S5000x256) ![0, 0] S5000x256.size inb_S5000x256_S5000x256_0_0
abbrev r0_1 : Rect S256x64 := Rect.unit (s := S256x64) ![0, 0] S256x64.size inb_S256x64_S256x64_0_0
abbrev r0_2 : Rect S64 := Rect.unit (s := S64) ![0] S64.size inb_S64_S64_0
abbrev r0_o : Rect S5000x64 := Rect.unit (s := S5000x64) ![0, 0] S5000x64.size inb_S5000x64_S5000x64_0_0

/-- The output tile as a function of the three input tiles: one store over the whole tile. -/
def out0_3 (x0 : Vec F S5000x256 .f32) (x1 : Vec F S256x64 .f32) (x2 : Vec F S64 .f32) : Vec F S5000x64 .bf16 :=
  View.canon [⟨r0_o, k0_pay1 (View.ld x0 r0_0) (View.ld x1 r0_1) (View.ld x2 r0_2)⟩]

/-- The region's proof data at entry contents `V`: an input tile stays its block, the output tile is `out0_3` of them. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

theorem A_eq0 (q : Fin cfg0.W → PosShare TreeShare) (c : Dev nD) (w : Fin cfg0.W) : (dat0 V q c).A w = V c (Pipeline.arrRef spec0 w) := by
  dsimp only [dat0]

theorem after0_3 (q : Fin cfg0.W → PosShare TreeShare) (c : Dev nD) (t : Fin cfg0.N) :
    (dat0 V q c).after 3 t = out0_3 (iblk0 V c 0 t) (iblk0 V c 1 t) (iblk0 V c 2 t) := by dsimp only [dat0]

/-- The body writes no input window, so what it finds in one is what it leaves there. -/
theorem before0_in (q : Fin cfg0.W → PosShare TreeShare) (c : Dev nD) (w : Fin cfg0.W) (hw : (cfg0.win w).isOut = false) (t : Fin cfg0.N) (d) :
    (dat0 V q c).before w t d = (dat0 V q c).after w t := by
  match w, hw with
  | ⟨0, _⟩, _ | ⟨1, _⟩, _ | ⟨2, _⟩, _ =>
    exact ((dat0 V q c).before_in_eq_fetched _ rfl (fun _ => rfl) (fun _ _ _ => rfl) (fun _ => rfl) t d).trans rfl
  | ⟨3, _⟩, hw => exact Bool.noConfusion hw

/-- The body only loads its inputs and its one store covers the output tile, so the tile ends at `out0_3` of the inputs whatever it held. -/
theorem sound_kernel0 (c : Dev nD) (E : Set ℕ) (i : grid0.Coords)
    (arg1 : Memref sig .tc .vmem S5000x256 .f32) (harg1 : arg1.IsWhole)
    (arg2 : Memref sig .tc .vmem S256x64 .f32) (harg2 : arg2.IsWhole)
    (arg3 : Memref sig .tc .vmem S64 .f32) (harg3 : arg3.IsWhole)
    (arg4 : Memref sig .tc .vmem S5000x64 .bf16) (harg4 : arg4.IsWhole)
    (x0 : Vec F S5000x256 .f32) (x1 : Vec F S256x64 .f32) (x2 : Vec F S64 .f32) (K : PUnit → sProp 𝕄) :
    iprop(ownsTc c arg1 fullShare x0 ∗ ownsTc c arg2 fullShare x1
        ∗ ownsTc c arg3 fullShare x2 ∗ (∃ d, ownsTc c arg4 fullShare d)
        ∗ (iprop(ownsTc c arg4 fullShare (out0_3 x0 x1 x2) ∗ ownsTc c arg1 fullShare x0
            ∗ ownsTc c arg2 fullShare x1 ∗ ownsTc c arg3 fullShare x2) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold ownsTc owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H3]
  · iexists _; isplitr
    swap; · iexact H3
    ipureintro; exact View.read_writes_eq_canon _ _ _ (View.cover_of_tiled _ S5000x64.size (by rfl))
  sl_close

theorem after0_out (q : Fin cfg0.W → PosShare TreeShare) (c : Dev nD) (t : Fin cfg0.N) : (dat0 V q c).after 3 t =
    out0_3 ((dat0 V q c).after 0 t) ((dat0 V q c).after 1 t) ((dat0 V q c).after 2 t) := by dsimp only [dat0]

/-- The inputs are as the body leaves them, so the body's triple applies at every point. -/
theorem sound_body0 (q : Fin cfg0.W → PosShare TreeShare) (c : Dev nD) (t : Fin cfg0.N) :
    iprop((dat0 V q c).Φ t.castSucc ∗ (dat0 V q c).owesAt () t.castSucc
      ∗ (∃ d, ownsTc c (st0_0 t) fullShare ((dat0 V q c).before 0 t d))
      ∗ (∃ d, ownsTc c (st0_1 t) fullShare ((dat0 V q c).before 1 t d))
      ∗ (∃ d, ownsTc c (st0_2 t) fullShare ((dat0 V q c).before 2 t d))
      ∗ (∃ d, ownsTc c (st0_3 t) fullShare ((dat0 V q c).before 3 t d)))
    ⊢ wp frame (wpE (defs₀ (F := F)) Variants.none c none) Set.univ (bodyAt0 t) (fun _ =>
      iprop((dat0 V q c).Φ t.succ ∗ (dat0 V q c).owesAt () t.succ
        ∗ ownsTc c (st0_0 t) fullShare ((dat0 V q c).after 0 t)
        ∗ ownsTc c (st0_1 t) fullShare ((dat0 V q c).after 1 t)
        ∗ ownsTc c (st0_2 t) fullShare ((dat0 V q c).after 2 t)
        ∗ ownsTc c (st0_3 t) fullShare ((dat0 V q c).after 3 t))) := by
  unfold bodyAt0
  simp only [before0_in V q c 0 rfl, before0_in V q c 1 rfl, before0_in V q c 2 rfl, after0_out]
  rewrite [show (dat0 V q c).Φ t.succ = (dat0 V q c).Φ t.castSucc from rfl,
    show (dat0 V q c).owesAt () t.succ = (dat0 V q c).owesAt () t.castSucc from rfl]
  iintro ⟨HΦ, Ho, ⟨%d0, H0⟩, ⟨%d1, H1⟩, ⟨%d2, H2⟩, ⟨%d3, H3⟩⟩
  iapply (sound_kernel0 c Set.univ _ _ _ _ _ _ _ _ _ _ _ _ _)
  iframe H0 H1 H2
  isplitl [H3]; · iexists _; iexact H3
  iintro ⟨H3, H0, H1, H2⟩
  iframe HΦ Ho H0 H1 H2
  iexact H3

theorem body_obligation0 (q : Fin cfg0.W → PosShare TreeShare) (c : Dev nD) :
    BodyObligation (dat0 (F := F) V q c) (defs₀ (F := F)) Variants.none () Set.univ := fun t => by
  rw [bigSep_W0, bigSep_W0]
  exact sound_body0 V q c t

end Cert.KernelIdeal.Hand

end
-- ==== Proof.KI.LayerKernel.lean ====
/- The one kernel the eight layer regions run: what it leaves in its output tile as a function of its four input tiles, and its run. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tileRect : Rect S5000x64 := Rect.unit (s := S5000x64) ![0, 0] S5000x64.size inb_S5000x64_S5000x64_0_0
abbrev weightRect : Rect S64x64 := Rect.unit (s := S64x64) ![0, 0] S64x64.size inb_S64x64_S64x64_0_0

/-- The eight layer regions call one function: each printed copy is this one. -/
abbrev layerKernel := @cc2__layer_kernel F _

/-- The output tile as a function of the four input tiles: one store over the whole tile. -/
def layerOut (x0 : Vec F S5000x64 .f32) (x1 : Vec F S5000x64 .bf16) (x2 : Vec F S5000x64 .bf16) (x3 : Vec F S64x64 .f32) : Vec F S5000x64 .bf16 :=
  View.canon [⟨tileRect, k2_pay1 (View.ld x0 tileRect) (View.ld x1 tileRect) (View.ld x2 tileRect) (View.ld x3 weightRect)⟩]

/-- The body only loads its inputs and its one store covers the output tile, so the tile ends at `layerOut` of the inputs whatever it held. -/
theorem sound_layerKernel (c : Dev nD) (E : Set ℕ) (i : grid2.Coords)
    (arg0 : Memref sig .tc .vmem S5000x64 .f32) (harg0 : arg0.IsWhole) (arg1 : Memref sig .tc .vmem S5000x64 .bf16) (harg1 : arg1.IsWhole)
    (arg2 : Memref sig .tc .vmem S5000x64 .bf16) (harg2 : arg2.IsWhole) (arg3 : Memref sig .tc .vmem S64x64 .f32) (harg3 : arg3.IsWhole)
    (arg4 : Memref sig .tc .vmem S5000x64 .bf16) (harg4 : arg4.IsWhole)
    (x0 : Vec F S5000x64 .f32) (x1 : Vec F S5000x64 .bf16) (x2 : Vec F S5000x64 .bf16) (x3 : Vec F S64x64 .f32) (K : PUnit → sProp 𝕄) :
    iprop(ownsTc c arg0 fullShare x0 ∗ ownsTc c arg1 fullShare x1 ∗ ownsTc c arg2 fullShare x2
        ∗ ownsTc c arg3 fullShare x3 ∗ (∃ d, ownsTc c arg4 fullShare d)
        ∗ (iprop(ownsTc c arg4 fullShare (layerOut x0 x1 x2 x3) ∗ ownsTc c arg0 fullShare x0 ∗ ownsTc c arg1 fullShare x1 ∗ ownsTc c arg2 fullShare x2
        ∗ ownsTc c arg3 fullShare x3) -∗ K ⟨⟩))
      ⊢ wp frame (wpE (defs₀ (F := F)) Variants.none c none) E (layerKernel i arg0 harg0 arg1 harg1 arg2 harg2 arg3 harg3 arg4 harg4) K := by
  unfold layerKernel
  simp only [cc2__layer_kernel_eq_skeleton]; unfold cc2__layer_kernel_skel
  unfold ownsTc owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H4]
  · iexists _; isplitr
    swap; · iexact H4
    ipureintro; exact View.read_writes_eq_canon _ _ _ (View.cover_of_tiled _ S5000x64.size (by rfl))
  sl_close

end Cert.KernelIdeal.Hand

end
-- ==== Proof.KI.Region1.lean ====
/- Region 1 (one layer's row-tile kernel): what the body leaves in its output tile as a function of its four input tiles, the body's run, and the proof data at any entry contents. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import proofs.«173786_j46231027974388_2_alg».proof.Proof.KI.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data at entry contents `V`: an input tile stays its block, the output tile is `layerOut` of them. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => layerOut (iblk1 V c 0 t) (iblk1 V c 1 t) (iblk1 V c 2 t) (iblk1 V c 3 t)
  Φ _ := Pipeline.ΦA spec1 c
  q := q
  owed _ := 0

theorem A_eq1 (q : Fin cfg1.W → PosShare TreeShare) (c : Dev nD) (w : Fin cfg1.W) : (dat1 V q c).A w = V c (Pipeline.arrRef spec1 w) := by
  dsimp only [dat1]

theorem after1_4 (q : Fin cfg1.W → PosShare TreeShare) (c : Dev nD) (t : Fin cfg1.N) :
    (dat1 V q c).after 4 t = layerOut (iblk1 V c 0 t) (iblk1 V c 1 t) (iblk1 V c 2 t) (iblk1 V c 3 t) := by dsimp only [dat1]

/-- The body writes no input window, so what it finds in one is what it leaves there. -/
theorem before1_in (q : Fin cfg1.W → PosShare TreeShare) (c : Dev nD) (w : Fin cfg1.W) (hw : (cfg1.win w).isOut = false) (t : Fin cfg1.N) (d) :
    (dat1 V q c).before w t d = (dat1 V q c).after w t := by
  match w, hw with
  | ⟨0, _⟩, _ | ⟨1, _⟩, _ | ⟨2, _⟩, _ | ⟨3, _⟩, _ =>
    exact ((dat1 V q c).before_in_eq_fetched _ rfl (fun _ => rfl) (fun _ _ _ => rfl) (fun _ => rfl) t d).trans rfl
  | ⟨4, _⟩, hw => exact Bool.noConfusion hw

theorem after1_out (q : Fin cfg1.W → PosShare TreeShare) (c : Dev nD) (t : Fin cfg1.N) : (dat1 V q c).after 4 t =
    layerOut ((dat1 V q c).after 0 t) ((dat1 V q c).after 1 t) ((dat1 V q c).after 2 t) ((dat1 V q c).after 3 t) := by dsimp only [dat1]

/-- The inputs are as the body leaves them, so the body's triple applies at every point. -/
theorem sound_body1 (q : Fin cfg1.W → PosShare TreeShare) (c : Dev nD) (t : Fin cfg1.N) :
    iprop((dat1 V q c).Φ t.castSucc ∗ (dat1 V q c).owesAt () t.castSucc
      ∗ (∃ d, ownsTc c (st1_0 t) fullShare ((dat1 V q c).before 0 t d))
      ∗ (∃ d, ownsTc c (st1_1 t) fullShare ((dat1 V q c).before 1 t d))
      ∗ (∃ d, ownsTc c (st1_2 t) fullShare ((dat1 V q c).before 2 t d))
      ∗ (∃ d, ownsTc c (st1_3 t) fullShare ((dat1 V q c).before 3 t d))
      ∗ (∃ d, ownsTc c (st1_4 t) fullShare ((dat1 V q c).before 4 t d)))
    ⊢ wp frame (wpE (defs₀ (F := F)) Variants.none c none) Set.univ (bodyAt1 t) (fun _ =>
      iprop((dat1 V q c).Φ t.succ ∗ (dat1 V q c).owesAt () t.succ
        ∗ ownsTc c (st1_0 t) fullShare ((dat1 V q c).after 0 t)
        ∗ ownsTc c (st1_1 t) fullShare ((dat1 V q c).after 1 t)
        ∗ ownsTc c (st1_2 t) fullShare ((dat1 V q c).after 2 t)
        ∗ ownsTc c (st1_3 t) fullShare ((dat1 V q c).after 3 t)
        ∗ ownsTc c (st1_4 t) fullShare ((dat1 V q c).after 4 t))) := by
  unfold bodyAt1
  rw [show @cc1__layer_kernel F _ _ = layerKernel from rfl]
  simp only [before1_in V q c 0 rfl, before1_in V q c 1 rfl, before1_in V q c 2 rfl, before1_in V q c 3 rfl, after1_out]
  rewrite [show (dat1 V q c).Φ t.succ = (dat1 V q c).Φ t.castSucc from rfl,
    show (dat1 V q c).owesAt () t.succ = (dat1 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation1 (q : Fin cfg1.W → PosShare TreeShare) (c : Dev nD) :
    BodyObligation (dat1 (F := F) V q c) (defs₀ (F := F)) Variants.none () Set.univ := fun t => by
  rw [bigSep_W1, bigSep_W1]
  exact sound_body1 V q c t

end Cert.KernelIdeal.Hand

end
-- ==== Proof.KI.Region2.lean ====
/- Region 2 (one layer's row-tile kernel): what the body leaves in its output tile as a function of its four input tiles, the body's run, and the proof data at any entry contents. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import proofs.«173786_j46231027974388_2_alg».proof.Proof.KI.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data at entry contents `V`: an input tile stays its block, the output tile is `layerOut` of them. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => layerOut (iblk2 V c 0 t) (iblk2 V c 1 t) (iblk2 V c 2 t) (iblk2 V c 3 t)
  Φ _ := Pipeline.ΦA spec2 c
  q := q
  owed _ := 0

theorem A_eq2 (q : Fin cfg2.W → PosShare TreeShare) (c : Dev nD) (w : Fin cfg2.W) : (dat2 V q c).A w = V c (Pipeline.arrRef spec2 w) := by
  dsimp only [dat2]

theorem after2_4 (q : Fin cfg2.W → PosShare TreeShare) (c : Dev nD) (t : Fin cfg2.N) :
    (dat2 V q c).after 4 t = layerOut (iblk2 V c 0 t) (iblk2 V c 1 t) (iblk2 V c 2 t) (iblk2 V c 3 t) := by dsimp only [dat2]

/-- The body writes no input window, so what it finds in one is what it leaves there. -/
theorem before2_in (q : Fin cfg2.W → PosShare TreeShare) (c : Dev nD) (w : Fin cfg2.W) (hw : (cfg2.win w).isOut = false) (t : Fin cfg2.N) (d) :
    (dat2 V q c).before w t d = (dat2 V q c).after w t := by
  match w, hw with
  | ⟨0, _⟩, _ | ⟨1, _⟩, _ | ⟨2, _⟩, _ | ⟨3, _⟩, _ =>
    exact ((dat2 V q c).before_in_eq_fetched _ rfl (fun _ => rfl) (fun _ _ _ => rfl) (fun _ => rfl) t d).trans rfl
  | ⟨4, _⟩, hw => exact Bool.noConfusion hw

theorem after2_out (q : Fin cfg2.W → PosShare TreeShare) (c : Dev nD) (t : Fin cfg2.N) : (dat2 V q c).after 4 t =
    layerOut ((dat2 V q c).after 0 t) ((dat2 V q c).after 1 t) ((dat2 V q c).after 2 t) ((dat2 V q c).after 3 t) := by dsimp only [dat2]

/-- The inputs are as the body leaves them, so the body's triple applies at every point. -/
theorem sound_body2 (q : Fin cfg2.W → PosShare TreeShare) (c : Dev nD) (t : Fin cfg2.N) :
    iprop((dat2 V q c).Φ t.castSucc ∗ (dat2 V q c).owesAt () t.castSucc
      ∗ (∃ d, ownsTc c (st2_0 t) fullShare ((dat2 V q c).before 0 t d))
      ∗ (∃ d, ownsTc c (st2_1 t) fullShare ((dat2 V q c).before 1 t d))
      ∗ (∃ d, ownsTc c (st2_2 t) fullShare ((dat2 V q c).before 2 t d))
      ∗ (∃ d, ownsTc c (st2_3 t) fullShare ((dat2 V q c).before 3 t d))
      ∗ (∃ d, ownsTc c (st2_4 t) fullShare ((dat2 V q c).before 4 t d)))
    ⊢ wp frame (wpE (defs₀ (F := F)) Variants.none c none) Set.univ (bodyAt2 t) (fun _ =>
      iprop((dat2 V q c).Φ t.succ ∗ (dat2 V q c).owesAt () t.succ
        ∗ ownsTc c (st2_0 t) fullShare ((dat2 V q c).after 0 t)
        ∗ ownsTc c (st2_1 t) fullShare ((dat2 V q c).after 1 t)
        ∗ ownsTc c (st2_2 t) fullShare ((dat2 V q c).after 2 t)
        ∗ ownsTc c (st2_3 t) fullShare ((dat2 V q c).after 3 t)
        ∗ ownsTc c (st2_4 t) fullShare ((dat2 V q c).after 4 t))) := by
  unfold bodyAt2
  rw [show @cc2__layer_kernel F _ _ = layerKernel from rfl]
  simp only [before2_in V q c 0 rfl, before2_in V q c 1 rfl, before2_in V q c 2 rfl, before2_in V q c 3 rfl, after2_out]
  rewrite [show (dat2 V q c).Φ t.succ = (dat2 V q c).Φ t.castSucc from rfl,
    show (dat2 V q c).owesAt () t.succ = (dat2 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation2 (q : Fin cfg2.W → PosShare TreeShare) (c : Dev nD) :
    BodyObligation (dat2 (F := F) V q c) (defs₀ (F := F)) Variants.none () Set.univ := fun t => by
  rw [bigSep_W2, bigSep_W2]
  exact sound_body2 V q c t

end Cert.KernelIdeal.Hand

end
-- ==== Proof.KI.Region3.lean ====
/- Region 3 (one layer's row-tile kernel): what the body leaves in its output tile as a function of its four input tiles, the body's run, and the proof data at any entry contents. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import proofs.«173786_j46231027974388_2_alg».proof.Proof.KI.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The region's proof data at entry contents `V`: an input tile stays its block, the output tile is `layerOut` of them. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => layerOut (iblk3 V c 0 t) (iblk3 V c 1 t) (iblk3 V c 2 t) (iblk3 V c 3 t)
  Φ _ := Pipeline.ΦA spec3 c
  q := q
  owed _ := 0

theorem A_eq3 (q : Fin cfg3.W → PosShare TreeShare) (c : Dev nD) (w : Fin cfg3.W) : (dat3 V q c).A w = V c (Pipeline.arrRef spec3 w) := by
  dsimp only [dat3]

theorem after3_4 (q : Fin cfg3.W → PosShare TreeShare) (c : Dev nD) (t : Fin cfg3.N) :
    (dat3 V q c).after 4 t = layerOut (iblk3 V c 0 t) (iblk3 V c 1 t) (iblk3 V c 2 t) (iblk3 V c 3 t) := by dsimp only [dat3]

/-- The body writes no input window, so what it finds in one is what it leaves there. -/
theorem before3_in (q : Fin cfg3.W → PosShare TreeShare) (c : Dev nD) (w : Fin cfg3.W) (hw : (cfg3.win w).isOut = false) (t : Fin cfg3.N) (d) :
    (dat3 V q c).before w t d = (dat3 V q c).after w t := by
  match w, hw with
  | ⟨0, _⟩, _ | ⟨1, _⟩, _ | ⟨2, _⟩, _ | ⟨3, _⟩, _ =>
    exact ((dat3 V q c).before_in_eq_fetched _ rfl (fun _ => rfl) (fun _ _ _ => rfl) (fun _ => rfl) t d).trans rfl
  | ⟨4, _⟩, hw => exact Bool.noConfusion hw

theorem after3_out (q : Fin cfg3.W → PosShare TreeShare) (c : Dev nD) (t : Fin cfg3.N) : (dat3 V q c).after 4 t =
    layerOut ((dat3 V q c).after 0 t) ((dat3 V q c).after 1 t) ((dat3 V q c).after 2 t) ((dat3 V q c).after 3 t) := by dsimp only [dat3]

/-- The inputs are as the body leaves them, so the body's triple applies at every point. -/
theorem sound_body3 (q : Fin cfg3.W → PosShare TreeShare) (c : Dev nD) (t : Fin cfg3.N) :
    iprop((dat3 V q c).Φ t.castSucc ∗ (dat3 V q c).owesAt () t.castSucc
      ∗ (∃ d, ownsTc c (st3_0 t) fullShare ((dat3 V q c).before 0 t d))
      ∗ (∃ d, ownsTc c (st3_1 t) fullShare ((dat3 V q c).before 1 t d))
      ∗ (∃ d, ownsTc c (st3_2 t) fullShare ((dat3 V q c).before 2 t d))
      ∗ (∃ d, ownsTc c (st3_3 t) fullShare ((dat3 V q c).before 3 t d))
      ∗ (∃ d, ownsTc c (st3_4 t) fullShare ((dat3 V q c).before 4 t d)))
    ⊢ wp frame (wpE (defs₀ (F := F)) Variants.none c none) Set.univ (bodyAt3 t) (fun _ =>
      iprop((dat3 V q c).Φ t.succ ∗ (dat3 V q c).owesAt () t.succ
        ∗ ownsTc c (st3_0 t) fullShare ((dat3 V q c).after 0 t)
        ∗ ownsTc c (st3_1 t) fullShare ((dat3 V q c).after 1 t)
        ∗ ownsTc c (st3_2 t) fullShare ((dat3 V q c).after 2 t)
        ∗ ownsTc c (st3_3 t) fullShare ((dat3 V q c).after 3 t)
        ∗ ownsTc c (st3_4 t) fullShare ((dat3 V q c).after 4 t))) := by
  unfold bodyAt3
  rw [show @cc3__layer_kernel F _ _ = layerKernel from rfl]
  simp only [before3_in V q c 0 rfl, before3_in V q c 1 rfl, before3_in V q c 2 rfl, before3_in V q c 3 rfl, after3_out]
  rewrite [show (dat3 V q c).Φ t.succ = (dat3 V q c).Φ t.castSucc from rfl,
    show (dat3 V q c).owesAt () t.succ = (dat3 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation3 (q : Fin cfg3.W → PosShare TreeShare) (c : Dev nD) :
    BodyObligation (dat3 (F := F) V q c) (defs₀ (F := F)) Variants.none () Set.univ := fun t => by
  rw [bigSep_W3, bigSep_W3]
  exact sound_body3 V q c t

end Cert.KernelIdeal.Hand

end
-- ==== Proof.KI.Region4.lean ====
/- Region 4 (one layer's row-tile kernel): what the body leaves in its output tile as a function of its four input tiles, the body's run, and the proof data at any entry contents. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import proofs.«173786_j46231027974388_2_alg».proof.Proof.KI.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The region's proof data at entry contents `V`: an input tile stays its block, the output tile is `layerOut` of them. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => layerOut (iblk4 V c 0 t) (iblk4 V c 1 t) (iblk4 V c 2 t) (iblk4 V c 3 t)
  Φ _ := Pipeline.ΦA spec4 c
  q := q
  owed _ := 0

theorem A_eq4 (q : Fin cfg4.W → PosShare TreeShare) (c : Dev nD) (w : Fin cfg4.W) : (dat4 V q c).A w = V c (Pipeline.arrRef spec4 w) := by
  dsimp only [dat4]

theorem after4_4 (q : Fin cfg4.W → PosShare TreeShare) (c : Dev nD) (t : Fin cfg4.N) :
    (dat4 V q c).after 4 t = layerOut (iblk4 V c 0 t) (iblk4 V c 1 t) (iblk4 V c 2 t) (iblk4 V c 3 t) := by dsimp only [dat4]

/-- The body writes no input window, so what it finds in one is what it leaves there. -/
theorem before4_in (q : Fin cfg4.W → PosShare TreeShare) (c : Dev nD) (w : Fin cfg4.W) (hw : (cfg4.win w).isOut = false) (t : Fin cfg4.N) (d) :
    (dat4 V q c).before w t d = (dat4 V q c).after w t := by
  match w, hw with
  | ⟨0, _⟩, _ | ⟨1, _⟩, _ | ⟨2, _⟩, _ | ⟨3, _⟩, _ =>
    exact ((dat4 V q c).before_in_eq_fetched _ rfl (fun _ => rfl) (fun _ _ _ => rfl) (fun _ => rfl) t d).trans rfl
  | ⟨4, _⟩, hw => exact Bool.noConfusion hw

theorem after4_out (q : Fin cfg4.W → PosShare TreeShare) (c : Dev nD) (t : Fin cfg4.N) : (dat4 V q c).after 4 t =
    layerOut ((dat4 V q c).after 0 t) ((dat4 V q c).after 1 t) ((dat4 V q c).after 2 t) ((dat4 V q c).after 3 t) := by dsimp only [dat4]

/-- The inputs are as the body leaves them, so the body's triple applies at every point. -/
theorem sound_body4 (q : Fin cfg4.W → PosShare TreeShare) (c : Dev nD) (t : Fin cfg4.N) :
    iprop((dat4 V q c).Φ t.castSucc ∗ (dat4 V q c).owesAt () t.castSucc
      ∗ (∃ d, ownsTc c (st4_0 t) fullShare ((dat4 V q c).before 0 t d))
      ∗ (∃ d, ownsTc c (st4_1 t) fullShare ((dat4 V q c).before 1 t d))
      ∗ (∃ d, ownsTc c (st4_2 t) fullShare ((dat4 V q c).before 2 t d))
      ∗ (∃ d, ownsTc c (st4_3 t) fullShare ((dat4 V q c).before 3 t d))
      ∗ (∃ d, ownsTc c (st4_4 t) fullShare ((dat4 V q c).before 4 t d)))
    ⊢ wp frame (wpE (defs₀ (F := F)) Variants.none c none) Set.univ (bodyAt4 t) (fun _ =>
      iprop((dat4 V q c).Φ t.succ ∗ (dat4 V q c).owesAt () t.succ
        ∗ ownsTc c (st4_0 t) fullShare ((dat4 V q c).after 0 t)
        ∗ ownsTc c (st4_1 t) fullShare ((dat4 V q c).after 1 t)
        ∗ ownsTc c (st4_2 t) fullShare ((dat4 V q c).after 2 t)
        ∗ ownsTc c (st4_3 t) fullShare ((dat4 V q c).after 3 t)
        ∗ ownsTc c (st4_4 t) fullShare ((dat4 V q c).after 4 t))) := by
  unfold bodyAt4
  rw [show @cc4__layer_kernel F _ _ = layerKernel from rfl]
  simp only [before4_in V q c 0 rfl, before4_in V q c 1 rfl, before4_in V q c 2 rfl, before4_in V q c 3 rfl, after4_out]
  rewrite [show (dat4 V q c).Φ t.succ = (dat4 V q c).Φ t.castSucc from rfl,
    show (dat4 V q c).owesAt () t.succ = (dat4 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation4 (q : Fin cfg4.W → PosShare TreeShare) (c : Dev nD) :
    BodyObligation (dat4 (F := F) V q c) (defs₀ (F := F)) Variants.none () Set.univ := fun t => by
  rw [bigSep_W4, bigSep_W4]
  exact sound_body4 V q c t

end Cert.KernelIdeal.Hand

end
-- ==== Proof.KI.Region5.lean ====
/- Region 5 (one layer's row-tile kernel): what the body leaves in its output tile as a function of its four input tiles, the body's run, and the proof data at any entry contents. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import proofs.«173786_j46231027974388_2_alg».proof.Proof.KI.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The region's proof data at entry contents `V`: an input tile stays its block, the output tile is `layerOut` of them. -/
def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => layerOut (iblk5 V c 0 t) (iblk5 V c 1 t) (iblk5 V c 2 t) (iblk5 V c 3 t)
  Φ _ := Pipeline.ΦA spec5 c
  q := q
  owed _ := 0

theorem A_eq5 (q : Fin cfg5.W → PosShare TreeShare) (c : Dev nD) (w : Fin cfg5.W) : (dat5 V q c).A w = V c (Pipeline.arrRef spec5 w) := by
  dsimp only [dat5]

theorem after5_4 (q : Fin cfg5.W → PosShare TreeShare) (c : Dev nD) (t : Fin cfg5.N) :
    (dat5 V q c).after 4 t = layerOut (iblk5 V c 0 t) (iblk5 V c 1 t) (iblk5 V c 2 t) (iblk5 V c 3 t) := by dsimp only [dat5]

/-- The body writes no input window, so what it finds in one is what it leaves there. -/
theorem before5_in (q : Fin cfg5.W → PosShare TreeShare) (c : Dev nD) (w : Fin cfg5.W) (hw : (cfg5.win w).isOut = false) (t : Fin cfg5.N) (d) :
    (dat5 V q c).before w t d = (dat5 V q c).after w t := by
  match w, hw with
  | ⟨0, _⟩, _ | ⟨1, _⟩, _ | ⟨2, _⟩, _ | ⟨3, _⟩, _ =>
    exact ((dat5 V q c).before_in_eq_fetched _ rfl (fun _ => rfl) (fun _ _ _ => rfl) (fun _ => rfl) t d).trans rfl
  | ⟨4, _⟩, hw => exact Bool.noConfusion hw

theorem after5_out (q : Fin cfg5.W → PosShare TreeShare) (c : Dev nD) (t : Fin cfg5.N) : (dat5 V q c).after 4 t =
    layerOut ((dat5 V q c).after 0 t) ((dat5 V q c).after 1 t) ((dat5 V q c).after 2 t) ((dat5 V q c).after 3 t) := by dsimp only [dat5]

/-- The inputs are as the body leaves them, so the body's triple applies at every point. -/
theorem sound_body5 (q : Fin cfg5.W → PosShare TreeShare) (c : Dev nD) (t : Fin cfg5.N) :
    iprop((dat5 V q c).Φ t.castSucc ∗ (dat5 V q c).owesAt () t.castSucc
      ∗ (∃ d, ownsTc c (st5_0 t) fullShare ((dat5 V q c).before 0 t d))
      ∗ (∃ d, ownsTc c (st5_1 t) fullShare ((dat5 V q c).before 1 t d))
      ∗ (∃ d, ownsTc c (st5_2 t) fullShare ((dat5 V q c).before 2 t d))
      ∗ (∃ d, ownsTc c (st5_3 t) fullShare ((dat5 V q c).before 3 t d))
      ∗ (∃ d, ownsTc c (st5_4 t) fullShare ((dat5 V q c).before 4 t d)))
    ⊢ wp frame (wpE (defs₀ (F := F)) Variants.none c none) Set.univ (bodyAt5 t) (fun _ =>
      iprop((dat5 V q c).Φ t.succ ∗ (dat5 V q c).owesAt () t.succ
        ∗ ownsTc c (st5_0 t) fullShare ((dat5 V q c).after 0 t)
        ∗ ownsTc c (st5_1 t) fullShare ((dat5 V q c).after 1 t)
        ∗ ownsTc c (st5_2 t) fullShare ((dat5 V q c).after 2 t)
        ∗ ownsTc c (st5_3 t) fullShare ((dat5 V q c).after 3 t)
        ∗ ownsTc c (st5_4 t) fullShare ((dat5 V q c).after 4 t))) := by
  unfold bodyAt5
  rw [show @cc5__layer_kernel F _ _ = layerKernel from rfl]
  simp only [before5_in V q c 0 rfl, before5_in V q c 1 rfl, before5_in V q c 2 rfl, before5_in V q c 3 rfl, after5_out]
  rewrite [show (dat5 V q c).Φ t.succ = (dat5 V q c).Φ t.castSucc from rfl,
    show (dat5 V q c).owesAt () t.succ = (dat5 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation5 (q : Fin cfg5.W → PosShare TreeShare) (c : Dev nD) :
    BodyObligation (dat5 (F := F) V q c) (defs₀ (F := F)) Variants.none () Set.univ := fun t => by
  rw [bigSep_W5, bigSep_W5]
  exact sound_body5 V q c t

end Cert.KernelIdeal.Hand

end
-- ==== Proof.KI.Region6.lean ====
/- Region 6 (one layer's row-tile kernel): what the body leaves in its output tile as a function of its four input tiles, the body's run, and the proof data at any entry contents. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import proofs.«173786_j46231027974388_2_alg».proof.Proof.KI.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The region's proof data at entry contents `V`: an input tile stays its block, the output tile is `layerOut` of them. -/
def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => layerOut (iblk6 V c 0 t) (iblk6 V c 1 t) (iblk6 V c 2 t) (iblk6 V c 3 t)
  Φ _ := Pipeline.ΦA spec6 c
  q := q
  owed _ := 0

theorem A_eq6 (q : Fin cfg6.W → PosShare TreeShare) (c : Dev nD) (w : Fin cfg6.W) : (dat6 V q c).A w = V c (Pipeline.arrRef spec6 w) := by
  dsimp only [dat6]

theorem after6_4 (q : Fin cfg6.W → PosShare TreeShare) (c : Dev nD) (t : Fin cfg6.N) :
    (dat6 V q c).after 4 t = layerOut (iblk6 V c 0 t) (iblk6 V c 1 t) (iblk6 V c 2 t) (iblk6 V c 3 t) := by dsimp only [dat6]

/-- The body writes no input window, so what it finds in one is what it leaves there. -/
theorem before6_in (q : Fin cfg6.W → PosShare TreeShare) (c : Dev nD) (w : Fin cfg6.W) (hw : (cfg6.win w).isOut = false) (t : Fin cfg6.N) (d) :
    (dat6 V q c).before w t d = (dat6 V q c).after w t := by
  match w, hw with
  | ⟨0, _⟩, _ | ⟨1, _⟩, _ | ⟨2, _⟩, _ | ⟨3, _⟩, _ =>
    exact ((dat6 V q c).before_in_eq_fetched _ rfl (fun _ => rfl) (fun _ _ _ => rfl) (fun _ => rfl) t d).trans rfl
  | ⟨4, _⟩, hw => exact Bool.noConfusion hw

theorem after6_out (q : Fin cfg6.W → PosShare TreeShare) (c : Dev nD) (t : Fin cfg6.N) : (dat6 V q c).after 4 t =
    layerOut ((dat6 V q c).after 0 t) ((dat6 V q c).after 1 t) ((dat6 V q c).after 2 t) ((dat6 V q c).after 3 t) := by dsimp only [dat6]

/-- The inputs are as the body leaves them, so the body's triple applies at every point. -/
theorem sound_body6 (q : Fin cfg6.W → PosShare TreeShare) (c : Dev nD) (t : Fin cfg6.N) :
    iprop((dat6 V q c).Φ t.castSucc ∗ (dat6 V q c).owesAt () t.castSucc
      ∗ (∃ d, ownsTc c (st6_0 t) fullShare ((dat6 V q c).before 0 t d))
      ∗ (∃ d, ownsTc c (st6_1 t) fullShare ((dat6 V q c).before 1 t d))
      ∗ (∃ d, ownsTc c (st6_2 t) fullShare ((dat6 V q c).before 2 t d))
      ∗ (∃ d, ownsTc c (st6_3 t) fullShare ((dat6 V q c).before 3 t d))
      ∗ (∃ d, ownsTc c (st6_4 t) fullShare ((dat6 V q c).before 4 t d)))
    ⊢ wp frame (wpE (defs₀ (F := F)) Variants.none c none) Set.univ (bodyAt6 t) (fun _ =>
      iprop((dat6 V q c).Φ t.succ ∗ (dat6 V q c).owesAt () t.succ
        ∗ ownsTc c (st6_0 t) fullShare ((dat6 V q c).after 0 t)
        ∗ ownsTc c (st6_1 t) fullShare ((dat6 V q c).after 1 t)
        ∗ ownsTc c (st6_2 t) fullShare ((dat6 V q c).after 2 t)
        ∗ ownsTc c (st6_3 t) fullShare ((dat6 V q c).after 3 t)
        ∗ ownsTc c (st6_4 t) fullShare ((dat6 V q c).after 4 t))) := by
  unfold bodyAt6
  rw [show @cc6__layer_kernel F _ _ = layerKernel from rfl]
  simp only [before6_in V q c 0 rfl, before6_in V q c 1 rfl, before6_in V q c 2 rfl, before6_in V q c 3 rfl, after6_out]
  rewrite [show (dat6 V q c).Φ t.succ = (dat6 V q c).Φ t.castSucc from rfl,
    show (dat6 V q c).owesAt () t.succ = (dat6 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation6 (q : Fin cfg6.W → PosShare TreeShare) (c : Dev nD) :
    BodyObligation (dat6 (F := F) V q c) (defs₀ (F := F)) Variants.none () Set.univ := fun t => by
  rw [bigSep_W6, bigSep_W6]
  exact sound_body6 V q c t

end Cert.KernelIdeal.Hand

end
-- ==== Proof.KI.Region7.lean ====
/- Region 7 (one layer's row-tile kernel): what the body leaves in its output tile as a function of its four input tiles, the body's run, and the proof data at any entry contents. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import proofs.«173786_j46231027974388_2_alg».proof.Proof.KI.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The region's proof data at entry contents `V`: an input tile stays its block, the output tile is `layerOut` of them. -/
def dat7 (q : Fin cfg7.W → PosShare TreeShare) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => layerOut (iblk7 V c 0 t) (iblk7 V c 1 t) (iblk7 V c 2 t) (iblk7 V c 3 t)
  Φ _ := Pipeline.ΦA spec7 c
  q := q
  owed _ := 0

theorem A_eq7 (q : Fin cfg7.W → PosShare TreeShare) (c : Dev nD) (w : Fin cfg7.W) : (dat7 V q c).A w = V c (Pipeline.arrRef spec7 w) := by
  dsimp only [dat7]

theorem after7_4 (q : Fin cfg7.W → PosShare TreeShare) (c : Dev nD) (t : Fin cfg7.N) :
    (dat7 V q c).after 4 t = layerOut (iblk7 V c 0 t) (iblk7 V c 1 t) (iblk7 V c 2 t) (iblk7 V c 3 t) := by dsimp only [dat7]

/-- The body writes no input window, so what it finds in one is what it leaves there. -/
theorem before7_in (q : Fin cfg7.W → PosShare TreeShare) (c : Dev nD) (w : Fin cfg7.W) (hw : (cfg7.win w).isOut = false) (t : Fin cfg7.N) (d) :
    (dat7 V q c).before w t d = (dat7 V q c).after w t := by
  match w, hw with
  | ⟨0, _⟩, _ | ⟨1, _⟩, _ | ⟨2, _⟩, _ | ⟨3, _⟩, _ =>
    exact ((dat7 V q c).before_in_eq_fetched _ rfl (fun _ => rfl) (fun _ _ _ => rfl) (fun _ => rfl) t d).trans rfl
  | ⟨4, _⟩, hw => exact Bool.noConfusion hw

theorem after7_out (q : Fin cfg7.W → PosShare TreeShare) (c : Dev nD) (t : Fin cfg7.N) : (dat7 V q c).after 4 t =
    layerOut ((dat7 V q c).after 0 t) ((dat7 V q c).after 1 t) ((dat7 V q c).after 2 t) ((dat7 V q c).after 3 t) := by dsimp only [dat7]

/-- The inputs are as the body leaves them, so the body's triple applies at every point. -/
theorem sound_body7 (q : Fin cfg7.W → PosShare TreeShare) (c : Dev nD) (t : Fin cfg7.N) :
    iprop((dat7 V q c).Φ t.castSucc ∗ (dat7 V q c).owesAt () t.castSucc
      ∗ (∃ d, ownsTc c (st7_0 t) fullShare ((dat7 V q c).before 0 t d))
      ∗ (∃ d, ownsTc c (st7_1 t) fullShare ((dat7 V q c).before 1 t d))
      ∗ (∃ d, ownsTc c (st7_2 t) fullShare ((dat7 V q c).before 2 t d))
      ∗ (∃ d, ownsTc c (st7_3 t) fullShare ((dat7 V q c).before 3 t d))
      ∗ (∃ d, ownsTc c (st7_4 t) fullShare ((dat7 V q c).before 4 t d)))
    ⊢ wp frame (wpE (defs₀ (F := F)) Variants.none c none) Set.univ (bodyAt7 t) (fun _ =>
      iprop((dat7 V q c).Φ t.succ ∗ (dat7 V q c).owesAt () t.succ
        ∗ ownsTc c (st7_0 t) fullShare ((dat7 V q c).after 0 t)
        ∗ ownsTc c (st7_1 t) fullShare ((dat7 V q c).after 1 t)
        ∗ ownsTc c (st7_2 t) fullShare ((dat7 V q c).after 2 t)
        ∗ ownsTc c (st7_3 t) fullShare ((dat7 V q c).after 3 t)
        ∗ ownsTc c (st7_4 t) fullShare ((dat7 V q c).after 4 t))) := by
  unfold bodyAt7
  rw [show @cc7__layer_kernel F _ _ = layerKernel from rfl]
  simp only [before7_in V q c 0 rfl, before7_in V q c 1 rfl, before7_in V q c 2 rfl, before7_in V q c 3 rfl, after7_out]
  rewrite [show (dat7 V q c).Φ t.succ = (dat7 V q c).Φ t.castSucc from rfl,
    show (dat7 V q c).owesAt () t.succ = (dat7 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation7 (q : Fin cfg7.W → PosShare TreeShare) (c : Dev nD) :
    BodyObligation (dat7 (F := F) V q c) (defs₀ (F := F)) Variants.none () Set.univ := fun t => by
  rw [bigSep_W7, bigSep_W7]
  exact sound_body7 V q c t

end Cert.KernelIdeal.Hand

end
-- ==== Proof.KI.Region8.lean ====
/- Region 8 (one layer's row-tile kernel): what the body leaves in its output tile as a function of its four input tiles, the body's run, and the proof data at any entry contents. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import proofs.«173786_j46231027974388_2_alg».proof.Proof.KI.LayerKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The region's proof data at entry contents `V`: an input tile stays its block, the output tile is `layerOut` of them. -/
def dat8 (q : Fin cfg8.W → PosShare TreeShare) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => layerOut (iblk8 V c 0 t) (iblk8 V c 1 t) (iblk8 V c 2 t) (iblk8 V c 3 t)
  Φ _ := Pipeline.ΦA spec8 c
  q := q
  owed _ := 0

theorem A_eq8 (q : Fin cfg8.W → PosShare TreeShare) (c : Dev nD) (w : Fin cfg8.W) : (dat8 V q c).A w = V c (Pipeline.arrRef spec8 w) := by
  dsimp only [dat8]

theorem after8_4 (q : Fin cfg8.W → PosShare TreeShare) (c : Dev nD) (t : Fin cfg8.N) :
    (dat8 V q c).after 4 t = layerOut (iblk8 V c 0 t) (iblk8 V c 1 t) (iblk8 V c 2 t) (iblk8 V c 3 t) := by dsimp only [dat8]

/-- The body writes no input window, so what it finds in one is what it leaves there. -/
theorem before8_in (q : Fin cfg8.W → PosShare TreeShare) (c : Dev nD) (w : Fin cfg8.W) (hw : (cfg8.win w).isOut = false) (t : Fin cfg8.N) (d) :
    (dat8 V q c).before w t d = (dat8 V q c).after w t := by
  match w, hw with
  | ⟨0, _⟩, _ | ⟨1, _⟩, _ | ⟨2, _⟩, _ | ⟨3, _⟩, _ =>
    exact ((dat8 V q c).before_in_eq_fetched _ rfl (fun _ => rfl) (fun _ _ _ => rfl) (fun _ => rfl) t d).trans rfl
  | ⟨4, _⟩, hw => exact Bool.noConfusion hw

theorem after8_out (q : Fin cfg8.W → PosShare TreeShare) (c : Dev nD) (t : Fin cfg8.N) : (dat8 V q c).after 4 t =
    layerOut ((dat8 V q c).after 0 t) ((dat8 V q c).after 1 t) ((dat8 V q c).after 2 t) ((dat8 V q c).after 3 t) := by dsimp only [dat8]

/-- The inputs are as the body leaves them, so the body's triple applies at every point. -/
theorem sound_body8 (q : Fin cfg8.W → PosShare TreeShare) (c : Dev nD) (t : Fin cfg8.N) :
    iprop((dat8 V q c).Φ t.castSucc ∗ (dat8 V q c).owesAt () t.castSucc
      ∗ (∃ d, ownsTc c (st8_0 t) fullShare ((dat8 V q c).before 0 t d))
      ∗ (∃ d, ownsTc c (st8_1 t) fullShare ((dat8 V q c).before 1 t d))
      ∗ (∃ d, ownsTc c (st8_2 t) fullShare ((dat8 V q c).before 2 t d))
      ∗ (∃ d, ownsTc c (st8_3 t) fullShare ((dat8 V q c).before 3 t d))
      ∗ (∃ d, ownsTc c (st8_4 t) fullShare ((dat8 V q c).before 4 t d)))
    ⊢ wp frame (wpE (defs₀ (F := F)) Variants.none c none) Set.univ (bodyAt8 t) (fun _ =>
      iprop((dat8 V q c).Φ t.succ ∗ (dat8 V q c).owesAt () t.succ
        ∗ ownsTc c (st8_0 t) fullShare ((dat8 V q c).after 0 t)
        ∗ ownsTc c (st8_1 t) fullShare ((dat8 V q c).after 1 t)
        ∗ ownsTc c (st8_2 t) fullShare ((dat8 V q c).after 2 t)
        ∗ ownsTc c (st8_3 t) fullShare ((dat8 V q c).after 3 t)
        ∗ ownsTc c (st8_4 t) fullShare ((dat8 V q c).after 4 t))) := by
  unfold bodyAt8
  rw [show @cc8__layer_kernel F _ _ = layerKernel from rfl]
  simp only [before8_in V q c 0 rfl, before8_in V q c 1 rfl, before8_in V q c 2 rfl, before8_in V q c 3 rfl, after8_out]
  rewrite [show (dat8 V q c).Φ t.succ = (dat8 V q c).Φ t.castSucc from rfl,
    show (dat8 V q c).owesAt () t.succ = (dat8 V q c).owesAt () t.castSucc from rfl]
  iintro ⟨HΦ, Ho, ⟨%d0, H0⟩, ⟨%d1, H1⟩, ⟨%d2, H2⟩, ⟨%d3, H3⟩, ⟨%d4, H4⟩⟩
  iapply (sound_layerKernel c Set.univ _ _ _ _ _ _ _ _ _ _ _ _ _ _ _ _)
  iframe H0 H1 H2 H3
  isplitl [H4]; · iexists _; iexact H4
  iintro ⟨H4, H0, H1, H2, H3⟩
  iframe HΦ Ho H0 H1 H2 H3
  iexact H4

theorem body_obligation8 (q : Fin cfg8.W → PosShare TreeShare) (c : Dev nD) :
    BodyObligation (dat8 (F := F) V q c) (defs₀ (F := F)) Variants.none () Set.univ := fun t => by
  rw [bigSep_W8, bigSep_W8]
  exact sound_body8 V q c t

end Cert.KernelIdeal.Hand

end
-- ==== Proof.KI.Region9.lean ====
/- Region 9: what the body leaves in its output tile as a function of its three input tiles, the body's run, and the proof data at any entry contents. -/
import proofs.«173786_j46231027974388_2_alg».proof.Proof.Gen.KernelIdeal.Launch
import proofs.«173786_j46231027974388_2_alg».proof.Proof.Gen.KernelIdeal.Skeleton
import proofs.«173786_j46231027974388_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S5000x64 := Rect.unit (s := S5000x64) ![0, 0] S5000x64.size inb_S5000x64_S5000x64_0_0
abbrev r9_1 : Rect S64x40 := Rect.unit (s := S64x40) ![0, 0] S64x40.size inb_S64x40_S64x40_0_0
abbrev r9_2 : Rect S40 := Rect.unit (s := S40) ![0] S40.size inb_S40_S40_0
abbrev r9_o : Rect S5000x40 := Rect.unit (s := S5000x40) ![0, 0] S5000x40.size inb_S5000x40_S5000x40_0_0

/-- The output tile as a function of the three input tiles: one store over the whole tile. -/
def out9_3 (x0 : Vec F S5000x64 .bf16) (x1 : Vec F S64x40 .f32) (x2 : Vec F S40 .f32) : Vec F S5000x40 .f32 :=
  View.canon [⟨r9_o, k9_pay1 (View.ld x0 r9_0) (View.ld x1 r9_1) (View.ld x2 r9_2)⟩]

/-- The region's proof data at entry contents `V`: an input tile stays its block, the output tile is `out9_3` of them. -/
def dat9 (q : Fin cfg9.W → PosShare TreeShare) (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q := q
  owed _ := 0

theorem A_eq9 (q : Fin cfg9.W → PosShare TreeShare) (c : Dev nD) (w : Fin cfg9.W) : (dat9 V q c).A w = V c (Pipeline.arrRef spec9 w) := by
  dsimp only [dat9]

theorem after9_3 (q : Fin cfg9.W → PosShare TreeShare) (c : Dev nD) (t : Fin cfg9.N) :
    (dat9 V q c).after 3 t = out9_3 (iblk9 V c 0 t) (iblk9 V c 1 t) (iblk9 V c 2 t) := by dsimp only [dat9]

/-- The body writes no input window, so what it finds in one is what it leaves there. -/
theorem before9_in (q : Fin cfg9.W → PosShare TreeShare) (c : Dev nD) (w : Fin cfg9.W) (hw : (cfg9.win w).isOut = false) (t : Fin cfg9.N) (d) :
    (dat9 V q c).before w t d = (dat9 V q c).after w t := by
  match w, hw with
  | ⟨0, _⟩, _ | ⟨1, _⟩, _ | ⟨2, _⟩, _ =>
    exact ((dat9 V q c).before_in_eq_fetched _ rfl (fun _ => rfl) (fun _ _ _ => rfl) (fun _ => rfl) t d).trans rfl
  | ⟨3, _⟩, hw => exact Bool.noConfusion hw

/-- The body only loads its inputs and its one store covers the output tile, so the tile ends at `out9_3` of the inputs whatever it held. -/
theorem sound_kernel9 (c : Dev nD) (E : Set ℕ) (i : grid9.Coords)
    (arg1 : Memref sig .tc .vmem S5000x64 .bf16) (harg1 : arg1.IsWhole)
    (arg2 : Memref sig .tc .vmem S64x40 .f32) (harg2 : arg2.IsWhole)
    (arg3 : Memref sig .tc .vmem S40 .f32) (harg3 : arg3.IsWhole)
    (arg4 : Memref sig .tc .vmem S5000x40 .f32) (harg4 : arg4.IsWhole)
    (x0 : Vec F S5000x64 .bf16) (x1 : Vec F S64x40 .f32) (x2 : Vec F S40 .f32) (K : PUnit → sProp 𝕄) :
    iprop(ownsTc c arg1 fullShare x0 ∗ ownsTc c arg2 fullShare x1
        ∗ ownsTc c arg3 fullShare x2 ∗ (∃ d, ownsTc c arg4 fullShare d)
        ∗ (iprop(ownsTc c arg4 fullShare (out9_3 x0 x1 x2) ∗ ownsTc c arg1 fullShare x0
            ∗ ownsTc c arg2 fullShare x1 ∗ ownsTc c arg3 fullShare x2) -∗ K ⟨⟩))
      ⊢ wp frame (wpE (defs₀ (F := F)) Variants.none c none) E (cc9__logits_kernel i arg1 harg1 arg2 harg2 arg3 harg3 arg4 harg4) K := by
  simp only [cc9__logits_kernel_eq_skeleton]; unfold cc9__logits_kernel_skel
  unfold ownsTc owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H3]
  · iexists _; isplitr
    swap; · iexact H3
    ipureintro; exact View.read_writes_eq_canon _ _ _ (View.cover_of_tiled _ S5000x40.size (by rfl))
  sl_close

theorem after9_out (q : Fin cfg9.W → PosShare TreeShare) (c : Dev nD) (t : Fin cfg9.N) : (dat9 V q c).after 3 t =
    out9_3 ((dat9 V q c).after 0 t) ((dat9 V q c).after 1 t) ((dat9 V q c).after 2 t) := by dsimp only [dat9]

/-- The inputs are as the body leaves them, so the body's triple applies at every point. -/
theorem sound_body9 (q : Fin cfg9.W → PosShare TreeShare) (c : Dev nD) (t : Fin cfg9.N) :
    iprop((dat9 V q c).Φ t.castSucc ∗ (dat9 V q c).owesAt () t.castSucc
      ∗ (∃ d, ownsTc c (st9_0 t) fullShare ((dat9 V q c).before 0 t d))
      ∗ (∃ d, ownsTc c (st9_1 t) fullShare ((dat9 V q c).before 1 t d))
      ∗ (∃ d, ownsTc c (st9_2 t) fullShare ((dat9 V q c).before 2 t d))
      ∗ (∃ d, ownsTc c (st9_3 t) fullShare ((dat9 V q c).before 3 t d)))
    ⊢ wp frame (wpE (defs₀ (F := F)) Variants.none c none) Set.univ (bodyAt9 t) (fun _ =>
      iprop((dat9 V q c).Φ t.succ ∗ (dat9 V q c).owesAt () t.succ
        ∗ ownsTc c (st9_0 t) fullShare ((dat9 V q c).after 0 t)
        ∗ ownsTc c (st9_1 t) fullShare ((dat9 V q c).after 1 t)
        ∗ ownsTc c (st9_2 t) fullShare ((dat9 V q c).after 2 t)
        ∗ ownsTc c (st9_3 t) fullShare ((dat9 V q c).after 3 t))) := by
  unfold bodyAt9
  simp only [before9_in V q c 0 rfl, before9_in V q c 1 rfl, before9_in V q c 2 rfl, after9_out]
  rewrite [show (dat9 V q c).Φ t.succ = (dat9 V q c).Φ t.castSucc from rfl,
    show (dat9 V q c).owesAt () t.succ = (dat9 V q c).owesAt () t.castSucc from rfl]
  iintro ⟨HΦ, Ho, ⟨%d0, H0⟩, ⟨%d1, H1⟩, ⟨%d2, H2⟩, ⟨%d3, H3⟩⟩
  iapply (sound_kernel9 c Set.univ _ _ _ _ _ _ _ _ _ _ _ _ _)
  iframe H0 H1 H2
  isplitl [H3]; · iexists _; iexact H3
  iintro ⟨H3, H0, H1, H2⟩
  iframe HΦ Ho H0 H1 H2
  iexact H3

theorem body_obligation9 (q : Fin cfg9.W → PosShare TreeShare) (c : Dev nD) :
    BodyObligation (dat9 (F := F) V q c) (defs₀ (F := F)) Variants.none () Set.univ := fun t => by
  rw [bigSep_W9, bigSep_W9]
  exact sound_body9 V q c t

end Cert.KernelIdeal.Hand

end
-- ==== Proof.KI.PDats.lean ====
/- The contents every core's buffers hold between two items of the program, each region's output named as what its write-backs leave. -/
import proofs.«173786_j46231027974388_2_alg».proof.Proof.KernelIdealRegions
import proofs.«173786_j46231027974388_2_alg».proof.Proof.KI.Region0
import proofs.«173786_j46231027974388_2_alg».proof.Proof.KI.Region1
import proofs.«173786_j46231027974388_2_alg».proof.Proof.KI.Region2
import proofs.«173786_j46231027974388_2_alg».proof.Proof.KI.Region3
import proofs.«173786_j46231027974388_2_alg».proof.Proof.KI.Region4
import proofs.«173786_j46231027974388_2_alg».proof.Proof.KI.Region5
import proofs.«173786_j46231027974388_2_alg».proof.Proof.KI.Region6
import proofs.«173786_j46231027974388_2_alg».proof.Proof.KI.Region7
import proofs.«173786_j46231027974388_2_alg».proof.Proof.KI.Region8
import proofs.«173786_j46231027974388_2_alg».proof.Proof.KI.Region9

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev qfull {n : Nat} : Fin n → PosShare TreeShare := fun _ => fullShare

def q1 : Fin cfg1.W → PosShare TreeShare := fun w => match w with
  | ⟨0, _⟩ => fullShare
  | ⟨1, _⟩ => fullShare.left
  | ⟨2, _⟩ => fullShare.right
  | ⟨3, _⟩ => fullShare
  | ⟨4, _⟩ => fullShare

abbrev atTc (W : Dev nD → Valuation τ sig (Elt F)) : (c : Dev nD) → (b : Ref sig .tc) → Buf (Elt F) ((c : Thread nD τ).loc b) := fun c b => W c b

abbrev U5 (c : Dev nD) : Valuation τ sig (Elt F) := V5 m c

def o0 (c : Dev nD) : Buf (Elt F) ((c : Thread nD τ).loc main_v36) := (dat0 (atTc (U5 m)) qfull c).arrAt 3 cfg0.N

def U6 (c : Dev nD) : Valuation τ sig (Elt F) := Function.update (U5 m c) main_v36 (o0 m c)

def U7 (c : Dev nD) : Valuation τ sig (Elt F) := StableHlo.after hostOps1 (U6 m c)

def o1 (c : Dev nD) : Buf (Elt F) ((c : Thread nD τ).loc main_v53) := (dat1 (atTc (U7 m)) q1 c).arrAt 4 cfg1.N

def U8 (c : Dev nD) : Valuation τ sig (Elt F) := Function.update (U7 m c) main_v53 (o1 m c)

def U9 (c : Dev nD) : Valuation τ sig (Elt F) := StableHlo.after hostOps2 (U8 m c)

def o2 (c : Dev nD) : Buf (Elt F) ((c : Thread nD τ).loc main_v70) := (dat2 (atTc (U9 m)) qfull c).arrAt 4 cfg2.N

def U10 (c : Dev nD) : Valuation τ sig (Elt F) := Function.update (U9 m c) main_v70 (o2 m c)

def U11 (c : Dev nD) : Valuation τ sig (Elt F) := StableHlo.after hostOps3 (U10 m c)

def o3 (c : Dev nD) : Buf (Elt F) ((c : Thread nD τ).loc main_v87) := (dat3 (atTc (U11 m)) qfull c).arrAt 4 cfg3.N

def U12 (c : Dev nD) : Valuation τ sig (Elt F) := Function.update (U11 m c) main_v87 (o3 m c)

def U13 (c : Dev nD) : Valuation τ sig (Elt F) := StableHlo.after hostOps4 (U12 m c)

def o4 (c : Dev nD) : Buf (Elt F) ((c : Thread nD τ).loc main_v104) := (dat4 (atTc (U13 m)) qfull c).arrAt 4 cfg4.N

def U14 (c : Dev nD) : Valuation τ sig (Elt F) := Function.update (U13 m c) main_v104 (o4 m c)

def U15 (c : Dev nD) : Valuation τ sig (Elt F) := StableHlo.after hostOps5 (U14 m c)

def o5 (c : Dev nD) : Buf (Elt F) ((c : Thread nD τ).loc main_v121) := (dat5 (atTc (U15 m)) qfull c).arrAt 4 cfg5.N

def U16 (c : Dev nD) : Valuation τ sig (Elt F) := Function.update (U15 m c) main_v121 (o5 m c)

def U17 (c : Dev nD) : Valuation τ sig (Elt F) := StableHlo.after hostOps6 (U16 m c)

def o6 (c : Dev nD) : Buf (Elt F) ((c : Thread nD τ).loc main_v138) := (dat6 (atTc (U17 m)) qfull c).arrAt 4 cfg6.N

def U18 (c : Dev nD) : Valuation τ sig (Elt F) := Function.update (U17 m c) main_v138 (o6 m c)

def U19 (c : Dev nD) : Valuation τ sig (Elt F) := StableHlo.after hostOps7 (U18 m c)

def o7 (c : Dev nD) : Buf (Elt F) ((c : Thread nD τ).loc main_v155) := (dat7 (atTc (U19 m)) qfull c).arrAt 4 cfg7.N

def U20 (c : Dev nD) : Valuation τ sig (Elt F) := Function.update (U19 m c) main_v155 (o7 m c)

def U21 (c : Dev nD) : Valuation τ sig (Elt F) := StableHlo.after hostOps8 (U20 m c)

def o8 (c : Dev nD) : Buf (Elt F) ((c : Thread nD τ).loc main_v172) := (dat8 (atTc (U21 m)) qfull c).arrAt 4 cfg8.N

def U22 (c : Dev nD) : Valuation τ sig (Elt F) := Function.update (U21 m c) main_v172 (o8 m c)

def o9 (c : Dev nD) : Buf (Elt F) ((c : Thread nD τ).loc main_v173) := (dat9 (atTc (U22 m)) qfull c).arrAt 3 cfg9.N

def U23 (c : Dev nD) : Valuation τ sig (Elt F) := Function.update (U22 m c) main_v173 (o9 m c)

def outs : Outs (F := F) := fun J r c => match J with
  | 6 => U6 m c r
  | 8 => U8 m c r
  | 10 => U10 m c r
  | 12 => U12 m c r
  | 14 => U14 m c r
  | 16 => U16 m c r
  | 18 => U18 m c r
  | 20 => U20 m c r
  | 22 => U22 m c r
  | _ => U23 m c r

def pdats : (p : Fin 10) → (c : Dev nD) → Dat τ (Elt F) Unit ℕ (UR sig nD τ) ℕ (cfgs p) c
  | ⟨0, _⟩ => fun c => dat0 (atTc (U5 m)) qfull c
  | ⟨1, _⟩ => fun c => dat1 (atTc (U7 m)) q1 c
  | ⟨2, _⟩ => fun c => dat2 (atTc (U9 m)) qfull c
  | ⟨3, _⟩ => fun c => dat3 (atTc (U11 m)) qfull c
  | ⟨4, _⟩ => fun c => dat4 (atTc (U13 m)) qfull c
  | ⟨5, _⟩ => fun c => dat5 (atTc (U15 m)) qfull c
  | ⟨6, _⟩ => fun c => dat6 (atTc (U17 m)) qfull c
  | ⟨7, _⟩ => fun c => dat7 (atTc (U19 m)) qfull c
  | ⟨8, _⟩ => fun c => dat8 (atTc (U21 m)) qfull c
  | ⟨9, _⟩ => fun c => dat9 (atTc (U22 m)) qfull c

abbrev 𝒱₀ : Variants := Variants.none

abbrev L : GSem nD τ sig → Finset Unit := fun _ => ∅
abbrev lv : GSem nD τ sig → Unit → ℕ := fun _ _ => 0

local notation "𝕄" => MT nD τ sig Unit (Elt F) ℕ (UR sig nD τ) ℕ

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem V6_eq (c : Dev nD) : V6 m (outs m) c = U6 m c := by
  show Function.update (V5 m c) main_v36 (U6 m c main_v36) = U6 m c
  unfold U6; rw [Function.update_self]
theorem V7_eq (c : Dev nD) : V7 m (outs m) c = U7 m c := by
  show StableHlo.after hostOps1 (V6 m (outs m) c) = _
  rw [V6_eq]; rfl
theorem V8_eq (c : Dev nD) : V8 m (outs m) c = U8 m c := by
  show Function.update (V7 m (outs m) c) main_v53 (U8 m c main_v53) = U8 m c
  rw [V7_eq]; unfold U8; rw [Function.update_self]
theorem V9_eq (c : Dev nD) : V9 m (outs m) c = U9 m c := by
  show StableHlo.after hostOps2 (V8 m (outs m) c) = _
  rw [V8_eq]; rfl
theorem V10_eq (c : Dev nD) : V10 m (outs m) c = U10 m c := by
  show Function.update (V9 m (outs m) c) main_v70 (U10 m c main_v70) = U10 m c
  rw [V9_eq]; unfold U10; rw [Function.update_self]
theorem V11_eq (c : Dev nD) : V11 m (outs m) c = U11 m c := by
  show StableHlo.after hostOps3 (V10 m (outs m) c) = _
  rw [V10_eq]; rfl
theorem V12_eq (c : Dev nD) : V12 m (outs m) c = U12 m c := by
  show Function.update (V11 m (outs m) c) main_v87 (U12 m c main_v87) = U12 m c
  rw [V11_eq]; unfold U12; rw [Function.update_self]
theorem V13_eq (c : Dev nD) : V13 m (outs m) c = U13 m c := by
  show StableHlo.after hostOps4 (V12 m (outs m) c) = _
  rw [V12_eq]; rfl
theorem V14_eq (c : Dev nD) : V14 m (outs m) c = U14 m c := by
  show Function.update (V13 m (outs m) c) main_v104 (U14 m c main_v104) = U14 m c
  rw [V13_eq]; unfold U14; rw [Function.update_self]
theorem V15_eq (c : Dev nD) : V15 m (outs m) c = U15 m c := by
  show StableHlo.after hostOps5 (V14 m (outs m) c) = _
  rw [V14_eq]; rfl
theorem V16_eq (c : Dev nD) : V16 m (outs m) c = U16 m c := by
  show Function.update (V15 m (outs m) c) main_v121 (U16 m c main_v121) = U16 m c
  rw [V15_eq]; unfold U16; rw [Function.update_self]
theorem V17_eq (c : Dev nD) : V17 m (outs m) c = U17 m c := by
  show StableHlo.after hostOps6 (V16 m (outs m) c) = _
  rw [V16_eq]; rfl
theorem V18_eq (c : Dev nD) : V18 m (outs m) c = U18 m c := by
  show Function.update (V17 m (outs m) c) main_v138 (U18 m c main_v138) = U18 m c
  rw [V17_eq]; unfold U18; rw [Function.update_self]
theorem V19_eq (c : Dev nD) : V19 m (outs m) c = U19 m c := by
  show StableHlo.after hostOps7 (V18 m (outs m) c) = _
  rw [V18_eq]; rfl
theorem V20_eq (c : Dev nD) : V20 m (outs m) c = U20 m c := by
  show Function.update (V19 m (outs m) c) main_v155 (U20 m c main_v155) = U20 m c
  rw [V19_eq]; unfold U20; rw [Function.update_self]
theorem V21_eq (c : Dev nD) : V21 m (outs m) c = U21 m c := by
  show StableHlo.after hostOps8 (V20 m (outs m) c) = _
  rw [V20_eq]; rfl
theorem V22_eq (c : Dev nD) : V22 m (outs m) c = U22 m c := by
  show Function.update (V21 m (outs m) c) main_v172 (U22 m c main_v172) = U22 m c
  rw [V21_eq]; unfold U22; rw [Function.update_self]
theorem V23_eq (c : Dev nD) : V23 m (outs m) c = U23 m c := by
  show Function.update (V22 m (outs m) c) main_v173 (U23 m c main_v173) = U23 m c
  rw [V22_eq]; unfold U23; rw [Function.update_self]

end Cert.KernelIdeal.Hand

end
-- ==== Proof.KI.Seg0.lean ====
/- Region 0 as a segment: entered from the contents before it, left with its output array at what its write-backs leave. -/
import proofs.«173786_j46231027974388_2_alg».proof.Proof.KI.PDats
import proofs.«173786_j46231027974388_2_alg».proof.Proof.SegCommon

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 0 enters at `U5` and leaves at `U6`: window 3 is its one output, on `main_v36`. -/
def reg0 : Pipeline.RegionSeg (pcfgs (F := F)) adm (pdats m) () defs₀ 𝒱₀ L lv 0 :=
  regionOfOut pcfgs adm (pdats m) defs₀ 𝒱₀ L lv 0 launch0 (U5 m) (U6 m)
    (fun c => (body_obligation0 (atTc (U5 m)) qfull c).loose) (fun _ _ => rfl) (fun _ _ => trivial) rfl (fun _ => rfl) (fun _ => rfl)
    (fun _ _ => rfl) (fun _ _ => rfl) (3 : Fin cfg0.W)
    (show ∀ w : Fin 4, (spec0 w).isOut = true → w = 3 by decide)
    (show ∀ w : Fin 4, (spec0 w).isOut = false → Pipeline.arrRef spec0 w ≠ main_v36 by decide) fun _ => rfl

end Cert.KernelIdeal.Hand

end
-- ==== Proof.KI.Seg1Entry.lean ====
/- Region 1's entry: the unscoped buffers are the five windows' arrays, two of them halves of one array, and the rest. -/
import proofs.«173786_j46231027974388_2_alg».proof.Proof.KI.PDats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem img1 : Finset.univ.image (Pipeline.arrRef spec1) = {Pipeline.arrRef spec1 0, Pipeline.arrRef spec1 1, Pipeline.arrRef spec1 3, Pipeline.arrRef spec1 4} := by decide

section Arrays

variable (V : (c : Dev nD) → (b : Ref sig .tc) → Buf (Elt F) ((c : Thread nD τ).loc b)) (c : Dev nD)

theorem share1_0 : (dat1 V q1 c).share 0 = fullShare := by
  unfold Dat.share; rw [show (cfg1.win 0).isOut = false from rfl]; rfl
theorem share1_1 : (dat1 V q1 c).share 1 = fullShare.left := by
  unfold Dat.share; rw [show (cfg1.win 1).isOut = false from rfl]; rfl
theorem share1_2 : (dat1 V q1 c).share 2 = fullShare.right := by
  unfold Dat.share; rw [show (cfg1.win 2).isOut = false from rfl]; rfl
theorem share1_3 : (dat1 V q1 c).share 3 = fullShare := by
  unfold Dat.share; rw [show (cfg1.win 3).isOut = false from rfl]; rfl
theorem share1_4 : (dat1 V q1 c).share 4 = fullShare := by
  unfold Dat.share; rw [show (cfg1.win 4).isOut = true from rfl]; rfl

theorem win1 (w : Fin cfg1.W) :
    ((cfg1.win w).arr.view.loc (c : Thread nD τ) ↦[(cfg1.win w).arr.view.set]{(dat1 V q1 c).share w} (dat1 V q1 c).arrAt w 0 : sProp 𝕄)
      = ((c : Thread nD τ).loc (Pipeline.arrRef spec1 w) ↦{(dat1 V q1 c).share w} V c (Pipeline.arrRef spec1 w)) := by
  rw [(arr_whole1 w).set_eq_univ]; rfl

theorem arrays_of_arrBufs1 :
    (Pipeline.arrBufs (Ix := Unit) (Name := ℕ) (U := UR sig nD τ) (Lvl := ℕ) spec1 c (V c) : sProp 𝕄)
      ⊢ (dat1 V q1 c).arrays ((dat1 V q1 c).arrAt · 0) := by
  unfold Pipeline.arrBufs Dat.arrays
  rw [bigSep_congr (fun w _ => win1 V c w)]
  rw [img1, bigSep_W1, bigSep_insert (by decide), bigSep_insert (by decide), bigSep_insert (by decide), bigSep_singleton]
  rw [share1_0, share1_1, share1_2, share1_3, share1_4]
  rw [show Pipeline.arrRef spec1 2 = Pipeline.arrRef spec1 1 from by decide]
  have hsh : (((c : Thread nD τ).loc (Pipeline.arrRef spec1 1) ↦{fullShare} V c (Pipeline.arrRef spec1 1)) : sProp 𝕄)
      ⊢ iprop(((c : Thread nD τ).loc (Pipeline.arrRef spec1 1) ↦{fullShare.left} V c (Pipeline.arrRef spec1 1))
        ∗ ((c : Thread nD τ).loc (Pipeline.arrRef spec1 1) ↦{fullShare.right} V c (Pipeline.arrRef spec1 1))) :=
    (pointsTo_share (PosShare.mem_left_op_right fullShare)).1
  refine (show (iprop(((c : Thread nD τ).loc (Pipeline.arrRef spec1 0) ↦{fullShare} V c (Pipeline.arrRef spec1 0))
      ∗ ((c : Thread nD τ).loc (Pipeline.arrRef spec1 1) ↦{fullShare} V c (Pipeline.arrRef spec1 1))
      ∗ ((c : Thread nD τ).loc (Pipeline.arrRef spec1 3) ↦{fullShare} V c (Pipeline.arrRef spec1 3))
      ∗ ((c : Thread nD τ).loc (Pipeline.arrRef spec1 4) ↦{fullShare} V c (Pipeline.arrRef spec1 4))) : sProp 𝕄) ⊢ _ from ?_)
  iintro ⟨H0, H1, H3, H4⟩
  ihave H12 := hsh $$ H1
  icases H12 with ⟨H1, H2⟩
  isplitl [H0]; · iexact H0
  isplitl [H1]; · iexact H1
  isplitl [H2]; · iexact H2
  isplitl [H3]; · iexact H3
  iexact H4

end Arrays

theorem arrays_of_held1 (c : Dev nD) :
    (StableHlo.held (c : Thread nD τ) (Pipeline.ucRefs τ sig) (U7 m c) : sProp 𝕄)
      ⊢ iprop((pdats m 1 c).arrays ((pdats m 1 c).arrAt · 0)
          ∗ Pipeline.unscopedRest (Ix := Unit) (Name := ℕ) (U := UR sig nD τ) (Lvl := ℕ) spec1 c (atTc (U7 m) c)) := by
  rw [← Pipeline.unscopedBufs_held (Ix := Unit) (Name := ℕ) (U := UR sig nD τ) (Lvl := ℕ) c (U7 m c),
    Pipeline.unscopedBufs_split₀ cfgs 1 winFacts₀1.arr_unscoped c]
  exact sep_mono (arrays_of_arrBufs1 (atTc (U7 m)) c) .rfl

end Cert.KernelIdeal.Hand

end
-- ==== Proof.KI.Seg1Exit.lean ====
/- Region 1's exit: the five windows' arrays put back among the unscoped buffers. -/
import proofs.«173786_j46231027974388_2_alg».proof.Proof.KI.PDats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hF1_0 (c : Dev nD) : (pdats m 1 c).arrAt 0 cfg1.N = atTc (U8 m) c (Pipeline.arrRef spec1 0) := by
  refine (((pdats m 1 c).arrAt_in 0 rfl _).trans (A_eq1 (atTc (U7 m)) q1 c 0)).trans ?_
  show U7 m c _ = U8 m c _
  simp only [U8, Function.update_of_ne (StableHlo.devRef_ne_of_ne (by decide) : (Proc.devRef .tc (Pipeline.arrRef spec1 0) : DevRef τ sig) ≠ Proc.devRef .tc main_v53)]
theorem hF1_1 (c : Dev nD) : (pdats m 1 c).arrAt 1 cfg1.N = atTc (U8 m) c (Pipeline.arrRef spec1 1) := by
  refine (((pdats m 1 c).arrAt_in 1 rfl _).trans (A_eq1 (atTc (U7 m)) q1 c 1)).trans ?_
  show U7 m c _ = U8 m c _
  simp only [U8, Function.update_of_ne (StableHlo.devRef_ne_of_ne (by decide) : (Proc.devRef .tc (Pipeline.arrRef spec1 1) : DevRef τ sig) ≠ Proc.devRef .tc main_v53)]
theorem hF1_2 (c : Dev nD) : (pdats m 1 c).arrAt 2 cfg1.N = atTc (U8 m) c (Pipeline.arrRef spec1 2) := by
  refine (((pdats m 1 c).arrAt_in 2 rfl _).trans (A_eq1 (atTc (U7 m)) q1 c 2)).trans ?_
  show U7 m c _ = U8 m c _
  simp only [U8, Function.update_of_ne (StableHlo.devRef_ne_of_ne (by decide) : (Proc.devRef .tc (Pipeline.arrRef spec1 2) : DevRef τ sig) ≠ Proc.devRef .tc main_v53)]
theorem hF1_3 (c : Dev nD) : (pdats m 1 c).arrAt 3 cfg1.N = atTc (U8 m) c (Pipeline.arrRef spec1 3) := by
  refine (((pdats m 1 c).arrAt_in 3 rfl _).trans (A_eq1 (atTc (U7 m)) q1 c 3)).trans ?_
  show U7 m c _ = U8 m c _
  simp only [U8, Function.update_of_ne (StableHlo.devRef_ne_of_ne (by decide) : (Proc.devRef .tc (Pipeline.arrRef spec1 3) : DevRef τ sig) ≠ Proc.devRef .tc main_v53)]
theorem hF1_4 (c : Dev nD) : (pdats m 1 c).arrAt 4 cfg1.N = atTc (U8 m) c (Pipeline.arrRef spec1 4) := by
  show _ = U8 m c _
  simp only [U8, Function.update_self]
  rfl

theorem hrest1 (c : Dev nD) : ∀ b, b ∉ Finset.univ.image (Pipeline.arrRef spec1) → atTc (U8 m) c b = atTc (U7 m) c b := by
  intro b hb
  have hne : b ≠ main_v53 := fun e => hb (by subst e; exact Finset.mem_image.mpr ⟨4, Finset.mem_univ _, rfl⟩)
  show U8 m c _ = U7 m c _
  simp only [U8, Function.update_of_ne (StableHlo.devRef_ne_of_ne hne : (Proc.devRef .tc b : DevRef τ sig) ≠ Proc.devRef .tc main_v53)]

def arrs1 : Fin 4 → Ref sig .tc := ![main_v50, main_v36, main_v52, main_v53]

theorem arrs1_inj : Function.Injective arrs1 := by decide

theorem image_arr1 : Finset.univ.image (Pipeline.arrRef spec1) = Finset.univ.map ⟨arrs1, arrs1_inj⟩ := by decide

theorem bigSep_4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

theorem held_U8 (c : Dev nD) :
    (StableHlo.held (c : Thread nD τ) (Pipeline.ucRefs τ sig) (U8 m c) : sProp 𝕄)
      = iprop(Pipeline.arrBufs (Ix := Unit) (Name := ℕ) (U := UR sig nD τ) (Lvl := ℕ) spec1 c (atTc (U8 m) c)
          ∗ Pipeline.unscopedRest (Ix := Unit) (Name := ℕ) (U := UR sig nD τ) (Lvl := ℕ) spec1 c (atTc (U8 m) c)) :=
  (Pipeline.unscopedBufs_held (Ix := Unit) (Name := ℕ) (U := UR sig nD τ) (Lvl := ℕ) c (U8 m c)).symm.trans
    (Pipeline.unscopedBufs_split₀ cfgs 1 winFacts₀1.arr_unscoped c _)

def arrW (c : Dev nD) (w : Fin cfg1.W) : sProp 𝕄 :=
  View.loc (c : Thread nD τ) (cfg1.win w).arr.view ↦[(cfg1.win w).arr.view.set]{(pdats m 1 c).share w} (pdats m 1 c).arrAt w cfg1.N

def bufB (c : Dev nD) (b : Ref sig .tc) : sProp 𝕄 := (c : Thread nD τ).loc b ↦{fullShare} atTc (U8 m) c b

theorem arrays1_eq (c : Dev nD) :
    (pdats m 1 c).arrays ((pdats m 1 c).arrAt · cfg1.N) = iprop(arrW m c 0 ∗ arrW m c 1 ∗ arrW m c 2 ∗ arrW m c 3 ∗ arrW m c 4) :=
  bigSep_W1 _

theorem arrBufs1_eq (c : Dev nD) :
    (Pipeline.arrBufs (Ix := Unit) (Name := ℕ) (U := UR sig nD τ) (Lvl := ℕ) spec1 c (atTc (U8 m) c) : sProp 𝕄)
      = iprop(bufB m c main_v50 ∗ bufB m c main_v36 ∗ bufB m c main_v52 ∗ bufB m c main_v53) := by
  unfold Pipeline.arrBufs
  rw [image_arr1, bigSep_map, bigSep_4]
  rfl

theorem arrW_0 (c : Dev nD) : arrW m c 0 = ((c : Thread nD τ).loc main_v50 ↦{fullShare} atTc (U8 m) c main_v50 : sProp 𝕄) := by
  unfold arrW
  rw [hF1_0 m c, Memref.IsWhole.set_eq_univ (m := (cfg1.win 0).arr) (arr_whole1 0), show (pdats m 1 c).share 0 = fullShare from rfl]
theorem arrW_1 (c : Dev nD) : arrW m c 1 = ((c : Thread nD τ).loc main_v36 ↦{fullShare.left} atTc (U8 m) c main_v36 : sProp 𝕄) := by
  unfold arrW
  rw [hF1_1 m c, Memref.IsWhole.set_eq_univ (m := (cfg1.win 1).arr) (arr_whole1 1), show (pdats m 1 c).share 1 = fullShare.left from rfl]
theorem arrW_2 (c : Dev nD) : arrW m c 2 = ((c : Thread nD τ).loc main_v36 ↦{fullShare.right} atTc (U8 m) c main_v36 : sProp 𝕄) := by
  unfold arrW
  rw [hF1_2 m c, Memref.IsWhole.set_eq_univ (m := (cfg1.win 2).arr) (arr_whole1 2), show (pdats m 1 c).share 2 = fullShare.right from rfl]
theorem arrW_3 (c : Dev nD) : arrW m c 3 = ((c : Thread nD τ).loc main_v52 ↦{fullShare} atTc (U8 m) c main_v52 : sProp 𝕄) := by
  unfold arrW
  rw [hF1_3 m c, Memref.IsWhole.set_eq_univ (m := (cfg1.win 3).arr) (arr_whole1 3), show (pdats m 1 c).share 3 = fullShare from rfl]
theorem arrW_4 (c : Dev nD) : arrW m c 4 = ((c : Thread nD τ).loc main_v53 ↦{fullShare} atTc (U8 m) c main_v53 : sProp 𝕄) := by
  unfold arrW
  rw [hF1_4 m c, Memref.IsWhole.set_eq_univ (m := (cfg1.win 4).arr) (arr_whole1 4), show (pdats m 1 c).share 4 = fullShare from rfl]

theorem held_of_arrays1 (c : Dev nD) :
    iprop((pdats m 1 c).arrays ((pdats m 1 c).arrAt · cfg1.N)
        ∗ Pipeline.unscopedRest (Ix := Unit) (Name := ℕ) (U := UR sig nD τ) (Lvl := ℕ) spec1 c (atTc (U7 m) c))
      ⊢ (StableHlo.held (c : Thread nD τ) (Pipeline.ucRefs τ sig) (U8 m c) : sProp 𝕄) := by
  rw [held_U8]
  refine sep_mono ?_ (Entails.of_eq ?_)
  · rw [arrays1_eq, arrBufs1_eq, arrW_0, arrW_1, arrW_2, arrW_3, arrW_4]
    unfold bufB
    iintro ⟨H0, H1, H2, H3, H4⟩
    isplitl [H0]; · iexact H0
    isplitl [H1 H2]
    · iapply (pointsTo_share (PosShare.mem_left_op_right fullShare)).2
      isplitl [H1]; · iexact H1
      iexact H2
    isplitl [H3]; · iexact H3
    iexact H4
  · unfold Pipeline.unscopedRest
    exact bigSep_congr fun b hb => by rw [hrest1 m c b (Finset.mem_sdiff.mp hb).2]

end Cert.KernelIdeal.Hand

end
-- ==== Proof.KI.Seg1.lean ====
/- Region 1 as a segment; its windows 1 and 2 read one array, each at half its share. -/
import proofs.«173786_j46231027974388_2_alg».proof.Proof.KI.Seg1Entry
import proofs.«173786_j46231027974388_2_alg».proof.Proof.KI.Seg1Exit
import proofs.«173786_j46231027974388_2_alg».proof.Proof.SegCommon

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 1 enters at `U7` and leaves at `U8`; its windows 1 and 2 share one array, so its own split and join are cited. -/
def reg1 : Pipeline.RegionSeg (pcfgs (F := F)) adm (pdats m) () defs₀ 𝒱₀ L lv 1 :=
  regionOfHeld pcfgs adm (pdats m) defs₀ 𝒱₀ L lv 1 winFacts₀1 block_pos1 stage_whole1 (U7 m) (U8 m)
    (fun c => (body_obligation1 (atTc (U7 m)) q1 c).loose) (fun _ _ => rfl) (fun _ _ => trivial) rfl (fun _ => rfl) (fun _ => rfl)
    (arrays_of_held1 m) (held_of_arrays1 m)

end Cert.KernelIdeal.Hand

end
-- ==== Proof.KI.Seg2.lean ====
/- Region 2 as a segment: entered from the contents before it, left with its output array at what its write-backs leave. -/
import proofs.«173786_j46231027974388_2_alg».proof.Proof.KI.PDats
import proofs.«173786_j46231027974388_2_alg».proof.Proof.SegCommon

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 2 enters at `U9` and leaves at `U10`: window 4 is its one output, on `main_v70`. -/
def reg2 : Pipeline.RegionSeg (pcfgs (F := F)) adm (pdats m) () defs₀ 𝒱₀ L lv 2 :=
  regionOfOut pcfgs adm (pdats m) defs₀ 𝒱₀ L lv 2 launch2 (U9 m) (U10 m)
    (fun c => (body_obligation2 (atTc (U9 m)) qfull c).loose) (fun _ _ => rfl) (fun _ _ => trivial) rfl (fun _ => rfl) (fun _ => rfl)
    (fun _ _ => rfl) (fun _ _ => rfl) (4 : Fin cfg2.W)
    (show ∀ w : Fin 5, (spec2 w).isOut = true → w = 4 by decide)
    (show ∀ w : Fin 5, (spec2 w).isOut = false → Pipeline.arrRef spec2 w ≠ main_v70 by decide) fun _ => rfl

end Cert.KernelIdeal.Hand

end
-- ==== Proof.KI.Seg3.lean ====
/- Region 3 as a segment: entered from the contents before it, left with its output array at what its write-backs leave. -/
import proofs.«173786_j46231027974388_2_alg».proof.Proof.KI.PDats
import proofs.«173786_j46231027974388_2_alg».proof.Proof.SegCommon

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 3 enters at `U11` and leaves at `U12`: window 4 is its one output, on `main_v87`. -/
def reg3 : Pipeline.RegionSeg (pcfgs (F := F)) adm (pdats m) () defs₀ 𝒱₀ L lv 3 :=
  regionOfOut pcfgs adm (pdats m) defs₀ 𝒱₀ L lv 3 launch3 (U11 m) (U12 m)
    (fun c => (body_obligation3 (atTc (U11 m)) qfull c).loose) (fun _ _ => rfl) (fun _ _ => trivial) rfl (fun _ => rfl) (fun _ => rfl)
    (fun _ _ => rfl) (fun _ _ => rfl) (4 : Fin cfg3.W)
    (show ∀ w : Fin 5, (spec3 w).isOut = true → w = 4 by decide)
    (show ∀ w : Fin 5, (spec3 w).isOut = false → Pipeline.arrRef spec3 w ≠ main_v87 by decide) fun _ => rfl

end Cert.KernelIdeal.Hand

end
-- ==== Proof.KI.Seg4.lean ====
/- Region 4 as a segment: entered from the contents before it, left with its output array at what its write-backs leave. -/
import proofs.«173786_j46231027974388_2_alg».proof.Proof.KI.PDats
import proofs.«173786_j46231027974388_2_alg».proof.Proof.SegCommon

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 4 enters at `U13` and leaves at `U14`: window 4 is its one output, on `main_v104`. -/
def reg4 : Pipeline.RegionSeg (pcfgs (F := F)) adm (pdats m) () defs₀ 𝒱₀ L lv 4 :=
  regionOfOut pcfgs adm (pdats m) defs₀ 𝒱₀ L lv 4 launch4 (U13 m) (U14 m)
    (fun c => (body_obligation4 (atTc (U13 m)) qfull c).loose) (fun _ _ => rfl) (fun _ _ => trivial) rfl (fun _ => rfl) (fun _ => rfl)
    (fun _ _ => rfl) (fun _ _ => rfl) (4 : Fin cfg4.W)
    (show ∀ w : Fin 5, (spec4 w).isOut = true → w = 4 by decide)
    (show ∀ w : Fin 5, (spec4 w).isOut = false → Pipeline.arrRef spec4 w ≠ main_v104 by decide) fun _ => rfl

end Cert.KernelIdeal.Hand

end
-- ==== Proof.KI.Seg5.lean ====
/- Region 5 as a segment: entered from the contents before it, left with its output array at what its write-backs leave. -/
import proofs.«173786_j46231027974388_2_alg».proof.Proof.KI.PDats
import proofs.«173786_j46231027974388_2_alg».proof.Proof.SegCommon

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 5 enters at `U15` and leaves at `U16`: window 4 is its one output, on `main_v121`. -/
def reg5 : Pipeline.RegionSeg (pcfgs (F := F)) adm (pdats m) () defs₀ 𝒱₀ L lv 5 :=
  regionOfOut pcfgs adm (pdats m) defs₀ 𝒱₀ L lv 5 launch5 (U15 m) (U16 m)
    (fun c => (body_obligation5 (atTc (U15 m)) qfull c).loose) (fun _ _ => rfl) (fun _ _ => trivial) rfl (fun _ => rfl) (fun _ => rfl)
    (fun _ _ => rfl) (fun _ _ => rfl) (4 : Fin cfg5.W)
    (show ∀ w : Fin 5, (spec5 w).isOut = true → w = 4 by decide)
    (show ∀ w : Fin 5, (spec5 w).isOut = false → Pipeline.arrRef spec5 w ≠ main_v121 by decide) fun _ => rfl

end Cert.KernelIdeal.Hand

end
-- ==== Proof.KI.Seg6.lean ====
/- Region 6 as a segment: entered from the contents before it, left with its output array at what its write-backs leave. -/
import proofs.«173786_j46231027974388_2_alg».proof.Proof.KI.PDats
import proofs.«173786_j46231027974388_2_alg».proof.Proof.SegCommon

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 6 enters at `U17` and leaves at `U18`: window 4 is its one output, on `main_v138`. -/
def reg6 : Pipeline.RegionSeg (pcfgs (F := F)) adm (pdats m) () defs₀ 𝒱₀ L lv 6 :=
  regionOfOut pcfgs adm (pdats m) defs₀ 𝒱₀ L lv 6 launch6 (U17 m) (U18 m)
    (fun c => (body_obligation6 (atTc (U17 m)) qfull c).loose) (fun _ _ => rfl) (fun _ _ => trivial) rfl (fun _ => rfl) (fun _ => rfl)
    (fun _ _ => rfl) (fun _ _ => rfl) (4 : Fin cfg6.W)
    (show ∀ w : Fin 5, (spec6 w).isOut = true → w = 4 by decide)
    (show ∀ w : Fin 5, (spec6 w).isOut = false → Pipeline.arrRef spec6 w ≠ main_v138 by decide) fun _ => rfl

end Cert.KernelIdeal.Hand

end
-- ==== Proof.KI.Seg7.lean ====
/- Region 7 as a segment: entered from the contents before it, left with its output array at what its write-backs leave. -/
import proofs.«173786_j46231027974388_2_alg».proof.Proof.KI.PDats
import proofs.«173786_j46231027974388_2_alg».proof.Proof.SegCommon

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 7 enters at `U19` and leaves at `U20`: window 4 is its one output, on `main_v155`. -/
def reg7 : Pipeline.RegionSeg (pcfgs (F := F)) adm (pdats m) () defs₀ 𝒱₀ L lv 7 :=
  regionOfOut pcfgs adm (pdats m) defs₀ 𝒱₀ L lv 7 launch7 (U19 m) (U20 m)
    (fun c => (body_obligation7 (atTc (U19 m)) qfull c).loose) (fun _ _ => rfl) (fun _ _ => trivial) rfl (fun _ => rfl) (fun _ => rfl)
    (fun _ _ => rfl) (fun _ _ => rfl) (4 : Fin cfg7.W)
    (show ∀ w : Fin 5, (spec7 w).isOut = true → w = 4 by decide)
    (show ∀ w : Fin 5, (spec7 w).isOut = false → Pipeline.arrRef spec7 w ≠ main_v155 by decide) fun _ => rfl

end Cert.KernelIdeal.Hand

end
-- ==== Proof.KI.Seg8.lean ====
/- Region 8 as a segment: entered from the contents before it, left with its output array at what its write-backs leave. -/
import proofs.«173786_j46231027974388_2_alg».proof.Proof.KI.PDats
import proofs.«173786_j46231027974388_2_alg».proof.Proof.SegCommon

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 8 enters at `U21` and leaves at `U22`: window 4 is its one output, on `main_v172`. -/
def reg8 : Pipeline.RegionSeg (pcfgs (F := F)) adm (pdats m) () defs₀ 𝒱₀ L lv 8 :=
  regionOfOut pcfgs adm (pdats m) defs₀ 𝒱₀ L lv 8 launch8 (U21 m) (U22 m)
    (fun c => (body_obligation8 (atTc (U21 m)) qfull c).loose) (fun _ _ => rfl) (fun _ _ => trivial) rfl (fun _ => rfl) (fun _ => rfl)
    (fun _ _ => rfl) (fun _ _ => rfl) (4 : Fin cfg8.W)
    (show ∀ w : Fin 5, (spec8 w).isOut = true → w = 4 by decide)
    (show ∀ w : Fin 5, (spec8 w).isOut = false → Pipeline.arrRef spec8 w ≠ main_v172 by decide) fun _ => rfl

end Cert.KernelIdeal.Hand

end
-- ==== Proof.KI.Seg9.lean ====
/- Region 9 as a segment: entered from the contents before it, left with its output array at what its write-backs leave. -/
import proofs.«173786_j46231027974388_2_alg».proof.Proof.KI.PDats
import proofs.«173786_j46231027974388_2_alg».proof.Proof.SegCommon

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Region 9 enters at `U22` and leaves at `U23`: window 3 is its one output, on `main_v173`. -/
def reg9 : Pipeline.RegionSeg (pcfgs (F := F)) adm (pdats m) () defs₀ 𝒱₀ L lv 9 :=
  regionOfOut pcfgs adm (pdats m) defs₀ 𝒱₀ L lv 9 launch9 (U22 m) (U23 m)
    (fun c => (body_obligation9 (atTc (U22 m)) qfull c).loose) (fun _ _ => rfl) (fun _ _ => trivial) rfl (fun _ => rfl) (fun _ => rfl)
    (fun _ _ => rfl) (fun _ _ => rfl) (3 : Fin cfg9.W)
    (show ∀ w : Fin 4, (spec9 w).isOut = true → w = 3 by decide)
    (show ∀ w : Fin 4, (spec9 w).isOut = false → Pipeline.arrRef spec9 w ≠ main_v173 by decide) fun _ => rfl

end Cert.KernelIdeal.Hand

end
-- ==== Proof.KI.Run.lean ====
/- The program's run: the ten region records and the host stretches chained from launch to return; the arguments end as launched. -/
import proofs.«173786_j46231027974388_2_alg».proof.Proof.KI.RunCond
import proofs.«173786_j46231027974388_2_alg».proof.Proof.KI.Seg0
import proofs.«173786_j46231027974388_2_alg».proof.Proof.KI.Seg1
import proofs.«173786_j46231027974388_2_alg».proof.Proof.KI.Seg2
import proofs.«173786_j46231027974388_2_alg».proof.Proof.KI.Seg3
import proofs.«173786_j46231027974388_2_alg».proof.Proof.KI.Seg4
import proofs.«173786_j46231027974388_2_alg».proof.Proof.KI.Seg5
import proofs.«173786_j46231027974388_2_alg».proof.Proof.KI.Seg6
import proofs.«173786_j46231027974388_2_alg».proof.Proof.KI.Seg7
import proofs.«173786_j46231027974388_2_alg».proof.Proof.KI.Seg8
import proofs.«173786_j46231027974388_2_alg».proof.Proof.KI.Seg9

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = V40 m (outs m) c b) :=
  run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE10 := fun c => by iintro ⟨-, H⟩; iexact H)
    (R0 := reg0 m) (hpre0 := fun c => .rfl) (hpost0 := fun c => by rw [V6_eq]; exact .rfl)
    (R1 := reg1 m) (hpre1 := fun c => by rw [V7_eq]; exact .rfl) (hpost1 := fun c => by rw [V8_eq]; exact .rfl)
    (R2 := reg2 m) (hpre2 := fun c => by rw [V9_eq]; exact .rfl) (hpost2 := fun c => by rw [V10_eq]; exact .rfl)
    (R3 := reg3 m) (hpre3 := fun c => by rw [V11_eq]; exact .rfl) (hpost3 := fun c => by rw [V12_eq]; exact .rfl)
    (R4 := reg4 m) (hpre4 := fun c => by rw [V13_eq]; exact .rfl) (hpost4 := fun c => by rw [V14_eq]; exact .rfl)
    (R5 := reg5 m) (hpre5 := fun c => by rw [V15_eq]; exact .rfl) (hpost5 := fun c => by rw [V16_eq]; exact .rfl)
    (R6 := reg6 m) (hpre6 := fun c => by rw [V17_eq]; exact .rfl) (hpost6 := fun c => by rw [V18_eq]; exact .rfl)
    (R7 := reg7 m) (hpre7 := fun c => by rw [V19_eq]; exact .rfl) (hpost7 := fun c => by rw [V20_eq]; exact .rfl)
    (R8 := reg8 m) (hpre8 := fun c => by rw [V21_eq]; exact .rfl) (hpost8 := fun c => by rw [V22_eq]; exact .rfl)
    (R9 := reg9 m) (hpre9 := fun c => by rw [V22_eq]; exact .rfl) (hpost9 := fun c => by rw [V23_eq]; exact .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V40_main_arg0 m (outs m) c),
     (h c _ (mem_uc main_arg1 (by decide))).trans (V40_main_arg1 m (outs m) c),
     (h c _ (mem_uc main_arg2 (by decide))).trans (V40_main_arg2 m (outs m) c),
     (h c _ (mem_uc main_arg3 (by decide))).trans (V40_main_arg3 m (outs m) c),
     (h c _ (mem_uc main_arg4 (by decide))).trans (V40_main_arg4 m (outs m) c),
     (h c _ (mem_uc main_arg5 (by decide))).trans (V40_main_arg5 m (outs m) c),
     (h c _ (mem_uc main_arg6 (by decide))).trans (V40_main_arg6 m (outs m) c),
     (h c _ (mem_uc main_arg7 (by decide))).trans (V40_main_arg7 m (outs m) c)⟩) (run_all m ρ)

end Cert.KernelIdeal.Hand

end
-- ==== Proof.Spec.lean ====
/- The mathematics both programs compute, as functions of whole arrays: the input projection, one graph-convolution layer, the log-softmax head and the orthogonality loss. -/
import proofs.«173786_j46231027974388_2_alg».proof.Proof.Gen.KernelIdeal
import proofs.«173786_j46231027974388_2_alg».proof.Proof.Gen.ReferenceIdeal
import Idealize.ShloMosaic.PureOps.Ideal
import Idealize.ShloMosaic.PureOps.Ideal.Laws

noncomputable section

namespace Cert.Spec

open Cert.ReferenceIdeal Cert.ReferenceIdeal.Gen Idealize.ShloMosaic

variable {F : FTy → Type} [FloatOps F]

def projOf (x0 : (⟨S100000x256, .f32⟩ : BufTy).Contents (Elt F)) (x3 : (⟨S256x64, .f32⟩ : BufTy).Contents (Elt F)) (x4 : (⟨S64, .f32⟩ : BufTy).Contents (Elt F)) : (⟨S100000x64, .f32⟩ : BufTy).Contents (Elt F) :=
  maximumf (addf (Host.dotGeneral dot_S100000x256_S256x64_S100000x64_1_0_0_1_n_n none x0 x3)
      (broadcastInDim S100000x64 ![0, 1] bcast_S1x64_S100000x64_0_1 (broadcastInDim S1x64 ![1] bcast_S64_S1x64_1 x4)))
    (broadcastInDim S100000x64 ![] bcast_S_S100000x64 (constant S_ .f32 0x00000000#32))

def wrapIdx (s : (⟨S1200000, .i32⟩ : BufTy).Contents (Elt F)) : (⟨S1200000, .i32⟩ : BufTy).Contents (Elt F) :=
  select (cmpi .slt s (broadcastInDim S1200000 ![] bcast_S_S1200000 (constantI S_ 32 0#32)))
    (addi s (broadcastInDim S1200000 ![] bcast_S_S1200000 (constantI S_ 32 100000#32))) s

def msgOf (a : (⟨S1200000, .f32⟩ : BufTy).Contents (Elt F)) (s : (⟨S1200000, .i32⟩ : BufTy).Contents (Elt F)) (h : (⟨S100000x64, .f32⟩ : BufTy).Contents (Elt F)) : (⟨S1200000x64, .f32⟩ : BufTy).Contents (Elt F) :=
  mulf (broadcastInDim S1200000x64 ![0, 1] bcast_S1200000x1_S1200000x64_0_1 (broadcastInDim S1200000x1 ![0] bcast_S1200000_S1200000x1_0 a))
    (Host.gather gather_S100000x64_S1200000x1_S1200000x64_1_0_n_n_0_1_164 h (broadcastInDim S1200000x1 ![0] bcast_S1200000_S1200000x1_0 (wrapIdx s)))

def aggOf (a : (⟨S1200000, .f32⟩ : BufTy).Contents (Elt F)) (s d : (⟨S1200000, .i32⟩ : BufTy).Contents (Elt F)) (h : (⟨S100000x64, .f32⟩ : BufTy).Contents (Elt F)) : (⟨S100000x64, .f32⟩ : BufTy).Contents (Elt F) :=
  Host.scatterAdd scatter_S100000x64_S1200000x1_S1200000x64_1_0_0_1 (broadcastInDim S100000x64 ![] bcast_S_S100000x64 (constant S_ .f32 0x00000000#32))
    (broadcastInDim S1200000x1 ![0] bcast_S1200000_S1200000x1_0 d) (msgOf a s h)

def scaleNodes (g : (⟨S100000x64, .f32⟩ : BufTy).Contents (Elt F)) : (⟨S100000x64, .f32⟩ : BufTy).Contents (Elt F) :=
  mulf (broadcastInDim S100000x64 ![] bcast_S_S100000x64 (constant S_ .f32 0x3F4CCCCD#32)) g

def mixOf (g h o : (⟨S100000x64, .f32⟩ : BufTy).Contents (Elt F)) : (⟨S100000x64, .f32⟩ : BufTy).Contents (Elt F) :=
  addf (addf g (mulf (broadcastInDim S100000x64 ![] bcast_S_S100000x64 (constant S_ .f32 0x3DCCCCCD#32)) h))
    (mulf (broadcastInDim S100000x64 ![] bcast_S_S100000x64 (constant S_ .f32 0x3DCCCCCD#32)) o)

def layerOf (g h o : (⟨S100000x64, .f32⟩ : BufTy).Contents (Elt F)) (w : (⟨S64x64, .f32⟩ : BufTy).Contents (Elt F)) : (⟨S100000x64, .f32⟩ : BufTy).Contents (Elt F) :=
  maximumf (Host.dotGeneral dot_S100000x64_S64x64_S100000x64_1_0_0_1_n_n none (mixOf g h o) w)
    (broadcastInDim S100000x64 ![] bcast_S_S100000x64 (constant S_ .f32 0x00000000#32))

def logitsOf (h : (⟨S100000x64, .f32⟩ : BufTy).Contents (Elt F)) (x6 : (⟨S64x40, .f32⟩ : BufTy).Contents (Elt F)) (x7 : (⟨S40, .f32⟩ : BufTy).Contents (Elt F)) : (⟨S100000x40, .f32⟩ : BufTy).Contents (Elt F) :=
  addf (Host.dotGeneral dot_S100000x64_S64x40_S100000x40_1_0_0_1_n_n none h x6)
    (broadcastInDim S100000x40 ![0, 1] bcast_S1x40_S100000x40_0_1 (broadcastInDim S1x40 ![1] bcast_S40_S1x40_1 x7))

def shiftedOf (z : (⟨S100000x40, .f32⟩ : BufTy).Contents (Elt F)) : (⟨S100000x40, .f32⟩ : BufTy).Contents (Elt F) :=
  subf z (broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x40_S100000_d1 h_S_))))

def logSoftmaxOf (z : (⟨S100000x40, .f32⟩ : BufTy).Contents (Elt F)) : (⟨S100000x40, .f32⟩ : BufTy).Contents (Elt F) :=
  subf (shiftedOf z) (broadcastInDim S100000x40 ![0, 1] bcast_S100000x1_S100000x40_0_1 (Host.log (broadcastInDim S100000x1 ![0] bcast_S100000_S100000x1_0
    (Host.reduceAdd (Host.exp (shiftedOf z)) (constant S_ .f32 0x00000000#32) reducesTo_S100000x40_S100000_d1 h_S_))))

def headOf (h : (⟨S100000x64, .f32⟩ : BufTy).Contents (Elt F)) (x6 : (⟨S64x40, .f32⟩ : BufTy).Contents (Elt F)) (x7 : (⟨S40, .f32⟩ : BufTy).Contents (Elt F)) : (⟨S100000x40, .f32⟩ : BufTy).Contents (Elt F) :=
  logSoftmaxOf (logitsOf h x6 x7)

end Cert.Spec

namespace Cert.SpecK

open Cert.KernelIdeal Cert.KernelIdeal.Gen Idealize.ShloMosaic

variable {F : FTy → Type} [FloatOps F]

def scaleEdges (a : (⟨S1200000, .f32⟩ : BufTy).Contents (Elt F)) : (⟨S1200000, .f32⟩ : BufTy).Contents (Elt F) :=
  mulf (broadcastInDim S1200000 ![] bcast_S_S1200000 (constant S_ .f32 0x3F4CCCCD#32)) a

def wrapIdx (s : (⟨S1200000, .i32⟩ : BufTy).Contents (Elt F)) : (⟨S1200000, .i32⟩ : BufTy).Contents (Elt F) :=
  select (cmpi .slt s (broadcastInDim S1200000 ![] bcast_S_S1200000 (constantI S_ 32 0#32)))
    (addi s (broadcastInDim S1200000 ![] bcast_S_S1200000 (constantI S_ 32 100000#32))) s

def aggK (a : (⟨S1200000, .f32⟩ : BufTy).Contents (Elt F)) (s d : (⟨S1200000, .i32⟩ : BufTy).Contents (Elt F)) (h : (⟨S100000x64, .bf16⟩ : BufTy).Contents (Elt F)) : (⟨S100000x64, .f32⟩ : BufTy).Contents (Elt F) :=
  Host.scatterAdd scatter_S100000x64_S1200000x1_S1200000x64_1_0_0_1 (broadcastInDim S100000x64 ![] bcast_S_S100000x64 (constant S_ .f32 0x00000000#32))
    (broadcastInDim S1200000x1 ![0] bcast_S1200000_S1200000x1_0 d)
    (mulf (broadcastInDim S1200000x64 ![0, 1] bcast_S1200000x1_S1200000x64_0_1 (broadcastInDim S1200000x1 ![0] bcast_S1200000_S1200000x1_0 a))
      (extf .f32 (Host.gather gather_S100000x64_S1200000x1_S1200000x64_1_0_n_n_0_1_164 h (broadcastInDim S1200000x1 ![0] bcast_S1200000_S1200000x1_0 (wrapIdx s))) bitsLt_bf16_f32))

end Cert.SpecK

namespace Cert.Spec

open Idealize.ShloMosaic

theorem ofBits_agg : Ideal.ofBits .f32 0x3F4CCCCD#32 = ((13421773 / 16777216 : ℝ) : EReal) := by
  simp [Ideal.ofBits, Ideal.ieee, -EReal.coe_mul]; norm_num

theorem ofBits_agg_nonneg : (0 : EReal) ≤ Ideal.ofBits .f32 0x3F4CCCCD#32 := by
  rw [ofBits_agg]
  exact EReal.coe_nonneg.2 (by norm_num)

theorem ofBits_agg_ne_top : Ideal.ofBits .f32 0x3F4CCCCD#32 ≠ ⊤ := by
  rw [ofBits_agg]; exact EReal.coe_ne_top _

theorem mul_finset_sum {ι : Type} (c : EReal) (hc : 0 ≤ c) (hct : c ≠ ⊤) (t : Finset ι) (f : ι → EReal) :
    c * ∑ j ∈ t, f j = ∑ j ∈ t, c * f j := by
  classical
  induction t using Finset.induction_on with
  | empty => simp
  | insert j t hj ih =>
    rw [Finset.sum_insert hj, Finset.sum_insert hj, EReal.left_distrib_of_nonneg_of_ne_top hc hct, ih]

theorem hostScatterAdd_scale {s si su : Shape} (d : ScatterDims s si su) {w : Nat} (idx : IVec si w) (c : EReal)
    (hc : 0 ≤ c) (hct : c ≠ ⊤) (z z' : s.Idx → EReal) (u u' : su.Idx → EReal) (i : s.Idx) (hz : z i = 0) (hz' : z' i = 0)
    (hu : ∀ j, u j = c * u' j) :
    Ideal.hostScatterAdd d z idx u i = c * Ideal.hostScatterAdd d z' idx u' i := by
  simp only [Ideal.hostScatterAdd, hz, hz', zero_add, hu]
  rw [mul_finset_sum c hc hct]

theorem scatterAdd_ideal {s si u : Shape} {w : Nat} {φ : FTy} (d : ScatterDims s si u) (x : FVec Ideal s φ) (idx : IVec si w)
    (upd : FVec Ideal u φ) : Host.scatterAdd (F := Ideal) d x idx upd = Ideal.hostScatterAdd d x idx upd := rfl

section Reads

open Cert.ReferenceIdeal Cert.ReferenceIdeal.Gen

variable {F : FTy → Type} [FloatOps F]

theorem bcast_constant_apply {s0 t : Shape} (dims : Fin s0.rank → Fin t.rank) (hb : s0.BroadcastsInDim t dims) (φ : FTy)
    (b : BitVec φ.bits) (i : t.Idx) :
    broadcastInDim t dims hb (constant (F := F) s0 φ b) i = FloatOps.ofBits φ b := rfl

theorem scaleNodes_apply (g : (⟨S100000x64, .f32⟩ : BufTy).Contents (Elt F)) (i : S100000x64.Idx) :
    scaleNodes (F := F) g i = FloatOps.mulf (FloatOps.ofBits .f32 0x3F4CCCCD#32) (g i) := rfl

theorem msgOf_apply (a : (⟨S1200000, .f32⟩ : BufTy).Contents (Elt F)) (s : (⟨S1200000, .i32⟩ : BufTy).Contents (Elt F))
    (h : (⟨S100000x64, .f32⟩ : BufTy).Contents (Elt F)) (j : S1200000x64.Idx) :
    msgOf (F := F) a s h j =
      FloatOps.mulf (broadcastInDim S1200000x64 ![0, 1] bcast_S1200000x1_S1200000x64_0_1 (broadcastInDim S1200000x1 ![0] bcast_S1200000_S1200000x1_0 a) j)
        (Host.gather gather_S100000x64_S1200000x1_S1200000x64_1_0_n_n_0_1_164 h (broadcastInDim S1200000x1 ![0] bcast_S1200000_S1200000x1_0 (wrapIdx s)) j) := rfl

theorem msgOf_scaleEdges_apply (a : (⟨S1200000, .f32⟩ : BufTy).Contents (Elt F)) (s : (⟨S1200000, .i32⟩ : BufTy).Contents (Elt F))
    (h : (⟨S100000x64, .f32⟩ : BufTy).Contents (Elt F)) (j : S1200000x64.Idx) :
    msgOf (F := F) (Cert.SpecK.scaleEdges (F := F) a) s h j =
      FloatOps.mulf (FloatOps.mulf (FloatOps.ofBits .f32 0x3F4CCCCD#32)
          (broadcastInDim S1200000x64 ![0, 1] bcast_S1200000x1_S1200000x64_0_1 (broadcastInDim S1200000x1 ![0] bcast_S1200000_S1200000x1_0 a) j))
        (Host.gather gather_S100000x64_S1200000x1_S1200000x64_1_0_n_n_0_1_164 h (broadcastInDim S1200000x1 ![0] bcast_S1200000_S1200000x1_0 (wrapIdx s)) j) := rfl

end Reads

section AtIdeal

open Cert.ReferenceIdeal Cert.ReferenceIdeal.Gen

theorem aggK_ref (a : (⟨S1200000, .f32⟩ : BufTy).Contents (Elt Ideal)) (s d : (⟨S1200000, .i32⟩ : BufTy).Contents (Elt Ideal))
    (h : (⟨S100000x64, .f32⟩ : BufTy).Contents (Elt Ideal)) :
    Cert.SpecK.aggK (F := Ideal) a s d h =
      Host.scatterAdd (F := Ideal) scatter_S100000x64_S1200000x1_S1200000x64_1_0_0_1 (broadcastInDim S100000x64 ![] bcast_S_S100000x64 (constant (F := Ideal) S_ .f32 0x00000000#32))
        (broadcastInDim S1200000x1 ![0] bcast_S1200000_S1200000x1_0 d) (msgOf (F := Ideal) a s h) := rfl

theorem msgOf_scaleEdges_ideal (a : (⟨S1200000, .f32⟩ : BufTy).Contents (Elt Ideal)) (s : (⟨S1200000, .i32⟩ : BufTy).Contents (Elt Ideal))
    (h : (⟨S100000x64, .f32⟩ : BufTy).Contents (Elt Ideal)) (j : S1200000x64.Idx) :
    msgOf (F := Ideal) (Cert.SpecK.scaleEdges (F := Ideal) a) s h j
      = Ideal.ofBits .f32 0x3F4CCCCD#32 * msgOf (F := Ideal) a s h j := by
  rw [msgOf_scaleEdges_apply, msgOf_apply]
  simp only [Ideal.mulf_def, Ideal.ofBits_def]
  exact mul_assoc _ _ _

theorem zeroNodes_apply (i : S100000x64.Idx) :
    broadcastInDim S100000x64 ![] bcast_S_S100000x64 (constant (F := Ideal) S_ .f32 0x00000000#32) i = 0 := by
  rw [bcast_constant_apply, Ideal.ofBits_def]
  exact Ideal.ofBits_zero_f32

end AtIdeal

theorem aggK_scale (a : (⟨Cert.ReferenceIdeal.S1200000, .f32⟩ : BufTy).Contents (Elt Ideal)) (s d : (⟨Cert.ReferenceIdeal.S1200000, .i32⟩ : BufTy).Contents (Elt Ideal))
    (h : (⟨Cert.ReferenceIdeal.S100000x64, .f32⟩ : BufTy).Contents (Elt Ideal)) :
    Cert.SpecK.aggK (F := Ideal) (Cert.SpecK.scaleEdges (F := Ideal) a) s d h = scaleNodes (F := Ideal) (aggOf (F := Ideal) a s d h) := by
  rewrite [aggK_ref]
  funext i
  rewrite [scaleNodes_apply, Ideal.mulf_def, Ideal.ofBits_def]
  unfold aggOf
  rewrite [scatterAdd_ideal, scatterAdd_ideal]
  exact hostScatterAdd_scale _ _ _ ofBits_agg_nonneg ofBits_agg_ne_top _ _ _ _ i (zeroNodes_apply i) (zeroNodes_apply i)
    (msgOf_scaleEdges_ideal a s h)

end Cert.Spec

end
-- ==== Proof.KI.Value0.lean ====
/- Region 0's output: the row tiles are the rows of relu (x · W_in + b_in) and cover the array. -/
import proofs.«173786_j46231027974388_2_alg».proof.Proof.KI.Region0
import proofs.«173786_j46231027974388_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Spec.Proj0

open Cert.ReferenceIdeal Cert.ReferenceIdeal.Gen Idealize.ShloMosaic Idealize.ShloMosaic.ValueIdx

theorem lhs_proj_0 (i : S100000x64.Idx) (q : dot_S100000x256_S256x64_S100000x64_1_0_0_1_n_n.contr.Idx) :
    (dot_S100000x256_S256x64_S100000x64_1_0_0_1_n_n.lhsIdx i q 0).val = (i 0).val := by
  unfold DotDims.lhsIdx
  rw [dif_neg (show ¬(0 : Fin S100000x256.rank) ∈ dot_S100000x256_S256x64_S100000x64_1_0_0_1_n_n.lhsBatch by decide), dif_pos (show (0 : Fin S100000x256.rank) ∈ dot_S100000x256_S256x64_S100000x64_1_0_0_1_n_n.lhsNonContracting by decide)]
  rfl

theorem lhs_proj_1 (i : S100000x64.Idx) (q : dot_S100000x256_S256x64_S100000x64_1_0_0_1_n_n.contr.Idx) :
    (dot_S100000x256_S256x64_S100000x64_1_0_0_1_n_n.lhsIdx i q 1).val = (q ⟨0, by decide⟩).val :=
  dot_S100000x256_S256x64_S100000x64_1_0_0_1_n_n.lhsIdx_val_of_single rfl i q

theorem rhs_proj_0 (i : S100000x64.Idx) (q : dot_S100000x256_S256x64_S100000x64_1_0_0_1_n_n.contr.Idx) :
    (dot_S100000x256_S256x64_S100000x64_1_0_0_1_n_n.rhsIdx i q 0).val = (q ⟨0, by decide⟩).val :=
  dot_S100000x256_S256x64_S100000x64_1_0_0_1_n_n.rhsIdx_val_of_single rfl i q

theorem rhs_proj_1 (i : S100000x64.Idx) (q : dot_S100000x256_S256x64_S100000x64_1_0_0_1_n_n.contr.Idx) :
    (dot_S100000x256_S256x64_S100000x64_1_0_0_1_n_n.rhsIdx i q 1).val = (i 1).val := by
  unfold DotDims.rhsIdx
  rw [dif_neg (show ¬(1 : Fin S256x64.rank) ∈ dot_S100000x256_S256x64_S100000x64_1_0_0_1_n_n.rhsBatch by decide), dif_pos (show (1 : Fin S256x64.rank) ∈ dot_S100000x256_S256x64_S100000x64_1_0_0_1_n_n.rhsNonContracting by decide)]
  rfl

theorem dot_proj_apply (x : FVec Ideal S100000x256 .f32) (w : FVec Ideal S256x64 .f32) (r : Fin 100000) (q : Fin 64) :
    Host.dotGeneral (F := Ideal) dot_S100000x256_S256x64_S100000x64_1_0_0_1_n_n none x w (ix2 r q)
      = ∑ k : Fin 256, x (ix2 r k) * w (ix2 k q) := by
  simp only [Host.dotGeneral]
  rw [Ideal.dotGeneral_apply, ← Equiv.sum_comp (contrEquiv1 dot_S100000x256_S256x64_S100000x64_1_0_0_1_n_n 256 rfl rfl).symm]
  refine Finset.sum_congr rfl fun k _ => ?_
  have hk := contrEquiv1_symm_val dot_S100000x256_S256x64_S100000x64_1_0_0_1_n_n 256 rfl rfl k
  have el : dot_S100000x256_S256x64_S100000x64_1_0_0_1_n_n.lhsIdx (ix2 r q) ((contrEquiv1 dot_S100000x256_S256x64_S100000x64_1_0_0_1_n_n 256 rfl rfl).symm k) = ix2 r k := funext fun a => Fin.ext (by
    match a with
    | ⟨0, _⟩ => exact lhs_proj_0 _ _
    | ⟨1, _⟩ => exact (lhs_proj_1 _ _).trans hk)
  have er : dot_S100000x256_S256x64_S100000x64_1_0_0_1_n_n.rhsIdx (ix2 r q) ((contrEquiv1 dot_S100000x256_S256x64_S100000x64_1_0_0_1_n_n 256 rfl rfl).symm k) = ix2 k q := funext fun a => Fin.ext (by
    match a with
    | ⟨0, _⟩ => exact (rhs_proj_0 _ _).trans hk
    | ⟨1, _⟩ => exact rhs_proj_1 _ _)
  rw [el, er]

theorem bias_proj_apply (b : FVec Ideal S64 .f32) (r : Fin 100000) (q : Fin 64) :
    broadcastInDim S100000x64 ![0, 1] bcast_S1x64_S100000x64_0_1 (broadcastInDim S1x64 ![1] bcast_S64_S1x64_1 b) (ix2 r q) = b (ix1 q) := by
  refine (broadcastInDim_apply _ bcast_S1x64_S100000x64_0_1 (broadcastInDim S1x64 ![1] bcast_S64_S1x64_1 b) (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

theorem projOf_apply (x : FVec Ideal S100000x256 .f32) (w : FVec Ideal S256x64 .f32) (b : FVec Ideal S64 .f32) (r : Fin 100000) (q : Fin 64) :
    projOf (F := Ideal) x w b (ix2 r q) = max ((∑ k : Fin 256, x (ix2 r k) * w (ix2 k q)) + b (ix1 q)) 0 := by
  have hzero : broadcastInDim S100000x64 ![] bcast_S_S100000x64 (constant (F := Ideal) S_ .f32 0x00000000#32) (ix2 r q) = (0 : EReal) :=
    (broadcastInDim_apply _ bcast_S_S100000x64 (constant (F := Ideal) S_ .f32 0x00000000#32) (ix2 r q) ix0 (fun a => a.elim0)).trans
      Ideal.ofBits_zero_f32
  unfold projOf
  exact congrArg₂ max (congrArg₂ (· + ·) (dot_proj_apply x w r q) (bias_proj_apply b r q)) hzero

end Cert.Spec.Proj0

namespace Cert.KernelIdeal.Hand.Proj0

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

theorem lhs_tile_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl

theorem lhs_tile_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q

theorem rhs_tile_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q

theorem rhs_tile_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

theorem matmul_tile_apply (x : FVec Ideal S5000x256 .bf16) (w : FVec Ideal S256x64 .bf16) (p : Fin 5000) (q : Fin 64) :
    FloatOps.matmul dot_S5000x256_S256x64_S5000x64_1_0_0_1_n_n none x w (constant S5000x64 .f32 0x00000000#32) (ix2 p q)
      = ∑ k : Fin 256, x (ix2 p k) * w (ix2 k q) := by
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact lhs_tile_0 _ _
    | ⟨1, _⟩ => exact (lhs_tile_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (rhs_tile_0 _ _).trans hk
    | ⟨1, _⟩ => exact rhs_tile_1 _ _)
  rw [el, er]

theorem pay0_apply (x0 : Vec Ideal S5000x256 .f32) (x1 : Vec Ideal S256x64 .f32) (x2 : Vec Ideal S64 .f32) (p : Fin 5000) (q : Fin 64) :
    k0_pay1 (F := Ideal) x0 x1 x2 (ix2 p q) = max ((∑ k : Fin 256, x0 (ix2 p k) * x1 (ix2 k q)) + x2 (ix1 q)) 0 := by
  unfold k0_pay1
  refine (congrArg₂ max (congrArg₂ (· + ·) (matmul_tile_apply (truncf .bf16 x0 bitsLt_bf16_f32) (truncf .bf16 x1 bitsLt_bf16_f32) p q)
    ((broadcastTo_1b_ab_apply (shapeCast S1x64 x2 shapeCasts_S64_S1x64) broadcasts_S1x64_S5000x64 p q).trans
      (shapeCast_a_1a_apply x2 shapeCasts_S64_S1x64 0 q))) Ideal.ofBits_zero_f32).trans ?_
  rfl

variable (V : (c : Dev nD) → (b : Ref sig .tc) → Buf (Elt Ideal) ((c : Thread nD τ).loc b))

theorem tile_value (x0 : Vec Ideal S5000x256 .f32) (x1 : Vec Ideal S256x64 .f32) (x2 : Vec Ideal S64 .f32)
    (X : S100000x256.Idx → EReal) (W : S256x64.Idx → EReal) (B : S64.Idx → EReal)
    (p : Fin 5000) (q : Fin 64) (r : Fin 100000)
    (h0 : ∀ k : Fin 256, x0 (ix2 p k) = X (ix2 r k)) (h1 : ∀ k : Fin 256, x1 (ix2 k q) = W (ix2 k q))
    (h2 : x2 (ix1 q) = B (ix1 q)) :
    k0_pay1 (F := Ideal) x0 x1 x2 (ix2 p q) = Cert.Spec.projOf (F := Ideal) X W B (ix2 r q) := by
  refine (pay0_apply x0 x1 x2 p q).trans (Eq.trans ?_ (Cert.Spec.Proj0.projOf_apply X W B r q).symm)
  rw [h2]
  exact congrArg (fun s => max (s + B (ix1 q)) 0) (Finset.sum_congr rfl fun k _ => by rw [h0 k, h1 k])

theorem zeros2 : (![0, 0] : Fin 2 → Nat) = fun _ => 0 := funext fun a => by fin_cases a <;> rfl
theorem zeros1 : (![0] : Fin 1 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem xblk_apply (c : Dev nD) (t : Fin cfg0.N) (p : Fin 5000) (k : Fin 256) (r : Fin 100000) (hr : r.val = t.val * 5000 + p.val) :
    (iblk0 V c 0 t : Vec Ideal S5000x256 .f32) (ix2 p k) = (V c main_arg0 : S100000x256.Idx → EReal) (ix2 r k) := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

theorem wblk_apply (c : Dev nD) (t : Fin cfg0.N) (k : Fin 256) (q : Fin 64) :
    (iblk0 V c 1 t : Vec Ideal S256x64 .f32) (ix2 k q) = (V c main_arg3 : S256x64.Idx → EReal) (ix2 k q) := by
  obtain ⟨-, -, e2, e3, -⟩ := idx_facts0 t
  unfold iblk0
  rw [View.read_apply]
  show V c main_arg3 _ = V c main_arg3 _
  refine congrArg _ (funext fun a => Fin.ext ?_)
  match a with
  | ⟨0, _⟩ => show win0_1.index t (0 : Fin 2) * 256 + 1 * k.val = k.val; rw [e2]; omega
  | ⟨1, _⟩ => show win0_1.index t (1 : Fin 2) * 64 + 1 * q.val = q.val; rw [e3]; omega

theorem bblk_apply (c : Dev nD) (t : Fin cfg0.N) (q : Fin 64) :
    (iblk0 V c 2 t : Vec Ideal S64 .f32) (ix1 q) = (V c main_arg4 : S64.Idx → EReal) (ix1 q) := by
  obtain ⟨-, -, -, -, e4, -⟩ := idx_facts0 t
  unfold iblk0
  rw [View.read_apply]
  show V c main_arg4 _ = V c main_arg4 _
  refine congrArg _ (funext fun a => Fin.ext ?_)
  match a with
  | ⟨0, _⟩ => show win0_2.index t (0 : Fin 1) * 64 + 1 * q.val = q.val; rw [e4]; omega

abbrev projArr (c : Dev nD) : S100000x64.Idx → EReal :=
  Cert.Spec.projOf (F := Ideal) (V c main_arg0) (V c main_arg3) (V c main_arg4)

theorem flushed0_eq (q : Fin cfg0.W → PosShare TreeShare) (c : Dev nD) (t : Fin cfg0.N) :
    (dat0 (F := Ideal) V q c).flushed 3 t = ((cfg0.win 3).blk t).view.read (Elt Ideal) (projArr V c) := by
  show (cfg0.win 3).cut (grid0.coords t) ((dat0 (F := Ideal) V q c).after 3 t) = _
  rw [after0_3]
  unfold out0_3
  rw [View.canon_unit_zero zeros2]
  simp only [View.ld_unit_zero (S := S5000x256) zeros2, View.ld_unit_zero (S := S256x64) zeros2, View.ld_unit_zero (S := S64) zeros1]
  obtain ⟨-, -, -, -, -, e5, e6⟩ := idx_facts0 t
  have hN : t.val < 20 := lt_of_lt_of_eq t.isLt N_0
  funext j
  have hp : (j 0).val < 5000 := (j 0).isLt
  have hq : (j 1).val < 64 := (j 1).isLt
  have hxi : (cfg0.win 3).xinj (grid0.coords t) j = ix2 (⟨(j 0).val, hp⟩ : Fin 5000) (⟨(j 1).val, hq⟩ : Fin 64) :=
    funext fun a => match a with | ⟨0, _⟩ => rfl | ⟨1, _⟩ => rfl
  have hemb : ((cfg0.win 3).blk t).view.emb j
      = ix2 (⟨t.val * 5000 + (j 0).val, by omega⟩ : Fin 100000) (⟨(j 1).val, hq⟩ : Fin 64) :=
    funext fun a => Fin.ext (by
      match a with
      | ⟨0, _⟩ => show win0_3.index t (0 : Fin 2) * 5000 + 1 * (j 0).val = t.val * 5000 + (j 0).val; rw [e5]; omega
      | ⟨1, _⟩ => show win0_3.index t (1 : Fin 2) * 64 + 1 * (j 1).val = (j 1).val; rw [e6]; omega)
  rw [View.read_apply]
  show k0_pay1 (F := Ideal) (iblk0 V c 0 t) (iblk0 V c 1 t) (iblk0 V c 2 t) ((cfg0.win 3).xinj (grid0.coords t) j)
    = projArr V c (((cfg0.win 3).blk t).view.emb j)
  refine (congrArg (k0_pay1 (F := Ideal) (iblk0 V c 0 t) (iblk0 V c 1 t) (iblk0 V c 2 t)) hxi).trans
    (Eq.trans ?_ (congrArg (projArr V c) hemb).symm)
  exact tile_value (iblk0 V c 0 t) (iblk0 V c 1 t) (iblk0 V c 2 t) (V c main_arg0) (V c main_arg3) (V c main_arg4)
    ⟨(j 0).val, hp⟩ ⟨(j 1).val, hq⟩ ⟨t.val * 5000 + (j 0).val, by omega⟩
    (fun k => xblk_apply V c t ⟨(j 0).val, hp⟩ k ⟨t.val * 5000 + (j 0).val, by omega⟩ rfl)
    (fun k => wblk_apply V c t k ⟨(j 1).val, hq⟩) (bblk_apply V c t ⟨(j 1).val, hq⟩)

theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v36).slice (win0_3.rect t)).set ↔ _
  rw [View.set_slice_whole, Rect.mem_set_unit]
  exact Iff.rfl

theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (show (i 0).val / 5000 < 20 by omega) N_0.symm⟩, rfl⟩
  obtain ⟨-, -, -, -, -, e5, e6⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e5, ht]; omega
  | ⟨1, _⟩ => show win0_3.index t (1 : Fin 2) * 64 ≤ (i 1).val ∧ (i 1).val < win0_3.index t (1 : Fin 2) * 64 + 64; rw [e6]; omega

end Cert.KernelIdeal.Hand.Proj0

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable (V : (c : Dev nD) → (b : Ref sig .tc) → Buf (Elt Ideal) ((c : Thread nD τ).loc b))

theorem final0 (q : Fin cfg0.W → PosShare TreeShare) (c : Dev nD) :
    ((dat0 (F := Ideal) V q c).arrAt 3 cfg0.N : S100000x64.Idx → EReal)
      = Cert.Spec.projOf (F := Ideal) (V c main_arg0) (V c main_arg3) (V c main_arg4) :=
  (dat0 (F := Ideal) V q c).arrAt_eq_of_cover 3 (Proj0.projArr V c) (fun t _ => Proj0.flushed0_eq V q c t) Proj0.cover0

end Cert.KernelIdeal.Hand

end
-- ==== Proof.KI.LayerValue.lean ====
/- A layer's entry as a sum over the contracted axis, on the tile side and on the whole-array side; shared by the eight layer regions. -/
import proofs.«173786_j46231027974388_2_alg».proof.Proof.Gen.KernelIdeal.Skeleton
import proofs.«173786_j46231027974388_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.ValueIdx

theorem tile_lhs_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem tile_lhs_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q

theorem tile_rhs_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q

theorem tile_rhs_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A tile's matrix product into a zero accumulator is, entry by entry, the sum over the contracted axis. -/
theorem tile_matmul_at (L : FVec Ideal S5000x64 .bf16) (R : FVec Ideal S64x64 .bf16) (p : Fin 5000) (j : Fin 64) :
    matmul dot_S5000x64_S64x64_S5000x64_1_0_0_1_n_n none L R (constant (F := Ideal) S5000x64 .f32 0x00000000#32) (ix2 p j) = ∑ k : Fin 64, L (ix2 p k) * R (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact tile_lhs_0 _ _
    | ⟨1, _⟩ => exact (tile_lhs_1 _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (tile_rhs_0 _ _).trans hk
    | ⟨1, _⟩ => exact tile_rhs_1 _ _)
  rw [el, er]

theorem ref_lhs_0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl

theorem ref_lhs_1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q

theorem ref_rhs_0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q

theorem ref_rhs_1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The reference's dot product of the whole arrays is the same sum, row by row. -/
theorem ref_dot_at (L : FVec Ideal Cert.ReferenceIdeal.S100000x64 .f32) (R : FVec Ideal Cert.ReferenceIdeal.S64x64 .f32) (r : Fin 100000) (j : Fin 64) :
    Host.dotGeneral (F := Ideal) Cert.ReferenceIdeal.dot_S100000x64_S64x64_S100000x64_1_0_0_1_n_n none L R (ix2 r j) = ∑ k : Fin 64, L (ix2 r k) * R (ix2 k j) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r j) ((contrEquiv1 Cert.ReferenceIdeal.dot_S100000x64_S64x64_S100000x64_1_0_0_1_n_n 64 rfl rfl).symm k) = ix2 r k := funext fun a => Fin.ext (by
    match a with
    | ⟨0, _⟩ => exact ref_lhs_0 _ _
    | ⟨1, _⟩ => exact (ref_lhs_1 _ _).trans hk)
  have er : Cert.ReferenceIdeal.dot_S100000x64_S64x64_S100000x64_1_0_0_1_n_n.rhsIdx (ix2 r j) ((contrEquiv1 Cert.ReferenceIdeal.dot_S100000x64_S64x64_S100000x64_1_0_0_1_n_n 64 rfl rfl).symm k) = ix2 k j := funext fun a => Fin.ext (by
    match a with
    | ⟨0, _⟩ => exact (ref_rhs_0 _ _).trans hk
    | ⟨1, _⟩ => exact ref_rhs_1 _ _)
  rw [el, er]

/-- One entry of a layer's output from a row of each of the three node arrays and a column of the weight. -/
def layerEntry (g h o : Fin 64 → EReal) (w : Fin 64 → EReal) : EReal :=
  max (∑ k : Fin 64, (g k + Ideal.ofBits .f32 0x3DCCCCCD#32 * h k + Ideal.ofBits .f32 0x3DCCCCCD#32 * o k) * w k) (Ideal.ofBits .f32 0x00000000#32)

theorem layerOf_at (g h o : FVec Ideal Cert.ReferenceIdeal.S100000x64 .f32) (w : FVec Ideal Cert.ReferenceIdeal.S64x64 .f32) (r : Fin 100000) (j : Fin 64) :
    Cert.Spec.layerOf (F := Ideal) g h o w (ix2 r j)
      = layerEntry (fun k => g (ix2 r k)) (fun k => h (ix2 r k)) (fun k => o (ix2 r k)) (fun k => w (ix2 k j)) := by
  unfold Cert.Spec.layerOf layerEntry
  refine (maximumf_apply _ _ (ix2 r j)).trans ?_
  refine congrArg₂ max ((ref_dot_at _ w r j).trans (Finset.sum_congr rfl fun k _ => ?_)) ?_
  · rfl
  · rfl

/-- The tile's stored value at an entry is the layer's entry of the loaded tiles' rows and the weight's column. -/
theorem layer_pay_at (x0 : Vec Ideal S5000x64 .f32) (x1 x2 : Vec Ideal S5000x64 .bf16) (x3 : Vec Ideal S64x64 .f32) (p : Fin 5000) (j : Fin 64) :
    k2_pay1 (F := Ideal) x0 x1 x2 x3 (ix2 p j)
      = layerEntry (fun k => x0 (ix2 p k)) (fun k => x1 (ix2 p k)) (fun k => x2 (ix2 p k)) (fun k => x3 (ix2 k j)) := by
  unfold k2_pay1 layerEntry
  simp only [shapeCast_self]
  refine congrArg₂ max ((tile_matmul_at _ _ p j).trans (Finset.sum_congr rfl fun k _ => ?_)) ?_
  · rfl
  · rfl

theorem origin2 : (![0, 0] : Fin 2 → Nat) = fun _ => 0 := funext fun a => match a with | ⟨0, _⟩ => rfl | ⟨1, _⟩ => rfl

end Cert.KernelIdeal.Hand

end
-- ==== Proof.KI.Value1.lean ====
/- Region 1's output: the row tiles are the rows of one layer of the four arrays it reads and cover the array. -/
import proofs.«173786_j46231027974388_2_alg».proof.Proof.KI.Region1
import proofs.«173786_j46231027974388_2_alg».proof.Proof.KI.LayerValue

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)
open Idealize.ShloMosaic.ValueIdx

variable (V : (c : Dev nD) → (b : Ref sig .tc) → Buf (Elt Ideal) ((c : Thread nD τ).loc b))

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem iblk1_0_at (c : Dev nD) (t : Fin cfg1.N) (x : S5000x64.Idx) (i : S100000x64.Idx)
    (h0 : (i 0).val = 5000 * t.val + (x 0).val) (h1 : (i 1).val = (x 1).val) :
    (iblk1 V c 0 t : Vec Ideal S5000x64 .f32) x = (V c main_v50 : S100000x64.Idx → EReal) i := by
  obtain ⟨e0, e1, -⟩ := idx_facts1 t
  unfold iblk1
  show (V c main_v50 : S100000x64.Idx → EReal) (((cfg1.win 0).blk t).view.emb x) = _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 64 + 1 * (x 1).val = (i 1).val; rw [e1, h1]; omega

theorem iblk1_1_at (c : Dev nD) (t : Fin cfg1.N) (x : S5000x64.Idx) (i : S100000x64.Idx)
    (h0 : (i 0).val = 5000 * t.val + (x 0).val) (h1 : (i 1).val = (x 1).val) :
    (iblk1 V c 1 t : Vec Ideal S5000x64 .bf16) x = (V c main_v36 : S100000x64.Idx → EReal) i := by
  obtain ⟨-, -, e0, e1, -⟩ := idx_facts1 t
  unfold iblk1
  show (V c main_v36 : S100000x64.Idx → EReal) (((cfg1.win 1).blk t).view.emb x) = _
  congr 1
  funext a
  apply Fin.ext
  match a with
  | ⟨0, _⟩ => show win1_1.index t (0 : Fin 2) * 5000 + 1 * (x 0).val = (i 0).val; rw [e0, h0]; omega
  | ⟨1, _⟩ => show win1_1.index t (1 : Fin 2) * 64 + 1 * (x 1).val = (i 1).val; rw [e1, h1]; omega

theorem iblk1_2_at (c : Dev nD) (t : Fin cfg1.N) (x : S5000x64.Idx) (i : S100000x64.Idx)
    (h0 : (i 0).val = 5000 * t.val + (x 0).val) (h1 : (i 1).val = (x 1).val) :
    (iblk1 V c 2 t : Vec Ideal S5000x64 .bf16) x = (V c main_v36 : S100000x64.Idx → EReal) i := by
  obtain ⟨-, -, -, -, e0, e1, -⟩ := idx_facts1 t
  unfold iblk1
  show (V c main_v36 : S100000x64.Idx → EReal) (((cfg1.win 2).blk t).view.emb x) = _
  congr 1
  funext a
  apply Fin.ext
  match a with
  | ⟨0, _⟩ => show win1_2.index t (0 : Fin 2) * 5000 + 1 * (x 0).val = (i 0).val; rw [e0, h0]; omega
  | ⟨1, _⟩ => show win1_2.index t (1 : Fin 2) * 64 + 1 * (x 1).val = (i 1).val; rw [e1, h1]; omega

theorem iblk1_3_at (c : Dev nD) (t : Fin cfg1.N) (x : S64x64.Idx) :
    (iblk1 V c 3 t : Vec Ideal S64x64 .f32) x = (V c main_v52 : S64x64.Idx → EReal) x := by
  obtain ⟨-, -, -, -, -, -, e0, e1, -⟩ := idx_facts1 t
  unfold iblk1
  show (V c main_v52 : S64x64.Idx → EReal) (((cfg1.win 3).blk t).view.emb x) = _
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-- What a grid point writes back is its tile of the layer of the four whole arrays. -/
theorem flushed_eq1 (q : Fin cfg1.W → PosShare TreeShare) (c : Dev nD) (t : Fin cfg1.N) :
    (dat1 (F := Ideal) V q c).flushed 4 t
      = ((cfg1.win 4).blk t).view.read (Elt Ideal)
          (Cert.Spec.layerOf (F := Ideal) (V c main_v50) (V c main_v36) (V c main_v36) (V c main_v52)) := by
  show (cfg1.win 4).cut (grid1.coords t) ((dat1 (F := Ideal) V q c).after 4 t) = _
  rw [after1_4]
  unfold layerOut
  rw [View.canon_unit_zero origin2]
  simp only [View.ld_unit_zero (S := S5000x64) origin2, View.ld_unit_zero (S := S64x64) origin2]
  funext y
  obtain ⟨p, j, rfl⟩ : ∃ (p : Fin 5000) (j : Fin 64), y = (ix2 p j : S5000x64.Idx) := ⟨y 0, y 1, eq_ix2 y⟩
  obtain ⟨-, -, -, -, -, -, -, -, e8, e9⟩ := idx_facts1 t
  have hN : cfg1.N = 20 := N_1
  have ht : t.val < 20 := hN ▸ t.isLt
  have hr : 5000 * t.val + p.val < 100000 := by have := p.isLt; omega
  refine (layer_pay_at (iblk1 V c 0 t) (iblk1 V c 1 t) (iblk1 V c 2 t) (iblk1 V c 3 t) p j).trans ?_
  have hemb : ((cfg1.win 4).blk t).view.emb (ix2 p j) = (ix2 (⟨5000 * t.val + p.val, hr⟩ : Fin 100000) j : S100000x64.Idx) := by
    funext a
    apply Fin.ext
    match a with
    | ⟨0, _⟩ => show win1_4.index t (0 : Fin 2) * 5000 + 1 * p.val = 5000 * t.val + p.val; rw [e8]; omega
    | ⟨1, _⟩ => show win1_4.index t (1 : Fin 2) * 64 + 1 * j.val = j.val; rw [e9]; omega
  show _ = Cert.Spec.layerOf (F := Ideal) (V c main_v50) (V c main_v36) (V c main_v36) (V c main_v52) (((cfg1.win 4).blk t).view.emb (ix2 p j))
  rw [hemb]
  refine Eq.trans ?_ (layerOf_at (V c main_v50) (V c main_v36) (V c main_v36) (V c main_v52) ⟨5000 * t.val + p.val, hr⟩ j).symm
  have eA : (fun k : Fin 64 => (iblk1 V c 0 t : Vec Ideal S5000x64 .f32) (ix2 p k)) = fun k => (V c main_v50 : S100000x64.Idx → EReal) (ix2 (⟨5000 * t.val + p.val, hr⟩ : Fin 100000) k) :=
    funext fun k => iblk1_0_at V c t (ix2 p k) (ix2 (⟨5000 * t.val + p.val, hr⟩ : Fin 100000) k) rfl rfl
  have eB : (fun k : Fin 64 => (iblk1 V c 1 t : Vec Ideal S5000x64 .bf16) (ix2 p k)) = fun k => (V c main_v36 : S100000x64.Idx → EReal) (ix2 (⟨5000 * t.val + p.val, hr⟩ : Fin 100000) k) :=
    funext fun k => iblk1_1_at V c t (ix2 p k) (ix2 (⟨5000 * t.val + p.val, hr⟩ : Fin 100000) k) rfl rfl
  have eC : (fun k : Fin 64 => (iblk1 V c 2 t : Vec Ideal S5000x64 .bf16) (ix2 p k)) = fun k => (V c main_v36 : S100000x64.Idx → EReal) (ix2 (⟨5000 * t.val + p.val, hr⟩ : Fin 100000) k) :=
    funext fun k => iblk1_2_at V c t (ix2 p k) (ix2 (⟨5000 * t.val + p.val, hr⟩ : Fin 100000) k) rfl rfl
  have eD : (fun k : Fin 64 => (iblk1 V c 3 t : Vec Ideal S64x64 .f32) (ix2 k j)) = fun k => (V c main_v52 : S64x64.Idx → EReal) (ix2 k j) :=
    funext fun k => iblk1_3_at V c t (ix2 k j)
  exact congr (congr (congr (congrArg layerEntry eA) eB) eC) eD

theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v53).slice (win1_4.rect t)).set ↔ _
  rw [View.set_slice_whole, Rect.mem_set_unit]
  exact Iff.rfl

/-- Row r lies in the tile of point r / 5000. -/
theorem covered1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e8, e9⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e8, ht]; omega
  | ⟨1, _⟩ => show win1_4.index t (1 : Fin 2) * 64 ≤ (i 1).val ∧ (i 1).val < win1_4.index t (1 : Fin 2) * 64 + 64; rw [e9]; omega

theorem final1 (q : Fin cfg1.W → PosShare TreeShare) (c : Dev nD) :
    ((dat1 (F := Ideal) V q c).arrAt 4 cfg1.N : S100000x64.Idx → EReal)
      = Cert.Spec.layerOf (F := Ideal) (V c main_v50) (V c main_v36) (V c main_v36) (V c main_v52) :=
  (dat1 (F := Ideal) V q c).arrAt_eq_of_cover 4
    (Cert.Spec.layerOf (F := Ideal) (V c main_v50) (V c main_v36) (V c main_v36) (V c main_v52))
    (fun t _ => flushed_eq1 V q c t) covered1

end Cert.KernelIdeal.Hand

end
-- ==== Proof.KI.Value2.lean ====
/- Region 2's output: the row tiles are the rows of one layer of the four arrays it reads and cover the array. -/
import proofs.«173786_j46231027974388_2_alg».proof.Proof.KI.Region2
import proofs.«173786_j46231027974388_2_alg».proof.Proof.KI.LayerValue

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)
open Idealize.ShloMosaic.ValueIdx

variable (V : (c : Dev nD) → (b : Ref sig .tc) → Buf (Elt Ideal) ((c : Thread nD τ).loc b))

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem iblk2_0_at (c : Dev nD) (t : Fin cfg2.N) (x : S5000x64.Idx) (i : S100000x64.Idx)
    (h0 : (i 0).val = 5000 * t.val + (x 0).val) (h1 : (i 1).val = (x 1).val) :
    (iblk2 V c 0 t : Vec Ideal S5000x64 .f32) x = (V c main_v67 : S100000x64.Idx → EReal) i := by
  obtain ⟨e0, e1, -⟩ := idx_facts2 t
  unfold iblk2
  show (V c main_v67 : S100000x64.Idx → EReal) (((cfg2.win 0).blk t).view.emb x) = _
  congr 1
  funext a
  apply Fin.ext
  match a with
  | ⟨0, _⟩ => show win2_0.index t (0 : Fin 2) * 5000 + 1 * (x 0).val = (i 0).val; rw [e0, h0]; omega
  | ⟨1, _⟩ => show win2_0.index t (1 : Fin 2) * 64 + 1 * (x 1).val = (i 1).val; rw [e1, h1]; omega

theorem iblk2_1_at (c : Dev nD) (t : Fin cfg2.N) (x : S5000x64.Idx) (i : S100000x64.Idx)
    (h0 : (i 0).val = 5000 * t.val + (x 0).val) (h1 : (i 1).val = (x 1).val) :
    (iblk2 V c 1 t : Vec Ideal S5000x64 .bf16) x = (V c main_v53 : S100000x64.Idx → EReal) i := by
  obtain ⟨-, -, e0, e1, -⟩ := idx_facts2 t
  unfold iblk2
  show (V c main_v53 : S100000x64.Idx → EReal) (((cfg2.win 1).blk t).view.emb x) = _
  congr 1
  funext a
  apply Fin.ext
  match a with
  | ⟨0, _⟩ => show win2_1.index t (0 : Fin 2) * 5000 + 1 * (x 0).val = (i 0).val; rw [e0, h0]; omega
  | ⟨1, _⟩ => show win2_1.index t (1 : Fin 2) * 64 + 1 * (x 1).val = (i 1).val; rw [e1, h1]; omega

theorem iblk2_2_at (c : Dev nD) (t : Fin cfg2.N) (x : S5000x64.Idx) (i : S100000x64.Idx)
    (h0 : (i 0).val = 5000 * t.val + (x 0).val) (h1 : (i 1).val = (x 1).val) :
    (iblk2 V c 2 t : Vec Ideal S5000x64 .bf16) x = (V c main_v36 : S100000x64.Idx → EReal) i := by
  obtain ⟨-, -, -, -, e0, e1, -⟩ := idx_facts2 t
  unfold iblk2
  show (V c main_v36 : S100000x64.Idx → EReal) (((cfg2.win 2).blk t).view.emb x) = _
  congr 1
  funext a
  apply Fin.ext
  match a with
  | ⟨0, _⟩ => show win2_2.index t (0 : Fin 2) * 5000 + 1 * (x 0).val = (i 0).val; rw [e0, h0]; omega
  | ⟨1, _⟩ => show win2_2.index t (1 : Fin 2) * 64 + 1 * (x 1).val = (i 1).val; rw [e1, h1]; omega

theorem iblk2_3_at (c : Dev nD) (t : Fin cfg2.N) (x : S64x64.Idx) :
    (iblk2 V c 3 t : Vec Ideal S64x64 .f32) x = (V c main_v69 : S64x64.Idx → EReal) x := by
  obtain ⟨-, -, -, -, -, -, e0, e1, -⟩ := idx_facts2 t
  unfold iblk2
  show (V c main_v69 : S64x64.Idx → EReal) (((cfg2.win 3).blk t).view.emb x) = _
  congr 1
  funext a
  apply Fin.ext
  match a with
  | ⟨0, _⟩ => show win2_3.index t (0 : Fin 2) * 64 + 1 * (x 0).val = (x 0).val; rw [e0]; omega
  | ⟨1, _⟩ => show win2_3.index t (1 : Fin 2) * 64 + 1 * (x 1).val = (x 1).val; rw [e1]; omega

/-- What a grid point writes back is its tile of the layer of the four whole arrays. -/
theorem flushed_eq2 (q : Fin cfg2.W → PosShare TreeShare) (c : Dev nD) (t : Fin cfg2.N) :
    (dat2 (F := Ideal) V q c).flushed 4 t
      = ((cfg2.win 4).blk t).view.read (Elt Ideal)
          (Cert.Spec.layerOf (F := Ideal) (V c main_v67) (V c main_v53) (V c main_v36) (V c main_v69)) := by
  show (cfg2.win 4).cut (grid2.coords t) ((dat2 (F := Ideal) V q c).after 4 t) = _
  rw [after2_4]
  unfold layerOut
  rw [View.canon_unit_zero origin2]
  simp only [View.ld_unit_zero (S := S5000x64) origin2, View.ld_unit_zero (S := S64x64) origin2]
  funext y
  obtain ⟨p, j, rfl⟩ : ∃ (p : Fin 5000) (j : Fin 64), y = (ix2 p j : S5000x64.Idx) := ⟨y 0, y 1, eq_ix2 y⟩
  obtain ⟨-, -, -, -, -, -, -, -, e8, e9⟩ := idx_facts2 t
  have hN : cfg2.N = 20 := N_2
  have ht : t.val < 20 := hN ▸ t.isLt
  have hr : 5000 * t.val + p.val < 100000 := by have := p.isLt; omega
  refine (layer_pay_at (iblk2 V c 0 t) (iblk2 V c 1 t) (iblk2 V c 2 t) (iblk2 V c 3 t) p j).trans ?_
  have hemb : ((cfg2.win 4).blk t).view.emb (ix2 p j) = (ix2 (⟨5000 * t.val + p.val, hr⟩ : Fin 100000) j : S100000x64.Idx) := by
    funext a
    apply Fin.ext
    match a with
    | ⟨0, _⟩ => show win2_4.index t (0 : Fin 2) * 5000 + 1 * p.val = 5000 * t.val + p.val; rw [e8]; omega
    | ⟨1, _⟩ => show win2_4.index t (1 : Fin 2) * 64 + 1 * j.val = j.val; rw [e9]; omega
  show _ = Cert.Spec.layerOf (F := Ideal) (V c main_v67) (V c main_v53) (V c main_v36) (V c main_v69) (((cfg2.win 4).blk t).view.emb (ix2 p j))
  rw [hemb]
  refine Eq.trans ?_ (layerOf_at (V c main_v67) (V c main_v53) (V c main_v36) (V c main_v69) ⟨5000 * t.val + p.val, hr⟩ j).symm
  have eA : (fun k : Fin 64 => (iblk2 V c 0 t : Vec Ideal S5000x64 .f32) (ix2 p k)) = fun k => (V c main_v67 : S100000x64.Idx → EReal) (ix2 (⟨5000 * t.val + p.val, hr⟩ : Fin 100000) k) :=
    funext fun k => iblk2_0_at V c t (ix2 p k) (ix2 (⟨5000 * t.val + p.val, hr⟩ : Fin 100000) k) rfl rfl
  have eB : (fun k : Fin 64 => (iblk2 V c 1 t : Vec Ideal S5000x64 .bf16) (ix2 p k)) = fun k => (V c main_v53 : S100000x64.Idx → EReal) (ix2 (⟨5000 * t.val + p.val, hr⟩ : Fin 100000) k) :=
    funext fun k => iblk2_1_at V c t (ix2 p k) (ix2 (⟨5000 * t.val + p.val, hr⟩ : Fin 100000) k) rfl rfl
  have eC : (fun k : Fin 64 => (iblk2 V c 2 t : Vec Ideal S5000x64 .bf16) (ix2 p k)) = fun k => (V c main_v36 : S100000x64.Idx → EReal) (ix2 (⟨5000 * t.val + p.val, hr⟩ : Fin 100000) k) :=
    funext fun k => iblk2_2_at V c t (ix2 p k) (ix2 (⟨5000 * t.val + p.val, hr⟩ : Fin 100000) k) rfl rfl
  have eD : (fun k : Fin 64 => (iblk2 V c 3 t : Vec Ideal S64x64 .f32) (ix2 k j)) = fun k => (V c main_v69 : S64x64.Idx → EReal) (ix2 k j) :=
    funext fun k => iblk2_3_at V c t (ix2 k j)
  exact congr (congr (congr (congrArg layerEntry eA) eB) eC) eD

theorem mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v70).slice (win2_4.rect t)).set ↔ _
  rw [View.set_slice_whole, Rect.mem_set_unit]
  exact Iff.rfl

/-- Row r lies in the tile of point r / 5000. -/
theorem covered2 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, e8, e9⟩ := idx_facts2 t
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; rw [e8, ht]; omega
  | ⟨1, _⟩ => show win2_4.index t (1 : Fin 2) * 64 ≤ (i 1).val ∧ (i 1).val < win2_4.index t (1 : Fin 2) * 64 + 64; rw [e9]; omega

theorem final2 (q : Fin cfg2.W → PosShare TreeShare) (c : Dev nD) :
    ((dat2 (F := Ideal) V q c).arrAt 4 cfg2.N : S100000x64.Idx → EReal)
      = Cert.Spec.layerOf (F := Ideal) (V c main_v67) (V c main_v53) (V c main_v36) (V c main_v69) :=
  (dat2 (F := Ideal) V q c).arrAt_eq_of_cover 4
    (Cert.Spec.layerOf (F := Ideal) (V c main_v67) (V c main_v53) (V c main_v36) (V c main_v69))
    (fun t _ => flushed_eq2 V q c t) covered2

end Cert.KernelIdeal.Hand

end
-- ==== Proof.KI.Value3.lean ====
/- Region 3's output: the row tiles are the rows of one layer of the four arrays it reads and cover the array. -/
import proofs.«173786_j46231027974388_2_alg».proof.Proof.KI.Region3
import proofs.«173786_j46231027974388_2_alg».proof.Proof.KI.LayerValue

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)
open Idealize.ShloMosaic.ValueIdx

variable (V : (c : Dev nD) → (b : Ref sig .tc) → Buf (Elt Ideal) ((c : Thread nD τ).loc b))

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem iblk3_0_at (c : Dev nD) (t : Fin cfg3.N) (x : S5000x64.Idx) (i : S100000x64.Idx)
    (h0 : (i 0).val = 5000 * t.val + (x 0).val) (h1 : (i 1).val = (x 1).val) :
    (iblk3 V c 0 t : Vec Ideal S5000x64 .f32) x = (V c main_v84 : S100000x64.Idx → EReal) i := by
  obtain ⟨e0, e1, -⟩ := idx_facts3 t
  unfold iblk3
  show (V c main_v84 : S100000x64.Idx → EReal) (((cfg3.win 0).blk t).view.emb x) = _
  congr 1
  funext a
  apply Fin.ext
  match a with
  | ⟨0, _⟩ => show win3_0.index t (0 : Fin 2) * 5000 + 1 * (x 0).val = (i 0).val; rw [e0, h0]; omega
  | ⟨1, _⟩ => show win3_0.index t (1 : Fin 2) * 64 + 1 * (x 1).val = (i 1).val; rw [e1, h1]; omega

theorem iblk3_1_at (c : Dev nD) (t : Fin cfg3.N) (x : S5000x64.Idx) (i : S100000x64.Idx)
    (h0 : (i 0).val = 5000 * t.val + (x 0).val) (h1 : (i 1).val = (x 1).val) :
    (iblk3 V c 1 t : Vec Ideal S5000x64 .bf16) x = (V c main_v70 : S100000x64.Idx → EReal) i := by
  obtain ⟨-, -, e0, e1, -⟩ := idx_facts3 t
  unfold iblk3
  show (V c main_v70 : S100000x64.Idx → EReal) (((cfg3.win 1).blk t).view.emb x) = _
  congr 1
  funext a
  apply Fin.ext
  match a with
  | ⟨0, _⟩ => show win3_1.index t (0 : Fin 2) * 5000 + 1 * (x 0).val = (i 0).val; rw [e0, h0]; omega
  | ⟨1, _⟩ => show win3_1.index t (1 : Fin 2) * 64 + 1 * (x 1).val = (i 1).val; rw [e1, h1]; omega

theorem iblk3_2_at (c : Dev nD) (t : Fin cfg3.N) (x : S5000x64.Idx) (i : S100000x64.Idx)
    (h0 : (i 0).val = 5000 * t.val + (x 0).val) (h1 : (i 1).val = (x 1).val) :
    (iblk3 V c 2 t : Vec Ideal S5000x64 .bf16) x = (V c main_v36 : S100000x64.Idx → EReal) i := by
  obtain ⟨-, -, -, -, e0, e1, -⟩ := idx_facts3 t
  unfold iblk3
  show (V c main_v36 : S100000x64.Idx → EReal) (((cfg3.win 2).blk t).view.emb x) = _
  congr 1
  funext a
  apply Fin.ext
  match a with
  | ⟨0, _⟩ => show win3_2.index t (0 : Fin 2) * 5000 + 1 * (x 0).val = (i 0).val; rw [e0, h0]; omega
  | ⟨1, _⟩ => show win3_2.index t (1 : Fin 2) * 64 + 1 * (x 1).val = (i 1).val; rw [e1, h1]; omega

theorem iblk3_3_at (c : Dev nD) (t : Fin cfg3.N) (x : S64x64.Idx) :
    (iblk3 V c 3 t : Vec Ideal S64x64 .f32) x = (V c main_v86 : S64x64.Idx → EReal) x := by
  obtain ⟨-, -, -, -, -, -, e0, e1, -⟩ := idx_facts3 t
  unfold iblk3
  show (V c main_v86 : S64x64.Idx → EReal) (((cfg3.win 3).blk t).view.emb x) = _
  congr 1
  funext a
  apply Fin.ext
  match a with
  | ⟨0, _⟩ => show win3_3.index t (0 : Fin 2) * 64 + 1 * (x 0).val = (x 0).val; rw [e0]; omega
  | ⟨1, _⟩ => show win3_3.index t (1 : Fin 2) * 64 + 1 * (x 1).val = (x 1).val; rw [e1]; omega

/-- What a grid point writes back is its tile of the layer of the four whole arrays. -/
theorem flushed_eq3 (q : Fin cfg3.W → PosShare TreeShare) (c : Dev nD) (t : Fin cfg3.N) :
    (dat3 (F := Ideal) V q c).flushed 4 t
      = ((cfg3.win 4).blk t).view.read (Elt Ideal)
          (Cert.Spec.layerOf (F := Ideal) (V c main_v84) (V c main_v70) (V c main_v36) (V c main_v86)) := by
  show (cfg3.win 4).cut (grid3.coords t) ((dat3 (F := Ideal) V q c).after 4 t) = _
  rw [after3_4]
  unfold layerOut
  rw [View.canon_unit_zero origin2]
  simp only [View.ld_unit_zero (S := S5000x64) origin2, View.ld_unit_zero (S := S64x64) origin2]
  funext y
  obtain ⟨p, j, rfl⟩ : ∃ (p : Fin 5000) (j : Fin 64), y = (ix2 p j : S5000x64.Idx) := ⟨y 0, y 1, eq_ix2 y⟩
  obtain ⟨-, -, -, -, -, -, -, -, e8, e9⟩ := idx_facts3 t
  have hN : cfg3.N = 20 := N_3
  have ht : t.val < 20 := hN ▸ t.isLt
  have hr : 5000 * t.val + p.val < 100000 := by have := p.isLt; omega
  refine (layer_pay_at (iblk3 V c 0 t) (iblk3 V c 1 t) (iblk3 V c 2 t) (iblk3 V c 3 t) p j).trans ?_
  have hemb : ((cfg3.win 4).blk t).view.emb (ix2 p j) = (ix2 (⟨5000 * t.val + p.val, hr⟩ : Fin 100000) j : S100000x64.Idx) := by
    funext a
    apply Fin.ext
    match a with
    | ⟨0, _⟩ => show win3_4.index t (0 : Fin 2) * 5000 + 1 * p.val = 5000 * t.val + p.val; rw [e8]; omega
    | ⟨1, _⟩ => show win3_4.index t (1 : Fin 2) * 64 + 1 * j.val = j.val; rw [e9]; omega
  show _ = Cert.Spec.layerOf (F := Ideal) (V c main_v84) (V c main_v70) (V c main_v36) (V c main_v86) (((cfg3.win 4).blk t).view.emb (ix2 p j))
  rw [hemb]
  refine Eq.trans ?_ (layerOf_at (V c main_v84) (V c main_v70) (V c main_v36) (V c main_v86) ⟨5000 * t.val + p.val, hr⟩ j).symm
  have eA : (fun k : Fin 64 => (iblk3 V c 0 t : Vec Ideal S5000x64 .f32) (ix2 p k)) = fun k => (V c main_v84 : S100000x64.Idx → EReal) (ix2 (⟨5000 * t.val + p.val, hr⟩ : Fin 100000) k) :=
    funext fun k => iblk3_0_at V c t (ix2 p k) (ix2 (⟨5000 * t.val + p.val, hr⟩ : Fin 100000) k) rfl rfl
  have eB : (fun k : Fin 64 => (iblk3 V c 1 t : Vec Ideal S5000x64 .bf16) (ix2 p k)) = fun k => (V c main_v70 : S100000x64.Idx → EReal) (ix2 (⟨5000 * t.val + p.val, hr⟩ : Fin 100000) k) :=
    funext fun k => iblk3_1_at V c t (ix2 p k) (ix2 (⟨5000 * t.val + p.val, hr⟩ : Fin 100000) k) rfl rfl
  have eC : (fun k : Fin 64 => (iblk3 V c 2 t : Vec Ideal S5000x64 .bf16) (ix2 p k)) = fun k => (V c main_v36 : S100000x64.Idx → EReal) (ix2 (⟨5000 * t.val + p.val, hr⟩ : Fin 100000) k) :=
    funext fun k => iblk3_2_at V c t (ix2 p k) (ix2 (⟨5000 * t.val + p.val, hr⟩ : Fin 100000) k) rfl rfl
  have eD : (fun k : Fin 64 => (iblk3 V c 3 t : Vec Ideal S64x64 .f32) (ix2 k j)) = fun k => (V c main_v86 : S64x64.Idx → EReal) (ix2 k j) :=
    funext fun k => iblk3_3_at V c t (ix2 k j)
  exact congr (congr (congr (congrArg layerEntry eA) eB) eC) eD

theorem mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v87).slice (win3_4.rect t)).set ↔ _
  rw [View.set_slice_whole, Rect.mem_set_unit]
  exact Iff.rfl

/-- Row r lies in the tile of point r / 5000. -/
theorem covered3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, e8, e9⟩ := idx_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; rw [e8, ht]; omega
  | ⟨1, _⟩ => show win3_4.index t (1 : Fin 2) * 64 ≤ (i 1).val ∧ (i 1).val < win3_4.index t (1 : Fin 2) * 64 + 64; rw [e9]; omega

theorem final3 (q : Fin cfg3.W → PosShare TreeShare) (c : Dev nD) :
    ((dat3 (F := Ideal) V q c).arrAt 4 cfg3.N : S100000x64.Idx → EReal)
      = Cert.Spec.layerOf (F := Ideal) (V c main_v84) (V c main_v70) (V c main_v36) (V c main_v86) :=
  (dat3 (F := Ideal) V q c).arrAt_eq_of_cover 4
    (Cert.Spec.layerOf (F := Ideal) (V c main_v84) (V c main_v70) (V c main_v36) (V c main_v86))
    (fun t _ => flushed_eq3 V q c t) covered3

end Cert.KernelIdeal.Hand

end
-- ==== Proof.KI.Value4.lean ====
/- Region 4's output: the row tiles are the rows of one layer of the four arrays it reads and cover the array. -/
import proofs.«173786_j46231027974388_2_alg».proof.Proof.KI.Region4
import proofs.«173786_j46231027974388_2_alg».proof.Proof.KI.LayerValue

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)
open Idealize.ShloMosaic.ValueIdx

variable (V : (c : Dev nD) → (b : Ref sig .tc) → Buf (Elt Ideal) ((c : Thread nD τ).loc b))

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem iblk4_0_at (c : Dev nD) (t : Fin cfg4.N) (x : S5000x64.Idx) (i : S100000x64.Idx)
    (h0 : (i 0).val = 5000 * t.val + (x 0).val) (h1 : (i 1).val = (x 1).val) :
    (iblk4 V c 0 t : Vec Ideal S5000x64 .f32) x = (V c main_v101 : S100000x64.Idx → EReal) i := by
  obtain ⟨e0, e1, -⟩ := idx_facts4 t
  unfold iblk4
  show (V c main_v101 : S100000x64.Idx → EReal) (((cfg4.win 0).blk t).view.emb x) = _
  congr 1
  funext a
  apply Fin.ext
  match a with
  | ⟨0, _⟩ => show win4_0.index t (0 : Fin 2) * 5000 + 1 * (x 0).val = (i 0).val; rw [e0, h0]; omega
  | ⟨1, _⟩ => show win4_0.index t (1 : Fin 2) * 64 + 1 * (x 1).val = (i 1).val; rw [e1, h1]; omega

theorem iblk4_1_at (c : Dev nD) (t : Fin cfg4.N) (x : S5000x64.Idx) (i : S100000x64.Idx)
    (h0 : (i 0).val = 5000 * t.val + (x 0).val) (h1 : (i 1).val = (x 1).val) :
    (iblk4 V c 1 t : Vec Ideal S5000x64 .bf16) x = (V c main_v87 : S100000x64.Idx → EReal) i := by
  obtain ⟨-, -, e0, e1, -⟩ := idx_facts4 t
  unfold iblk4
  show (V c main_v87 : S100000x64.Idx → EReal) (((cfg4.win 1).blk t).view.emb x) = _
  congr 1
  funext a
  apply Fin.ext
  match a with
  | ⟨0, _⟩ => show win4_1.index t (0 : Fin 2) * 5000 + 1 * (x 0).val = (i 0).val; rw [e0, h0]; omega
  | ⟨1, _⟩ => show win4_1.index t (1 : Fin 2) * 64 + 1 * (x 1).val = (i 1).val; rw [e1, h1]; omega

theorem iblk4_2_at (c : Dev nD) (t : Fin cfg4.N) (x : S5000x64.Idx) (i : S100000x64.Idx)
    (h0 : (i 0).val = 5000 * t.val + (x 0).val) (h1 : (i 1).val = (x 1).val) :
    (iblk4 V c 2 t : Vec Ideal S5000x64 .bf16) x = (V c main_v36 : S100000x64.Idx → EReal) i := by
  obtain ⟨-, -, -, -, e0, e1, -⟩ := idx_facts4 t
  unfold iblk4
  show (V c main_v36 : S100000x64.Idx → EReal) (((cfg4.win 2).blk t).view.emb x) = _
  congr 1
  funext a
  apply Fin.ext
  match a with
  | ⟨0, _⟩ => show win4_2.index t (0 : Fin 2) * 5000 + 1 * (x 0).val = (i 0).val; rw [e0, h0]; omega
  | ⟨1, _⟩ => show win4_2.index t (1 : Fin 2) * 64 + 1 * (x 1).val = (i 1).val; rw [e1, h1]; omega

theorem iblk4_3_at (c : Dev nD) (t : Fin cfg4.N) (x : S64x64.Idx) :
    (iblk4 V c 3 t : Vec Ideal S64x64 .f32) x = (V c main_v103 : S64x64.Idx → EReal) x := by
  obtain ⟨-, -, -, -, -, -, e0, e1, -⟩ := idx_facts4 t
  unfold iblk4
  show (V c main_v103 : S64x64.Idx → EReal) (((cfg4.win 3).blk t).view.emb x) = _
  congr 1
  funext a
  apply Fin.ext
  match a with
  | ⟨0, _⟩ => show win4_3.index t (0 : Fin 2) * 64 + 1 * (x 0).val = (x 0).val; rw [e0]; omega
  | ⟨1, _⟩ => show win4_3.index t (1 : Fin 2) * 64 + 1 * (x 1).val = (x 1).val; rw [e1]; omega

/-- What a grid point writes back is its tile of the layer of the four whole arrays. -/
theorem flushed_eq4 (q : Fin cfg4.W → PosShare TreeShare) (c : Dev nD) (t : Fin cfg4.N) :
    (dat4 (F := Ideal) V q c).flushed 4 t
      = ((cfg4.win 4).blk t).view.read (Elt Ideal)
          (Cert.Spec.layerOf (F := Ideal) (V c main_v101) (V c main_v87) (V c main_v36) (V c main_v103)) := by
  show (cfg4.win 4).cut (grid4.coords t) ((dat4 (F := Ideal) V q c).after 4 t) = _
  rw [after4_4]
  unfold layerOut
  rw [View.canon_unit_zero origin2]
  simp only [View.ld_unit_zero (S := S5000x64) origin2, View.ld_unit_zero (S := S64x64) origin2]
  funext y
  obtain ⟨p, j, rfl⟩ : ∃ (p : Fin 5000) (j : Fin 64), y = (ix2 p j : S5000x64.Idx) := ⟨y 0, y 1, eq_ix2 y⟩
  obtain ⟨-, -, -, -, -, -, -, -, e8, e9⟩ := idx_facts4 t
  have hN : cfg4.N = 20 := N_4
  have ht : t.val < 20 := hN ▸ t.isLt
  have hr : 5000 * t.val + p.val < 100000 := by have := p.isLt; omega
  refine (layer_pay_at (iblk4 V c 0 t) (iblk4 V c 1 t) (iblk4 V c 2 t) (iblk4 V c 3 t) p j).trans ?_
  have hemb : ((cfg4.win 4).blk t).view.emb (ix2 p j) = (ix2 (⟨5000 * t.val + p.val, hr⟩ : Fin 100000) j : S100000x64.Idx) := by
    funext a
    apply Fin.ext
    match a with
    | ⟨0, _⟩ => show win4_4.index t (0 : Fin 2) * 5000 + 1 * p.val = 5000 * t.val + p.val; rw [e8]; omega
    | ⟨1, _⟩ => show win4_4.index t (1 : Fin 2) * 64 + 1 * j.val = j.val; rw [e9]; omega
  show _ = Cert.Spec.layerOf (F := Ideal) (V c main_v101) (V c main_v87) (V c main_v36) (V c main_v103) (((cfg4.win 4).blk t).view.emb (ix2 p j))
  rw [hemb]
  refine Eq.trans ?_ (layerOf_at (V c main_v101) (V c main_v87) (V c main_v36) (V c main_v103) ⟨5000 * t.val + p.val, hr⟩ j).symm
  have eA : (fun k : Fin 64 => (iblk4 V c 0 t : Vec Ideal S5000x64 .f32) (ix2 p k)) = fun k => (V c main_v101 : S100000x64.Idx → EReal) (ix2 (⟨5000 * t.val + p.val, hr⟩ : Fin 100000) k) :=
    funext fun k => iblk4_0_at V c t (ix2 p k) (ix2 (⟨5000 * t.val + p.val, hr⟩ : Fin 100000) k) rfl rfl
  have eB : (fun k : Fin 64 => (iblk4 V c 1 t : Vec Ideal S5000x64 .bf16) (ix2 p k)) = fun k => (V c main_v87 : S100000x64.Idx → EReal) (ix2 (⟨5000 * t.val + p.val, hr⟩ : Fin 100000) k) :=
    funext fun k => iblk4_1_at V c t (ix2 p k) (ix2 (⟨5000 * t.val + p.val, hr⟩ : Fin 100000) k) rfl rfl
  have eC : (fun k : Fin 64 => (iblk4 V c 2 t : Vec Ideal S5000x64 .bf16) (ix2 p k)) = fun k => (V c main_v36 : S100000x64.Idx → EReal) (ix2 (⟨5000 * t.val + p.val, hr⟩ : Fin 100000) k) :=
    funext fun k => iblk4_2_at V c t (ix2 p k) (ix2 (⟨5000 * t.val + p.val, hr⟩ : Fin 100000) k) rfl rfl
  have eD : (fun k : Fin 64 => (iblk4 V c 3 t : Vec Ideal S64x64 .f32) (ix2 k j)) = fun k => (V c main_v103 : S64x64.Idx → EReal) (ix2 k j) :=
    funext fun k => iblk4_3_at V c t (ix2 k j)
  exact congr (congr (congr (congrArg layerEntry eA) eB) eC) eD

theorem mem_blk4 (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v104).slice (win4_4.rect t)).set ↔ _
  rw [View.set_slice_whole, Rect.mem_set_unit]
  exact Iff.rfl

/-- Row r lies in the tile of point r / 5000. -/
theorem covered4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, -, -, e8, e9⟩ := idx_facts4 t
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; rw [e8, ht]; omega
  | ⟨1, _⟩ => show win4_4.index t (1 : Fin 2) * 64 ≤ (i 1).val ∧ (i 1).val < win4_4.index t (1 : Fin 2) * 64 + 64; rw [e9]; omega

theorem final4 (q : Fin cfg4.W → PosShare TreeShare) (c : Dev nD) :
    ((dat4 (F := Ideal) V q c).arrAt 4 cfg4.N : S100000x64.Idx → EReal)
      = Cert.Spec.layerOf (F := Ideal) (V c main_v101) (V c main_v87) (V c main_v36) (V c main_v103) :=
  (dat4 (F := Ideal) V q c).arrAt_eq_of_cover 4
    (Cert.Spec.layerOf (F := Ideal) (V c main_v101) (V c main_v87) (V c main_v36) (V c main_v103))
    (fun t _ => flushed_eq4 V q c t) covered4

end Cert.KernelIdeal.Hand

end
-- ==== Proof.KI.Value5.lean ====
/- Region 5's output: the row tiles are the rows of one layer of the four arrays it reads and cover the array. -/
import proofs.«173786_j46231027974388_2_alg».proof.Proof.KI.Region5
import proofs.«173786_j46231027974388_2_alg».proof.Proof.KI.LayerValue

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)
open Idealize.ShloMosaic.ValueIdx

variable (V : (c : Dev nD) → (b : Ref sig .tc) → Buf (Elt Ideal) ((c : Thread nD τ).loc b))

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem iblk5_0_at (c : Dev nD) (t : Fin cfg5.N) (x : S5000x64.Idx) (i : S100000x64.Idx)
    (h0 : (i 0).val = 5000 * t.val + (x 0).val) (h1 : (i 1).val = (x 1).val) :
    (iblk5 V c 0 t : Vec Ideal S5000x64 .f32) x = (V c main_v118 : S100000x64.Idx → EReal) i := by
  obtain ⟨e0, e1, -⟩ := idx_facts5 t
  unfold iblk5
  show (V c main_v118 : S100000x64.Idx → EReal) (((cfg5.win 0).blk t).view.emb x) = _
  congr 1
  funext a
  apply Fin.ext
  match a with
  | ⟨0, _⟩ => show win5_0.index t (0 : Fin 2) * 5000 + 1 * (x 0).val = (i 0).val; rw [e0, h0]; omega
  | ⟨1, _⟩ => show win5_0.index t (1 : Fin 2) * 64 + 1 * (x 1).val = (i 1).val; rw [e1, h1]; omega

theorem iblk5_1_at (c : Dev nD) (t : Fin cfg5.N) (x : S5000x64.Idx) (i : S100000x64.Idx)
    (h0 : (i 0).val = 5000 * t.val + (x 0).val) (h1 : (i 1).val = (x 1).val) :
    (iblk5 V c 1 t : Vec Ideal S5000x64 .bf16) x = (V c main_v104 : S100000x64.Idx → EReal) i := by
  obtain ⟨-, -, e0, e1, -⟩ := idx_facts5 t
  unfold iblk5
  show (V c main_v104 : S100000x64.Idx → EReal) (((cfg5.win 1).blk t).view.emb x) = _
  congr 1
  funext a
  apply Fin.ext
  match a with
  | ⟨0, _⟩ => show win5_1.index t (0 : Fin 2) * 5000 + 1 * (x 0).val = (i 0).val; rw [e0, h0]; omega
  | ⟨1, _⟩ => show win5_1.index t (1 : Fin 2) * 64 + 1 * (x 1).val = (i 1).val; rw [e1, h1]; omega

theorem iblk5_2_at (c : Dev nD) (t : Fin cfg5.N) (x : S5000x64.Idx) (i : S100000x64.Idx)
    (h0 : (i 0).val = 5000 * t.val + (x 0).val) (h1 : (i 1).val = (x 1).val) :
    (iblk5 V c 2 t : Vec Ideal S5000x64 .bf16) x = (V c main_v36 : S100000x64.Idx → EReal) i := by
  obtain ⟨-, -, -, -, e0, e1, -⟩ := idx_facts5 t
  unfold iblk5
  show (V c main_v36 : S100000x64.Idx → EReal) (((cfg5.win 2).blk t).view.emb x) = _
  congr 1
  funext a
  apply Fin.ext
  match a with
  | ⟨0, _⟩ => show win5_2.index t (0 : Fin 2) * 5000 + 1 * (x 0).val = (i 0).val; rw [e0, h0]; omega
  | ⟨1, _⟩ => show win5_2.index t (1 : Fin 2) * 64 + 1 * (x 1).val = (i 1).val; rw [e1, h1]; omega

theorem iblk5_3_at (c : Dev nD) (t : Fin cfg5.N) (x : S64x64.Idx) :
    (iblk5 V c 3 t : Vec Ideal S64x64 .f32) x = (V c main_v120 : S64x64.Idx → EReal) x := by
  obtain ⟨-, -, -, -, -, -, e0, e1, -⟩ := idx_facts5 t
  unfold iblk5
  show (V c main_v120 : S64x64.Idx → EReal) (((cfg5.win 3).blk t).view.emb x) = _
  congr 1
  funext a
  apply Fin.ext
  match a with
  | ⟨0, _⟩ => show win5_3.index t (0 : Fin 2) * 64 + 1 * (x 0).val = (x 0).val; rw [e0]; omega
  | ⟨1, _⟩ => show win5_3.index t (1 : Fin 2) * 64 + 1 * (x 1).val = (x 1).val; rw [e1]; omega

/-- What a grid point writes back is its tile of the layer of the four whole arrays. -/
theorem flushed_eq5 (q : Fin cfg5.W → PosShare TreeShare) (c : Dev nD) (t : Fin cfg5.N) :
    (dat5 (F := Ideal) V q c).flushed 4 t
      = ((cfg5.win 4).blk t).view.read (Elt Ideal)
          (Cert.Spec.layerOf (F := Ideal) (V c main_v118) (V c main_v104) (V c main_v36) (V c main_v120)) := by
  show (cfg5.win 4).cut (grid5.coords t) ((dat5 (F := Ideal) V q c).after 4 t) = _
  rw [after5_4]
  unfold layerOut
  rw [View.canon_unit_zero origin2]
  simp only [View.ld_unit_zero (S := S5000x64) origin2, View.ld_unit_zero (S := S64x64) origin2]
  funext y
  obtain ⟨p, j, rfl⟩ : ∃ (p : Fin 5000) (j : Fin 64), y = (ix2 p j : S5000x64.Idx) := ⟨y 0, y 1, eq_ix2 y⟩
  obtain ⟨-, -, -, -, -, -, -, -, e8, e9⟩ := idx_facts5 t
  have hN : cfg5.N = 20 := N_5
  have ht : t.val < 20 := hN ▸ t.isLt
  have hr : 5000 * t.val + p.val < 100000 := by have := p.isLt; omega
  refine (layer_pay_at (iblk5 V c 0 t) (iblk5 V c 1 t) (iblk5 V c 2 t) (iblk5 V c 3 t) p j).trans ?_
  have hemb : ((cfg5.win 4).blk t).view.emb (ix2 p j) = (ix2 (⟨5000 * t.val + p.val, hr⟩ : Fin 100000) j : S100000x64.Idx) := by
    funext a
    apply Fin.ext
    match a with
    | ⟨0, _⟩ => show win5_4.index t (0 : Fin 2) * 5000 + 1 * p.val = 5000 * t.val + p.val; rw [e8]; omega
    | ⟨1, _⟩ => show win5_4.index t (1 : Fin 2) * 64 + 1 * j.val = j.val; rw [e9]; omega
  show _ = Cert.Spec.layerOf (F := Ideal) (V c main_v118) (V c main_v104) (V c main_v36) (V c main_v120) (((cfg5.win 4).blk t).view.emb (ix2 p j))
  rw [hemb]
  refine Eq.trans ?_ (layerOf_at (V c main_v118) (V c main_v104) (V c main_v36) (V c main_v120) ⟨5000 * t.val + p.val, hr⟩ j).symm
  have eA : (fun k : Fin 64 => (iblk5 V c 0 t : Vec Ideal S5000x64 .f32) (ix2 p k)) = fun k => (V c main_v118 : S100000x64.Idx → EReal) (ix2 (⟨5000 * t.val + p.val, hr⟩ : Fin 100000) k) :=
    funext fun k => iblk5_0_at V c t (ix2 p k) (ix2 (⟨5000 * t.val + p.val, hr⟩ : Fin 100000) k) rfl rfl
  have eB : (fun k : Fin 64 => (iblk5 V c 1 t : Vec Ideal S5000x64 .bf16) (ix2 p k)) = fun k => (V c main_v104 : S100000x64.Idx → EReal) (ix2 (⟨5000 * t.val + p.val, hr⟩ : Fin 100000) k) :=
    funext fun k => iblk5_1_at V c t (ix2 p k) (ix2 (⟨5000 * t.val + p.val, hr⟩ : Fin 100000) k) rfl rfl
  have eC : (fun k : Fin 64 => (iblk5 V c 2 t : Vec Ideal S5000x64 .bf16) (ix2 p k)) = fun k => (V c main_v36 : S100000x64.Idx → EReal) (ix2 (⟨5000 * t.val + p.val, hr⟩ : Fin 100000) k) :=
    funext fun k => iblk5_2_at V c t (ix2 p k) (ix2 (⟨5000 * t.val + p.val, hr⟩ : Fin 100000) k) rfl rfl
  have eD : (fun k : Fin 64 => (iblk5 V c 3 t : Vec Ideal S64x64 .f32) (ix2 k j)) = fun k => (V c main_v120 : S64x64.Idx → EReal) (ix2 k j) :=
    funext fun k => iblk5_3_at V c t (ix2 k j)
  exact congr (congr (congr (congrArg layerEntry eA) eB) eC) eD

theorem mem_blk5 (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v121).slice (win5_4.rect t)).set ↔ _
  rw [View.set_slice_whole, Rect.mem_set_unit]
  exact Iff.rfl

/-- Row r lies in the tile of point r / 5000. -/
theorem covered5 (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, -, -, -, -, e8, e9⟩ := idx_facts5 t
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; rw [e8, ht]; omega
  | ⟨1, _⟩ => show win5_4.index t (1 : Fin 2) * 64 ≤ (i 1).val ∧ (i 1).val < win5_4.index t (1 : Fin 2) * 64 + 64; rw [e9]; omega

theorem final5 (q : Fin cfg5.W → PosShare TreeShare) (c : Dev nD) :
    ((dat5 (F := Ideal) V q c).arrAt 4 cfg5.N : S100000x64.Idx → EReal)
      = Cert.Spec.layerOf (F := Ideal) (V c main_v118) (V c main_v104) (V c main_v36) (V c main_v120) :=
  (dat5 (F := Ideal) V q c).arrAt_eq_of_cover 4
    (Cert.Spec.layerOf (F := Ideal) (V c main_v118) (V c main_v104) (V c main_v36) (V c main_v120))
    (fun t _ => flushed_eq5 V q c t) covered5

end Cert.KernelIdeal.Hand

end
-- ==== Proof.KI.Value6.lean ====
/- Region 6's output: the row tiles are the rows of one layer of the four arrays it reads and cover the array. -/
import proofs.«173786_j46231027974388_2_alg».proof.Proof.KI.Region6
import proofs.«173786_j46231027974388_2_alg».proof.Proof.KI.LayerValue

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)
open Idealize.ShloMosaic.ValueIdx

variable (V : (c : Dev nD) → (b : Ref sig .tc) → Buf (Elt Ideal) ((c : Thread nD τ).loc b))

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

theorem iblk6_0_at (c : Dev nD) (t : Fin cfg6.N) (x : S5000x64.Idx) (i : S100000x64.Idx)
    (h0 : (i 0).val = 5000 * t.val + (x 0).val) (h1 : (i 1).val = (x 1).val) :
    (iblk6 V c 0 t : Vec Ideal S5000x64 .f32) x = (V c main_v135 : S100000x64.Idx → EReal) i := by
  obtain ⟨e0, e1, -⟩ := idx_facts6 t
  unfold iblk6
  show (V c main_v135 : S100000x64.Idx → EReal) (((cfg6.win 0).blk t).view.emb x) = _
  congr 1
  funext a
  apply Fin.ext
  match a with
  | ⟨0, _⟩ => show win6_0.index t (0 : Fin 2) * 5000 + 1 * (x 0).val = (i 0).val; rw [e0, h0]; omega
  | ⟨1, _⟩ => show win6_0.index t (1 : Fin 2) * 64 + 1 * (x 1).val = (i 1).val; rw [e1, h1]; omega

theorem iblk6_1_at (c : Dev nD) (t : Fin cfg6.N) (x : S5000x64.Idx) (i : S100000x64.Idx)
    (h0 : (i 0).val = 5000 * t.val + (x 0).val) (h1 : (i 1).val = (x 1).val) :
    (iblk6 V c 1 t : Vec Ideal S5000x64 .bf16) x = (V c main_v121 : S100000x64.Idx → EReal) i := by
  obtain ⟨-, -, e0, e1, -⟩ := idx_facts6 t
  unfold iblk6
  show (V c main_v121 : S100000x64.Idx → EReal) (((cfg6.win 1).blk t).view.emb x) = _
  congr 1
  funext a
  apply Fin.ext
  match a with
  | ⟨0, _⟩ => show win6_1.index t (0 : Fin 2) * 5000 + 1 * (x 0).val = (i 0).val; rw [e0, h0]; omega
  | ⟨1, _⟩ => show win6_1.index t (1 : Fin 2) * 64 + 1 * (x 1).val = (i 1).val; rw [e1, h1]; omega

theorem iblk6_2_at (c : Dev nD) (t : Fin cfg6.N) (x : S5000x64.Idx) (i : S100000x64.Idx)
    (h0 : (i 0).val = 5000 * t.val + (x 0).val) (h1 : (i 1).val = (x 1).val) :
    (iblk6 V c 2 t : Vec Ideal S5000x64 .bf16) x = (V c main_v36 : S100000x64.Idx → EReal) i := by
  obtain ⟨-, -, -, -, e0, e1, -⟩ := idx_facts6 t
  unfold iblk6
  show (V c main_v36 : S100000x64.Idx → EReal) (((cfg6.win 2).blk t).view.emb x) = _
  congr 1
  funext a
  apply Fin.ext
  match a with
  | ⟨0, _⟩ => show win6_2.index t (0 : Fin 2) * 5000 + 1 * (x 0).val = (i 0).val; rw [e0, h0]; omega
  | ⟨1, _⟩ => show win6_2.index t (1 : Fin 2) * 64 + 1 * (x 1).val = (i 1).val; rw [e1, h1]; omega

theorem iblk6_3_at (c : Dev nD) (t : Fin cfg6.N) (x : S64x64.Idx) :
    (iblk6 V c 3 t : Vec Ideal S64x64 .f32) x = (V c main_v137 : S64x64.Idx → EReal) x := by
  obtain ⟨-, -, -, -, -, -, e0, e1, -⟩ := idx_facts6 t
  unfold iblk6
  show (V c main_v137 : S64x64.Idx → EReal) (((cfg6.win 3).blk t).view.emb x) = _
  congr 1
  funext a
  apply Fin.ext
  match a with
  | ⟨0, _⟩ => show win6_3.index t (0 : Fin 2) * 64 + 1 * (x 0).val = (x 0).val; rw [e0]; omega
  | ⟨1, _⟩ => show win6_3.index t (1 : Fin 2) * 64 + 1 * (x 1).val = (x 1).val; rw [e1]; omega

/-- What a grid point writes back is its tile of the layer of the four whole arrays. -/
theorem flushed_eq6 (q : Fin cfg6.W → PosShare TreeShare) (c : Dev nD) (t : Fin cfg6.N) :
    (dat6 (F := Ideal) V q c).flushed 4 t
      = ((cfg6.win 4).blk t).view.read (Elt Ideal)
          (Cert.Spec.layerOf (F := Ideal) (V c main_v135) (V c main_v121) (V c main_v36) (V c main_v137)) := by
  show (cfg6.win 4).cut (grid6.coords t) ((dat6 (F := Ideal) V q c).after 4 t) = _
  rw [after6_4]
  unfold layerOut
  rw [View.canon_unit_zero origin2]
  simp only [View.ld_unit_zero (S := S5000x64) origin2, View.ld_unit_zero (S := S64x64) origin2]
  funext y
  obtain ⟨p, j, rfl⟩ : ∃ (p : Fin 5000) (j : Fin 64), y = (ix2 p j : S5000x64.Idx) := ⟨y 0, y 1, eq_ix2 y⟩
  obtain ⟨-, -, -, -, -, -, -, -, e8, e9⟩ := idx_facts6 t
  have hN : cfg6.N = 20 := N_6
  have ht : t.val < 20 := hN ▸ t.isLt
  have hr : 5000 * t.val + p.val < 100000 := by have := p.isLt; omega
  refine (layer_pay_at (iblk6 V c 0 t) (iblk6 V c 1 t) (iblk6 V c 2 t) (iblk6 V c 3 t) p j).trans ?_
  have hemb : ((cfg6.win 4).blk t).view.emb (ix2 p j) = (ix2 (⟨5000 * t.val + p.val, hr⟩ : Fin 100000) j : S100000x64.Idx) := by
    funext a
    apply Fin.ext
    match a with
    | ⟨0, _⟩ => show win6_4.index t (0 : Fin 2) * 5000 + 1 * p.val = 5000 * t.val + p.val; rw [e8]; omega
    | ⟨1, _⟩ => show win6_4.index t (1 : Fin 2) * 64 + 1 * j.val = j.val; rw [e9]; omega
  show _ = Cert.Spec.layerOf (F := Ideal) (V c main_v135) (V c main_v121) (V c main_v36) (V c main_v137) (((cfg6.win 4).blk t).view.emb (ix2 p j))
  rw [hemb]
  refine Eq.trans ?_ (layerOf_at (V c main_v135) (V c main_v121) (V c main_v36) (V c main_v137) ⟨5000 * t.val + p.val, hr⟩ j).symm
  have eA : (fun k : Fin 64 => (iblk6 V c 0 t : Vec Ideal S5000x64 .f32) (ix2 p k)) = fun k => (V c main_v135 : S100000x64.Idx → EReal) (ix2 (⟨5000 * t.val + p.val, hr⟩ : Fin 100000) k) :=
    funext fun k => iblk6_0_at V c t (ix2 p k) (ix2 (⟨5000 * t.val + p.val, hr⟩ : Fin 100000) k) rfl rfl
  have eB : (fun k : Fin 64 => (iblk6 V c 1 t : Vec Ideal S5000x64 .bf16) (ix2 p k)) = fun k => (V c main_v121 : S100000x64.Idx → EReal) (ix2 (⟨5000 * t.val + p.val, hr⟩ : Fin 100000) k) :=
    funext fun k => iblk6_1_at V c t (ix2 p k) (ix2 (⟨5000 * t.val + p.val, hr⟩ : Fin 100000) k) rfl rfl
  have eC : (fun k : Fin 64 => (iblk6 V c 2 t : Vec Ideal S5000x64 .bf16) (ix2 p k)) = fun k => (V c main_v36 : S100000x64.Idx → EReal) (ix2 (⟨5000 * t.val + p.val, hr⟩ : Fin 100000) k) :=
    funext fun k => iblk6_2_at V c t (ix2 p k) (ix2 (⟨5000 * t.val + p.val, hr⟩ : Fin 100000) k) rfl rfl
  have eD : (fun k : Fin 64 => (iblk6 V c 3 t : Vec Ideal S64x64 .f32) (ix2 k j)) = fun k => (V c main_v137 : S64x64.Idx → EReal) (ix2 k j) :=
    funext fun k => iblk6_3_at V c t (ix2 k j)
  exact congr (congr (congr (congrArg layerEntry eA) eB) eC) eD

theorem mem_blk6 (t : Fin cfg6.N) (i : S100000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v138).slice (win6_4.rect t)).set ↔ _
  rw [View.set_slice_whole, Rect.mem_set_unit]
  exact Iff.rfl

/-- Row r lies in the tile of point r / 5000. -/
theorem covered6 (i : S100000x64.Idx) : ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 20 := N_6
  obtain ⟨t, ht⟩ : ∃ t : Fin cfg6.N, t.val = (i 0).val / 5000 := ⟨⟨(i 0).val / 5000, by rw [hN]; omega⟩, rfl⟩
  obtain ⟨-, -, -, -, -, -, -, -, e8, e9⟩ := idx_facts6 t
  refine ⟨t, flush6_4 t, ?_⟩
  rw [mem_blk6]
  intro a
  match a with
  | ⟨0, _⟩ => show win6_4.index t (0 : Fin 2) * 5000 ≤ (i 0).val ∧ (i 0).val < win6_4.index t (0 : Fin 2) * 5000 + 5000; rw [e8, ht]; omega
  | ⟨1, _⟩ => show win6_4.index t (1 : Fin 2) * 64 ≤ (i 1).val ∧ (i 1).val < win6_4.index t (1 : Fin 2) * 64 + 64; rw [e9]; omega

theorem final6 (q : Fin cfg6.W → PosShare TreeShare) (c : Dev nD) :
    ((dat6 (F := Ideal) V q c).arrAt 4 cfg6.N : S100000x64.Idx → EReal)
      = Cert.Spec.layerOf (F := Ideal) (V c main_v135) (V c main_v121) (V c main_v36) (V c main_v137) :=
  (dat6 (F := Ideal) V q c).arrAt_eq_of_cover 4
    (Cert.Spec.layerOf (F := Ideal) (V c main_v135) (V c main_v121) (V c main_v36) (V c main_v137))
    (fun t _ => flushed_eq6 V q c t) covered6

end Cert.KernelIdeal.Hand

end
-- ==== Proof.KI.Value7.lean ====
/- Region 7's output: the row tiles are the rows of one layer of the four arrays it reads and cover the array. -/
import proofs.«173786_j46231027974388_2_alg».proof.Proof.KI.Region7
import proofs.«173786_j46231027974388_2_alg».proof.Proof.KI.LayerValue

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)
open Idealize.ShloMosaic.ValueIdx

variable (V : (c : Dev nD) → (b : Ref sig .tc) → Buf (Elt Ideal) ((c : Thread nD τ).loc b))

theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

theorem iblk7_0_at (c : Dev nD) (t : Fin cfg7.N) (x : S5000x64.Idx) (i : S100000x64.Idx)
    (h0 : (i 0).val = 5000 * t.val + (x 0).val) (h1 : (i 1).val = (x 1).val) :
    (iblk7 V c 0 t : Vec Ideal S5000x64 .f32) x = (V c main_v152 : S100000x64.Idx → EReal) i := by
  obtain ⟨e0, e1, -⟩ := idx_facts7 t
  unfold iblk7
  show (V c main_v152 : S100000x64.Idx → EReal) (((cfg7.win 0).blk t).view.emb x) = _
  congr 1
  funext a
  apply Fin.ext
  match a with
  | ⟨0, _⟩ => show win7_0.index t (0 : Fin 2) * 5000 + 1 * (x 0).val = (i 0).val; rw [e0, h0]; omega
  | ⟨1, _⟩ => show win7_0.index t (1 : Fin 2) * 64 + 1 * (x 1).val = (i 1).val; rw [e1, h1]; omega

theorem iblk7_1_at (c : Dev nD) (t : Fin cfg7.N) (x : S5000x64.Idx) (i : S100000x64.Idx)
    (h0 : (i 0).val = 5000 * t.val + (x 0).val) (h1 : (i 1).val = (x 1).val) :
    (iblk7 V c 1 t : Vec Ideal S5000x64 .bf16) x = (V c main_v138 : S100000x64.Idx → EReal) i := by
  obtain ⟨-, -, e0, e1, -⟩ := idx_facts7 t
  unfold iblk7
  show (V c main_v138 : S100000x64.Idx → EReal) (((cfg7.win 1).blk t).view.emb x) = _
  congr 1
  funext a
  apply Fin.ext
  match a with
  | ⟨0, _⟩ => show win7_1.index t (0 : Fin 2) * 5000 + 1 * (x 0).val = (i 0).val; rw [e0, h0]; omega
  | ⟨1, _⟩ => show win7_1.index t (1 : Fin 2) * 64 + 1 * (x 1).val = (i 1).val; rw [e1, h1]; omega

theorem iblk7_2_at (c : Dev nD) (t : Fin cfg7.N) (x : S5000x64.Idx) (i : S100000x64.Idx)
    (h0 : (i 0).val = 5000 * t.val + (x 0).val) (h1 : (i 1).val = (x 1).val) :
    (iblk7 V c 2 t : Vec Ideal S5000x64 .bf16) x = (V c main_v36 : S100000x64.Idx → EReal) i := by
  obtain ⟨-, -, -, -, e0, e1, -⟩ := idx_facts7 t
  unfold iblk7
  show (V c main_v36 : S100000x64.Idx → EReal) (((cfg7.win 2).blk t).view.emb x) = _
  congr 1
  funext a
  apply Fin.ext
  match a with
  | ⟨0, _⟩ => show win7_2.index t (0 : Fin 2) * 5000 + 1 * (x 0).val = (i 0).val; rw [e0, h0]; omega
  | ⟨1, _⟩ => show win7_2.index t (1 : Fin 2) * 64 + 1 * (x 1).val = (i 1).val; rw [e1, h1]; omega

theorem iblk7_3_at (c : Dev nD) (t : Fin cfg7.N) (x : S64x64.Idx) :
    (iblk7 V c 3 t : Vec Ideal S64x64 .f32) x = (V c main_v154 : S64x64.Idx → EReal) x := by
  obtain ⟨-, -, -, -, -, -, e0, e1, -⟩ := idx_facts7 t
  unfold iblk7
  show (V c main_v154 : S64x64.Idx → EReal) (((cfg7.win 3).blk t).view.emb x) = _
  congr 1
  funext a
  apply Fin.ext
  match a with
  | ⟨0, _⟩ => show win7_3.index t (0 : Fin 2) * 64 + 1 * (x 0).val = (x 0).val; rw [e0]; omega
  | ⟨1, _⟩ => show win7_3.index t (1 : Fin 2) * 64 + 1 * (x 1).val = (x 1).val; rw [e1]; omega

/-- What a grid point writes back is its tile of the layer of the four whole arrays. -/
theorem flushed_eq7 (q : Fin cfg7.W → PosShare TreeShare) (c : Dev nD) (t : Fin cfg7.N) :
    (dat7 (F := Ideal) V q c).flushed 4 t
      = ((cfg7.win 4).blk t).view.read (Elt Ideal)
          (Cert.Spec.layerOf (F := Ideal) (V c main_v152) (V c main_v138) (V c main_v36) (V c main_v154)) := by
  show (cfg7.win 4).cut (grid7.coords t) ((dat7 (F := Ideal) V q c).after 4 t) = _
  rw [after7_4]
  unfold layerOut
  rw [View.canon_unit_zero origin2]
  simp only [View.ld_unit_zero (S := S5000x64) origin2, View.ld_unit_zero (S := S64x64) origin2]
  funext y
  obtain ⟨p, j, rfl⟩ : ∃ (p : Fin 5000) (j : Fin 64), y = (ix2 p j : S5000x64.Idx) := ⟨y 0, y 1, eq_ix2 y⟩
  obtain ⟨-, -, -, -, -, -, -, -, e8, e9⟩ := idx_facts7 t
  have hN : cfg7.N = 20 := N_7
  have ht : t.val < 20 := hN ▸ t.isLt
  have hr : 5000 * t.val + p.val < 100000 := by have := p.isLt; omega
  refine (layer_pay_at (iblk7 V c 0 t) (iblk7 V c 1 t) (iblk7 V c 2 t) (iblk7 V c 3 t) p j).trans ?_
  have hemb : ((cfg7.win 4).blk t).view.emb (ix2 p j) = (ix2 (⟨5000 * t.val + p.val, hr⟩ : Fin 100000) j : S100000x64.Idx) := by
    funext a
    apply Fin.ext
    match a with
    | ⟨0, _⟩ => show win7_4.index t (0 : Fin 2) * 5000 + 1 * p.val = 5000 * t.val + p.val; rw [e8]; omega
    | ⟨1, _⟩ => show win7_4.index t (1 : Fin 2) * 64 + 1 * j.val = j.val; rw [e9]; omega
  show _ = Cert.Spec.layerOf (F := Ideal) (V c main_v152) (V c main_v138) (V c main_v36) (V c main_v154) (((cfg7.win 4).blk t).view.emb (ix2 p j))
  rw [hemb]
  refine Eq.trans ?_ (layerOf_at (V c main_v152) (V c main_v138) (V c main_v36) (V c main_v154) ⟨5000 * t.val + p.val, hr⟩ j).symm
  have eA : (fun k : Fin 64 => (iblk7 V c 0 t : Vec Ideal S5000x64 .f32) (ix2 p k)) = fun k => (V c main_v152 : S100000x64.Idx → EReal) (ix2 (⟨5000 * t.val + p.val, hr⟩ : Fin 100000) k) :=
    funext fun k => iblk7_0_at V c t (ix2 p k) (ix2 (⟨5000 * t.val + p.val, hr⟩ : Fin 100000) k) rfl rfl
  have eB : (fun k : Fin 64 => (iblk7 V c 1 t : Vec Ideal S5000x64 .bf16) (ix2 p k)) = fun k => (V c main_v138 : S100000x64.Idx → EReal) (ix2 (⟨5000 * t.val + p.val, hr⟩ : Fin 100000) k) :=
    funext fun k => iblk7_1_at V c t (ix2 p k) (ix2 (⟨5000 * t.val + p.val, hr⟩ : Fin 100000) k) rfl rfl
  have eC : (fun k : Fin 64 => (iblk7 V c 2 t : Vec Ideal S5000x64 .bf16) (ix2 p k)) = fun k => (V c main_v36 : S100000x64.Idx → EReal) (ix2 (⟨5000 * t.val + p.val, hr⟩ : Fin 100000) k) :=
    funext fun k => iblk7_2_at V c t (ix2 p k) (ix2 (⟨5000 * t.val + p.val, hr⟩ : Fin 100000) k) rfl rfl
  have eD : (fun k : Fin 64 => (iblk7 V c 3 t : Vec Ideal S64x64 .f32) (ix2 k j)) = fun k => (V c main_v154 : S64x64.Idx → EReal) (ix2 k j) :=
    funext fun k => iblk7_3_at V c t (ix2 k j)
  exact congr (congr (congr (congrArg layerEntry eA) eB) eC) eD

theorem mem_blk7 (t : Fin cfg7.N) (i : S100000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v155).slice (win7_4.rect t)).set ↔ _
  rw [View.set_slice_whole, Rect.mem_set_unit]
  exact Iff.rfl

/-- Row r lies in the tile of point r / 5000. -/
theorem covered7 (i : S100000x64.Idx) : ∃ t : Fin cfg7.N, (cfg7.win 4).flush t = true ∧ i ∈ ((cfg7.win 4).blk t).view.set := by
  have hi0 : (i 0).val < 100000 := (i 0).isLt
  have hi1 : (i 1).val < 64 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨-, -, -, -, -, -, -, -, e8, e9⟩ := idx_facts7 t
  refine ⟨t, flush7_4 t, ?_⟩
  rw [mem_blk7]
  intro a
  match a with
  | ⟨0, _⟩ => show win7_4.index t (0 : Fin 2) * 5000 ≤ (i 0).val ∧ (i 0).val < win7_4.index t (0 : Fin 2) * 5000 + 5000; rw [e8, ht]; omega
  | ⟨1, _⟩ => show win7_4.index t (1 : Fin 2) * 64 ≤ (i 1).val ∧ (i 1).val < win7_4.index t (1 : Fin 2) * 64 + 64; rw [e9]; omega

theorem final7 (q : Fin cfg7.W → PosShare TreeShare) (c : Dev nD) :
    ((dat7 (F := Ideal) V q c).arrAt 4 cfg7.N : S100000x64.Idx → EReal)
      = Cert.Spec.layerOf (F := Ideal) (V c main_v152) (V c main_v138) (V c main_v36) (V c main_v154) :=
  (dat7 (F := Ideal) V q c).arrAt_eq_of_cover 4
    (Cert.Spec.layerOf (F := Ideal) (V c main_v152) (V c main_v138) (V c main_v36) (V c main_v154))
    (fun t _ => flushed_eq7 V q c t) covered7

end Cert.KernelIdeal.Hand

end
-- ==== Proof.KI.Value8.lean ====
/- Region 8's output: the row tiles are the rows of one layer of the four arrays it reads and cover the array. -/
import proofs.«173786_j46231027974388_2_alg».proof.Proof.KI.Region8
import proofs.«173786_j46231027974388_2_alg».proof.Proof.KI.LayerValue

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)
open Idealize.ShloMosaic.ValueIdx

variable (V : (c : Dev nD) → (b : Ref sig .tc) → Buf (Elt Ideal) ((c : Thread nD τ).loc b))

theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

theorem iblk8_0_at (c : Dev nD) (t : Fin cfg8.N) (x : S5000x64.Idx) (i : S100000x64.Idx)
    (h0 : (i 0).val = 5000 * t.val + (x 0).val) (h1 : (i 1).val = (x 1).val) :
    (iblk8 V c 0 t : Vec Ideal S5000x64 .f32) x = (V c main_v169 : S100000x64.Idx → EReal) i := by
  obtain ⟨e0, e1, -⟩ := idx_facts8 t
  unfold iblk8
  show (V c main_v169 : S100000x64.Idx → EReal) (((cfg8.win 0).blk t).view.emb x) = _
  congr 1
  funext a
  apply Fin.ext
  match a with
  | ⟨0, _⟩ => show win8_0.index t (0 : Fin 2) * 5000 + 1 * (x 0).val = (i 0).val; rw [e0, h0]; omega
  | ⟨1, _⟩ => show win8_0.index t (1 : Fin 2) * 64 + 1 * (x 1).val = (i 1).val; rw [e1, h1]; omega

theorem iblk8_1_at (c : Dev nD) (t : Fin cfg8.N) (x : S5000x64.Idx) (i : S100000x64.Idx)
    (h0 : (i 0).val = 5000 * t.val + (x 0).val) (h1 : (i 1).val = (x 1).val) :
    (iblk8 V c 1 t : Vec Ideal S5000x64 .bf16) x = (V c main_v155 : S100000x64.Idx → EReal) i := by
  obtain ⟨-, -, e0, e1, -⟩ := idx_facts8 t
  unfold iblk8
  show (V c main_v155 : S100000x64.Idx → EReal) (((cfg8.win 1).blk t).view.emb x) = _
  congr 1
  funext a
  apply Fin.ext
  match a with
  | ⟨0, _⟩ => show win8_1.index t (0 : Fin 2) * 5000 + 1 * (x 0).val = (i 0).val; rw [e0, h0]; omega
  | ⟨1, _⟩ => show win8_1.index t (1 : Fin 2) * 64 + 1 * (x 1).val = (i 1).val; rw [e1, h1]; omega

theorem iblk8_2_at (c : Dev nD) (t : Fin cfg8.N) (x : S5000x64.Idx) (i : S100000x64.Idx)
    (h0 : (i 0).val = 5000 * t.val + (x 0).val) (h1 : (i 1).val = (x 1).val) :
    (iblk8 V c 2 t : Vec Ideal S5000x64 .bf16) x = (V c main_v36 : S100000x64.Idx → EReal) i := by
  obtain ⟨-, -, -, -, e0, e1, -⟩ := idx_facts8 t
  unfold iblk8
  show (V c main_v36 : S100000x64.Idx → EReal) (((cfg8.win 2).blk t).view.emb x) = _
  congr 1
  funext a
  apply Fin.ext
  match a with
  | ⟨0, _⟩ => show win8_2.index t (0 : Fin 2) * 5000 + 1 * (x 0).val = (i 0).val; rw [e0, h0]; omega
  | ⟨1, _⟩ => show win8_2.index t (1 : Fin 2) * 64 + 1 * (x 1).val = (i 1).val; rw [e1, h1]; omega

theorem iblk8_3_at (c : Dev nD) (t : Fin cfg8.N) (x : S64x64.Idx) :
    (iblk8 V c 3 t : Vec Ideal S64x64 .f32) x = (V c main_v171 : S64x64.Idx → EReal) x := by
  obtain ⟨-, -, -, -, -, -, e0, e1, -⟩ := idx_facts8 t
  unfold iblk8
  show (V c main_v171 : S64x64.Idx → EReal) (((cfg8.win 3).blk t).view.emb x) = _
  congr 1
  funext a
  apply Fin.ext
  match a with
  | ⟨0, _⟩ => show win8_3.index t (0 : Fin 2) * 64 + 1 * (x 0).val = (x 0).val; rw [e0]; omega
  | ⟨1, _⟩ => show win8_3.index t (1 : Fin 2) * 64 + 1 * (x 1).val = (x 1).val; rw [e1]; omega

/-- What a grid point writes back is its tile of the layer of the four whole arrays. -/
theorem flushed_eq8 (q : Fin cfg8.W → PosShare TreeShare) (c : Dev nD) (t : Fin cfg8.N) :
    (dat8 (F := Ideal) V q c).flushed 4 t
      = ((cfg8.win 4).blk t).view.read (Elt Ideal)
          (Cert.Spec.layerOf (F := Ideal) (V c main_v169) (V c main_v155) (V c main_v36) (V c main_v171)) := by
  show (cfg8.win 4).cut (grid8.coords t) ((dat8 (F := Ideal) V q c).after 4 t) = _
  rw [after8_4]
  unfold layerOut
  rw [View.canon_unit_zero origin2]
  simp only [View.ld_unit_zero (S := S5000x64) origin2, View.ld_unit_zero (S := S64x64) origin2]
  funext y
  obtain ⟨p, j, rfl⟩ : ∃ (p : Fin 5000) (j : Fin 64), y = (ix2 p j : S5000x64.Idx) := ⟨y 0, y 1, eq_ix2 y⟩
  obtain ⟨-, -, -, -, -, -, -, -, e8, e9⟩ := idx_facts8 t
  have hN : cfg8.N = 20 := N_8
  have ht : t.val < 20 := hN ▸ t.isLt
  have hr : 5000 * t.val + p.val < 100000 := by have := p.isLt; omega
  refine (layer_pay_at (iblk8 V c 0 t) (iblk8 V c 1 t) (iblk8 V c 2 t) (iblk8 V c 3 t) p j).trans ?_
  have hemb : ((cfg8.win 4).blk t).view.emb (ix2 p j) = (ix2 (⟨5000 * t.val + p.val, hr⟩ : Fin 100000) j : S100000x64.Idx) := by
    funext a
    apply Fin.ext
    match a with
    | ⟨0, _⟩ => show win8_4.index t (0 : Fin 2) * 5000 + 1 * p.val = 5000 * t.val + p.val; rw [e8]; omega
    | ⟨1, _⟩ => show win8_4.index t (1 : Fin 2) * 64 + 1 * j.val = j.val; rw [e9]; omega
  show _ = Cert.Spec.layerOf (F := Ideal) (V c main_v169) (V c main_v155) (V c main_v36) (V c main_v171) (((cfg8.win 4).blk t).view.emb (ix2 p j))
  rw [hemb]
  refine Eq.trans ?_ (layerOf_at (V c main_v169) (V c main_v155) (V c main_v36) (V c main_v171) ⟨5000 * t.val + p.val, hr⟩ j).symm
  have eA : (fun k : Fin 64 => (iblk8 V c 0 t : Vec Ideal S5000x64 .f32) (ix2 p k)) = fun k => (V c main_v169 : S100000x64.Idx → EReal) (ix2 (⟨5000 * t.val + p.val, hr⟩ : Fin 100000) k) :=
    funext fun k => iblk8_0_at V c t (ix2 p k) (ix2 (⟨5000 * t.val + p.val, hr⟩ : Fin 100000) k) rfl rfl
  have eB : (fun k : Fin 64 => (iblk8 V c 1 t : Vec Ideal S5000x64 .bf16) (ix2 p k)) = fun k => (V c main_v155 : S100000x64.Idx → EReal) (ix2 (⟨5000 * t.val + p.val, hr⟩ : Fin 100000) k) :=
    funext fun k => iblk8_1_at V c t (ix2 p k) (ix2 (⟨5000 * t.val + p.val, hr⟩ : Fin 100000) k) rfl rfl
  have eC : (fun k : Fin 64 => (iblk8 V c 2 t : Vec Ideal S5000x64 .bf16) (ix2 p k)) = fun k => (V c main_v36 : S100000x64.Idx → EReal) (ix2 (⟨5000 * t.val + p.val, hr⟩ : Fin 100000) k) :=
    funext fun k => iblk8_2_at V c t (ix2 p k) (ix2 (⟨5000 * t.val + p.val, hr⟩ : Fin 100000) k) rfl rfl
  have eD : (fun k : Fin 64 => (iblk8 V c 3 t : Vec Ideal S64x64 .f32) (ix2 k j)) = fun k => (V c main_v171 : S64x64.Idx → EReal) (ix2 k j) :=
    funext fun k => iblk8_3_at V c t (ix2 k j)
  exact congr (congr (congr (congrArg layerEntry eA) eB) eC) eD

theorem mem_blk8 (t : Fin cfg8.N) (i : S100000x64.Idx) :
    i ∈ ((cfg8.win 4).blk t).view.set ↔ ∀ a : Fin 2, win8_4.index t a * S5000x64.size a ≤ (i a).val ∧ (i a).val < win8_4.index t a * S5000x64.size a + S5000x64.size a := by
  show i ∈ ((View.whole main_v172).slice (win8_4.rect t)).set ↔ _
  rw [View.set_slice_whole, Rect.mem_set_unit]
  exact Iff.rfl

/-- Row r lies in the tile of point r / 5000. -/
theorem covered8 (i : S100000x64.Idx) : ∃ t : Fin cfg8.N, (cfg8.win 4).flush t = true ∧ i ∈ ((cfg8.win 4).blk t).view.set := by
  have hi0 : (i 0).val < 100000 := (i 0).isLt
  have hi1 : (i 1).val < 64 := (i 1).isLt
  have hN : cfg8.N = 20 := N_8
  obtain ⟨t, ht⟩ : ∃ t : Fin cfg8.N, t.val = (i 0).val / 5000 := ⟨⟨(i 0).val / 5000, by rw [hN]; omega⟩, rfl⟩
  obtain ⟨-, -, -, -, -, -, -, -, e8, e9⟩ := idx_facts8 t
  refine ⟨t, flush8_4 t, ?_⟩
  rw [mem_blk8]
  intro a
  match a with
  | ⟨0, _⟩ => show win8_4.index t (0 : Fin 2) * 5000 ≤ (i 0).val ∧ (i 0).val < win8_4.index t (0 : Fin 2) * 5000 + 5000; rw [e8, ht]; omega
  | ⟨1, _⟩ => show win8_4.index t (1 : Fin 2) * 64 ≤ (i 1).val ∧ (i 1).val < win8_4.index t (1 : Fin 2) * 64 + 64; rw [e9]; omega

theorem final8 (q : Fin cfg8.W → PosShare TreeShare) (c : Dev nD) :
    ((dat8 (F := Ideal) V q c).arrAt 4 cfg8.N : S100000x64.Idx → EReal)
      = Cert.Spec.layerOf (F := Ideal) (V c main_v169) (V c main_v155) (V c main_v36) (V c main_v171) :=
  (dat8 (F := Ideal) V q c).arrAt_eq_of_cover 4
    (Cert.Spec.layerOf (F := Ideal) (V c main_v169) (V c main_v155) (V c main_v36) (V c main_v171))
    (fun t _ => flushed_eq8 V q c t) covered8

end Cert.KernelIdeal.Hand

end
-- ==== Proof.KI.Value9.lean ====
/- Region 9's output: the row tiles are the rows of the row-wise log-softmax of h · W_out + b_out and cover the array. -/
import proofs.«173786_j46231027974388_2_alg».proof.Proof.KI.Region9
import proofs.«173786_j46231027974388_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Head9

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

abbrev negInf : EReal := Ideal.ofBits .f32 0xFF800000#32

def rowLogits (h : Fin 64 → EReal) (W : Fin 64 → Fin 40 → EReal) (b : Fin 40 → EReal) (k : Fin 40) : EReal :=
  (∑ j : Fin 64, h j * W j k) + b k

def rowMax (z : Fin 40 → EReal) : EReal := (Finset.univ : Finset (Fin 40)).fold max negInf z

def rowLsm (z : Fin 40 → EReal) (q : Fin 40) : EReal :=
  (z q - rowMax z) - Ideal.log (∑ k : Fin 40, Ideal.exp (z k - rowMax z))

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

def logitsTile (v0 : Vec Ideal S5000x64 .bf16) (v2 : Vec Ideal S64x40 .f32) (v5 : Vec Ideal S40 .f32) : FVec Ideal S5000x40 .f32 :=
  have v1 : FVec Ideal S5000x64 .bf16 := shapeCast S5000x64 v0 shapeCasts_S5000x64_S5000x64
  have v3 : FVec Ideal S64x40 .bf16 := truncf .bf16 v2 bitsLt_bf16_f32
  have cst : FVec Ideal S5000x40 .f32 := constant S5000x40 .f32 0x00000000#32
  have v4 : FVec Ideal S5000x40 .f32 := matmul dot_S5000x64_S64x40_S5000x40_1_0_0_1_n_n none v1 v3 cst
  have v6 : FVec Ideal S1x40 .f32 := shapeCast S1x40 v5 shapeCasts_S40_S1x40
  have v7 : FVec Ideal S5000x40 .f32 := broadcastTo S5000x40 v6 broadcasts_S1x40_S5000x40
  addf v4 v7

def lsmTile (v8 : FVec Ideal S5000x40 .f32) : FVec Ideal S5000x40 .f32 :=
  have v9 : FVec Ideal S5000 .f32 := multiReduction .maximumf [1] S5000 v8 0xFF800000#32 reduces_S5000x40_S5000 (.inl rfl) rfl
  have v10 : FVec Ideal S5000x1 .f32 := shapeCast S5000x1 v9 shapeCasts_S5000_S5000x1
  have v11 : FVec Ideal S5000x40 .f32 := broadcastTo S5000x40 v10 broadcasts_S5000x1_S5000x40
  have v12 : FVec Ideal S5000x40 .f32 := subf v8 v11
  have v13 : FVec Ideal S5000x40 .f32 := exp v12
  have v14 : FVec Ideal S5000 .f32 := multiReduction .add [1] S5000 v13 0x00000000#32 reduces_S5000x40_S5000 (.inl rfl) rfl
  have v15 : FVec Ideal S5000x1 .f32 := shapeCast S5000x1 v14 shapeCasts_S5000_S5000x1
  have v16 : FVec Ideal S5000x1 .f32 := log v15
  have v17 : FVec Ideal S5000x40 .f32 := broadcastTo S5000x40 v16 broadcasts_S5000x1_S5000x40
  subf v12 v17

theorem pay9_eq (x0 : Vec Ideal S5000x64 .bf16) (x1 : Vec Ideal S64x40 .f32) (x2 : Vec Ideal S40 .f32) :
    k9_pay1 (F := Ideal) x0 x1 x2 = lsmTile (logitsTile x0 x1 x2) := rfl

theorem lhs9_0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem lhs9_1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
theorem rhs9_0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
theorem rhs9_1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

theorem logitsTile_apply (x0 : Vec Ideal S5000x64 .bf16) (x1 : Vec Ideal S64x40 .f32) (x2 : Vec Ideal S40 .f32) (p : Fin 5000) (k : Fin 40) :
    logitsTile x0 x1 x2 (ix2 p k) = rowLogits (fun j => x0 (ix2 p j)) (fun j k => x1 (ix2 j k)) (fun k => x2 (ix1 k)) k := by
  unfold logitsTile rowLogits
  dsimp only
  rw [addf_apply, broadcastTo_1b_ab_apply, shapeCast_a_1a_apply, shapeCast_self]
  refine congrArg (· + x2 (ix1 k)) ?_
  simp only [matmul]
  rw [Ideal.matmul_constant_zero_apply, ← Equiv.sum_comp (contrEquiv1 dot_S5000x64_S64x40_S5000x40_1_0_0_1_n_n 64 rfl rfl).symm]
  refine Finset.sum_congr rfl fun j _ => ?_
  have hk := contrEquiv1_symm_val dot_S5000x64_S64x40_S5000x40_1_0_0_1_n_n 64 rfl rfl j
  have el : dot_S5000x64_S64x40_S5000x40_1_0_0_1_n_n.lhsIdx (ix2 p k) ((contrEquiv1 dot_S5000x64_S64x40_S5000x40_1_0_0_1_n_n 64 rfl rfl).symm j) = ix2 p j := funext fun a => Fin.ext (by
    match a with
    | ⟨0, _⟩ => exact lhs9_0 _ _
    | ⟨1, _⟩ => exact (lhs9_1 _ _).trans hk)
  have er : dot_S5000x64_S64x40_S5000x40_1_0_0_1_n_n.rhsIdx (ix2 p k) ((contrEquiv1 dot_S5000x64_S64x40_S5000x40_1_0_0_1_n_n 64 rfl rfl).symm j) = ix2 j k := funext fun a => Fin.ext (by
    match a with
    | ⟨0, _⟩ => exact (rhs9_0 _ _).trans hk
    | ⟨1, _⟩ => exact rhs9_1 _ _)
  rw [el, er]
  rfl

theorem rowMaxTile_apply (z : FVec Ideal S5000x40 .f32) (p : Fin 5000) :
    multiReduction (F := Ideal) .maximumf [1] S5000 z 0xFF800000#32 reduces_S5000x40_S5000 (.inl rfl) rfl (ix1 p) = rowMax (fun k => z (ix2 p k)) := by
  refine (Ideal.multiReduction_maximumf_single z _ reduces_S5000x40_S5000 (.inl rfl) rfl (ix1 p)).trans ?_
  unfold rowMax
  refine congrArg (Finset.fold max negInf · (Finset.univ : Finset (Fin 40))) (funext fun k => ?_)
  exact congrArg z (funext fun a => Fin.ext (by match a with | ⟨0, _⟩ => rfl | ⟨1, _⟩ => rfl))

theorem rowSumTile_apply (z : FVec Ideal S5000x40 .f32) (p : Fin 5000) :
    multiReduction (F := Ideal) .add [1] S5000 z 0x00000000#32 reduces_S5000x40_S5000 (.inl rfl) rfl (ix1 p) = ∑ k : Fin 40, z (ix2 p k) := by
  refine (Ideal.multiReduction_add_single z _ reduces_S5000x40_S5000 (.inl rfl) rfl (ix1 p)).trans ?_
  refine Finset.sum_congr rfl fun k _ => ?_
  exact congrArg z (funext fun a => Fin.ext (by match a with | ⟨0, _⟩ => rfl | ⟨1, _⟩ => rfl))

theorem lsmTile_apply (z : FVec Ideal S5000x40 .f32) (p : Fin 5000) (q : Fin 40) :
    lsmTile z (ix2 p q) = rowLsm (fun k => z (ix2 p k)) q := by
  unfold lsmTile rowLsm
  dsimp only
  rw [subf_apply, subf_apply, broadcastTo_a1_ab_apply, broadcastTo_a1_ab_apply, shapeCast_a_a1_apply, rowMaxTile_apply]
  refine congrArg ((z (ix2 p q) - rowMax fun k => z (ix2 p k)) - ·) ?_
  show Ideal.log (shapeCast S5000x1 _ shapeCasts_S5000_S5000x1 (ix2 p (0 : Fin 1))) = _
  rw [shapeCast_a_a1_apply, rowSumTile_apply]
  refine congrArg Ideal.log (Finset.sum_congr rfl fun k _ => ?_)
  show Ideal.exp (subf z _ (ix2 p k)) = _
  rw [subf_apply, broadcastTo_a1_ab_apply, shapeCast_a_a1_apply, rowMaxTile_apply]

theorem pay9_apply (x0 : Vec Ideal S5000x64 .bf16) (x1 : Vec Ideal S64x40 .f32) (x2 : Vec Ideal S40 .f32) (p : Fin 5000) (q : Fin 40) :
    k9_pay1 (F := Ideal) x0 x1 x2 (ix2 p q)
      = rowLsm (rowLogits (fun j => x0 (ix2 p j)) (fun j k => x1 (ix2 j k)) (fun k => x2 (ix1 k))) q := by
  rw [pay9_eq, lsmTile_apply]
  exact congrArg (rowLsm · q) (funext fun k => logitsTile_apply x0 x1 x2 p k)

end Cert.KernelIdeal.Hand.Head9

namespace Cert.Spec.Head9

open Cert.ReferenceIdeal Cert.ReferenceIdeal.Gen
open Idealize.ShloMosaic Idealize.ShloMosaic.ValueIdx
open Cert.KernelIdeal.Hand.Head9 (negInf rowLogits rowMax rowLsm)

theorem headLhs_0 (i : S100000x40.Idx) (q : dot_S100000x64_S64x40_S100000x40_1_0_0_1_n_n.contr.Idx) :
    (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
theorem headLhs_1 (i : S100000x40.Idx) (q : dot_S100000x64_S64x40_S100000x40_1_0_0_1_n_n.contr.Idx) :
    (dot_S100000x64_S64x40_S100000x40_1_0_0_1_n_n.lhsIdx i q 1).val = (q ⟨0, by decide⟩).val :=
  dot_S100000x64_S64x40_S100000x40_1_0_0_1_n_n.lhsIdx_val_of_single rfl i q
theorem headRhs_0 (i : S100000x40.Idx) (q : dot_S100000x64_S64x40_S100000x40_1_0_0_1_n_n.contr.Idx) :
    (dot_S100000x64_S64x40_S100000x40_1_0_0_1_n_n.rhsIdx i q 0).val = (q ⟨0, by decide⟩).val :=
  dot_S100000x64_S64x40_S100000x40_1_0_0_1_n_n.rhsIdx_val_of_single rfl i q
theorem headRhs_1 (i : S100000x40.Idx) (q : dot_S100000x64_S64x40_S100000x40_1_0_0_1_n_n.contr.Idx) :
    (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

section Bcast
variable {α : Type}

theorem bcastCols_apply (y : S100000x1.Idx → α) (r : Fin 100000) (k : Fin 40) :
    broadcastInDim S100000x40 ![0, 1] bcast_S100000x1_S100000x40_0_1 y (ix2 r k) = y (ix2 r (0 : Fin 1)) :=
  broadcastInDim_apply _ bcast_S100000x1_S100000x40_0_1 y (ix2 r k) (ix2 r (0 : Fin 1)) (fun a => match a with
    | ⟨0, _⟩ => by show r.val = if (100000 : Nat) = 1 then 0 else r.val; rw [if_neg (by decide)]
    | ⟨1, _⟩ => by show (0 : Nat) = if (1 : Nat) = 1 then 0 else k.val; rw [if_pos rfl])

theorem bcastCol_apply (m : S100000.Idx → α) (r : Fin 100000) (u : Fin 1) :
    broadcastInDim S100000x1 ![0] bcast_S100000_S100000x1_0 m (ix2 r u) = m (ix1 r) :=
  broadcastInDim_apply _ bcast_S100000_S100000x1_0 m (ix2 r u) (ix1 r) (fun a => match a with
    | ⟨0, _⟩ => by show r.val = if (100000 : Nat) = 1 then 0 else r.val; rw [if_neg (by decide)])

theorem bcastBias_apply (b : S40.Idx → α) (r : Fin 100000) (k : Fin 40) :
    broadcastInDim S100000x40 ![0, 1] bcast_S1x40_S100000x40_0_1 (broadcastInDim S1x40 ![1] bcast_S40_S1x40_1 b) (ix2 r k) = b (ix1 k) :=
  (broadcastInDim_apply _ bcast_S1x40_S100000x40_0_1 _ (ix2 r k) (ix2 (0 : Fin 1) k) (fun a => match a with
    | ⟨0, _⟩ => by show (0 : Nat) = if (1 : Nat) = 1 then 0 else r.val; rw [if_pos rfl]
    | ⟨1, _⟩ => by show k.val = if (40 : Nat) = 1 then 0 else k.val; rw [if_neg (by decide)])).trans
  (broadcastInDim_apply _ bcast_S40_S1x40_1 b (ix2 (0 : Fin 1) k) (ix1 k) (fun a => match a with
    | ⟨0, _⟩ => by show k.val = if (40 : Nat) = 1 then 0 else k.val; rw [if_neg (by decide)]))

theorem bcastScalar_apply (y : S_.Idx → α) (r : Fin 100000) :
    broadcastInDim S100000 ![] bcast_S_S100000 y (ix1 r) = y ix0 :=
  broadcastInDim_apply _ bcast_S_S100000 y (ix1 r) ix0 (fun a => a.elim0)

end Bcast

theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

theorem reducesRow : S100000x40.Reduces [1] S100000 := by decide

theorem reducesRow_lift (r : Fin 100000) (k : Fin 40) : reducesRow.lift (ix1 r) k = ix2 r k :=
  funext fun a => Fin.ext (by match a with | ⟨0, _⟩ => rfl | ⟨1, _⟩ => rfl)

theorem logitsOf_apply (h : (⟨S100000x64, .f32⟩ : BufTy).Contents (Elt Ideal)) (x6 : (⟨S64x40, .f32⟩ : BufTy).Contents (Elt Ideal))
    (x7 : (⟨S40, .f32⟩ : BufTy).Contents (Elt Ideal)) (r : Fin 100000) (k : Fin 40) :
    logitsOf (F := Ideal) h x6 x7 (ix2 r k) = rowLogits (fun j => h (ix2 r j)) (fun j k => x6 (ix2 j k)) (fun k => x7 (ix1 k)) k := by
  unfold logitsOf rowLogits
  rw [addf_apply, bcastBias_apply]
  refine congrArg (· + x7 (ix1 k)) ?_
  simp only [Host.dotGeneral]
  rw [Ideal.dotGeneral_apply, ← Equiv.sum_comp (contrEquiv1 dot_S100000x64_S64x40_S100000x40_1_0_0_1_n_n 64 rfl rfl).symm]
  refine Finset.sum_congr rfl fun j _ => ?_
  have hk := contrEquiv1_symm_val dot_S100000x64_S64x40_S100000x40_1_0_0_1_n_n 64 rfl rfl j
  have el : dot_S100000x64_S64x40_S100000x40_1_0_0_1_n_n.lhsIdx (ix2 r k) ((contrEquiv1 dot_S100000x64_S64x40_S100000x40_1_0_0_1_n_n 64 rfl rfl).symm j) = ix2 r j := funext fun a => Fin.ext (by
    match a with
    | ⟨0, _⟩ => exact headLhs_0 _ _
    | ⟨1, _⟩ => exact (headLhs_1 _ _).trans hk)
  have er : dot_S100000x64_S64x40_S100000x40_1_0_0_1_n_n.rhsIdx (ix2 r k) ((contrEquiv1 dot_S100000x64_S64x40_S100000x40_1_0_0_1_n_n 64 rfl rfl).symm j) = ix2 j k := funext fun a => Fin.ext (by
    match a with
    | ⟨0, _⟩ => exact (headRhs_0 _ _).trans hk
    | ⟨1, _⟩ => exact headRhs_1 _ _)
  rw [el, er]

theorem refRowMax_apply (z : (⟨S100000x40, .f32⟩ : BufTy).Contents (Elt Ideal)) (r : Fin 100000) :
    maximumf (F := Ideal) (broadcastInDim S100000 ![] bcast_S_S100000 (constant (F := Ideal) S_ .f32 0xFF800000#32))
        (Host.reduce FloatOps.maximumf z (constant (F := Ideal) S_ .f32 0xFF800000#32) reducesTo_S100000x40_S100000_d1 h_S_) (ix1 r)
      = rowMax (fun k => z (ix2 r k)) := by
  rw [maximumf_apply, bcastScalar_apply, constant_apply]
  refine (congrArg (max negInf) (Host.reduce_eq_fold_single (FloatOps.maximumf (F := Ideal) (φ := .f32)) z
    (constant (F := Ideal) S_ .f32 0xFF800000#32) reducesTo_S100000x40_S100000_d1 reducesRow h_S_ (ix1 r))).trans ?_
  have e : (z ∘ reducesRow.lift (ix1 r)) = fun k : Fin 40 => z (ix2 r k) := funext fun k => congrArg z (reducesRow_lift r k)
  rw [e, constant_apply]
  exact max_eq_right ((Finset.le_fold_max negInf).mpr (Or.inl le_rfl))

theorem shiftedOf_apply (z : (⟨S100000x40, .f32⟩ : BufTy).Contents (Elt Ideal)) (r : Fin 100000) (k : Fin 40) :
    shiftedOf (F := Ideal) z (ix2 r k) = z (ix2 r k) - rowMax (fun k => z (ix2 r k)) := by
  unfold shiftedOf
  rw [subf_apply, bcastCols_apply, bcastCol_apply, refRowMax_apply]

theorem logSoftmaxOf_apply (z : (⟨S100000x40, .f32⟩ : BufTy).Contents (Elt Ideal)) (r : Fin 100000) (q : Fin 40) :
    logSoftmaxOf (F := Ideal) z (ix2 r q) = rowLsm (fun k => z (ix2 r k)) q := by
  unfold logSoftmaxOf rowLsm
  rw [subf_apply, shiftedOf_apply, bcastCols_apply]
  refine congrArg ((z (ix2 r q) - rowMax fun k => z (ix2 r k)) - ·) ?_
  rw [hostLog_apply, bcastCol_apply]
  refine congrArg Ideal.log ?_
  simp only [Host.reduceAdd, Ideal.hostReduceAdd_def]
  rw [Ideal.hostReduceAdd_single reducesTo_S100000x40_S100000_d1 reducesRow, constant_apply, Ideal.ofBits_zero_f32, zero_add]
  refine Finset.sum_congr rfl fun (k : Fin 40) _ => ?_
  refine (congrArg (Host.exp (F := Ideal) (s := S100000x40) (φ := .f32) (shiftedOf (F := Ideal) z)) (reducesRow_lift r k)).trans ?_
  rw [hostExp_apply, shiftedOf_apply]

theorem headOf_apply (h : (⟨S100000x64, .f32⟩ : BufTy).Contents (Elt Ideal)) (x6 : (⟨S64x40, .f32⟩ : BufTy).Contents (Elt Ideal))
    (x7 : (⟨S40, .f32⟩ : BufTy).Contents (Elt Ideal)) (r : Fin 100000) (q : Fin 40) :
    headOf (F := Ideal) h x6 x7 (ix2 r q)
      = rowLsm (rowLogits (fun j => h (ix2 r j)) (fun j k => x6 (ix2 j k)) (fun k => x7 (ix1 k))) q := by
  unfold headOf
  rw [logSoftmaxOf_apply]
  exact congrArg (rowLsm · q) (funext fun k => logitsOf_apply h x6 x7 r k)

end Cert.Spec.Head9

namespace Cert.KernelIdeal.Hand.Head9

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem idx9 : ∀ t : Fin cfg9.N, win9_0.index t (0 : Fin 2) = t.val ∧ win9_0.index t (1 : Fin 2) = 0
    ∧ win9_1.index t (0 : Fin 2) = 0 ∧ win9_1.index t (1 : Fin 2) = 0 ∧ win9_2.index t (0 : Fin 1) = 0
    ∧ win9_3.index t (0 : Fin 2) = t.val ∧ win9_3.index t (1 : Fin 2) = 0 :=
  (by decide +kernel : ∀ t : Fin grid9.N, _)

abbrev hblk (c : Dev nD) (t : Fin cfg9.N) : Vec Ideal S5000x64 .bf16 := iblk9 V c 0 t
abbrev wblk (c : Dev nD) (t : Fin cfg9.N) : Vec Ideal S64x40 .f32 := iblk9 V c 1 t
abbrev bblk (c : Dev nD) (t : Fin cfg9.N) : Vec Ideal S40 .f32 := iblk9 V c 2 t

theorem hblk_apply (c : Dev nD) (t : Fin cfg9.N) (p : Fin 5000) (j : Fin 64) (r : Fin 100000) (hr : r.val = 5000 * t.val + p.val) :
    hblk V c t (ix2 p j) = (V c main_v172 : S100000x64.Idx → EReal) (ix2 r j) := by
  obtain ⟨e0, e1, -⟩ := idx9 t
  unfold hblk iblk9
  rw [View.read_apply]
  show V c main_v172 _ = V c main_v172 _
  congr 1
  funext a
  apply Fin.ext
  match a with
  | ⟨0, _⟩ => show win9_0.index t (0 : Fin 2) * 5000 + 1 * p.val = r.val; rw [e0, hr]; omega
  | ⟨1, _⟩ => show win9_0.index t (1 : Fin 2) * 64 + 1 * j.val = j.val; rw [e1]; omega

theorem wblk_apply (c : Dev nD) (t : Fin cfg9.N) (j : Fin 64) (k : Fin 40) :
    wblk V c t (ix2 j k) = (V c main_arg6 : S64x40.Idx → EReal) (ix2 j k) := by
  obtain ⟨-, -, e0, e1, -⟩ := idx9 t
  unfold wblk iblk9
  rw [View.read_apply]
  show V c main_arg6 _ = V c main_arg6 _
  congr 1
  funext a
  apply Fin.ext
  match a with
  | ⟨0, _⟩ => show win9_1.index t (0 : Fin 2) * 64 + 1 * j.val = j.val; rw [e0]; omega
  | ⟨1, _⟩ => show win9_1.index t (1 : Fin 2) * 40 + 1 * k.val = k.val; rw [e1]; omega

theorem bblk_apply (c : Dev nD) (t : Fin cfg9.N) (k : Fin 40) :
    bblk V c t (ix1 k) = (V c main_arg7 : S40.Idx → EReal) (ix1 k) := by
  obtain ⟨-, -, -, -, e0, -⟩ := idx9 t
  unfold bblk iblk9
  rw [View.read_apply]
  show V c main_arg7 _ = V c main_arg7 _
  congr 1
  funext a
  apply Fin.ext
  match a with
  | ⟨0, _⟩ => show win9_2.index t (0 : Fin 1) * 40 + 1 * k.val = k.val; rw [e0]; omega

theorem out9_rows (c : Dev nD) (t : Fin cfg9.N) (p : Fin 5000) (k : Fin 40) (r : Fin 100000) (hr : r.val = 5000 * t.val + p.val) :
    out9_3 (hblk V c t) (wblk V c t) (bblk V c t) (ix2 p k)
      = Cert.Spec.headOf (F := Ideal) (V c main_v172) (V c main_arg6) (V c main_arg7) (ix2 r k) := by
  unfold out9_3
  rw [View.canon_unit_zero hz2]
  simp only [View.ld_unit_zero (S := S5000x64) hz2, View.ld_unit_zero (S := S64x40) hz2, View.ld_unit_zero (S := S40) hz1]
  refine (pay9_apply (hblk V c t) (wblk V c t) (bblk V c t) p k).trans ?_
  refine Eq.trans ?_ (Cert.Spec.Head9.headOf_apply (V c main_v172) (V c main_arg6) (V c main_arg7) r k).symm
  have e0 : (fun j => hblk V c t (ix2 p j)) = fun j => (V c main_v172 : S100000x64.Idx → EReal) (ix2 r j) :=
    funext fun j => hblk_apply V c t p j r hr
  have e1 : (fun j k => wblk V c t (ix2 j k)) = fun j k => (V c main_arg6 : S64x40.Idx → EReal) (ix2 j k) :=
    funext fun j => funext fun k => wblk_apply V c t j k
  have e2 : (fun k => bblk V c t (ix1 k)) = fun k => (V c main_arg7 : S40.Idx → EReal) (ix1 k) :=
    funext fun k => bblk_apply V c t k
  rw [e0, e1, e2]

theorem flushed9_eq (q : Fin cfg9.W → PosShare TreeShare) (c : Dev nD) (t : Fin cfg9.N) :
    (dat9 (F := Ideal) V q c).flushed 3 t
      = ((cfg9.win 3).blk t).view.read (Elt Ideal) (Cert.Spec.headOf (F := Ideal) (V c main_v172) (V c main_arg6) (V c main_arg7)) := by
  show (cfg9.win 3).cut (grid9.coords t) ((dat9 V q c).after 3 t) = _
  rw [after9_3]
  obtain ⟨-, -, -, -, -, e0, e1⟩ := idx9 t
  have hN : cfg9.N = 20 := N_9
  have ht := t.isLt
  funext j
  have hj0 : (j 0).val < 5000 := (j 0).isLt
  have hj1 : (j 1).val < 40 := (j 1).isLt
  have hx : ((cfg9.win 3).xinj (grid9.coords t) j : S5000x40.Idx) = ix2 (⟨(j 0).val, hj0⟩ : Fin 5000) (⟨(j 1).val, hj1⟩ : Fin 40) :=
    funext fun a => Fin.ext (by match a with | ⟨0, _⟩ => rfl | ⟨1, _⟩ => rfl)
  rw [View.read_apply]
  refine (congrArg (out9_3 (hblk V c t) (wblk V c t) (bblk V c t)) hx).trans ?_
  refine (out9_rows V c t ⟨(j 0).val, hj0⟩ ⟨(j 1).val, hj1⟩ ⟨5000 * t.val + (j 0).val, by omega⟩ rfl).trans ?_
  congr 1
  funext a
  apply Fin.ext
  match a with
  | ⟨0, _⟩ => show 5000 * t.val + (j 0).val = win9_3.index t (0 : Fin 2) * 5000 + 1 * (j 0).val; rw [e0]; omega
  | ⟨1, _⟩ => show (j 1).val = win9_3.index t (1 : Fin 2) * 40 + 1 * (j 1).val; rw [e1]; omega

theorem mem_blk9 (t : Fin cfg9.N) (i : S100000x40.Idx) :
    i ∈ ((cfg9.win 3).blk t).view.set ↔ ∀ a : Fin 2, win9_3.index t a * S5000x40.size a ≤ (i a).val ∧ (i a).val < win9_3.index t a * S5000x40.size a + S5000x40.size a := by
  show i ∈ ((View.whole main_v173).slice (win9_3.rect t)).set ↔ _
  rw [View.set_slice_whole, Rect.mem_set_unit]
  exact Iff.rfl

theorem cover9 (i : S100000x40.Idx) : ∃ t : Fin cfg9.N, (cfg9.win 3).flush t = true ∧ i ∈ ((cfg9.win 3).blk t).view.set := by
  have h0 : (i 0).val < 100000 := (i 0).isLt
  have h1 : (i 1).val < 40 := (i 1).isLt
  have hN : cfg9.N = 20 := N_9
  have hlt : (i 0).val / 5000 < cfg9.N := by rw [hN]; omega
  obtain ⟨-, -, -, -, -, e0, e1⟩ := idx9 ⟨(i 0).val / 5000, hlt⟩
  refine ⟨⟨(i 0).val / 5000, hlt⟩, flush9_3 _, ?_⟩
  rw [mem_blk9]
  intro a
  match a with
  | ⟨0, _⟩ =>
    show win9_3.index ⟨(i 0).val / 5000, hlt⟩ (0 : Fin 2) * 5000 ≤ (i 0).val ∧ (i 0).val < win9_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win9_3.index ⟨(i 0).val / 5000, hlt⟩ (1 : Fin 2) * 40 ≤ (i 1).val ∧ (i 1).val < win9_3.index ⟨(i 0).val / 5000, hlt⟩ (1 : Fin 2) * 40 + 40
    rw [e1]; omega

end Cert.KernelIdeal.Hand.Head9

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable (V : (c : Dev nD) → (b : Ref sig .tc) → Buf (Elt Ideal) ((c : Thread nD τ).loc b))

theorem final9 (q : Fin cfg9.W → PosShare TreeShare) (c : Dev nD) :
    ((dat9 (F := Ideal) V q c).arrAt 3 cfg9.N : S100000x40.Idx → EReal)
      = Cert.Spec.headOf (F := Ideal) (V c main_v172) (V c main_arg6) (V c main_arg7) := by
  exact (dat9 (F := Ideal) V q c).arrAt_eq_of_cover 3 (Cert.Spec.headOf (F := Ideal) (V c main_v172) (V c main_arg6) (V c main_arg7))
    (fun t _ => Head9.flushed9_eq V q c t) Head9.cover9

end Cert.KernelIdeal.Hand

end
-- ==== Proof.KI.Host.lean ====
/- What the host operations between the regions compute, read off each core's buffers: the edge normalisation and each layer's gather, scale and scatter. -/
import proofs.«173786_j46231027974388_2_alg».proof.Proof.KernelIdealRegions
import proofs.«173786_j46231027974388_2_alg».proof.Proof.Spec
import proofs.«173786_j46231027974388_2_alg».proof.Proof.RefRead

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

open Cert.ReferenceIdeal.Read

section Stretches

variable (W : Valuation τ sig (Elt F))

theorem s0_v1 : StableHlo.after hostOps0 W (Proc.devRef .tc main_v1) = val_main_v1 (F := F) (W main_arg1) := by
  dsimp only [hostOps0]; after_results; rfl

theorem s0_v3 : StableHlo.after hostOps0 W (Proc.devRef .tc main_v3) = val_main_v3 (F := F) (W main_arg1) := by
  dsimp only [hostOps0]; after_results; rfl

theorem s0_v5 : StableHlo.after hostOps0 W (Proc.devRef .tc main_v5) = val_main_v5 (F := F) (W main_arg1) := by
  dsimp only [hostOps0]; after_results; rfl

theorem s0_v7 : StableHlo.after hostOps0 W (Proc.devRef .tc main_v7) = val_main_v7 (F := F) (W main_arg1) := by
  dsimp only [hostOps0]; after_results; rfl

theorem s0_v10 : StableHlo.after hostOps0 W (Proc.devRef .tc main_v10) = val_main_v10 (F := F) (W main_arg1) (W main_arg2) := by
  dsimp only [hostOps0]; after_results; rfl

theorem s0_v12 : StableHlo.after hostOps0 W (Proc.devRef .tc main_v12) = val_main_v12 (F := F) (W main_arg1) (W main_arg2) := by
  dsimp only [hostOps0]; after_results; rfl

theorem s0_v14 : StableHlo.after hostOps0 W (Proc.devRef .tc main_v14) = val_main_v14 (F := F) (W main_arg1) (W main_arg2) := by
  dsimp only [hostOps0]; after_results; rfl

theorem s0_cst_2 : StableHlo.after hostOps0 W (Proc.devRef .tc main_cst_2) = val_main_cst_2 (F := F) := by
  dsimp only [hostOps0]; after_results; rfl

theorem s0_1_v15 (x1 x2) (h14 : W main_v14 = val_main_v14 (F := F) x1 x2) (h10 : W main_v10 = val_main_v10 (F := F) x1 x2)
    (hc : W main_cst_2 = val_main_cst_2 (F := F)) :
    StableHlo.after hostOps0_1 W (Proc.devRef .tc main_v15) = val_main_v15 (F := F) x1 x2 := by
  dsimp only [hostOps0_1]; after_results; rw [h14, h10, hc]; rfl

theorem s0_2_v16 (x1 x2) (h15 : W main_v15 = val_main_v15 (F := F) x1 x2) :
    StableHlo.after hostOps0_2 W (Proc.devRef .tc main_v16) = val_main_v16 (F := F) x1 x2 := by
  dsimp only [hostOps0_2]; after_results; rw [h15]; rfl

theorem s0_2_cst_3 : StableHlo.after hostOps0_2 W (Proc.devRef .tc main_cst_3) = val_main_cst_3 (F := F) := by
  dsimp only [hostOps0_2]; after_results; rfl

theorem s0_3_v17 (x1 x2) (h12 : W main_v12 = val_main_v12 (F := F) x1 x2) (h16 : W main_v16 = val_main_v16 (F := F) x1 x2)
    (hc : W main_cst_3 = val_main_cst_3 (F := F)) :
    StableHlo.after hostOps0_3 W (Proc.devRef .tc main_v17) = val_main_v17 (F := F) x1 x2 := by
  dsimp only [hostOps0_3]; after_results; rw [h12, h16, hc]; rfl

theorem s0_4_v33 (x1 x2) (h5 : W main_v5 = val_main_v5 (F := F) x1) (h7 : W main_v7 = val_main_v7 (F := F) x1)
    (h17 : W main_v17 = val_main_v17 (F := F) x1 x2) (h2 : W main_arg2 = x2) :
    StableHlo.after hostOps0_4 W (Proc.devRef .tc main_v33) = val_main_v33 (F := F) x1 x2 := by
  dsimp only [hostOps0_4]; after_results_simp; rw [h5, h7, h17, h2]; rfl

theorem s0_4_v35 : StableHlo.after hostOps0_4 W (Proc.devRef .tc main_v35)
    = Cert.SpecK.scaleEdges (StableHlo.after hostOps0_4 W (Proc.devRef .tc main_v33)) := by
  dsimp only [hostOps0_4]; after_results_simp; rfl

theorem s1_agg : StableHlo.after hostOps1 W (Proc.devRef .tc main_v50)
    = Cert.SpecK.aggK (W main_v35) (W main_v1) (W main_v3) (W main_v36) := by
  dsimp only [hostOps1]; after_results_simp; rfl

theorem s1_w : StableHlo.after hostOps1 W (Proc.devRef .tc main_v52) = val_main_v61 (F := F) (W main_arg5) := by
  dsimp only [hostOps1]; after_results; rfl

theorem s2_agg : StableHlo.after hostOps2 W (Proc.devRef .tc main_v67)
    = Cert.SpecK.aggK (W main_v35) (W main_v1) (W main_v3) (W main_v53) := by
  dsimp only [hostOps2]; after_results_simp; rfl

theorem s2_w : StableHlo.after hostOps2 W (Proc.devRef .tc main_v69) = val_main_v86 (F := F) (W main_arg5) := by
  dsimp only [hostOps2]; after_results; rfl

theorem s3_agg : StableHlo.after hostOps3 W (Proc.devRef .tc main_v84)
    = Cert.SpecK.aggK (W main_v35) (W main_v1) (W main_v3) (W main_v70) := by
  dsimp only [hostOps3]; after_results_simp; rfl

theorem s3_w : StableHlo.after hostOps3 W (Proc.devRef .tc main_v86) = val_main_v111 (F := F) (W main_arg5) := by
  dsimp only [hostOps3]; after_results; rfl

theorem s4_agg : StableHlo.after hostOps4 W (Proc.devRef .tc main_v101)
    = Cert.SpecK.aggK (W main_v35) (W main_v1) (W main_v3) (W main_v87) := by
  dsimp only [hostOps4]; after_results_simp; rfl

theorem s4_w : StableHlo.after hostOps4 W (Proc.devRef .tc main_v103) = val_main_v136 (F := F) (W main_arg5) := by
  dsimp only [hostOps4]; after_results; rfl

theorem s5_agg : StableHlo.after hostOps5 W (Proc.devRef .tc main_v118)
    = Cert.SpecK.aggK (W main_v35) (W main_v1) (W main_v3) (W main_v104) := by
  dsimp only [hostOps5]; after_results_simp; rfl

theorem s5_w : StableHlo.after hostOps5 W (Proc.devRef .tc main_v120) = val_main_v161 (F := F) (W main_arg5) := by
  dsimp only [hostOps5]; after_results; rfl

theorem s6_agg : StableHlo.after hostOps6 W (Proc.devRef .tc main_v135)
    = Cert.SpecK.aggK (W main_v35) (W main_v1) (W main_v3) (W main_v121) := by
  dsimp only [hostOps6]; after_results_simp; rfl

theorem s6_w : StableHlo.after hostOps6 W (Proc.devRef .tc main_v137) = val_main_v186 (F := F) (W main_arg5) := by
  dsimp only [hostOps6]; after_results; rfl

theorem s7_agg : StableHlo.after hostOps7 W (Proc.devRef .tc main_v152)
    = Cert.SpecK.aggK (W main_v35) (W main_v1) (W main_v3) (W main_v138) := by
  dsimp only [hostOps7]; after_results_simp; rfl

theorem s7_w : StableHlo.after hostOps7 W (Proc.devRef .tc main_v154) = val_main_v211 (F := F) (W main_arg5) := by
  dsimp only [hostOps7]; after_results; rfl

theorem s8_agg : StableHlo.after hostOps8 W (Proc.devRef .tc main_v169)
    = Cert.SpecK.aggK (W main_v35) (W main_v1) (W main_v3) (W main_v155) := by
  dsimp only [hostOps8]; after_results_simp; rfl

theorem s8_w : StableHlo.after hostOps8 W (Proc.devRef .tc main_v171) = val_main_v236 (F := F) (W main_arg5) := by
  dsimp only [hostOps8]; after_results; rfl

end Stretches

section Chain

variable (m : (ℓ : Loc nD τ sig) → Buf (Elt F) ℓ) (outs : Outs (F := F)) (c : Dev nD)

theorem V5_src : V5 m c main_v1 = val_main_v1 (F := F) (m ((c : Thread nD τ).loc main_arg1)) :=
  (V5_of m c main_v1 (by decide)).trans <| (V4_of m c main_v1 (by decide)).trans <| (V3_of m c main_v1 (by decide)).trans <|
    (V2_of m c main_v1 (by decide)).trans (s0_v1 (V0 m c))

theorem V5_dst : V5 m c main_v3 = val_main_v3 (F := F) (m ((c : Thread nD τ).loc main_arg1)) :=
  (V5_of m c main_v3 (by decide)).trans <| (V4_of m c main_v3 (by decide)).trans <| (V3_of m c main_v3 (by decide)).trans <|
    (V2_of m c main_v3 (by decide)).trans (s0_v3 (V0 m c))

theorem V2_v15 : V2 m c main_v15 = val_main_v15 (F := F) (m ((c : Thread nD τ).loc main_arg1)) (m ((c : Thread nD τ).loc main_arg2)) :=
  s0_1_v15 (V1 m c) (m ((c : Thread nD τ).loc main_arg1)) (m ((c : Thread nD τ).loc main_arg2)) (s0_v14 (V0 m c)) (s0_v10 (V0 m c)) (s0_cst_2 (V0 m c))

theorem V3_v16 : V3 m c main_v16 = val_main_v16 (F := F) (m ((c : Thread nD τ).loc main_arg1)) (m ((c : Thread nD τ).loc main_arg2)) :=
  s0_2_v16 (V2 m c) (m ((c : Thread nD τ).loc main_arg1)) (m ((c : Thread nD τ).loc main_arg2)) (V2_v15 m c)

theorem V4_v17 : V4 m c main_v17 = val_main_v17 (F := F) (m ((c : Thread nD τ).loc main_arg1)) (m ((c : Thread nD τ).loc main_arg2)) :=
  s0_3_v17 (V3 m c) (m ((c : Thread nD τ).loc main_arg1)) (m ((c : Thread nD τ).loc main_arg2))
    ((V3_of m c main_v12 (by decide)).trans <| (V2_of m c main_v12 (by decide)).trans (s0_v12 (V0 m c)))
    (V3_v16 m c) (s0_2_cst_3 (V2 m c))

theorem V5_nrm : V5 m c main_v33 = val_main_v33 (F := F) (m ((c : Thread nD τ).loc main_arg1)) (m ((c : Thread nD τ).loc main_arg2)) :=
  s0_4_v33 (V4 m c) (m ((c : Thread nD τ).loc main_arg1)) (m ((c : Thread nD τ).loc main_arg2))
    ((V4_of m c main_v5 (by decide)).trans <| (V3_of m c main_v5 (by decide)).trans <| (V2_of m c main_v5 (by decide)).trans (s0_v5 (V0 m c)))
    ((V4_of m c main_v7 (by decide)).trans <| (V3_of m c main_v7 (by decide)).trans <| (V2_of m c main_v7 (by decide)).trans (s0_v7 (V0 m c)))
    (V4_v17 m c)
    ((V4_of m c main_arg2 (by decide)).trans <| (V3_of m c main_arg2 (by decide)).trans <| (V2_of m c main_arg2 (by decide)).trans (V1_of m c main_arg2 (by decide)))

theorem V5_snrm : V5 m c main_v35 = Cert.SpecK.scaleEdges (V5 m c main_v33) := s0_4_v35 (V4 m c)

theorem V5_arg0 : V5 m c main_arg0 = (m ((c : Thread nD τ).loc main_arg0)) :=
  (V5_of m c main_arg0 (by decide)).trans <| (V4_of m c main_arg0 (by decide)).trans <| (V3_of m c main_arg0 (by decide)).trans <|
    (V2_of m c main_arg0 (by decide)).trans (V1_of m c main_arg0 (by decide))

theorem V5_arg3 : V5 m c main_arg3 = (m ((c : Thread nD τ).loc main_arg3)) :=
  (V5_of m c main_arg3 (by decide)).trans <| (V4_of m c main_arg3 (by decide)).trans <| (V3_of m c main_arg3 (by decide)).trans <|
    (V2_of m c main_arg3 (by decide)).trans (V1_of m c main_arg3 (by decide))

theorem V5_arg4 : V5 m c main_arg4 = (m ((c : Thread nD τ).loc main_arg4)) :=
  (V5_of m c main_arg4 (by decide)).trans <| (V4_of m c main_arg4 (by decide)).trans <| (V3_of m c main_arg4 (by decide)).trans <|
    (V2_of m c main_arg4 (by decide)).trans (V1_of m c main_arg4 (by decide))

theorem V5_arg5 : V5 m c main_arg5 = (m ((c : Thread nD τ).loc main_arg5)) :=
  (V5_of m c main_arg5 (by decide)).trans <| (V4_of m c main_arg5 (by decide)).trans <| (V3_of m c main_arg5 (by decide)).trans <|
    (V2_of m c main_arg5 (by decide)).trans (V1_of m c main_arg5 (by decide))

theorem E1_v35 : V6 m outs c main_v35 = V5 m c main_v35 := V6_of m outs c main_v35 (by decide)
theorem E1_v1 : V6 m outs c main_v1 = V5 m c main_v1 := V6_of m outs c main_v1 (by decide)
theorem E1_v3 : V6 m outs c main_v3 = V5 m c main_v3 := V6_of m outs c main_v3 (by decide)
theorem E1_arg5 : V6 m outs c main_arg5 = (m ((c : Thread nD τ).loc main_arg5)) := (V6_of m outs c main_arg5 (by decide)).trans (V5_arg5 m c)
theorem E1_h : V6 m outs c main_v36 = outs 6 main_v36 c := Function.update_self _ _ _

theorem agg1 : V7 m outs c main_v50
    = Cert.SpecK.aggK (V5 m c main_v35) (V5 m c main_v1) (V5 m c main_v3) (outs 6 main_v36 c) :=
  (s1_agg (V6 m outs c)).trans (by rw [E1_v35 m outs c, E1_v1 m outs c, E1_v3 m outs c, E1_h m outs c])

theorem w1 : V7 m outs c main_v52 = val_main_v61 (F := F) (m ((c : Thread nD τ).loc main_arg5)) :=
  (s1_w (V6 m outs c)).trans (by rw [E1_arg5 m outs c])

theorem hprev1 : V7 m outs c main_v36 = outs 6 main_v36 c :=
  (V7_of m outs c main_v36 (by decide)).trans (E1_h m outs c)

theorem orig1 : V7 m outs c main_v36 = outs 6 main_v36 c :=
  (V7_of m outs c main_v36 (by decide)).trans (E1_h m outs c)

theorem E2_v35 : V8 m outs c main_v35 = V5 m c main_v35 :=
  (V8_of m outs c main_v35 (by decide)).trans <| (V7_of m outs c main_v35 (by decide)).trans (E1_v35 m outs c)
theorem E2_v1 : V8 m outs c main_v1 = V5 m c main_v1 :=
  (V8_of m outs c main_v1 (by decide)).trans <| (V7_of m outs c main_v1 (by decide)).trans (E1_v1 m outs c)
theorem E2_v3 : V8 m outs c main_v3 = V5 m c main_v3 :=
  (V8_of m outs c main_v3 (by decide)).trans <| (V7_of m outs c main_v3 (by decide)).trans (E1_v3 m outs c)
theorem E2_arg5 : V8 m outs c main_arg5 = (m ((c : Thread nD τ).loc main_arg5)) :=
  (V8_of m outs c main_arg5 (by decide)).trans <| (V7_of m outs c main_arg5 (by decide)).trans (E1_arg5 m outs c)
theorem E2_v36 : V8 m outs c main_v36 = outs 6 main_v36 c :=
  (V8_of m outs c main_v36 (by decide)).trans <| (V7_of m outs c main_v36 (by decide)).trans (E1_h m outs c)
theorem E2_h : V8 m outs c main_v53 = outs 8 main_v53 c := Function.update_self _ _ _

theorem agg2 : V9 m outs c main_v67
    = Cert.SpecK.aggK (V5 m c main_v35) (V5 m c main_v1) (V5 m c main_v3) (outs 8 main_v53 c) :=
  (s2_agg (V8 m outs c)).trans (by rw [E2_v35 m outs c, E2_v1 m outs c, E2_v3 m outs c, E2_h m outs c])

theorem w2 : V9 m outs c main_v69 = val_main_v86 (F := F) (m ((c : Thread nD τ).loc main_arg5)) :=
  (s2_w (V8 m outs c)).trans (by rw [E2_arg5 m outs c])

theorem hprev2 : V9 m outs c main_v53 = outs 8 main_v53 c :=
  (V9_of m outs c main_v53 (by decide)).trans (E2_h m outs c)

theorem orig2 : V9 m outs c main_v36 = outs 6 main_v36 c :=
  (V9_of m outs c main_v36 (by decide)).trans (E2_v36 m outs c)

theorem E3_v35 : V10 m outs c main_v35 = V5 m c main_v35 :=
  (V10_of m outs c main_v35 (by decide)).trans <| (V9_of m outs c main_v35 (by decide)).trans (E2_v35 m outs c)
theorem E3_v1 : V10 m outs c main_v1 = V5 m c main_v1 :=
  (V10_of m outs c main_v1 (by decide)).trans <| (V9_of m outs c main_v1 (by decide)).trans (E2_v1 m outs c)
theorem E3_v3 : V10 m outs c main_v3 = V5 m c main_v3 :=
  (V10_of m outs c main_v3 (by decide)).trans <| (V9_of m outs c main_v3 (by decide)).trans (E2_v3 m outs c)
theorem E3_arg5 : V10 m outs c main_arg5 = (m ((c : Thread nD τ).loc main_arg5)) :=
  (V10_of m outs c main_arg5 (by decide)).trans <| (V9_of m outs c main_arg5 (by decide)).trans (E2_arg5 m outs c)
theorem E3_v36 : V10 m outs c main_v36 = outs 6 main_v36 c :=
  (V10_of m outs c main_v36 (by decide)).trans <| (V9_of m outs c main_v36 (by decide)).trans (E2_v36 m outs c)
theorem E3_h : V10 m outs c main_v70 = outs 10 main_v70 c := Function.update_self _ _ _

theorem agg3 : V11 m outs c main_v84
    = Cert.SpecK.aggK (V5 m c main_v35) (V5 m c main_v1) (V5 m c main_v3) (outs 10 main_v70 c) :=
  (s3_agg (V10 m outs c)).trans (by rw [E3_v35 m outs c, E3_v1 m outs c, E3_v3 m outs c, E3_h m outs c])

theorem w3 : V11 m outs c main_v86 = val_main_v111 (F := F) (m ((c : Thread nD τ).loc main_arg5)) :=
  (s3_w (V10 m outs c)).trans (by rw [E3_arg5 m outs c])

theorem hprev3 : V11 m outs c main_v70 = outs 10 main_v70 c :=
  (V11_of m outs c main_v70 (by decide)).trans (E3_h m outs c)

theorem orig3 : V11 m outs c main_v36 = outs 6 main_v36 c :=
  (V11_of m outs c main_v36 (by decide)).trans (E3_v36 m outs c)

theorem E4_v35 : V12 m outs c main_v35 = V5 m c main_v35 :=
  (V12_of m outs c main_v35 (by decide)).trans <| (V11_of m outs c main_v35 (by decide)).trans (E3_v35 m outs c)
theorem E4_v1 : V12 m outs c main_v1 = V5 m c main_v1 :=
  (V12_of m outs c main_v1 (by decide)).trans <| (V11_of m outs c main_v1 (by decide)).trans (E3_v1 m outs c)
theorem E4_v3 : V12 m outs c main_v3 = V5 m c main_v3 :=
  (V12_of m outs c main_v3 (by decide)).trans <| (V11_of m outs c main_v3 (by decide)).trans (E3_v3 m outs c)
theorem E4_arg5 : V12 m outs c main_arg5 = (m ((c : Thread nD τ).loc main_arg5)) :=
  (V12_of m outs c main_arg5 (by decide)).trans <| (V11_of m outs c main_arg5 (by decide)).trans (E3_arg5 m outs c)
theorem E4_v36 : V12 m outs c main_v36 = outs 6 main_v36 c :=
  (V12_of m outs c main_v36 (by decide)).trans <| (V11_of m outs c main_v36 (by decide)).trans (E3_v36 m outs c)
theorem E4_h : V12 m outs c main_v87 = outs 12 main_v87 c := Function.update_self _ _ _

theorem agg4 : V13 m outs c main_v101
    = Cert.SpecK.aggK (V5 m c main_v35) (V5 m c main_v1) (V5 m c main_v3) (outs 12 main_v87 c) :=
  (s4_agg (V12 m outs c)).trans (by rw [E4_v35 m outs c, E4_v1 m outs c, E4_v3 m outs c, E4_h m outs c])

theorem w4 : V13 m outs c main_v103 = val_main_v136 (F := F) (m ((c : Thread nD τ).loc main_arg5)) :=
  (s4_w (V12 m outs c)).trans (by rw [E4_arg5 m outs c])

theorem hprev4 : V13 m outs c main_v87 = outs 12 main_v87 c :=
  (V13_of m outs c main_v87 (by decide)).trans (E4_h m outs c)

theorem orig4 : V13 m outs c main_v36 = outs 6 main_v36 c :=
  (V13_of m outs c main_v36 (by decide)).trans (E4_v36 m outs c)

theorem E5_v35 : V14 m outs c main_v35 = V5 m c main_v35 :=
  (V14_of m outs c main_v35 (by decide)).trans <| (V13_of m outs c main_v35 (by decide)).trans (E4_v35 m outs c)
theorem E5_v1 : V14 m outs c main_v1 = V5 m c main_v1 :=
  (V14_of m outs c main_v1 (by decide)).trans <| (V13_of m outs c main_v1 (by decide)).trans (E4_v1 m outs c)
theorem E5_v3 : V14 m outs c main_v3 = V5 m c main_v3 :=
  (V14_of m outs c main_v3 (by decide)).trans <| (V13_of m outs c main_v3 (by decide)).trans (E4_v3 m outs c)
theorem E5_arg5 : V14 m outs c main_arg5 = (m ((c : Thread nD τ).loc main_arg5)) :=
  (V14_of m outs c main_arg5 (by decide)).trans <| (V13_of m outs c main_arg5 (by decide)).trans (E4_arg5 m outs c)
theorem E5_v36 : V14 m outs c main_v36 = outs 6 main_v36 c :=
  (V14_of m outs c main_v36 (by decide)).trans <| (V13_of m outs c main_v36 (by decide)).trans (E4_v36 m outs c)
theorem E5_h : V14 m outs c main_v104 = outs 14 main_v104 c := Function.update_self _ _ _

theorem agg5 : V15 m outs c main_v118
    = Cert.SpecK.aggK (V5 m c main_v35) (V5 m c main_v1) (V5 m c main_v3) (outs 14 main_v104 c) :=
  (s5_agg (V14 m outs c)).trans (by rw [E5_v35 m outs c, E5_v1 m outs c, E5_v3 m outs c, E5_h m outs c])

theorem w5 : V15 m outs c main_v120 = val_main_v161 (F := F) (m ((c : Thread nD τ).loc main_arg5)) :=
  (s5_w (V14 m outs c)).trans (by rw [E5_arg5 m outs c])

theorem hprev5 : V15 m outs c main_v104 = outs 14 main_v104 c :=
  (V15_of m outs c main_v104 (by decide)).trans (E5_h m outs c)

theorem orig5 : V15 m outs c main_v36 = outs 6 main_v36 c :=
  (V15_of m outs c main_v36 (by decide)).trans (E5_v36 m outs c)

theorem E6_v35 : V16 m outs c main_v35 = V5 m c main_v35 :=
  (V16_of m outs c main_v35 (by decide)).trans <| (V15_of m outs c main_v35 (by decide)).trans (E5_v35 m outs c)
theorem E6_v1 : V16 m outs c main_v1 = V5 m c main_v1 :=
  (V16_of m outs c main_v1 (by decide)).trans <| (V15_of m outs c main_v1 (by decide)).trans (E5_v1 m outs c)
theorem E6_v3 : V16 m outs c main_v3 = V5 m c main_v3 :=
  (V16_of m outs c main_v3 (by decide)).trans <| (V15_of m outs c main_v3 (by decide)).trans (E5_v3 m outs c)
theorem E6_arg5 : V16 m outs c main_arg5 = (m ((c : Thread nD τ).loc main_arg5)) :=
  (V16_of m outs c main_arg5 (by decide)).trans <| (V15_of m outs c main_arg5 (by decide)).trans (E5_arg5 m outs c)
theorem E6_v36 : V16 m outs c main_v36 = outs 6 main_v36 c :=
  (V16_of m outs c main_v36 (by decide)).trans <| (V15_of m outs c main_v36 (by decide)).trans (E5_v36 m outs c)
theorem E6_h : V16 m outs c main_v121 = outs 16 main_v121 c := Function.update_self _ _ _

theorem agg6 : V17 m outs c main_v135
    = Cert.SpecK.aggK (V5 m c main_v35) (V5 m c main_v1) (V5 m c main_v3) (outs 16 main_v121 c) :=
  (s6_agg (V16 m outs c)).trans (by rw [E6_v35 m outs c, E6_v1 m outs c, E6_v3 m outs c, E6_h m outs c])

theorem w6 : V17 m outs c main_v137 = val_main_v186 (F := F) (m ((c : Thread nD τ).loc main_arg5)) :=
  (s6_w (V16 m outs c)).trans (by rw [E6_arg5 m outs c])

theorem hprev6 : V17 m outs c main_v121 = outs 16 main_v121 c :=
  (V17_of m outs c main_v121 (by decide)).trans (E6_h m outs c)

theorem orig6 : V17 m outs c main_v36 = outs 6 main_v36 c :=
  (V17_of m outs c main_v36 (by decide)).trans (E6_v36 m outs c)

theorem E7_v35 : V18 m outs c main_v35 = V5 m c main_v35 :=
  (V18_of m outs c main_v35 (by decide)).trans <| (V17_of m outs c main_v35 (by decide)).trans (E6_v35 m outs c)
theorem E7_v1 : V18 m outs c main_v1 = V5 m c main_v1 :=
  (V18_of m outs c main_v1 (by decide)).trans <| (V17_of m outs c main_v1 (by decide)).trans (E6_v1 m outs c)
theorem E7_v3 : V18 m outs c main_v3 = V5 m c main_v3 :=
  (V18_of m outs c main_v3 (by decide)).trans <| (V17_of m outs c main_v3 (by decide)).trans (E6_v3 m outs c)
theorem E7_arg5 : V18 m outs c main_arg5 = (m ((c : Thread nD τ).loc main_arg5)) :=
  (V18_of m outs c main_arg5 (by decide)).trans <| (V17_of m outs c main_arg5 (by decide)).trans (E6_arg5 m outs c)
theorem E7_v36 : V18 m outs c main_v36 = outs 6 main_v36 c :=
  (V18_of m outs c main_v36 (by decide)).trans <| (V17_of m outs c main_v36 (by decide)).trans (E6_v36 m outs c)
theorem E7_h : V18 m outs c main_v138 = outs 18 main_v138 c := Function.update_self _ _ _

theorem agg7 : V19 m outs c main_v152
    = Cert.SpecK.aggK (V5 m c main_v35) (V5 m c main_v1) (V5 m c main_v3) (outs 18 main_v138 c) :=
  (s7_agg (V18 m outs c)).trans (by rw [E7_v35 m outs c, E7_v1 m outs c, E7_v3 m outs c, E7_h m outs c])

theorem w7 : V19 m outs c main_v154 = val_main_v211 (F := F) (m ((c : Thread nD τ).loc main_arg5)) :=
  (s7_w (V18 m outs c)).trans (by rw [E7_arg5 m outs c])

theorem hprev7 : V19 m outs c main_v138 = outs 18 main_v138 c :=
  (V19_of m outs c main_v138 (by decide)).trans (E7_h m outs c)

theorem orig7 : V19 m outs c main_v36 = outs 6 main_v36 c :=
  (V19_of m outs c main_v36 (by decide)).trans (E7_v36 m outs c)

theorem E8_v35 : V20 m outs c main_v35 = V5 m c main_v35 :=
  (V20_of m outs c main_v35 (by decide)).trans <| (V19_of m outs c main_v35 (by decide)).trans (E7_v35 m outs c)
theorem E8_v1 : V20 m outs c main_v1 = V5 m c main_v1 :=
  (V20_of m outs c main_v1 (by decide)).trans <| (V19_of m outs c main_v1 (by decide)).trans (E7_v1 m outs c)
theorem E8_v3 : V20 m outs c main_v3 = V5 m c main_v3 :=
  (V20_of m outs c main_v3 (by decide)).trans <| (V19_of m outs c main_v3 (by decide)).trans (E7_v3 m outs c)
theorem E8_arg5 : V20 m outs c main_arg5 = (m ((c : Thread nD τ).loc main_arg5)) :=
  (V20_of m outs c main_arg5 (by decide)).trans <| (V19_of m outs c main_arg5 (by decide)).trans (E7_arg5 m outs c)
theorem E8_v36 : V20 m outs c main_v36 = outs 6 main_v36 c :=
  (V20_of m outs c main_v36 (by decide)).trans <| (V19_of m outs c main_v36 (by decide)).trans (E7_v36 m outs c)
theorem E8_h : V20 m outs c main_v155 = outs 20 main_v155 c := Function.update_self _ _ _

theorem agg8 : V21 m outs c main_v169
    = Cert.SpecK.aggK (V5 m c main_v35) (V5 m c main_v1) (V5 m c main_v3) (outs 20 main_v155 c) :=
  (s8_agg (V20 m outs c)).trans (by rw [E8_v35 m outs c, E8_v1 m outs c, E8_v3 m outs c, E8_h m outs c])

theorem w8 : V21 m outs c main_v171 = val_main_v236 (F := F) (m ((c : Thread nD τ).loc main_arg5)) :=
  (s8_w (V20 m outs c)).trans (by rw [E8_arg5 m outs c])

theorem hprev8 : V21 m outs c main_v155 = outs 20 main_v155 c :=
  (V21_of m outs c main_v155 (by decide)).trans (E8_h m outs c)

theorem orig8 : V21 m outs c main_v36 = outs 6 main_v36 c :=
  (V21_of m outs c main_v36 (by decide)).trans (E8_v36 m outs c)

end Chain

end Cert.KernelIdeal.Hand

end
-- ==== Proof.KI.HostTail.lean ====
/- The host operations after the last region: the orthogonality loss. -/
import proofs.«173786_j46231027974388_2_alg».proof.Proof.KernelIdealRegions
import proofs.«173786_j46231027974388_2_alg».proof.Proof.RefRead

set_option maxRecDepth 2028

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]

section Stretches

variable (W : Valuation τ sig (Elt F)) (x5 : (⟨S8x64x64, .f32⟩ : BufTy).Contents (Elt F))

theorem eye_of_W : StableHlo.after hostOps10 W (Proc.devRef .tc main_v179) = val_main_v249 (F := F) := by
  after_results
  rfl

theorem dev0_of_W (h5 : W (Proc.devRef .tc main_arg5) = x5) :
    StableHlo.after hostOps10 W (Proc.devRef .tc main_v184) = val_main_v254 (F := F) x5 := by
  after_results
  rw [h5]
  rfl

theorem norm0_of_W (h : W (Proc.devRef .tc main_v184) = val_main_v254 (F := F) x5) :
    StableHlo.after hostOps10_1 W (Proc.devRef .tc main_v185) = val_main_v255 (F := F) x5 := by
  after_results
  simp only [TRef.ofBuf, TRef.toBuf, cast_eq]
  rw [h]
  rfl

theorem dev1_of_W (h5 : W (Proc.devRef .tc main_arg5) = x5) (hI : W (Proc.devRef .tc main_v179) = val_main_v249 (F := F)) :
    StableHlo.after hostOps10_2 W (Proc.devRef .tc main_v188) = val_main_v258 (F := F) x5 := by
  after_results
  rw [h5, hI]
  rfl

theorem norm1_of_W (h : W (Proc.devRef .tc main_v188) = val_main_v258 (F := F) x5) :
    StableHlo.after hostOps10_3 W (Proc.devRef .tc main_v189) = val_main_v259 (F := F) x5 := by
  after_results
  simp only [TRef.ofBuf, TRef.toBuf, cast_eq]
  rw [h]
  rfl

theorem sum1_of_W (h1 : W (Proc.devRef .tc main_v185) = val_main_v255 (F := F) x5)
    (h2 : W (Proc.devRef .tc main_v189) = val_main_v259 (F := F) x5) :
    StableHlo.after hostOps10_4 W (Proc.devRef .tc main_v190) = val_main_v260 (F := F) x5 := by
  after_results
  rw [h1, h2]
  rfl

theorem dev2_of_W (h5 : W (Proc.devRef .tc main_arg5) = x5) (hI : W (Proc.devRef .tc main_v179) = val_main_v249 (F := F)) :
    StableHlo.after hostOps10_4 W (Proc.devRef .tc main_v193) = val_main_v263 (F := F) x5 := by
  after_results
  rw [h5, hI]
  rfl

theorem norm2_of_W (h : W (Proc.devRef .tc main_v193) = val_main_v263 (F := F) x5) :
    StableHlo.after hostOps10_5 W (Proc.devRef .tc main_v194) = val_main_v264 (F := F) x5 := by
  after_results
  simp only [TRef.ofBuf, TRef.toBuf, cast_eq]
  rw [h]
  rfl

theorem sum2_of_W (h1 : W (Proc.devRef .tc main_v190) = val_main_v260 (F := F) x5)
    (h2 : W (Proc.devRef .tc main_v194) = val_main_v264 (F := F) x5) :
    StableHlo.after hostOps10_6 W (Proc.devRef .tc main_v195) = val_main_v265 (F := F) x5 := by
  after_results
  rw [h1, h2]
  rfl

theorem dev3_of_W (h5 : W (Proc.devRef .tc main_arg5) = x5) (hI : W (Proc.devRef .tc main_v179) = val_main_v249 (F := F)) :
    StableHlo.after hostOps10_6 W (Proc.devRef .tc main_v198) = val_main_v268 (F := F) x5 := by
  after_results
  rw [h5, hI]
  rfl

theorem norm3_of_W (h : W (Proc.devRef .tc main_v198) = val_main_v268 (F := F) x5) :
    StableHlo.after hostOps10_7 W (Proc.devRef .tc main_v199) = val_main_v269 (F := F) x5 := by
  after_results
  simp only [TRef.ofBuf, TRef.toBuf, cast_eq]
  rw [h]
  rfl

theorem sum3_of_W (h1 : W (Proc.devRef .tc main_v195) = val_main_v265 (F := F) x5)
    (h2 : W (Proc.devRef .tc main_v199) = val_main_v269 (F := F) x5) :
    StableHlo.after hostOps10_8 W (Proc.devRef .tc main_v200) = val_main_v270 (F := F) x5 := by
  after_results
  rw [h1, h2]
  rfl

theorem dev4_of_W (h5 : W (Proc.devRef .tc main_arg5) = x5) (hI : W (Proc.devRef .tc main_v179) = val_main_v249 (F := F)) :
    StableHlo.after hostOps10_8 W (Proc.devRef .tc main_v203) = val_main_v273 (F := F) x5 := by
  after_results
  rw [h5, hI]
  rfl

theorem norm4_of_W (h : W (Proc.devRef .tc main_v203) = val_main_v273 (F := F) x5) :
    StableHlo.after hostOps10_9 W (Proc.devRef .tc main_v204) = val_main_v274 (F := F) x5 := by
  after_results
  simp only [TRef.ofBuf, TRef.toBuf, cast_eq]
  rw [h]
  rfl

theorem sum4_of_W (h1 : W (Proc.devRef .tc main_v200) = val_main_v270 (F := F) x5)
    (h2 : W (Proc.devRef .tc main_v204) = val_main_v274 (F := F) x5) :
    StableHlo.after hostOps10_10 W (Proc.devRef .tc main_v205) = val_main_v275 (F := F) x5 := by
  after_results
  rw [h1, h2]
  rfl

theorem dev5_of_W (h5 : W (Proc.devRef .tc main_arg5) = x5) (hI : W (Proc.devRef .tc main_v179) = val_main_v249 (F := F)) :
    StableHlo.after hostOps10_10 W (Proc.devRef .tc main_v208) = val_main_v278 (F := F) x5 := by
  after_results
  rw [h5, hI]
  rfl

theorem norm5_of_W (h : W (Proc.devRef .tc main_v208) = val_main_v278 (F := F) x5) :
    StableHlo.after hostOps10_11 W (Proc.devRef .tc main_v209) = val_main_v279 (F := F) x5 := by
  after_results
  simp only [TRef.ofBuf, TRef.toBuf, cast_eq]
  rw [h]
  rfl

theorem sum5_of_W (h1 : W (Proc.devRef .tc main_v205) = val_main_v275 (F := F) x5)
    (h2 : W (Proc.devRef .tc main_v209) = val_main_v279 (F := F) x5) :
    StableHlo.after hostOps10_12 W (Proc.devRef .tc main_v210) = val_main_v280 (F := F) x5 := by
  after_results
  rw [h1, h2]
  rfl

theorem dev6_of_W (h5 : W (Proc.devRef .tc main_arg5) = x5) (hI : W (Proc.devRef .tc main_v179) = val_main_v249 (F := F)) :
    StableHlo.after hostOps10_12 W (Proc.devRef .tc main_v213) = val_main_v283 (F := F) x5 := by
  after_results
  rw [h5, hI]
  rfl

theorem norm6_of_W (h : W (Proc.devRef .tc main_v213) = val_main_v283 (F := F) x5) :
    StableHlo.after hostOps10_13 W (Proc.devRef .tc main_v214) = val_main_v284 (F := F) x5 := by
  after_results
  simp only [TRef.ofBuf, TRef.toBuf, cast_eq]
  rw [h]
  rfl

theorem sum6_of_W (h1 : W (Proc.devRef .tc main_v210) = val_main_v280 (F := F) x5)
    (h2 : W (Proc.devRef .tc main_v214) = val_main_v284 (F := F) x5) :
    StableHlo.after hostOps10_14 W (Proc.devRef .tc main_v215) = val_main_v285 (F := F) x5 := by
  after_results
  rw [h1, h2]
  rfl

theorem dev7_of_W (h5 : W (Proc.devRef .tc main_arg5) = x5) (hI : W (Proc.devRef .tc main_v179) = val_main_v249 (F := F)) :
    StableHlo.after hostOps10_14 W (Proc.devRef .tc main_v218) = val_main_v288 (F := F) x5 := by
  after_results
  rw [h5, hI]
  rfl

theorem norm7_of_W (h : W (Proc.devRef .tc main_v218) = val_main_v288 (F := F) x5) :
    StableHlo.after hostOps10_15 W (Proc.devRef .tc main_v219) = val_main_v289 (F := F) x5 := by
  after_results
  simp only [TRef.ofBuf, TRef.toBuf, cast_eq]
  rw [h]
  rfl

theorem loss_of_W (h1 : W (Proc.devRef .tc main_v215) = val_main_v285 (F := F) x5)
    (h2 : W (Proc.devRef .tc main_v219) = val_main_v289 (F := F) x5) :
    StableHlo.after hostOps10_16 W (Proc.devRef .tc main_v221) = val_main_v291 (F := F) x5 := by
  after_results
  rw [h1, h2]
  rfl

end Stretches

variable (m : (ℓ : Loc nD τ sig) → Buf (Elt F) ℓ) (outs : Outs (F := F)) (c : Dev nD)

theorem V22_arg5 : V22 m outs c main_arg5 = m ((c : Thread nD τ).loc main_arg5) :=
  (V22_of m outs c main_arg5 (by decide)).trans <| (V21_of m outs c main_arg5 (by decide)).trans <|
  (V20_of m outs c main_arg5 (by decide)).trans <| (V19_of m outs c main_arg5 (by decide)).trans <|
  (V18_of m outs c main_arg5 (by decide)).trans <| (V17_of m outs c main_arg5 (by decide)).trans <|
  (V16_of m outs c main_arg5 (by decide)).trans <| (V15_of m outs c main_arg5 (by decide)).trans <|
  (V14_of m outs c main_arg5 (by decide)).trans <| (V13_of m outs c main_arg5 (by decide)).trans <|
  (V12_of m outs c main_arg5 (by decide)).trans <| (V11_of m outs c main_arg5 (by decide)).trans <|
  (V10_of m outs c main_arg5 (by decide)).trans <| (V9_of m outs c main_arg5 (by decide)).trans <|
  (V8_of m outs c main_arg5 (by decide)).trans <| (V7_of m outs c main_arg5 (by decide)).trans <|
  (V6_of m outs c main_arg5 (by decide)).trans <| (V5_of m c main_arg5 (by decide)).trans <|
  (V4_of m c main_arg5 (by decide)).trans <| (V3_of m c main_arg5 (by decide)).trans <|
  (V2_of m c main_arg5 (by decide)).trans <| (V1_of m c main_arg5 (by decide)).trans rfl

theorem V22_arg6 : V22 m outs c main_arg6 = m ((c : Thread nD τ).loc main_arg6) :=
  (V22_of m outs c main_arg6 (by decide)).trans <| (V21_of m outs c main_arg6 (by decide)).trans <|
  (V20_of m outs c main_arg6 (by decide)).trans <| (V19_of m outs c main_arg6 (by decide)).trans <|
  (V18_of m outs c main_arg6 (by decide)).trans <| (V17_of m outs c main_arg6 (by decide)).trans <|
  (V16_of m outs c main_arg6 (by decide)).trans <| (V15_of m outs c main_arg6 (by decide)).trans <|
  (V14_of m outs c main_arg6 (by decide)).trans <| (V13_of m outs c main_arg6 (by decide)).trans <|
  (V12_of m outs c main_arg6 (by decide)).trans <| (V11_of m outs c main_arg6 (by decide)).trans <|
  (V10_of m outs c main_arg6 (by decide)).trans <| (V9_of m outs c main_arg6 (by decide)).trans <|
  (V8_of m outs c main_arg6 (by decide)).trans <| (V7_of m outs c main_arg6 (by decide)).trans <|
  (V6_of m outs c main_arg6 (by decide)).trans <| (V5_of m c main_arg6 (by decide)).trans <|
  (V4_of m c main_arg6 (by decide)).trans <| (V3_of m c main_arg6 (by decide)).trans <|
  (V2_of m c main_arg6 (by decide)).trans <| (V1_of m c main_arg6 (by decide)).trans rfl

theorem V22_arg7 : V22 m outs c main_arg7 = m ((c : Thread nD τ).loc main_arg7) :=
  (V22_of m outs c main_arg7 (by decide)).trans <| (V21_of m outs c main_arg7 (by decide)).trans <|
  (V20_of m outs c main_arg7 (by decide)).trans <| (V19_of m outs c main_arg7 (by decide)).trans <|
  (V18_of m outs c main_arg7 (by decide)).trans <| (V17_of m outs c main_arg7 (by decide)).trans <|
  (V16_of m outs c main_arg7 (by decide)).trans <| (V15_of m outs c main_arg7 (by decide)).trans <|
  (V14_of m outs c main_arg7 (by decide)).trans <| (V13_of m outs c main_arg7 (by decide)).trans <|
  (V12_of m outs c main_arg7 (by decide)).trans <| (V11_of m outs c main_arg7 (by decide)).trans <|
  (V10_of m outs c main_arg7 (by decide)).trans <| (V9_of m outs c main_arg7 (by decide)).trans <|
  (V8_of m outs c main_arg7 (by decide)).trans <| (V7_of m outs c main_arg7 (by decide)).trans <|
  (V6_of m outs c main_arg7 (by decide)).trans <| (V5_of m c main_arg7 (by decide)).trans <|
  (V4_of m c main_arg7 (by decide)).trans <| (V3_of m c main_arg7 (by decide)).trans <|
  (V2_of m c main_arg7 (by decide)).trans <| (V1_of m c main_arg7 (by decide)).trans rfl

theorem V22_h : V22 m outs c main_v172 = outs 22 main_v172 c := by
  simp only [V22, Function.update_self]

theorem V23_y : V23 m outs c main_v173 = outs 23 main_v173 c := by
  simp only [V23, Function.update_self]

theorem V40_y : V40 m outs c main_v173 = outs 23 main_v173 c :=
  (V40_of m outs c main_v173 (by decide)).trans <| (V39_of m outs c main_v173 (by decide)).trans <|
  (V38_of m outs c main_v173 (by decide)).trans <| (V37_of m outs c main_v173 (by decide)).trans <|
  (V36_of m outs c main_v173 (by decide)).trans <| (V35_of m outs c main_v173 (by decide)).trans <|
  (V34_of m outs c main_v173 (by decide)).trans <| (V33_of m outs c main_v173 (by decide)).trans <|
  (V32_of m outs c main_v173 (by decide)).trans <| (V31_of m outs c main_v173 (by decide)).trans <|
  (V30_of m outs c main_v173 (by decide)).trans <| (V29_of m outs c main_v173 (by decide)).trans <|
  (V28_of m outs c main_v173 (by decide)).trans <| (V27_of m outs c main_v173 (by decide)).trans <|
  (V26_of m outs c main_v173 (by decide)).trans <| (V25_of m outs c main_v173 (by decide)).trans <|
  (V24_of m outs c main_v173 (by decide)).trans (V23_y m outs c)

theorem V23_arg5 : V23 m outs c main_arg5 = m ((c : Thread nD τ).loc main_arg5) :=
  (V23_of m outs c main_arg5 (by decide)).trans (V22_arg5 m outs c)
theorem V24_arg5 : V24 m outs c main_arg5 = m ((c : Thread nD τ).loc main_arg5) :=
  (V24_of m outs c main_arg5 (by decide)).trans (V23_arg5 m outs c)
theorem V25_arg5 : V25 m outs c main_arg5 = m ((c : Thread nD τ).loc main_arg5) :=
  (V25_of m outs c main_arg5 (by decide)).trans (V24_arg5 m outs c)
theorem V26_arg5 : V26 m outs c main_arg5 = m ((c : Thread nD τ).loc main_arg5) :=
  (V26_of m outs c main_arg5 (by decide)).trans (V25_arg5 m outs c)
theorem V27_arg5 : V27 m outs c main_arg5 = m ((c : Thread nD τ).loc main_arg5) :=
  (V27_of m outs c main_arg5 (by decide)).trans (V26_arg5 m outs c)
theorem V28_arg5 : V28 m outs c main_arg5 = m ((c : Thread nD τ).loc main_arg5) :=
  (V28_of m outs c main_arg5 (by decide)).trans (V27_arg5 m outs c)
theorem V29_arg5 : V29 m outs c main_arg5 = m ((c : Thread nD τ).loc main_arg5) :=
  (V29_of m outs c main_arg5 (by decide)).trans (V28_arg5 m outs c)
theorem V30_arg5 : V30 m outs c main_arg5 = m ((c : Thread nD τ).loc main_arg5) :=
  (V30_of m outs c main_arg5 (by decide)).trans (V29_arg5 m outs c)
theorem V31_arg5 : V31 m outs c main_arg5 = m ((c : Thread nD τ).loc main_arg5) :=
  (V31_of m outs c main_arg5 (by decide)).trans (V30_arg5 m outs c)
theorem V32_arg5 : V32 m outs c main_arg5 = m ((c : Thread nD τ).loc main_arg5) :=
  (V32_of m outs c main_arg5 (by decide)).trans (V31_arg5 m outs c)
theorem V33_arg5 : V33 m outs c main_arg5 = m ((c : Thread nD τ).loc main_arg5) :=
  (V33_of m outs c main_arg5 (by decide)).trans (V32_arg5 m outs c)
theorem V34_arg5 : V34 m outs c main_arg5 = m ((c : Thread nD τ).loc main_arg5) :=
  (V34_of m outs c main_arg5 (by decide)).trans (V33_arg5 m outs c)
theorem V35_arg5 : V35 m outs c main_arg5 = m ((c : Thread nD τ).loc main_arg5) :=
  (V35_of m outs c main_arg5 (by decide)).trans (V34_arg5 m outs c)
theorem V36_arg5 : V36 m outs c main_arg5 = m ((c : Thread nD τ).loc main_arg5) :=
  (V36_of m outs c main_arg5 (by decide)).trans (V35_arg5 m outs c)
theorem V37_arg5 : V37 m outs c main_arg5 = m ((c : Thread nD τ).loc main_arg5) :=
  (V37_of m outs c main_arg5 (by decide)).trans (V36_arg5 m outs c)

theorem V24_eye : V24 m outs c main_v179 = val_main_v249 (F := F) := eye_of_W (V23 m outs c)
theorem V25_eye : V25 m outs c main_v179 = val_main_v249 (F := F) :=
  (V25_of m outs c main_v179 (by decide)).trans (V24_eye m outs c)
theorem V26_eye : V26 m outs c main_v179 = val_main_v249 (F := F) :=
  (V26_of m outs c main_v179 (by decide)).trans (V25_eye m outs c)
theorem V27_eye : V27 m outs c main_v179 = val_main_v249 (F := F) :=
  (V27_of m outs c main_v179 (by decide)).trans (V26_eye m outs c)
theorem V28_eye : V28 m outs c main_v179 = val_main_v249 (F := F) :=
  (V28_of m outs c main_v179 (by decide)).trans (V27_eye m outs c)
theorem V29_eye : V29 m outs c main_v179 = val_main_v249 (F := F) :=
  (V29_of m outs c main_v179 (by decide)).trans (V28_eye m outs c)
theorem V30_eye : V30 m outs c main_v179 = val_main_v249 (F := F) :=
  (V30_of m outs c main_v179 (by decide)).trans (V29_eye m outs c)
theorem V31_eye : V31 m outs c main_v179 = val_main_v249 (F := F) :=
  (V31_of m outs c main_v179 (by decide)).trans (V30_eye m outs c)
theorem V32_eye : V32 m outs c main_v179 = val_main_v249 (F := F) :=
  (V32_of m outs c main_v179 (by decide)).trans (V31_eye m outs c)
theorem V33_eye : V33 m outs c main_v179 = val_main_v249 (F := F) :=
  (V33_of m outs c main_v179 (by decide)).trans (V32_eye m outs c)
theorem V34_eye : V34 m outs c main_v179 = val_main_v249 (F := F) :=
  (V34_of m outs c main_v179 (by decide)).trans (V33_eye m outs c)
theorem V35_eye : V35 m outs c main_v179 = val_main_v249 (F := F) :=
  (V35_of m outs c main_v179 (by decide)).trans (V34_eye m outs c)
theorem V36_eye : V36 m outs c main_v179 = val_main_v249 (F := F) :=
  (V36_of m outs c main_v179 (by decide)).trans (V35_eye m outs c)
theorem V37_eye : V37 m outs c main_v179 = val_main_v249 (F := F) :=
  (V37_of m outs c main_v179 (by decide)).trans (V36_eye m outs c)

theorem V24_dev0 : V24 m outs c main_v184 = val_main_v254 (F := F) (m ((c : Thread nD τ).loc main_arg5)) :=
  dev0_of_W (V23 m outs c) _ (V23_arg5 m outs c)

theorem V25_norm0 : V25 m outs c main_v185 = val_main_v255 (F := F) (m ((c : Thread nD τ).loc main_arg5)) :=
  norm0_of_W (V24 m outs c) _ (V24_dev0 m outs c)

theorem V26_dev1 : V26 m outs c main_v188 = val_main_v258 (F := F) (m ((c : Thread nD τ).loc main_arg5)) :=
  dev1_of_W (V25 m outs c) _ (V25_arg5 m outs c) (V25_eye m outs c)
theorem V26_norm0 : V26 m outs c main_v185 = val_main_v255 (F := F) (m ((c : Thread nD τ).loc main_arg5)) :=
  (V26_of m outs c main_v185 (by decide)).trans (V25_norm0 m outs c)

theorem V27_norm1 : V27 m outs c main_v189 = val_main_v259 (F := F) (m ((c : Thread nD τ).loc main_arg5)) :=
  norm1_of_W (V26 m outs c) _ (V26_dev1 m outs c)
theorem V27_norm0 : V27 m outs c main_v185 = val_main_v255 (F := F) (m ((c : Thread nD τ).loc main_arg5)) :=
  (V27_of m outs c main_v185 (by decide)).trans (V26_norm0 m outs c)

theorem V28_sum1 : V28 m outs c main_v190 = val_main_v260 (F := F) (m ((c : Thread nD τ).loc main_arg5)) :=
  sum1_of_W (V27 m outs c) _ (V27_norm0 m outs c) (V27_norm1 m outs c)
theorem V28_dev2 : V28 m outs c main_v193 = val_main_v263 (F := F) (m ((c : Thread nD τ).loc main_arg5)) :=
  dev2_of_W (V27 m outs c) _ (V27_arg5 m outs c) (V27_eye m outs c)

theorem V29_norm2 : V29 m outs c main_v194 = val_main_v264 (F := F) (m ((c : Thread nD τ).loc main_arg5)) :=
  norm2_of_W (V28 m outs c) _ (V28_dev2 m outs c)
theorem V29_sum1 : V29 m outs c main_v190 = val_main_v260 (F := F) (m ((c : Thread nD τ).loc main_arg5)) :=
  (V29_of m outs c main_v190 (by decide)).trans (V28_sum1 m outs c)

theorem V30_sum2 : V30 m outs c main_v195 = val_main_v265 (F := F) (m ((c : Thread nD τ).loc main_arg5)) :=
  sum2_of_W (V29 m outs c) _ (V29_sum1 m outs c) (V29_norm2 m outs c)
theorem V30_dev3 : V30 m outs c main_v198 = val_main_v268 (F := F) (m ((c : Thread nD τ).loc main_arg5)) :=
  dev3_of_W (V29 m outs c) _ (V29_arg5 m outs c) (V29_eye m outs c)

theorem V31_norm3 : V31 m outs c main_v199 = val_main_v269 (F := F) (m ((c : Thread nD τ).loc main_arg5)) :=
  norm3_of_W (V30 m outs c) _ (V30_dev3 m outs c)
theorem V31_sum2 : V31 m outs c main_v195 = val_main_v265 (F := F) (m ((c : Thread nD τ).loc main_arg5)) :=
  (V31_of m outs c main_v195 (by decide)).trans (V30_sum2 m outs c)

theorem V32_sum3 : V32 m outs c main_v200 = val_main_v270 (F := F) (m ((c : Thread nD τ).loc main_arg5)) :=
  sum3_of_W (V31 m outs c) _ (V31_sum2 m outs c) (V31_norm3 m outs c)
theorem V32_dev4 : V32 m outs c main_v203 = val_main_v273 (F := F) (m ((c : Thread nD τ).loc main_arg5)) :=
  dev4_of_W (V31 m outs c) _ (V31_arg5 m outs c) (V31_eye m outs c)

theorem V33_norm4 : V33 m outs c main_v204 = val_main_v274 (F := F) (m ((c : Thread nD τ).loc main_arg5)) :=
  norm4_of_W (V32 m outs c) _ (V32_dev4 m outs c)
theorem V33_sum3 : V33 m outs c main_v200 = val_main_v270 (F := F) (m ((c : Thread nD τ).loc main_arg5)) :=
  (V33_of m outs c main_v200 (by decide)).trans (V32_sum3 m outs c)

theorem V34_sum4 : V34 m outs c main_v205 = val_main_v275 (F := F) (m ((c : Thread nD τ).loc main_arg5)) :=
  sum4_of_W (V33 m outs c) _ (V33_sum3 m outs c) (V33_norm4 m outs c)
theorem V34_dev5 : V34 m outs c main_v208 = val_main_v278 (F := F) (m ((c : Thread nD τ).loc main_arg5)) :=
  dev5_of_W (V33 m outs c) _ (V33_arg5 m outs c) (V33_eye m outs c)

theorem V35_norm5 : V35 m outs c main_v209 = val_main_v279 (F := F) (m ((c : Thread nD τ).loc main_arg5)) :=
  norm5_of_W (V34 m outs c) _ (V34_dev5 m outs c)
theorem V35_sum4 : V35 m outs c main_v205 = val_main_v275 (F := F) (m ((c : Thread nD τ).loc main_arg5)) :=
  (V35_of m outs c main_v205 (by decide)).trans (V34_sum4 m outs c)

theorem V36_sum5 : V36 m outs c main_v210 = val_main_v280 (F := F) (m ((c : Thread nD τ).loc main_arg5)) :=
  sum5_of_W (V35 m outs c) _ (V35_sum4 m outs c) (V35_norm5 m outs c)
theorem V36_dev6 : V36 m outs c main_v213 = val_main_v283 (F := F) (m ((c : Thread nD τ).loc main_arg5)) :=
  dev6_of_W (V35 m outs c) _ (V35_arg5 m outs c) (V35_eye m outs c)

theorem V37_norm6 : V37 m outs c main_v214 = val_main_v284 (F := F) (m ((c : Thread nD τ).loc main_arg5)) :=
  norm6_of_W (V36 m outs c) _ (V36_dev6 m outs c)
theorem V37_sum5 : V37 m outs c main_v210 = val_main_v280 (F := F) (m ((c : Thread nD τ).loc main_arg5)) :=
  (V37_of m outs c main_v210 (by decide)).trans (V36_sum5 m outs c)

theorem V38_sum6 : V38 m outs c main_v215 = val_main_v285 (F := F) (m ((c : Thread nD τ).loc main_arg5)) :=
  sum6_of_W (V37 m outs c) _ (V37_sum5 m outs c) (V37_norm6 m outs c)
theorem V38_dev7 : V38 m outs c main_v218 = val_main_v288 (F := F) (m ((c : Thread nD τ).loc main_arg5)) :=
  dev7_of_W (V37 m outs c) _ (V37_arg5 m outs c) (V37_eye m outs c)

theorem V39_norm7 : V39 m outs c main_v219 = val_main_v289 (F := F) (m ((c : Thread nD τ).loc main_arg5)) :=
  norm7_of_W (V38 m outs c) _ (V38_dev7 m outs c)
theorem V39_sum6 : V39 m outs c main_v215 = val_main_v285 (F := F) (m ((c : Thread nD τ).loc main_arg5)) :=
  (V39_of m outs c main_v215 (by decide)).trans (V38_sum6 m outs c)

theorem V40_loss : V40 m outs c main_v221 = val_main_v291 (F := F) (m ((c : Thread nD τ).loc main_arg5)) :=
  loss_of_W (V39 m outs c) _ (V39_sum6 m outs c) (V39_norm7 m outs c)

end Cert.KernelIdeal.Hand

end
-- ==== Proof.RefStages.lean ====
/- Each stage of the reference is a specification function of the arguments. -/
import proofs.«173786_j46231027974388_2_alg».proof.Proof.Spec
import proofs.«173786_j46231027974388_2_alg».proof.Proof.RefRead

noncomputable section

namespace Cert.ReferenceIdeal.Hand

open Cert.ReferenceIdeal Cert.ReferenceIdeal.Gen Idealize.ShloMosaic
open Cert.ReferenceIdeal.Read

variable {F : FTy → Type} [FloatOps F]

theorem stage_proj (x0 : (⟨S100000x256, .f32⟩ : BufTy).Contents (Elt F)) (x3 : (⟨S256x64, .f32⟩ : BufTy).Contents (Elt F)) (x4 : (⟨S64, .f32⟩ : BufTy).Contents (Elt F)) :
    val_main_v38 (F := F) x0 x3 x4 = Cert.Spec.projOf (F := F) x0 x3 x4 := rfl

theorem stage_layer1 (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) :
    val_main_v63 (F := F) x0 x1 x2 x3 x4 x5 =
      Cert.Spec.layerOf (F := F)
        (Cert.Spec.scaleNodes (F := F) (Cert.Spec.aggOf (F := F) (val_main_v33 (F := F) x1 x2) (val_main_v1 (F := F) x1) (val_main_v3 (F := F) x1) (val_main_v38 (F := F) x0 x3 x4)))
        (val_main_v38 (F := F) x0 x3 x4) (val_main_v38 (F := F) x0 x3 x4) (val_main_v61 (F := F) x5) := rfl

theorem stage_layer2 (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) :
    val_main_v88 (F := F) x0 x1 x2 x3 x4 x5 =
      Cert.Spec.layerOf (F := F)
        (Cert.Spec.scaleNodes (F := F) (Cert.Spec.aggOf (F := F) (val_main_v33 (F := F) x1 x2) (val_main_v1 (F := F) x1) (val_main_v3 (F := F) x1) (val_main_v63 (F := F) x0 x1 x2 x3 x4 x5)))
        (val_main_v63 (F := F) x0 x1 x2 x3 x4 x5) (val_main_v38 (F := F) x0 x3 x4) (val_main_v86 (F := F) x5) := rfl

theorem stage_layer3 (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) :
    val_main_v113 (F := F) x0 x1 x2 x3 x4 x5 =
      Cert.Spec.layerOf (F := F)
        (Cert.Spec.scaleNodes (F := F) (Cert.Spec.aggOf (F := F) (val_main_v33 (F := F) x1 x2) (val_main_v1 (F := F) x1) (val_main_v3 (F := F) x1) (val_main_v88 (F := F) x0 x1 x2 x3 x4 x5)))
        (val_main_v88 (F := F) x0 x1 x2 x3 x4 x5) (val_main_v38 (F := F) x0 x3 x4) (val_main_v111 (F := F) x5) := rfl

theorem stage_layer4 (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) :
    val_main_v138 (F := F) x0 x1 x2 x3 x4 x5 =
      Cert.Spec.layerOf (F := F)
        (Cert.Spec.scaleNodes (F := F) (Cert.Spec.aggOf (F := F) (val_main_v33 (F := F) x1 x2) (val_main_v1 (F := F) x1) (val_main_v3 (F := F) x1) (val_main_v113 (F := F) x0 x1 x2 x3 x4 x5)))
        (val_main_v113 (F := F) x0 x1 x2 x3 x4 x5) (val_main_v38 (F := F) x0 x3 x4) (val_main_v136 (F := F) x5) := rfl

theorem stage_layer5 (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) :
    val_main_v163 (F := F) x0 x1 x2 x3 x4 x5 =
      Cert.Spec.layerOf (F := F)
        (Cert.Spec.scaleNodes (F := F) (Cert.Spec.aggOf (F := F) (val_main_v33 (F := F) x1 x2) (val_main_v1 (F := F) x1) (val_main_v3 (F := F) x1) (val_main_v138 (F := F) x0 x1 x2 x3 x4 x5)))
        (val_main_v138 (F := F) x0 x1 x2 x3 x4 x5) (val_main_v38 (F := F) x0 x3 x4) (val_main_v161 (F := F) x5) := rfl

theorem stage_layer6 (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) :
    val_main_v188 (F := F) x0 x1 x2 x3 x4 x5 =
      Cert.Spec.layerOf (F := F)
        (Cert.Spec.scaleNodes (F := F) (Cert.Spec.aggOf (F := F) (val_main_v33 (F := F) x1 x2) (val_main_v1 (F := F) x1) (val_main_v3 (F := F) x1) (val_main_v163 (F := F) x0 x1 x2 x3 x4 x5)))
        (val_main_v163 (F := F) x0 x1 x2 x3 x4 x5) (val_main_v38 (F := F) x0 x3 x4) (val_main_v186 (F := F) x5) := rfl

theorem stage_layer7 (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) :
    val_main_v213 (F := F) x0 x1 x2 x3 x4 x5 =
      Cert.Spec.layerOf (F := F)
        (Cert.Spec.scaleNodes (F := F) (Cert.Spec.aggOf (F := F) (val_main_v33 (F := F) x1 x2) (val_main_v1 (F := F) x1) (val_main_v3 (F := F) x1) (val_main_v188 (F := F) x0 x1 x2 x3 x4 x5)))
        (val_main_v188 (F := F) x0 x1 x2 x3 x4 x5) (val_main_v38 (F := F) x0 x3 x4) (val_main_v211 (F := F) x5) := rfl

theorem stage_layer8 (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) :
    val_main_v238 (F := F) x0 x1 x2 x3 x4 x5 =
      Cert.Spec.layerOf (F := F)
        (Cert.Spec.scaleNodes (F := F) (Cert.Spec.aggOf (F := F) (val_main_v33 (F := F) x1 x2) (val_main_v1 (F := F) x1) (val_main_v3 (F := F) x1) (val_main_v213 (F := F) x0 x1 x2 x3 x4 x5)))
        (val_main_v213 (F := F) x0 x1 x2 x3 x4 x5) (val_main_v38 (F := F) x0 x3 x4) (val_main_v236 (F := F) x5) := rfl

theorem stage_head (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) :
    val_main_v243 (F := F) x0 x1 x2 x3 x4 x5 x6 x7 = Cert.Spec.headOf (F := F) (val_main_v238 (F := F) x0 x1 x2 x3 x4 x5) x6 x7 := rfl

end Cert.ReferenceIdeal.Hand

end
-- ==== Proof.KI.Bridge.lean ====
/- Layer by layer, what the kernel program's regions and host operations leave is the reference's stage of the same layer. -/
import proofs.«173786_j46231027974388_2_alg».proof.Proof.KI.PDats
import proofs.«173786_j46231027974388_2_alg».proof.Proof.KI.Value0
import proofs.«173786_j46231027974388_2_alg».proof.Proof.KI.Value1
import proofs.«173786_j46231027974388_2_alg».proof.Proof.KI.Value2
import proofs.«173786_j46231027974388_2_alg».proof.Proof.KI.Value3
import proofs.«173786_j46231027974388_2_alg».proof.Proof.KI.Value4
import proofs.«173786_j46231027974388_2_alg».proof.Proof.KI.Value5
import proofs.«173786_j46231027974388_2_alg».proof.Proof.KI.Value6
import proofs.«173786_j46231027974388_2_alg».proof.Proof.KI.Value7
import proofs.«173786_j46231027974388_2_alg».proof.Proof.KI.Value8
import proofs.«173786_j46231027974388_2_alg».proof.Proof.KI.Value9
import proofs.«173786_j46231027974388_2_alg».proof.Proof.KI.Host
import proofs.«173786_j46231027974388_2_alg».proof.Proof.KI.HostTail
import proofs.«173786_j46231027974388_2_alg».proof.Proof.Spec
import proofs.«173786_j46231027974388_2_alg».proof.Proof.RefStages

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)
open Cert.ReferenceIdeal.Read

theorem proj_of_parts {out o : S100000x64.Idx → EReal}
    {a a' : (⟨Cert.ReferenceIdeal.S100000x256, .f32⟩ : BufTy).Contents (Elt Ideal)} {b b' : (⟨Cert.ReferenceIdeal.S256x64, .f32⟩ : BufTy).Contents (Elt Ideal)} {d d' : (⟨Cert.ReferenceIdeal.S64, .f32⟩ : BufTy).Contents (Elt Ideal)}
    (h1 : out = o) (h2 : o = Cert.Spec.projOf (F := Ideal) a b d) (ha : a = a') (hb : b = b') (hd : d = d') :
    out = Cert.Spec.projOf (F := Ideal) a' b' d' := by
  rw [h1, h2, ha, hb, hd]

theorem layer_of_parts {out o : S100000x64.Idx → EReal}
    {g h a : (⟨Cert.ReferenceIdeal.S100000x64, .f32⟩ : BufTy).Contents (Elt Ideal)} {w : (⟨Cert.ReferenceIdeal.S64x64, .f32⟩ : BufTy).Contents (Elt Ideal)}
    {nrm : (⟨Cert.ReferenceIdeal.S1200000, .f32⟩ : BufTy).Contents (Elt Ideal)} {src dst : (⟨Cert.ReferenceIdeal.S1200000, .i32⟩ : BufTy).Contents (Elt Ideal)}
    {hp anc : (⟨Cert.ReferenceIdeal.S100000x64, .f32⟩ : BufTy).Contents (Elt Ideal)} {wt : (⟨Cert.ReferenceIdeal.S64x64, .f32⟩ : BufTy).Contents (Elt Ideal)}
    (h1 : out = o) (h2 : o = Cert.Spec.layerOf (F := Ideal) g h a w)
    (hg : g = Cert.SpecK.aggK (F := Ideal) (Cert.SpecK.scaleEdges (F := Ideal) nrm) src dst hp)
    (hh : h = hp) (ha : a = anc) (hw : w = wt) :
    out = Cert.Spec.layerOf (F := Ideal) (Cert.Spec.scaleNodes (F := Ideal) (Cert.Spec.aggOf (F := Ideal) nrm src dst hp)) hp anc wt := by
  rw [h1, h2, hg, hh, ha, hw, Cert.Spec.aggK_scale]

theorem head_of_parts {y out o : S100000x40.Idx → EReal}
    {h h' : (⟨Cert.ReferenceIdeal.S100000x64, .f32⟩ : BufTy).Contents (Elt Ideal)} {w w' : (⟨Cert.ReferenceIdeal.S64x40, .f32⟩ : BufTy).Contents (Elt Ideal)} {b b' : (⟨Cert.ReferenceIdeal.S40, .f32⟩ : BufTy).Contents (Elt Ideal)}
    (h0 : y = out) (h1 : out = o) (h2 : o = Cert.Spec.headOf (F := Ideal) h w b) (hh : h = h') (hw : w = w') (hb : b = b') :
    y = Cert.Spec.headOf (F := Ideal) h' w' b' := by
  rw [h0, h1, h2, hh, hw, hb]

variable (m : (ℓ : Loc nD τ sig) → Buf (Elt Ideal) ℓ) (c : Dev nD)

theorem feat0 : (outs m 6 main_v36 c : S100000x64.Idx → EReal) = val_main_v38 (F := Ideal) (m ((c : Thread nD τ).loc main_arg0)) (m ((c : Thread nD τ).loc main_arg3)) (m ((c : Thread nD τ).loc main_arg4)) := by
  have h1 : (outs m 6 main_v36 c : S100000x64.Idx → EReal) = o0 m c := by
    show U6 m c main_v36 = o0 m c
    unfold U6; rw [Function.update_self]
  exact (proj_of_parts h1 (final0 (atTc (U5 m)) qfull c) (V5_arg0 m c) (V5_arg3 m c) (V5_arg4 m c)).trans
    (Cert.ReferenceIdeal.Hand.stage_proj (F := Ideal) (m ((c : Thread nD τ).loc main_arg0)) (m ((c : Thread nD τ).loc main_arg3)) (m ((c : Thread nD τ).loc main_arg4))).symm

theorem feat1 : (outs m 8 main_v53 c : S100000x64.Idx → EReal) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h1 : (outs m 8 main_v53 c : S100000x64.Idx → EReal) = o1 m c := by
    show U8 m c main_v53 = o1 m c
    unfold U8; rw [Function.update_self]
  have hg : (U7 m c main_v50 : S100000x64.Idx → EReal)
      = Cert.SpecK.aggK (F := Ideal) (Cert.SpecK.scaleEdges (F := Ideal) (val_main_v33 (F := Ideal) (m ((c : Thread nD τ).loc main_arg1)) (m ((c : Thread nD τ).loc main_arg2)))) (val_main_v1 (F := Ideal) (m ((c : Thread nD τ).loc main_arg1))) (val_main_v3 (F := Ideal) (m ((c : Thread nD τ).loc main_arg1)))
          (val_main_v38 (F := Ideal) (m ((c : Thread nD τ).loc main_arg0)) (m ((c : Thread nD τ).loc main_arg3)) (m ((c : Thread nD τ).loc main_arg4))) := by
    rw [← V7_eq m c, agg1 m (outs m) c, V5_snrm m c, V5_nrm m c, V5_src m c, V5_dst m c, feat0 m c]
  have hh : (U7 m c main_v36 : S100000x64.Idx → EReal) = val_main_v38 (F := Ideal) (m ((c : Thread nD τ).loc main_arg0)) (m ((c : Thread nD τ).loc main_arg3)) (m ((c : Thread nD τ).loc main_arg4)) := by
    rw [← V7_eq m c, hprev1 m (outs m) c, feat0 m c]
  have ha : (U7 m c main_v36 : S100000x64.Idx → EReal) = val_main_v38 (F := Ideal) (m ((c : Thread nD τ).loc main_arg0)) (m ((c : Thread nD τ).loc main_arg3)) (m ((c : Thread nD τ).loc main_arg4)) := by
    rw [← V7_eq m c, orig1 m (outs m) c, feat0 m c]
  have hw : (U7 m c main_v52 : S64x64.Idx → EReal) = val_main_v61 (F := Ideal) (m ((c : Thread nD τ).loc main_arg5)) := by
    rw [← V7_eq m c, w1 m (outs m) c]
  exact (layer_of_parts h1 (final1 (atTc (U7 m)) q1 c) hg hh ha hw).trans
    (Cert.ReferenceIdeal.Hand.stage_layer1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

theorem feat2 : (outs m 10 main_v70 c : S100000x64.Idx → EReal) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h1 : (outs m 10 main_v70 c : S100000x64.Idx → EReal) = o2 m c := by
    show U10 m c main_v70 = o2 m c
    unfold U10; rw [Function.update_self]
  have hg : (U9 m c main_v67 : S100000x64.Idx → EReal)
      = Cert.SpecK.aggK (F := Ideal) (Cert.SpecK.scaleEdges (F := Ideal) (val_main_v33 (F := Ideal) (m ((c : Thread nD τ).loc main_arg1)) (m ((c : Thread nD τ).loc main_arg2)))) (val_main_v1 (F := Ideal) (m ((c : Thread nD τ).loc main_arg1))) (val_main_v3 (F := Ideal) (m ((c : Thread nD τ).loc main_arg1)))
          (val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    rw [← V9_eq m c, agg2 m (outs m) c, V5_snrm m c, V5_nrm m c, V5_src m c, V5_dst m c, feat1 m c]
  have hh : (U9 m c main_v53 : S100000x64.Idx → EReal) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    rw [← V9_eq m c, hprev2 m (outs m) c, feat1 m c]
  have ha : (U9 m c main_v36 : S100000x64.Idx → EReal) = val_main_v38 (F := Ideal) (m ((c : Thread nD τ).loc main_arg0)) (m ((c : Thread nD τ).loc main_arg3)) (m ((c : Thread nD τ).loc main_arg4)) := by
    rw [← V9_eq m c, orig2 m (outs m) c, feat0 m c]
  have hw : (U9 m c main_v69 : S64x64.Idx → EReal) = val_main_v86 (F := Ideal) (m ((c : Thread nD τ).loc main_arg5)) := by
    rw [← V9_eq m c, w2 m (outs m) c]
  exact (layer_of_parts h1 (final2 (atTc (U9 m)) qfull c) hg hh ha hw).trans
    (Cert.ReferenceIdeal.Hand.stage_layer2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

theorem feat3 : (outs m 12 main_v87 c : S100000x64.Idx → EReal) = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h1 : (outs m 12 main_v87 c : S100000x64.Idx → EReal) = o3 m c := by
    show U12 m c main_v87 = o3 m c
    unfold U12; rw [Function.update_self]
  have hg : (U11 m c main_v84 : S100000x64.Idx → EReal)
      = Cert.SpecK.aggK (F := Ideal) (Cert.SpecK.scaleEdges (F := Ideal) (val_main_v33 (F := Ideal) (m ((c : Thread nD τ).loc main_arg1)) (m ((c : Thread nD τ).loc main_arg2)))) (val_main_v1 (F := Ideal) (m ((c : Thread nD τ).loc main_arg1))) (val_main_v3 (F := Ideal) (m ((c : Thread nD τ).loc main_arg1)))
          (val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    rw [← V11_eq m c, agg3 m (outs m) c, V5_snrm m c, V5_nrm m c, V5_src m c, V5_dst m c, feat2 m c]
  have hh : (U11 m c main_v70 : S100000x64.Idx → EReal) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    rw [← V11_eq m c, hprev3 m (outs m) c, feat2 m c]
  have ha : (U11 m c main_v36 : S100000x64.Idx → EReal) = val_main_v38 (F := Ideal) (m ((c : Thread nD τ).loc main_arg0)) (m ((c : Thread nD τ).loc main_arg3)) (m ((c : Thread nD τ).loc main_arg4)) := by
    rw [← V11_eq m c, orig3 m (outs m) c, feat0 m c]
  have hw : (U11 m c main_v86 : S64x64.Idx → EReal) = val_main_v111 (F := Ideal) (m ((c : Thread nD τ).loc main_arg5)) := by
    rw [← V11_eq m c, w3 m (outs m) c]
  exact (layer_of_parts h1 (final3 (atTc (U11 m)) qfull c) hg hh ha hw).trans
    (Cert.ReferenceIdeal.Hand.stage_layer3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

theorem feat4 : (outs m 14 main_v104 c : S100000x64.Idx → EReal) = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h1 : (outs m 14 main_v104 c : S100000x64.Idx → EReal) = o4 m c := by
    show U14 m c main_v104 = o4 m c
    unfold U14; rw [Function.update_self]
  have hg : (U13 m c main_v101 : S100000x64.Idx → EReal)
      = Cert.SpecK.aggK (F := Ideal) (Cert.SpecK.scaleEdges (F := Ideal) (val_main_v33 (F := Ideal) (m ((c : Thread nD τ).loc main_arg1)) (m ((c : Thread nD τ).loc main_arg2)))) (val_main_v1 (F := Ideal) (m ((c : Thread nD τ).loc main_arg1))) (val_main_v3 (F := Ideal) (m ((c : Thread nD τ).loc main_arg1)))
          (val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    rw [← V13_eq m c, agg4 m (outs m) c, V5_snrm m c, V5_nrm m c, V5_src m c, V5_dst m c, feat3 m c]
  have hh : (U13 m c main_v87 : S100000x64.Idx → EReal) = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    rw [← V13_eq m c, hprev4 m (outs m) c, feat3 m c]
  have ha : (U13 m c main_v36 : S100000x64.Idx → EReal) = val_main_v38 (F := Ideal) (m ((c : Thread nD τ).loc main_arg0)) (m ((c : Thread nD τ).loc main_arg3)) (m ((c : Thread nD τ).loc main_arg4)) := by
    rw [← V13_eq m c, orig4 m (outs m) c, feat0 m c]
  have hw : (U13 m c main_v103 : S64x64.Idx → EReal) = val_main_v136 (F := Ideal) (m ((c : Thread nD τ).loc main_arg5)) := by
    rw [← V13_eq m c, w4 m (outs m) c]
  exact (layer_of_parts h1 (final4 (atTc (U13 m)) qfull c) hg hh ha hw).trans
    (Cert.ReferenceIdeal.Hand.stage_layer4 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

theorem feat5 : (outs m 16 main_v121 c : S100000x64.Idx → EReal) = val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h1 : (outs m 16 main_v121 c : S100000x64.Idx → EReal) = o5 m c := by
    show U16 m c main_v121 = o5 m c
    unfold U16; rw [Function.update_self]
  have hg : (U15 m c main_v118 : S100000x64.Idx → EReal)
      = Cert.SpecK.aggK (F := Ideal) (Cert.SpecK.scaleEdges (F := Ideal) (val_main_v33 (F := Ideal) (m ((c : Thread nD τ).loc main_arg1)) (m ((c : Thread nD τ).loc main_arg2)))) (val_main_v1 (F := Ideal) (m ((c : Thread nD τ).loc main_arg1))) (val_main_v3 (F := Ideal) (m ((c : Thread nD τ).loc main_arg1)))
          (val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    rw [← V15_eq m c, agg5 m (outs m) c, V5_snrm m c, V5_nrm m c, V5_src m c, V5_dst m c, feat4 m c]
  have hh : (U15 m c main_v104 : S100000x64.Idx → EReal) = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    rw [← V15_eq m c, hprev5 m (outs m) c, feat4 m c]
  have ha : (U15 m c main_v36 : S100000x64.Idx → EReal) = val_main_v38 (F := Ideal) (m ((c : Thread nD τ).loc main_arg0)) (m ((c : Thread nD τ).loc main_arg3)) (m ((c : Thread nD τ).loc main_arg4)) := by
    rw [← V15_eq m c, orig5 m (outs m) c, feat0 m c]
  have hw : (U15 m c main_v120 : S64x64.Idx → EReal) = val_main_v161 (F := Ideal) (m ((c : Thread nD τ).loc main_arg5)) := by
    rw [← V15_eq m c, w5 m (outs m) c]
  exact (layer_of_parts h1 (final5 (atTc (U15 m)) qfull c) hg hh ha hw).trans
    (Cert.ReferenceIdeal.Hand.stage_layer5 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

theorem feat6 : (outs m 18 main_v138 c : S100000x64.Idx → EReal) = val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h1 : (outs m 18 main_v138 c : S100000x64.Idx → EReal) = o6 m c := by
    show U18 m c main_v138 = o6 m c
    unfold U18; rw [Function.update_self]
  have hg : (U17 m c main_v135 : S100000x64.Idx → EReal)
      = Cert.SpecK.aggK (F := Ideal) (Cert.SpecK.scaleEdges (F := Ideal) (val_main_v33 (F := Ideal) (m ((c : Thread nD τ).loc main_arg1)) (m ((c : Thread nD τ).loc main_arg2)))) (val_main_v1 (F := Ideal) (m ((c : Thread nD τ).loc main_arg1))) (val_main_v3 (F := Ideal) (m ((c : Thread nD τ).loc main_arg1)))
          (val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    rw [← V17_eq m c, agg6 m (outs m) c, V5_snrm m c, V5_nrm m c, V5_src m c, V5_dst m c, feat5 m c]
  have hh : (U17 m c main_v121 : S100000x64.Idx → EReal) = val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    rw [← V17_eq m c, hprev6 m (outs m) c, feat5 m c]
  have ha : (U17 m c main_v36 : S100000x64.Idx → EReal) = val_main_v38 (F := Ideal) (m ((c : Thread nD τ).loc main_arg0)) (m ((c : Thread nD τ).loc main_arg3)) (m ((c : Thread nD τ).loc main_arg4)) := by
    rw [← V17_eq m c, orig6 m (outs m) c, feat0 m c]
  have hw : (U17 m c main_v137 : S64x64.Idx → EReal) = val_main_v186 (F := Ideal) (m ((c : Thread nD τ).loc main_arg5)) := by
    rw [← V17_eq m c, w6 m (outs m) c]
  exact (layer_of_parts h1 (final6 (atTc (U17 m)) qfull c) hg hh ha hw).trans
    (Cert.ReferenceIdeal.Hand.stage_layer6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

theorem feat7 : (outs m 20 main_v155 c : S100000x64.Idx → EReal) = val_main_v213 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h1 : (outs m 20 main_v155 c : S100000x64.Idx → EReal) = o7 m c := by
    show U20 m c main_v155 = o7 m c
    unfold U20; rw [Function.update_self]
  have hg : (U19 m c main_v152 : S100000x64.Idx → EReal)
      = Cert.SpecK.aggK (F := Ideal) (Cert.SpecK.scaleEdges (F := Ideal) (val_main_v33 (F := Ideal) (m ((c : Thread nD τ).loc main_arg1)) (m ((c : Thread nD τ).loc main_arg2)))) (val_main_v1 (F := Ideal) (m ((c : Thread nD τ).loc main_arg1))) (val_main_v3 (F := Ideal) (m ((c : Thread nD τ).loc main_arg1)))
          (val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    rw [← V19_eq m c, agg7 m (outs m) c, V5_snrm m c, V5_nrm m c, V5_src m c, V5_dst m c, feat6 m c]
  have hh : (U19 m c main_v138 : S100000x64.Idx → EReal) = val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    rw [← V19_eq m c, hprev7 m (outs m) c, feat6 m c]
  have ha : (U19 m c main_v36 : S100000x64.Idx → EReal) = val_main_v38 (F := Ideal) (m ((c : Thread nD τ).loc main_arg0)) (m ((c : Thread nD τ).loc main_arg3)) (m ((c : Thread nD τ).loc main_arg4)) := by
    rw [← V19_eq m c, orig7 m (outs m) c, feat0 m c]
  have hw : (U19 m c main_v154 : S64x64.Idx → EReal) = val_main_v211 (F := Ideal) (m ((c : Thread nD τ).loc main_arg5)) := by
    rw [← V19_eq m c, w7 m (outs m) c]
  exact (layer_of_parts h1 (final7 (atTc (U19 m)) qfull c) hg hh ha hw).trans
    (Cert.ReferenceIdeal.Hand.stage_layer7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

theorem feat8 : (outs m 22 main_v172 c : S100000x64.Idx → EReal) = val_main_v238 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h1 : (outs m 22 main_v172 c : S100000x64.Idx → EReal) = o8 m c := by
    show U22 m c main_v172 = o8 m c
    unfold U22; rw [Function.update_self]
  have hg : (U21 m c main_v169 : S100000x64.Idx → EReal)
      = Cert.SpecK.aggK (F := Ideal) (Cert.SpecK.scaleEdges (F := Ideal) (val_main_v33 (F := Ideal) (m ((c : Thread nD τ).loc main_arg1)) (m ((c : Thread nD τ).loc main_arg2)))) (val_main_v1 (F := Ideal) (m ((c : Thread nD τ).loc main_arg1))) (val_main_v3 (F := Ideal) (m ((c : Thread nD τ).loc main_arg1)))
          (val_main_v213 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
    rw [← V21_eq m c, agg8 m (outs m) c, V5_snrm m c, V5_nrm m c, V5_src m c, V5_dst m c, feat7 m c]
  have hh : (U21 m c main_v155 : S100000x64.Idx → EReal) = val_main_v213 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    rw [← V21_eq m c, hprev8 m (outs m) c, feat7 m c]
  have ha : (U21 m c main_v36 : S100000x64.Idx → EReal) = val_main_v38 (F := Ideal) (m ((c : Thread nD τ).loc main_arg0)) (m ((c : Thread nD τ).loc main_arg3)) (m ((c : Thread nD τ).loc main_arg4)) := by
    rw [← V21_eq m c, orig8 m (outs m) c, feat0 m c]
  have hw : (U21 m c main_v171 : S64x64.Idx → EReal) = val_main_v236 (F := Ideal) (m ((c : Thread nD τ).loc main_arg5)) := by
    rw [← V21_eq m c, w8 m (outs m) c]
  exact (layer_of_parts h1 (final8 (atTc (U21 m)) qfull c) hg hh ha hw).trans
    (Cert.ReferenceIdeal.Hand.stage_layer8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

theorem y_eq : (V40 m (outs m) c main_v173 : S100000x40.Idx → EReal) = val_main_v243 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h1 : (outs m 23 main_v173 c : S100000x40.Idx → EReal) = o9 m c := by
    show U23 m c main_v173 = o9 m c
    unfold U23; rw [Function.update_self]
  have hh : (U22 m c main_v172 : S100000x64.Idx → EReal) = val_main_v238 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    rw [← V22_eq m c, V22_h m (outs m) c, feat8 m c]
  have h6 : (U22 m c main_arg6 : S64x40.Idx → EReal) = (m ((c : Thread nD τ).loc main_arg6)) := by
    rw [← V22_eq m c, V22_arg6 m (outs m) c]
  have h7 : (U22 m c main_arg7 : S40.Idx → EReal) = (m ((c : Thread nD τ).loc main_arg7)) := by
    rw [← V22_eq m c, V22_arg7 m (outs m) c]
  exact (head_of_parts (V40_y m (outs m) c) h1 (final9 (atTc (U22 m)) qfull c) hh h6 h7).trans
    (Cert.ReferenceIdeal.Hand.stage_head (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

theorem loss_eq : (V40 m (outs m) c main_v221 : S_.Idx → EReal) = val_main_v291 (F := Ideal) (m ((c : Thread nD τ).loc main_arg5)) :=
  V40_loss m (outs m) c

end Cert.KernelIdeal.Hand

end
-- ==== Proof.RefRunA.lean ====
/- The reference's @main as one straight line of host operations, cut into stretches; for each stretch what it writes and what it leaves alone. -/
import proofs.«173786_j46231027974388_2_alg».proof.Proof.RefRead

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

structure ArgsAt (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7

theorem writes_sub_of_mem {op : HloOp τ sig (Elt F)} {y : Ref sig .tc} {Wl : List (Ref sig .tc)}
    (h : op.writes = {Proc.devRef .tc y}) (hy : y ∈ Wl) :
    op.writes ⊆ (Wl.map (Proc.devRef (τ := τ) .tc)).toFinset := by
  rw [h, Finset.singleton_subset_iff, List.mem_toFinset]
  exact List.mem_map_of_mem hy

abbrev argRefs : List (Ref sig .tc) := [main_arg0, main_arg1, main_arg2, main_arg3, main_arg4, main_arg5, main_arg6, main_arg7]

/-- Operations that leave the eight argument buffers alone keep the arguments where they are. -/
theorem ArgsAt.of_frame {W W' : Valuation τ sig (Elt F)} {x0 x1 x2 x3 x4 x5 x6 x7} (ha : ArgsAt W x0 x1 x2 x3 x4 x5 x6 x7)
    (h : ∀ r ∈ argRefs, W' (Proc.devRef .tc r) = W (Proc.devRef .tc r)) : ArgsAt W' x0 x1 x2 x3 x4 x5 x6 x7 where
  arg0 := (h main_arg0 (by decide)).trans ha.arg0
  arg1 := (h main_arg1 (by decide)).trans ha.arg1
  arg2 := (h main_arg2 (by decide)).trans ha.arg2
  arg3 := (h main_arg3 (by decide)).trans ha.arg3
  arg4 := (h main_arg4 (by decide)).trans ha.arg4
  arg5 := (h main_arg5 (by decide)).trans ha.arg5
  arg6 := (h main_arg6 (by decide)).trans ha.arg6
  arg7 := (h main_arg7 (by decide)).trans ha.arg7

abbrev ops0 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    unary main_arg1 main_v4 ((extractStridedSlice S1x1200000 ![0, 0] · slices_S2x1200000_S1x1200000_0_0) : (⟨S2x1200000, .i32⟩ : BufTy).Contents (Elt F) → (⟨S1x1200000, .i32⟩ : BufTy).Contents (Elt F)),
    reshape main_v4 main_v5 rfl shapeCasts_S1x1200000_S1200000,
    unary main_arg1 main_v6 ((extractStridedSlice S1x1200000 ![1, 0] · slices_S2x1200000_S1x1200000_1_0) : (⟨S2x1200000, .i32⟩ : BufTy).Contents (Elt F) → (⟨S1x1200000, .i32⟩ : BufTy).Contents (Elt F)),
    reshape main_v6 main_v7 rfl shapeCasts_S1x1200000_S1200000,
    nullary main_cst (constant S_ .f32 0x00000000#32),
    unary main_cst main_v8 (broadcastInDim S100000 ![] bcast_S_S100000 : (⟨S_, .f32⟩ : BufTy).Contents (Elt F) → (⟨S100000, .f32⟩ : BufTy).Contents (Elt F)),
    unary main_v5 main_v9 (broadcastInDim S1200000x1 ![0] bcast_S1200000_S1200000x1_0 : (⟨S1200000, .i32⟩ : BufTy).Contents (Elt F) → (⟨S1200000x1, .i32⟩ : BufTy).Contents (Elt F)),
    ternary main_v8 main_v9 main_arg2 main_v10 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_0 (constant S_ .f32 0x00000000#32),
    unary main_cst_0 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v10 main_v13 main_v14 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v10) (TRef.of (T := ⟨S100000, .f32⟩) main_call0_v1) (TRef.of (T := ⟨S100000, .f32⟩) main_v15) select,
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v12) (TRef.of (T := ⟨S100000, .f32⟩) main_v16) (TRef.of (T := ⟨S100000, .f32⟩) main_call1_v1) (TRef.of (T := ⟨S100000, .f32⟩) main_v17) select ]
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub ..⟩
theorem ops0_fresh : (ops0 : List (HloOp τ sig (Elt F))).Forall fun op => op.fresh = ∅ := by
  simp only [List.Forall]; repeat' constructor

abbrev wr0 : List (Ref sig .tc) := [main_v0, main_v1, main_v2, main_v3, main_v4, main_v5, main_v6, main_v7, main_cst, main_v8, main_v9, main_v10, main_cst_0, main_v11, main_v12, main_cst_1, main_v13, main_v14, main_cst_2, main_call0_v0, main_call0_v1, main_v15, main_v16, main_cst_3, main_call1_v0, main_call1_v1, main_v17]
theorem ops0_writes : (ops0 : List (HloOp τ sig (Elt F))).Forall fun op => op.writes ⊆ (wr0.map (Proc.devRef (τ := τ) .tc)).toFinset := by
  simp only [List.Forall]; repeat' apply And.intro
  all_goals exact writes_sub_of_mem rfl (by decide)

theorem frame0 (W : Valuation τ sig (Elt F)) {r : Ref sig .tc} (hr : r ∉ wr0) :
    after ops0 W (Proc.devRef .tc r) = W (Proc.devRef .tc r) :=
  after_of_writes_sub ops0 W ops0_writes hr
theorem args0 {W : Valuation τ sig (Elt F)} {x0 x1 x2 x3 x4 x5 x6 x7} (ha : ArgsAt W x0 x1 x2 x3 x4 x5 x6 x7) : ArgsAt (after ops0 W) x0 x1 x2 x3 x4 x5 x6 x7 :=
  ha.of_frame fun r hr => frame0 W ((by decide : ∀ r ∈ argRefs, r ∉ wr0) r hr)

structure Inv0 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v5 : W (Proc.devRef .tc main_v5) = val_main_v5 (F := F) x1
  v7 : W (Proc.devRef .tc main_v7) = val_main_v7 (F := F) x1
  v17 : W (Proc.devRef .tc main_v17) = val_main_v17 (F := F) x1 x2

abbrev ops1 : List (HloOp τ sig (Elt F)) :=
  [ nullary main_c (constantI S_ 32 0#32),
    unary main_c main_v18 (broadcastInDim S1200000 ![] bcast_S_S1200000 : (⟨S_, .i32⟩ : BufTy).Contents (Elt F) → (⟨S1200000, .i32⟩ : BufTy).Contents (Elt F)),
    binary main_v5 main_v18 main_v19 (cmpi .slt : (⟨S1200000, .i32⟩ : BufTy).Contents (Elt F) → (⟨S1200000, .i32⟩ : BufTy).Contents (Elt F) → (⟨S1200000, .i1⟩ : BufTy).Contents (Elt F)),
    nullary main_c_4 (constantI S_ 32 100000#32),
    unary main_c_4 main_v20 (broadcastInDim S1200000 ![] bcast_S_S1200000 : (⟨S_, .i32⟩ : BufTy).Contents (Elt F) → (⟨S1200000, .i32⟩ : BufTy).Contents (Elt F)),
    binary main_v5 main_v20 main_v21 (addi : (⟨S1200000, .i32⟩ : BufTy).Contents (Elt F) → (⟨S1200000, .i32⟩ : BufTy).Contents (Elt F) → (⟨S1200000, .i32⟩ : BufTy).Contents (Elt F)),
    ternary main_v19 main_v21 main_v5 main_v22 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v22 main_v23 (broadcastInDim S1200000x1 ![0] bcast_S1200000_S1200000x1_0 : (⟨S1200000, .i32⟩ : BufTy).Contents (Elt F) → (⟨S1200000x1, .i32⟩ : BufTy).Contents (Elt F)),
    binary main_v17 main_v23 main_v24 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v24 main_arg2 main_v25 (mulf : (⟨S1200000, .f32⟩ : BufTy).Contents (Elt F) → (⟨S1200000, .f32⟩ : BufTy).Contents (Elt F) → (⟨S1200000, .f32⟩ : BufTy).Contents (Elt F)),
    nullary main_c_5 (constantI S_ 32 0#32),
    unary main_c_5 main_v26 (broadcastInDim S1200000 ![] bcast_S_S1200000 : (⟨S_, .i32⟩ : BufTy).Contents (Elt F) → (⟨S1200000, .i32⟩ : BufTy).Contents (Elt F)),
    binary main_v7 main_v26 main_v27 (cmpi .slt : (⟨S1200000, .i32⟩ : BufTy).Contents (Elt F) → (⟨S1200000, .i32⟩ : BufTy).Contents (Elt F) → (⟨S1200000, .i1⟩ : BufTy).Contents (Elt F)),
    nullary main_c_6 (constantI S_ 32 100000#32),
    unary main_c_6 main_v28 (broadcastInDim S1200000 ![] bcast_S_S1200000 : (⟨S_, .i32⟩ : BufTy).Contents (Elt F) → (⟨S1200000, .i32⟩ : BufTy).Contents (Elt F)),
    binary main_v7 main_v28 main_v29 (addi : (⟨S1200000, .i32⟩ : BufTy).Contents (Elt F) → (⟨S1200000, .i32⟩ : BufTy).Contents (Elt F) → (⟨S1200000, .i32⟩ : BufTy).Contents (Elt F)),
    ternary main_v27 main_v29 main_v7 main_v30 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v30 main_v31 (broadcastInDim S1200000x1 ![0] bcast_S1200000_S1200000x1_0 : (⟨S1200000, .i32⟩ : BufTy).Contents (Elt F) → (⟨S1200000x1, .i32⟩ : BufTy).Contents (Elt F)),
    binary main_v17 main_v31 main_v32 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v25 main_v32 main_v33 (mulf : (⟨S1200000, .f32⟩ : BufTy).Contents (Elt F) → (⟨S1200000, .f32⟩ : BufTy).Contents (Elt F) → (⟨S1200000, .f32⟩ : BufTy).Contents (Elt F)) ]
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops1_fresh : (ops1 : List (HloOp τ sig (Elt F))).Forall fun op => op.fresh = ∅ := by
  simp only [List.Forall]; repeat' constructor

abbrev wr1 : List (Ref sig .tc) := [main_c, main_v18, main_v19, main_c_4, main_v20, main_v21, main_v22, main_v23, main_v24, main_v25, main_c_5, main_v26, main_v27, main_c_6, main_v28, main_v29, main_v30, main_v31, main_v32, main_v33]
theorem ops1_writes : (ops1 : List (HloOp τ sig (Elt F))).Forall fun op => op.writes ⊆ (wr1.map (Proc.devRef (τ := τ) .tc)).toFinset := by
  simp only [List.Forall]; repeat' apply And.intro
  all_goals exact writes_sub_of_mem rfl (by decide)

theorem frame1 (W : Valuation τ sig (Elt F)) {r : Ref sig .tc} (hr : r ∉ wr1) :
    after ops1 W (Proc.devRef .tc r) = W (Proc.devRef .tc r) :=
  after_of_writes_sub ops1 W ops1_writes hr
theorem args1 {W : Valuation τ sig (Elt F)} {x0 x1 x2 x3 x4 x5 x6 x7} (ha : ArgsAt W x0 x1 x2 x3 x4 x5 x6 x7) : ArgsAt (after ops1 W) x0 x1 x2 x3 x4 x5 x6 x7 :=
  ha.of_frame fun r hr => frame1 W ((by decide : ∀ r ∈ argRefs, r ∉ wr1) r hr)

structure Inv1 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2

abbrev ops2 : List (HloOp τ sig (Elt F)) :=
  [ binary main_arg0 main_arg3 main_v34 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg4 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v34 main_v36 main_v37 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v37) (TRef.of (T := ⟨S100000x64, .f32⟩) main_call2_v0) (TRef.of (T := ⟨S100000x64, .f32⟩) main_v38) maximumf,
    unary main_v33 main_v39 (broadcastInDim S1200000x1 ![0] bcast_S1200000_S1200000x1_0 : (⟨S1200000, .f32⟩ : BufTy).Contents (Elt F) → (⟨S1200000x1, .f32⟩ : BufTy).Contents (Elt F)),
    nullary main_c_7 (constantI S_ 32 0#32),
    unary main_c_7 main_v40 (broadcastInDim S1200000 ![] bcast_S_S1200000 : (⟨S_, .i32⟩ : BufTy).Contents (Elt F) → (⟨S1200000, .i32⟩ : BufTy).Contents (Elt F)),
    binary main_v1 main_v40 main_v41 (cmpi .slt : (⟨S1200000, .i32⟩ : BufTy).Contents (Elt F) → (⟨S1200000, .i32⟩ : BufTy).Contents (Elt F) → (⟨S1200000, .i1⟩ : BufTy).Contents (Elt F)),
    nullary main_c_8 (constantI S_ 32 100000#32),
    unary main_c_8 main_v42 (broadcastInDim S1200000 ![] bcast_S_S1200000 : (⟨S_, .i32⟩ : BufTy).Contents (Elt F) → (⟨S1200000, .i32⟩ : BufTy).Contents (Elt F)),
    binary main_v1 main_v42 main_v43 (addi : (⟨S1200000, .i32⟩ : BufTy).Contents (Elt F) → (⟨S1200000, .i32⟩ : BufTy).Contents (Elt F) → (⟨S1200000, .i32⟩ : BufTy).Contents (Elt F)),
    ternary main_v41 main_v43 main_v1 main_v44 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v44 main_v45 (broadcastInDim S1200000x1 ![0] bcast_S1200000_S1200000x1_0 : (⟨S1200000, .i32⟩ : BufTy).Contents (Elt F) → (⟨S1200000x1, .i32⟩ : BufTy).Contents (Elt F)),
    binary main_v38 main_v45 main_v46 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v39 main_v47 (broadcastInDim S1200000x64 ![0, 1] bcast_S1200000x1_S1200000x64_0_1 : (⟨S1200000x1, .f32⟩ : BufTy).Contents (Elt F) → (⟨S1200000x64, .f32⟩ : BufTy).Contents (Elt F)),
    binary main_v47 main_v46 main_v48 (mulf : (⟨S1200000x64, .f32⟩ : BufTy).Contents (Elt F) → (⟨S1200000x64, .f32⟩ : BufTy).Contents (Elt F) → (⟨S1200000x64, .f32⟩ : BufTy).Contents (Elt F)) ]
theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩
theorem ops2_fresh : (ops2 : List (HloOp τ sig (Elt F))).Forall fun op => op.fresh = ∅ := by
  simp only [List.Forall]; repeat' constructor

abbrev wr2 : List (Ref sig .tc) := [main_v34, main_v35, main_v36, main_v37, main_call2_cst, main_call2_v0, main_v38, main_v39, main_c_7, main_v40, main_v41, main_c_8, main_v42, main_v43, main_v44, main_v45, main_v46, main_v47, main_v48]
theorem ops2_writes : (ops2 : List (HloOp τ sig (Elt F))).Forall fun op => op.writes ⊆ (wr2.map (Proc.devRef (τ := τ) .tc)).toFinset := by
  simp only [List.Forall]; repeat' apply And.intro
  all_goals exact writes_sub_of_mem rfl (by decide)

theorem frame2 (W : Valuation τ sig (Elt F)) {r : Ref sig .tc} (hr : r ∉ wr2) :
    after ops2 W (Proc.devRef .tc r) = W (Proc.devRef .tc r) :=
  after_of_writes_sub ops2 W ops2_writes hr
theorem args2 {W : Valuation τ sig (Elt F)} {x0 x1 x2 x3 x4 x5 x6 x7} (ha : ArgsAt W x0 x1 x2 x3 x4 x5 x6 x7) : ArgsAt (after ops2 W) x0 x1 x2 x3 x4 x5 x6 x7 :=
  ha.of_frame fun r hr => frame2 W ((by decide : ∀ r ∈ argRefs, r ∉ wr2) r hr)

structure Inv2 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v48 : W (Proc.devRef .tc main_v48) = val_main_v48 (F := F) x0 x1 x2 x3 x4

abbrev ops3 : List (HloOp τ sig (Elt F)) :=
  [ nullary main_cst_9 (constant S_ .f32 0x00000000#32),
    unary main_cst_9 main_v49 (broadcastInDim S100000x64 ![] bcast_S_S100000x64 : (⟨S_, .f32⟩ : BufTy).Contents (Elt F) → (⟨S100000x64, .f32⟩ : BufTy).Contents (Elt F)),
    unary main_v3 main_v50 (broadcastInDim S1200000x1 ![0] bcast_S1200000_S1200000x1_0 : (⟨S1200000, .i32⟩ : BufTy).Contents (Elt F) → (⟨S1200000x1, .i32⟩ : BufTy).Contents (Elt F)),
    ternary main_v49 main_v50 main_v48 main_v51 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_10 (constant S_ .f32 0x3F4CCCCD#32),
    unary main_cst_10 main_v52 (broadcastInDim S100000x64 ![] bcast_S_S100000x64 : (⟨S_, .f32⟩ : BufTy).Contents (Elt F) → (⟨S100000x64, .f32⟩ : BufTy).Contents (Elt F)),
    binary main_v52 main_v51 main_v53 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3DCCCCCD#32),
    unary main_cst_11 main_v54 (broadcastInDim S100000x64 ![] bcast_S_S100000x64 : (⟨S_, .f32⟩ : BufTy).Contents (Elt F) → (⟨S100000x64, .f32⟩ : BufTy).Contents (Elt F)),
    binary main_v54 main_v38 main_v55 (mulf : (⟨S100000x64, .f32⟩ : BufTy).Contents (Elt F) → (⟨S100000x64, .f32⟩ : BufTy).Contents (Elt F) → (⟨S100000x64, .f32⟩ : BufTy).Contents (Elt F)),
    binary main_v53 main_v55 main_v56 (addf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3DCCCCCD#32),
    unary main_cst_12 main_v57 (broadcastInDim S100000x64 ![] bcast_S_S100000x64 : (⟨S_, .f32⟩ : BufTy).Contents (Elt F) → (⟨S100000x64, .f32⟩ : BufTy).Contents (Elt F)),
    binary main_v57 main_v38 main_v58 (mulf : (⟨S100000x64, .f32⟩ : BufTy).Contents (Elt F) → (⟨S100000x64, .f32⟩ : BufTy).Contents (Elt F) → (⟨S100000x64, .f32⟩ : BufTy).Contents (Elt F)),
    binary main_v56 main_v58 main_v59 (addf : (⟨S100000x64, .f32⟩ : BufTy).Contents (Elt F) → (⟨S100000x64, .f32⟩ : BufTy).Contents (Elt F) → (⟨S100000x64, .f32⟩ : BufTy).Contents (Elt F)),
    unary main_arg5 main_v60 ((extractStridedSlice S1x64x64 ![0, 0, 0] · slices_S8x64x64_S1x64x64_0_0_0) : (⟨S8x64x64, .f32⟩ : BufTy).Contents (Elt F) → (⟨S1x64x64, .f32⟩ : BufTy).Contents (Elt F)),
    reshape main_v60 main_v61 rfl shapeCasts_S1x64x64_S64x64,
    binary main_v59 main_v61 main_v62 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v62) (TRef.of (T := ⟨S100000x64, .f32⟩) main_call3_v0) (TRef.of (T := ⟨S100000x64, .f32⟩) main_v63) maximumf ]
theorem ops3_sub : (ops3 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub ..⟩
theorem ops3_fresh : (ops3 : List (HloOp τ sig (Elt F))).Forall fun op => op.fresh = ∅ := by
  simp only [List.Forall]; repeat' constructor

abbrev wr3 : List (Ref sig .tc) := [main_cst_9, main_v49, main_v50, main_v51, main_cst_10, main_v52, main_v53, main_cst_11, main_v54, main_v55, main_v56, main_cst_12, main_v57, main_v58, main_v59, main_v60, main_v61, main_v62, main_call3_cst, main_call3_v0, main_v63]
theorem ops3_writes : (ops3 : List (HloOp τ sig (Elt F))).Forall fun op => op.writes ⊆ (wr3.map (Proc.devRef (τ := τ) .tc)).toFinset := by
  simp only [List.Forall]; repeat' apply And.intro
  all_goals exact writes_sub_of_mem rfl (by decide)

theorem frame3 (W : Valuation τ sig (Elt F)) {r : Ref sig .tc} (hr : r ∉ wr3) :
    after ops3 W (Proc.devRef .tc r) = W (Proc.devRef .tc r) :=
  after_of_writes_sub ops3 W ops3_writes hr
theorem args3 {W : Valuation τ sig (Elt F)} {x0 x1 x2 x3 x4 x5 x6 x7} (ha : ArgsAt W x0 x1 x2 x3 x4 x5 x6 x7) : ArgsAt (after ops3 W) x0 x1 x2 x3 x4 x5 x6 x7 :=
  ha.of_frame fun r hr => frame3 W ((by decide : ∀ r ∈ argRefs, r ∉ wr3) r hr)

structure Inv3 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v63 : W (Proc.devRef .tc main_v63) = val_main_v63 (F := F) x0 x1 x2 x3 x4 x5

abbrev ops4 : List (HloOp τ sig (Elt F)) :=
  [ unary main_v33 main_v64 (broadcastInDim S1200000x1 ![0] bcast_S1200000_S1200000x1_0 : (⟨S1200000, .f32⟩ : BufTy).Contents (Elt F) → (⟨S1200000x1, .f32⟩ : BufTy).Contents (Elt F)),
    nullary main_c_13 (constantI S_ 32 0#32),
    unary main_c_13 main_v65 (broadcastInDim S1200000 ![] bcast_S_S1200000 : (⟨S_, .i32⟩ : BufTy).Contents (Elt F) → (⟨S1200000, .i32⟩ : BufTy).Contents (Elt F)),
    binary main_v1 main_v65 main_v66 (cmpi .slt : (⟨S1200000, .i32⟩ : BufTy).Contents (Elt F) → (⟨S1200000, .i32⟩ : BufTy).Contents (Elt F) → (⟨S1200000, .i1⟩ : BufTy).Contents (Elt F)),
    nullary main_c_14 (constantI S_ 32 100000#32),
    unary main_c_14 main_v67 (broadcastInDim S1200000 ![] bcast_S_S1200000 : (⟨S_, .i32⟩ : BufTy).Contents (Elt F) → (⟨S1200000, .i32⟩ : BufTy).Contents (Elt F)),
    binary main_v1 main_v67 main_v68 (addi : (⟨S1200000, .i32⟩ : BufTy).Contents (Elt F) → (⟨S1200000, .i32⟩ : BufTy).Contents (Elt F) → (⟨S1200000, .i32⟩ : BufTy).Contents (Elt F)),
    ternary main_v66 main_v68 main_v1 main_v69 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v69 main_v70 (broadcastInDim S1200000x1 ![0] bcast_S1200000_S1200000x1_0 : (⟨S1200000, .i32⟩ : BufTy).Contents (Elt F) → (⟨S1200000x1, .i32⟩ : BufTy).Contents (Elt F)),
    binary main_v63 main_v70 main_v71 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v64 main_v72 (broadcastInDim S1200000x64 ![0, 1] bcast_S1200000x1_S1200000x64_0_1 : (⟨S1200000x1, .f32⟩ : BufTy).Contents (Elt F) → (⟨S1200000x64, .f32⟩ : BufTy).Contents (Elt F)),
    binary main_v72 main_v71 main_v73 (mulf : (⟨S1200000x64, .f32⟩ : BufTy).Contents (Elt F) → (⟨S1200000x64, .f32⟩ : BufTy).Contents (Elt F) → (⟨S1200000x64, .f32⟩ : BufTy).Contents (Elt F)),
    nullary main_cst_15 (constant S_ .f32 0x00000000#32),
    unary main_cst_15 main_v74 (broadcastInDim S100000x64 ![] bcast_S_S100000x64 : (⟨S_, .f32⟩ : BufTy).Contents (Elt F) → (⟨S100000x64, .f32⟩ : BufTy).Contents (Elt F)),
    unary main_v3 main_v75 (broadcastInDim S1200000x1 ![0] bcast_S1200000_S1200000x1_0 : (⟨S1200000, .i32⟩ : BufTy).Contents (Elt F) → (⟨S1200000x1, .i32⟩ : BufTy).Contents (Elt F)),
    ternary main_v74 main_v75 main_v73 main_v76 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_16 (constant S_ .f32 0x3F4CCCCD#32),
    unary main_cst_16 main_v77 (broadcastInDim S100000x64 ![] bcast_S_S100000x64 : (⟨S_, .f32⟩ : BufTy).Contents (Elt F) → (⟨S100000x64, .f32⟩ : BufTy).Contents (Elt F)),
    binary main_v77 main_v76 main_v78 (mulf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x3DCCCCCD#32),
    unary main_cst_17 main_v79 (broadcastInDim S100000x64 ![] bcast_S_S100000x64 : (⟨S_, .f32⟩ : BufTy).Contents (Elt F) → (⟨S100000x64, .f32⟩ : BufTy).Contents (Elt F)),
    binary main_v79 main_v63 main_v80 (mulf : (⟨S100000x64, .f32⟩ : BufTy).Contents (Elt F) → (⟨S100000x64, .f32⟩ : BufTy).Contents (Elt F) → (⟨S100000x64, .f32⟩ : BufTy).Contents (Elt F)),
    binary main_v78 main_v80 main_v81 (addf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3DCCCCCD#32),
    unary main_cst_18 main_v82 (broadcastInDim S100000x64 ![] bcast_S_S100000x64 : (⟨S_, .f32⟩ : BufTy).Contents (Elt F) → (⟨S100000x64, .f32⟩ : BufTy).Contents (Elt F)),
    binary main_v82 main_v38 main_v83 (mulf : (⟨S100000x64, .f32⟩ : BufTy).Contents (Elt F) → (⟨S100000x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)),
    unary main_arg5 main_v85 ((extractStridedSlice S1x64x64 ![1, 0, 0] · slices_S8x64x64_S1x64x64_1_0_0) : (⟨S8x64x64, .f32⟩ : BufTy).Contents (Elt F) → (⟨S1x64x64, .f32⟩ : BufTy).Contents (Elt F)),
    reshape main_v85 main_v86 rfl shapeCasts_S1x64x64_S64x64,
    binary main_v84 main_v86 main_v87 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v87) (TRef.of (T := ⟨S100000x64, .f32⟩) main_call4_v0) (TRef.of (T := ⟨S100000x64, .f32⟩) main_v88) maximumf ]
theorem ops4_sub : (ops4 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub ..⟩
theorem ops4_fresh : (ops4 : List (HloOp τ sig (Elt F))).Forall fun op => op.fresh = ∅ := by
  simp only [List.Forall]; repeat' constructor

abbrev wr4 : List (Ref sig .tc) := [main_v64, main_c_13, main_v65, main_v66, main_c_14, main_v67, main_v68, main_v69, main_v70, main_v71, main_v72, main_v73, main_cst_15, main_v74, main_v75, main_v76, main_cst_16, main_v77, main_v78, main_cst_17, main_v79, main_v80, main_v81, main_cst_18, main_v82, main_v83, main_v84, main_v85, main_v86, main_v87, main_call4_cst, main_call4_v0, main_v88]
theorem ops4_writes : (ops4 : List (HloOp τ sig (Elt F))).Forall fun op => op.writes ⊆ (wr4.map (Proc.devRef (τ := τ) .tc)).toFinset := by
  simp only [List.Forall]; repeat' apply And.intro
  all_goals exact writes_sub_of_mem rfl (by decide)

theorem frame4 (W : Valuation τ sig (Elt F)) {r : Ref sig .tc} (hr : r ∉ wr4) :
    after ops4 W (Proc.devRef .tc r) = W (Proc.devRef .tc r) :=
  after_of_writes_sub ops4 W ops4_writes hr
theorem args4 {W : Valuation τ sig (Elt F)} {x0 x1 x2 x3 x4 x5 x6 x7} (ha : ArgsAt W x0 x1 x2 x3 x4 x5 x6 x7) : ArgsAt (after ops4 W) x0 x1 x2 x3 x4 x5 x6 x7 :=
  ha.of_frame fun r hr => frame4 W ((by decide : ∀ r ∈ argRefs, r ∉ wr4) r hr)

structure Inv4 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v88 : W (Proc.devRef .tc main_v88) = val_main_v88 (F := F) x0 x1 x2 x3 x4 x5

abbrev ops5 : List (HloOp τ sig (Elt F)) :=
  [ unary main_v33 main_v89 (broadcastInDim S1200000x1 ![0] bcast_S1200000_S1200000x1_0 : (⟨S1200000, .f32⟩ : BufTy).Contents (Elt F) → (⟨S1200000x1, .f32⟩ : BufTy).Contents (Elt F)),
    nullary main_c_19 (constantI S_ 32 0#32),
    unary main_c_19 main_v90 (broadcastInDim S1200000 ![] bcast_S_S1200000 : (⟨S_, .i32⟩ : BufTy).Contents (Elt F) → (⟨S1200000, .i32⟩ : BufTy).Contents (Elt F)),
    binary main_v1 main_v90 main_v91 (cmpi .slt : (⟨S1200000, .i32⟩ : BufTy).Contents (Elt F) → (⟨S1200000, .i32⟩ : BufTy).Contents (Elt F) → (⟨S1200000, .i1⟩ : BufTy).Contents (Elt F)),
    nullary main_c_20 (constantI S_ 32 100000#32),
    unary main_c_20 main_v92 (broadcastInDim S1200000 ![] bcast_S_S1200000 : (⟨S_, .i32⟩ : BufTy).Contents (Elt F) → (⟨S1200000, .i32⟩ : BufTy).Contents (Elt F)),
    binary main_v1 main_v92 main_v93 (addi : (⟨S1200000, .i32⟩ : BufTy).Contents (Elt F) → (⟨S1200000, .i32⟩ : BufTy).Contents (Elt F) → (⟨S1200000, .i32⟩ : BufTy).Contents (Elt F)),
    ternary main_v91 main_v93 main_v1 main_v94 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v94 main_v95 (broadcastInDim S1200000x1 ![0] bcast_S1200000_S1200000x1_0 : (⟨S1200000, .i32⟩ : BufTy).Contents (Elt F) → (⟨S1200000x1, .i32⟩ : BufTy).Contents (Elt F)),
    binary main_v88 main_v95 main_v96 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)) ]
theorem ops5_sub : (ops5 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub ..⟩
theorem ops5_fresh : (ops5 : List (HloOp τ sig (Elt F))).Forall fun op => op.fresh = ∅ := by
  simp only [List.Forall]; repeat' constructor

abbrev wr5 : List (Ref sig .tc) := [main_v89, main_c_19, main_v90, main_v91, main_c_20, main_v92, main_v93, main_v94, main_v95, main_v96]
theorem ops5_writes : (ops5 : List (HloOp τ sig (Elt F))).Forall fun op => op.writes ⊆ (wr5.map (Proc.devRef (τ := τ) .tc)).toFinset := by
  simp only [List.Forall]; repeat' apply And.intro
  all_goals exact writes_sub_of_mem rfl (by decide)

theorem frame5 (W : Valuation τ sig (Elt F)) {r : Ref sig .tc} (hr : r ∉ wr5) :
    after ops5 W (Proc.devRef .tc r) = W (Proc.devRef .tc r) :=
  after_of_writes_sub ops5 W ops5_writes hr
theorem args5 {W : Valuation τ sig (Elt F)} {x0 x1 x2 x3 x4 x5 x6 x7} (ha : ArgsAt W x0 x1 x2 x3 x4 x5 x6 x7) : ArgsAt (after ops5 W) x0 x1 x2 x3 x4 x5 x6 x7 :=
  ha.of_frame fun r hr => frame5 W ((by decide : ∀ r ∈ argRefs, r ∉ wr5) r hr)

structure Inv5 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v88 : W (Proc.devRef .tc main_v88) = val_main_v88 (F := F) x0 x1 x2 x3 x4 x5
  v89 : W (Proc.devRef .tc main_v89) = val_main_v89 (F := F) x1 x2
  v96 : W (Proc.devRef .tc main_v96) = val_main_v96 (F := F) x0 x1 x2 x3 x4 x5

abbrev ops6 : List (HloOp τ sig (Elt F)) :=
  [ unary main_v89 main_v97 (broadcastInDim S1200000x64 ![0, 1] bcast_S1200000x1_S1200000x64_0_1 : (⟨S1200000x1, .f32⟩ : BufTy).Contents (Elt F) → (⟨S1200000x64, .f32⟩ : BufTy).Contents (Elt F)),
    binary main_v97 main_v96 main_v98 (mulf : (⟨S1200000x64, .f32⟩ : BufTy).Contents (Elt F) → (⟨S1200000x64, .f32⟩ : BufTy).Contents (Elt F) → (⟨S1200000x64, .f32⟩ : BufTy).Contents (Elt F)),
    nullary main_cst_21 (constant S_ .f32 0x00000000#32),
    unary main_cst_21 main_v99 (broadcastInDim S100000x64 ![] bcast_S_S100000x64 : (⟨S_, .f32⟩ : BufTy).Contents (Elt F) → (⟨S100000x64, .f32⟩ : BufTy).Contents (Elt F)),
    unary main_v3 main_v100 (broadcastInDim S1200000x1 ![0] bcast_S1200000_S1200000x1_0 : (⟨S1200000, .i32⟩ : BufTy).Contents (Elt F) → (⟨S1200000x1, .i32⟩ : BufTy).Contents (Elt F)),
    ternary main_v99 main_v100 main_v98 main_v101 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_22 (constant S_ .f32 0x3F4CCCCD#32),
    unary main_cst_22 main_v102 (broadcastInDim S100000x64 ![] bcast_S_S100000x64 : (⟨S_, .f32⟩ : BufTy).Contents (Elt F) → (⟨S100000x64, .f32⟩ : BufTy).Contents (Elt F)),
    binary main_v102 main_v101 main_v103 (mulf : (⟨S100000x64, .f32⟩ : BufTy).Contents (Elt F) → (⟨S100000x64, .f32⟩ : BufTy).Contents (Elt F) → (⟨S100000x64, .f32⟩ : BufTy).Contents (Elt F)),
    nullary main_cst_23 (constant S_ .f32 0x3DCCCCCD#32),
    unary main_cst_23 main_v104 (broadcastInDim S100000x64 ![] bcast_S_S100000x64 : (⟨S_, .f32⟩ : BufTy).Contents (Elt F) → (⟨S100000x64, .f32⟩ : BufTy).Contents (Elt F)),
    binary main_v104 main_v88 main_v105 (mulf : (⟨S100000x64, .f32⟩ : BufTy).Contents (Elt F) → (⟨S100000x64, .f32⟩ : BufTy).Contents (Elt F) → (⟨S100000x64, .f32⟩ : BufTy).Contents (Elt F)),
    binary main_v103 main_v105 main_v106 (addf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x3DCCCCCD#32),
    unary main_cst_24 main_v107 (broadcastInDim S100000x64 ![] bcast_S_S100000x64 : (⟨S_, .f32⟩ : BufTy).Contents (Elt F) → (⟨S100000x64, .f32⟩ : BufTy).Contents (Elt F)),
    binary main_v107 main_v38 main_v108 (mulf : (⟨S100000x64, .f32⟩ : BufTy).Contents (Elt F) → (⟨S100000x64, .f32⟩ : BufTy).Contents (Elt F) → (⟨S100000x64, .f32⟩ : BufTy).Contents (Elt F)),
    binary main_v106 main_v108 main_v109 (addf : (⟨S100000x64, .f32⟩ : BufTy).Contents (Elt F) → (⟨S100000x64, .f32⟩ : BufTy).Contents (Elt F) → (⟨S100000x64, .f32⟩ : BufTy).Contents (Elt F)),
    unary main_arg5 main_v110 ((extractStridedSlice S1x64x64 ![2, 0, 0] · slices_S8x64x64_S1x64x64_2_0_0) : (⟨S8x64x64, .f32⟩ : BufTy).Contents (Elt F) → (⟨S1x64x64, .f32⟩ : BufTy).Contents (Elt F)),
    reshape main_v110 main_v111 rfl shapeCasts_S1x64x64_S64x64,
    binary main_v109 main_v111 main_v112 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v112) (TRef.of (T := ⟨S100000x64, .f32⟩) main_call5_v0) (TRef.of (T := ⟨S100000x64, .f32⟩) main_v113) maximumf ]
theorem ops6_sub : (ops6 : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub ..⟩
theorem ops6_fresh : (ops6 : List (HloOp τ sig (Elt F))).Forall fun op => op.fresh = ∅ := by
  simp only [List.Forall]; repeat' constructor

abbrev wr6 : List (Ref sig .tc) := [main_v97, main_v98, main_cst_21, main_v99, main_v100, main_v101, main_cst_22, main_v102, main_v103, main_cst_23, main_v104, main_v105, main_v106, main_cst_24, main_v107, main_v108, main_v109, main_v110, main_v111, main_v112, main_call5_cst, main_call5_v0, main_v113]
theorem ops6_writes : (ops6 : List (HloOp τ sig (Elt F))).Forall fun op => op.writes ⊆ (wr6.map (Proc.devRef (τ := τ) .tc)).toFinset := by
  simp only [List.Forall]; repeat' apply And.intro
  all_goals exact writes_sub_of_mem rfl (by decide)

theorem frame6 (W : Valuation τ sig (Elt F)) {r : Ref sig .tc} (hr : r ∉ wr6) :
    after ops6 W (Proc.devRef .tc r) = W (Proc.devRef .tc r) :=
  after_of_writes_sub ops6 W ops6_writes hr
theorem args6 {W : Valuation τ sig (Elt F)} {x0 x1 x2 x3 x4 x5 x6 x7} (ha : ArgsAt W x0 x1 x2 x3 x4 x5 x6 x7) : ArgsAt (after ops6 W) x0 x1 x2 x3 x4 x5 x6 x7 :=
  ha.of_frame fun r hr => frame6 W ((by decide : ∀ r ∈ argRefs, r ∉ wr6) r hr)

structure Inv6 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v113 : W (Proc.devRef .tc main_v113) = val_main_v113 (F := F) x0 x1 x2 x3 x4 x5

abbrev ops7 : List (HloOp τ sig (Elt F)) :=
  [ unary main_v33 main_v114 (broadcastInDim S1200000x1 ![0] bcast_S1200000_S1200000x1_0 : (⟨S1200000, .f32⟩ : BufTy).Contents (Elt F) → (⟨S1200000x1, .f32⟩ : BufTy).Contents (Elt F)),
    nullary main_c_25 (constantI S_ 32 0#32),
    unary main_c_25 main_v115 (broadcastInDim S1200000 ![] bcast_S_S1200000 : (⟨S_, .i32⟩ : BufTy).Contents (Elt F) → (⟨S1200000, .i32⟩ : BufTy).Contents (Elt F)),
    binary main_v1 main_v115 main_v116 (cmpi .slt : (⟨S1200000, .i32⟩ : BufTy).Contents (Elt F) → (⟨S1200000, .i32⟩ : BufTy).Contents (Elt F) → (⟨S1200000, .i1⟩ : BufTy).Contents (Elt F)),
    nullary main_c_26 (constantI S_ 32 100000#32),
    unary main_c_26 main_v117 (broadcastInDim S1200000 ![] bcast_S_S1200000 : (⟨S_, .i32⟩ : BufTy).Contents (Elt F) → (⟨S1200000, .i32⟩ : BufTy).Contents (Elt F)),
    binary main_v1 main_v117 main_v118 (addi : (⟨S1200000, .i32⟩ : BufTy).Contents (Elt F) → (⟨S1200000, .i32⟩ : BufTy).Contents (Elt F) → (⟨S1200000, .i32⟩ : BufTy).Contents (Elt F)),
    ternary main_v116 main_v118 main_v1 main_v119 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v119 main_v120 (broadcastInDim S1200000x1 ![0] bcast_S1200000_S1200000x1_0 : (⟨S1200000, .i32⟩ : BufTy).Contents (Elt F) → (⟨S1200000x1, .i32⟩ : BufTy).Contents (Elt F)),
    binary main_v113 main_v120 main_v121 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v114 main_v122 (broadcastInDim S1200000x64 ![0, 1] bcast_S1200000x1_S1200000x64_0_1 : (⟨S1200000x1, .f32⟩ : BufTy).Contents (Elt F) → (⟨S1200000x64, .f32⟩ : BufTy).Contents (Elt F)),
    binary main_v122 main_v121 main_v123 (mulf : (⟨S1200000x64, .f32⟩ : BufTy).Contents (Elt F) → (⟨S1200000x64, .f32⟩ : BufTy).Contents (Elt F) → (⟨S1200000x64, .f32⟩ : BufTy).Contents (Elt F)),
    nullary main_cst_27 (constant S_ .f32 0x00000000#32),
    unary main_cst_27 main_v124 (broadcastInDim S100000x64 ![] bcast_S_S100000x64 : (⟨S_, .f32⟩ : BufTy).Contents (Elt F) → (⟨S100000x64, .f32⟩ : BufTy).Contents (Elt F)),
    unary main_v3 main_v125 (broadcastInDim S1200000x1 ![0] bcast_S1200000_S1200000x1_0 : (⟨S1200000, .i32⟩ : BufTy).Contents (Elt F) → (⟨S1200000x1, .i32⟩ : BufTy).Contents (Elt F)),
    ternary main_v124 main_v125 main_v123 main_v126 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_28 (constant S_ .f32 0x3F4CCCCD#32),
    unary main_cst_28 main_v127 (broadcastInDim S100000x64 ![] bcast_S_S100000x64 : (⟨S_, .f32⟩ : BufTy).Contents (Elt F) → (⟨S100000x64, .f32⟩ : BufTy).Contents (Elt F)),
    binary main_v127 main_v126 main_v128 (mulf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x3DCCCCCD#32),
    unary main_cst_29 main_v129 (broadcastInDim S100000x64 ![] bcast_S_S100000x64 : (⟨S_, .f32⟩ : BufTy).Contents (Elt F) → (⟨S100000x64, .f32⟩ : BufTy).Contents (Elt F)),
    binary main_v129 main_v113 main_v130 (mulf : (⟨S100000x64, .f32⟩ : BufTy).Contents (Elt F) → (⟨S100000x64, .f32⟩ : BufTy).Contents (Elt F) → (⟨S100000x64, .f32⟩ : BufTy).Contents (Elt F)),
    binary main_v128 main_v130 main_v131 (addf : (⟨S100000x64, .f32⟩ : BufTy).Contents (Elt F) → (⟨S100000x64, .f32⟩ : BufTy).Contents (Elt F) → (⟨S100000x64, .f32⟩ : BufTy).Contents (Elt F)),
    nullary main_cst_30 (constant S_ .f32 0x3DCCCCCD#32),
    unary main_cst_30 main_v132 (broadcastInDim S100000x64 ![] bcast_S_S100000x64 : (⟨S_, .f32⟩ : BufTy).Contents (Elt F) → (⟨S100000x64, .f32⟩ : BufTy).Contents (Elt F)),
    binary main_v132 main_v38 main_v133 (mulf : (⟨S100000x64, .f32⟩ : BufTy).Contents (Elt F) → (⟨S100000x64, .f32⟩ : BufTy).Contents (Elt F) → (⟨S100000x64, .f32⟩ : BufTy).Contents (Elt F)),
    binary main_v131 main_v133 main_v134 (addf : (⟨S100000x64, .f32⟩ : BufTy).Contents (Elt F) → (⟨S100000x64, .f32⟩ : BufTy).Contents (Elt F) → (⟨S100000x64, .f32⟩ : BufTy).Contents (Elt F)),
    unary main_arg5 main_v135 ((extractStridedSlice S1x64x64 ![3, 0, 0] · slices_S8x64x64_S1x64x64_3_0_0) : (⟨S8x64x64, .f32⟩ : BufTy).Contents (Elt F) → (⟨S1x64x64, .f32⟩ : BufTy).Contents (Elt F)),
    reshape main_v135 main_v136 rfl shapeCasts_S1x64x64_S64x64,
    binary main_v134 main_v136 main_v137 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v137) (TRef.of (T := ⟨S100000x64, .f32⟩) main_call6_v0) (TRef.of (T := ⟨S100000x64, .f32⟩) main_v138) maximumf ]
theorem ops7_sub : (ops7 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub ..⟩
theorem ops7_fresh : (ops7 : List (HloOp τ sig (Elt F))).Forall fun op => op.fresh = ∅ := by
  simp only [List.Forall]; repeat' constructor

abbrev wr7 : List (Ref sig .tc) := [main_v114, main_c_25, main_v115, main_v116, main_c_26, main_v117, main_v118, main_v119, main_v120, main_v121, main_v122, main_v123, main_cst_27, main_v124, main_v125, main_v126, main_cst_28, main_v127, main_v128, main_cst_29, main_v129, main_v130, main_v131, main_cst_30, main_v132, main_v133, main_v134, main_v135, main_v136, main_v137, main_call6_cst, main_call6_v0, main_v138]
theorem ops7_writes : (ops7 : List (HloOp τ sig (Elt F))).Forall fun op => op.writes ⊆ (wr7.map (Proc.devRef (τ := τ) .tc)).toFinset := by
  simp only [List.Forall]; repeat' apply And.intro
  all_goals exact writes_sub_of_mem rfl (by decide)

theorem frame7 (W : Valuation τ sig (Elt F)) {r : Ref sig .tc} (hr : r ∉ wr7) :
    after ops7 W (Proc.devRef .tc r) = W (Proc.devRef .tc r) :=
  after_of_writes_sub ops7 W ops7_writes hr
theorem args7 {W : Valuation τ sig (Elt F)} {x0 x1 x2 x3 x4 x5 x6 x7} (ha : ArgsAt W x0 x1 x2 x3 x4 x5 x6 x7) : ArgsAt (after ops7 W) x0 x1 x2 x3 x4 x5 x6 x7 :=
  ha.of_frame fun r hr => frame7 W ((by decide : ∀ r ∈ argRefs, r ∉ wr7) r hr)

structure Inv7 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v138 : W (Proc.devRef .tc main_v138) = val_main_v138 (F := F) x0 x1 x2 x3 x4 x5

abbrev ops8 : List (HloOp τ sig (Elt F)) :=
  [ unary main_v33 main_v139 (broadcastInDim S1200000x1 ![0] bcast_S1200000_S1200000x1_0 : (⟨S1200000, .f32⟩ : BufTy).Contents (Elt F) → (⟨S1200000x1, .f32⟩ : BufTy).Contents (Elt F)),
    nullary main_c_31 (constantI S_ 32 0#32),
    unary main_c_31 main_v140 (broadcastInDim S1200000 ![] bcast_S_S1200000 : (⟨S_, .i32⟩ : BufTy).Contents (Elt F) → (⟨S1200000, .i32⟩ : BufTy).Contents (Elt F)),
    binary main_v1 main_v140 main_v141 (cmpi .slt : (⟨S1200000, .i32⟩ : BufTy).Contents (Elt F) → (⟨S1200000, .i32⟩ : BufTy).Contents (Elt F) → (⟨S1200000, .i1⟩ : BufTy).Contents (Elt F)),
    nullary main_c_32 (constantI S_ 32 100000#32),
    unary main_c_32 main_v142 (broadcastInDim S1200000 ![] bcast_S_S1200000 : (⟨S_, .i32⟩ : BufTy).Contents (Elt F) → (⟨S1200000, .i32⟩ : BufTy).Contents (Elt F)),
    binary main_v1 main_v142 main_v143 (addi : (⟨S1200000, .i32⟩ : BufTy).Contents (Elt F) → (⟨S1200000, .i32⟩ : BufTy).Contents (Elt F) → (⟨S1200000, .i32⟩ : BufTy).Contents (Elt F)),
    ternary main_v141 main_v143 main_v1 main_v144 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ]
theorem ops8_sub : (ops8 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub ..⟩
theorem ops8_fresh : (ops8 : List (HloOp τ sig (Elt F))).Forall fun op => op.fresh = ∅ := by
  simp only [List.Forall]; repeat' constructor

abbrev wr8 : List (Ref sig .tc) := [main_v139, main_c_31, main_v140, main_v141, main_c_32, main_v142, main_v143, main_v144]
theorem ops8_writes : (ops8 : List (HloOp τ sig (Elt F))).Forall fun op => op.writes ⊆ (wr8.map (Proc.devRef (τ := τ) .tc)).toFinset := by
  simp only [List.Forall]; repeat' apply And.intro
  all_goals exact writes_sub_of_mem rfl (by decide)

theorem frame8 (W : Valuation τ sig (Elt F)) {r : Ref sig .tc} (hr : r ∉ wr8) :
    after ops8 W (Proc.devRef .tc r) = W (Proc.devRef .tc r) :=
  after_of_writes_sub ops8 W ops8_writes hr
theorem args8 {W : Valuation τ sig (Elt F)} {x0 x1 x2 x3 x4 x5 x6 x7} (ha : ArgsAt W x0 x1 x2 x3 x4 x5 x6 x7) : ArgsAt (after ops8 W) x0 x1 x2 x3 x4 x5 x6 x7 :=
  ha.of_frame fun r hr => frame8 W ((by decide : ∀ r ∈ argRefs, r ∉ wr8) r hr)

structure Inv8 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v138 : W (Proc.devRef .tc main_v138) = val_main_v138 (F := F) x0 x1 x2 x3 x4 x5
  v139 : W (Proc.devRef .tc main_v139) = val_main_v139 (F := F) x1 x2
  v144 : W (Proc.devRef .tc main_v144) = val_main_v144 (F := F) x1

abbrev ops9 : List (HloOp τ sig (Elt F)) :=
  [ unary main_v144 main_v145 (broadcastInDim S1200000x1 ![0] bcast_S1200000_S1200000x1_0 : (⟨S1200000, .i32⟩ : BufTy).Contents (Elt F) → (⟨S1200000x1, .i32⟩ : BufTy).Contents (Elt F)),
    binary main_v138 main_v145 main_v146 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v139 main_v147 (broadcastInDim S1200000x64 ![0, 1] bcast_S1200000x1_S1200000x64_0_1 : (⟨S1200000x1, .f32⟩ : BufTy).Contents (Elt F) → (⟨S1200000x64, .f32⟩ : BufTy).Contents (Elt F)),
    binary main_v147 main_v146 main_v148 (mulf : (⟨S1200000x64, .f32⟩ : BufTy).Contents (Elt F) → (⟨S1200000x64, .f32⟩ : BufTy).Contents (Elt F) → (⟨S1200000x64, .f32⟩ : BufTy).Contents (Elt F)),
    nullary main_cst_33 (constant S_ .f32 0x00000000#32),
    unary main_cst_33 main_v149 (broadcastInDim S100000x64 ![] bcast_S_S100000x64 : (⟨S_, .f32⟩ : BufTy).Contents (Elt F) → (⟨S100000x64, .f32⟩ : BufTy).Contents (Elt F)),
    unary main_v3 main_v150 (broadcastInDim S1200000x1 ![0] bcast_S1200000_S1200000x1_0 : (⟨S1200000, .i32⟩ : BufTy).Contents (Elt F) → (⟨S1200000x1, .i32⟩ : BufTy).Contents (Elt F)),
    ternary main_v149 main_v150 main_v148 main_v151 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_34 (constant S_ .f32 0x3F4CCCCD#32),
    unary main_cst_34 main_v152 (broadcastInDim S100000x64 ![] bcast_S_S100000x64 : (⟨S_, .f32⟩ : BufTy).Contents (Elt F) → (⟨S100000x64, .f32⟩ : BufTy).Contents (Elt F)),
    binary main_v152 main_v151 main_v153 (mulf : (⟨S100000x64, .f32⟩ : BufTy).Contents (Elt F) → (⟨S100000x64, .f32⟩ : BufTy).Contents (Elt F) → (⟨S100000x64, .f32⟩ : BufTy).Contents (Elt F)),
    nullary main_cst_35 (constant S_ .f32 0x3DCCCCCD#32),
    unary main_cst_35 main_v154 (broadcastInDim S100000x64 ![] bcast_S_S100000x64 : (⟨S_, .f32⟩ : BufTy).Contents (Elt F) → (⟨S100000x64, .f32⟩ : BufTy).Contents (Elt F)),
    binary main_v154 main_v138 main_v155 (mulf : (⟨S100000x64, .f32⟩ : BufTy).Contents (Elt F) → (⟨S100000x64, .f32⟩ : BufTy).Contents (Elt F) → (⟨S100000x64, .f32⟩ : BufTy).Contents (Elt F)),
    binary main_v153 main_v155 main_v156 (addf : (⟨S100000x64, .f32⟩ : BufTy).Contents (Elt F) → (⟨S100000x64, .f32⟩ : BufTy).Contents (Elt F) → (⟨S100000x64, .f32⟩ : BufTy).Contents (Elt F)),
    nullary main_cst_36 (constant S_ .f32 0x3DCCCCCD#32),
    unary main_cst_36 main_v157 (broadcastInDim S100000x64 ![] bcast_S_S100000x64 : (⟨S_, .f32⟩ : BufTy).Contents (Elt F) → (⟨S100000x64, .f32⟩ : BufTy).Contents (Elt F)),
    binary main_v157 main_v38 main_v158 (mulf : (⟨S100000x64, .f32⟩ : BufTy).Contents (Elt F) → (⟨S100000x64, .f32⟩ : BufTy).Contents (Elt F) → (⟨S100000x64, .f32⟩ : BufTy).Contents (Elt F)),
    binary main_v156 main_v158 main_v159 (addf : (⟨S100000x64, .f32⟩ : BufTy).Contents (Elt F) → (⟨S100000x64, .f32⟩ : BufTy).Contents (Elt F) → (⟨S100000x64, .f32⟩ : BufTy).Contents (Elt F)),
    unary main_arg5 main_v160 ((extractStridedSlice S1x64x64 ![4, 0, 0] · slices_S8x64x64_S1x64x64_4_0_0) : (⟨S8x64x64, .f32⟩ : BufTy).Contents (Elt F) → (⟨S1x64x64, .f32⟩ : BufTy).Contents (Elt F)),
    reshape main_v160 main_v161 rfl shapeCasts_S1x64x64_S64x64,
    binary main_v159 main_v161 main_v162 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v162) (TRef.of (T := ⟨S100000x64, .f32⟩) main_call7_v0) (TRef.of (T := ⟨S100000x64, .f32⟩) main_v163) maximumf ]
theorem ops9_sub : (ops9 : List (HloOp τ sig (Elt F))).Forall fun op => op.bufs ⊆ tcRefs τ sig :=
  ⟨unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub ..⟩
theorem ops9_fresh : (ops9 : List (HloOp τ sig (Elt F))).Forall fun op => op.fresh = ∅ := by
  simp only [List.Forall]; repeat' constructor

abbrev wr9 : List (Ref sig .tc) := [main_v145, main_v146, main_v147, main_v148, main_cst_33, main_v149, main_v150, main_v151, main_cst_34, main_v152, main_v153, main_cst_35, main_v154, main_v155, main_v156, main_cst_36, main_v157, main_v158, main_v159, main_v160, main_v161, main_v162, main_call7_cst, main_call7_v0, main_v163]
theorem ops9_writes : (ops9 : List (HloOp τ sig (Elt F))).Forall fun op => op.writes ⊆ (wr9.map (Proc.devRef (τ := τ) .tc)).toFinset := by
  simp only [List.Forall]; repeat' apply And.intro
  all_goals exact writes_sub_of_mem rfl (by decide)

theorem frame9 (W : Valuation τ sig (Elt F)) {r : Ref sig .tc} (hr : r ∉ wr9) :
    after ops9 W (Proc.devRef .tc r) = W (Proc.devRef .tc r) :=
  after_of_writes_sub ops9 W ops9_writes hr
theorem args9 {W : Valuation τ sig (Elt F)} {x0 x1 x2 x3 x4 x5 x6 x7} (ha : ArgsAt W x0 x1 x2 x3 x4 x5 x6 x7) : ArgsAt (after ops9 W) x0 x1 x2 x3 x4 x5 x6 x7 :=
  ha.of_frame fun r hr => frame9 W ((by decide : ∀ r ∈ argRefs, r ∉ wr9) r hr)

structure Inv9 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v163 : W (Proc.devRef .tc main_v163) = val_main_v163 (F := F) x0 x1 x2 x3 x4 x5

abbrev ops10 : List (HloOp τ sig (Elt F)) :=
  [ unary main_v33 main_v164 (broadcastInDim S1200000x1 ![0] bcast_S1200000_S1200000x1_0 : (⟨S1200000, .f32⟩ : BufTy).Contents (Elt F) → (⟨S1200000x1, .f32⟩ : BufTy).Contents (Elt F)),
    nullary main_c_37 (constantI S_ 32 0#32),
    unary main_c_37 main_v165 (broadcastInDim S1200000 ![] bcast_S_S1200000 : (⟨S_, .i32⟩ : BufTy).Contents (Elt F) → (⟨S1200000, .i32⟩ : BufTy).Contents (Elt F)),
    binary main_v1 main_v165 main_v166 (cmpi .slt : (⟨S1200000, .i32⟩ : BufTy).Contents (Elt F) → (⟨S1200000, .i32⟩ : BufTy).Contents (Elt F) → (⟨S1200000, .i1⟩ : BufTy).Contents (Elt F)),
    nullary main_c_38 (constantI S_ 32 100000#32),
    unary main_c_38 main_v167 (broadcastInDim S1200000 ![] bcast_S_S1200000 : (⟨S_, .i32⟩ : BufTy).Contents (Elt F) → (⟨S1200000, .i32⟩ : BufTy).Contents (Elt F)),
    binary main_v1 main_v167 main_v168 (addi : (⟨S1200000, .i32⟩ : BufTy).Contents (Elt F) → (⟨S1200000, .i32⟩ : BufTy).Contents (Elt F) → (⟨S1200000, .i32⟩ : BufTy).Contents (Elt F)),
    ternary main_v166 main_v168 main_v1 main_v169 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v169 main_v170 (broadcastInDim S1200000x1 ![0] bcast_S1200000_S1200000x1_0 : (⟨S1200000, .i32⟩ : BufTy).Contents (Elt F) → (⟨S1200000x1, .i32⟩ : BufTy).Contents (Elt F)),
    binary main_v163 main_v170 main_v171 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v164 main_v172 (broadcastInDim S1200000x64 ![0, 1] bcast_S1200000x1_S1200000x64_0_1 : (⟨S1200000x1, .f32⟩ : BufTy).Contents (Elt F) → (⟨S1200000x64, .f32⟩ : BufTy).Contents (Elt F)),
    binary main_v172 main_v171 main_v173 (mulf : (⟨S1200000x64, .f32⟩ : BufTy).Contents (Elt F) → (⟨S1200000x64, .f32⟩ : BufTy).Contents (Elt F) → (⟨S1200000x64, .f32⟩ : BufTy).Contents (Elt F)),
    nullary main_cst_39 (constant S_ .f32 0x00000000#32),
    unary main_cst_39 main_v174 (broadcastInDim S100000x64 ![] bcast_S_S100000x64 : (⟨S_, .f32⟩ : BufTy).Contents (Elt F) → (⟨S100000x64, .f32⟩ : BufTy).Contents (Elt F)),
    unary main_v3 main_v175 (broadcastInDim S1200000x1 ![0] bcast_S1200000_S1200000x1_0 : (⟨S1200000, .i32⟩ : BufTy).Contents (Elt F) → (⟨S1200000x1, .i32⟩ : BufTy).Contents (Elt F)),
    ternary main_v174 main_v175 main_v173 main_v176 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_40 (constant S_ .f32 0x3F4CCCCD#32),
    unary main_cst_40 main_v177 (broadcastInDim S100000x64 ![] bcast_S_S100000x64 : (⟨S_, .f32⟩ : BufTy).Contents (Elt F) → (⟨S100000x64, .f32⟩ : BufTy).Contents (Elt F)),
    binary main_v177 main_v176 main_v178 (mulf : (⟨S100000x64, .f32⟩ : BufTy).Contents (Elt F) → (⟨S100000x64, .f32⟩ : BufTy).Contents (Elt F) → (⟨S100000x64, .f32⟩ : BufTy).Contents (Elt F)),
    nullary main_cst_41 (constant S_ .f32 0x3DCCCCCD#32),
    unary main_cst_41 main_v179 (broadcastInDim S100000x64 ![] bcast_S_S100000x64 : (⟨S_, .f32⟩ : BufTy).Contents (Elt F) → (⟨S100000x64, .f32⟩ : BufTy).Contents (Elt F)),
    binary main_v179 main_v163 main_v180 (mulf : (⟨S100000x64, .f32⟩ : BufTy).Contents (Elt F) → (⟨S100000x64, .f32⟩ : BufTy).Contents (Elt F) → (⟨S100000x64, .f32⟩ : BufTy).Contents (Elt F)),
    binary main_v178 main_v180 main_v181 (addf : (⟨S100000x64, .f32⟩ : BufTy).Contents (Elt F) → (⟨S100000x64, .f32⟩ : BufTy).Contents (Elt F) → (⟨S100000x64, .f32⟩ : BufTy).Contents (Elt F)),
    nullary main_cst_42 (constant S_ .f32 0x3DCCCCCD#32),
    unary main_cst_42 main_v182 (broadcastInDim S100000x64 ![] bcast_S_S100000x64 : (⟨S_, .f32⟩ : BufTy).Contents (Elt F) → (⟨S100000x64, .f32⟩ : BufTy).Contents (Elt F)),
    binary main_v182 main_v38 main_v183 (mulf : (⟨S100000x64, .f32⟩ : BufTy).Contents (Elt F) → (⟨S100000x64, .f32⟩ : BufTy).Contents (Elt F) → (⟨S100000x64, .f32⟩ : BufTy).Contents (Elt F)),
    binary main_v181 main_v183 main_v184 (addf : (⟨S100000x64, .f32⟩ : BufTy).Contents (Elt F) → (⟨S100000x64, .f32⟩ : BufTy).Contents (Elt F) → (⟨S100000x64, .f32⟩ : BufTy).Contents (Elt F)),
    unary main_arg5 main_v185 ((extractStridedSlice S1x64x64 ![5, 0, 0] · slices_S8x64x64_S1x64x64_5_0_0) : (⟨S8x64x64, .f32⟩ : BufTy).Contents (Elt F) → (⟨S1x64x64, .f32⟩ : BufTy).Contents (Elt F)),
    reshape main_v185 main_v186 rfl shapeCasts_S1x64x64_S64x64,
    binary main_v184 main_v186 main_v187 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v187) (TRef.of (T := ⟨S100000x64, .f32⟩) main_call8_v0) (TRef.of (T := ⟨S100000x64, .f32⟩) main_v188) maximumf ]
theorem ops10_sub : (ops10 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub ..⟩
theorem ops10_fresh : (ops10 : List (HloOp τ sig (Elt F))).Forall fun op => op.fresh = ∅ := by
  simp only [List.Forall]; repeat' constructor

abbrev wr10 : List (Ref sig .tc) := [main_v164, main_c_37, main_v165, main_v166, main_c_38, main_v167, main_v168, main_v169, main_v170, main_v171, main_v172, main_v173, main_cst_39, main_v174, main_v175, main_v176, main_cst_40, main_v177, main_v178, main_cst_41, main_v179, main_v180, main_v181, main_cst_42, main_v182, main_v183, main_v184, main_v185, main_v186, main_v187, main_call8_cst, main_call8_v0, main_v188]
theorem ops10_writes : (ops10 : List (HloOp τ sig (Elt F))).Forall fun op => op.writes ⊆ (wr10.map (Proc.devRef (τ := τ) .tc)).toFinset := by
  simp only [List.Forall]; repeat' apply And.intro
  all_goals exact writes_sub_of_mem rfl (by decide)

theorem frame10 (W : Valuation τ sig (Elt F)) {r : Ref sig .tc} (hr : r ∉ wr10) :
    after ops10 W (Proc.devRef .tc r) = W (Proc.devRef .tc r) :=
  after_of_writes_sub ops10 W ops10_writes hr
theorem args10 {W : Valuation τ sig (Elt F)} {x0 x1 x2 x3 x4 x5 x6 x7} (ha : ArgsAt W x0 x1 x2 x3 x4 x5 x6 x7) : ArgsAt (after ops10 W) x0 x1 x2 x3 x4 x5 x6 x7 :=
  ha.of_frame fun r hr => frame10 W ((by decide : ∀ r ∈ argRefs, r ∉ wr10) r hr)

structure Inv10 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v188 : W (Proc.devRef .tc main_v188) = val_main_v188 (F := F) x0 x1 x2 x3 x4 x5

abbrev ops11 : List (HloOp τ sig (Elt F)) :=
  [ unary main_v33 main_v189 (broadcastInDim S1200000x1 ![0] bcast_S1200000_S1200000x1_0 : (⟨S1200000, .f32⟩ : BufTy).Contents (Elt F) → (⟨S1200000x1, .f32⟩ : BufTy).Contents (Elt F)),
    nullary main_c_43 (constantI S_ 32 0#32),
    unary main_c_43 main_v190 (broadcastInDim S1200000 ![] bcast_S_S1200000 : (⟨S_, .i32⟩ : BufTy).Contents (Elt F) → (⟨S1200000, .i32⟩ : BufTy).Contents (Elt F)),
    binary main_v1 main_v190 main_v191 (cmpi .slt : (⟨S1200000, .i32⟩ : BufTy).Contents (Elt F) → (⟨S1200000, .i32⟩ : BufTy).Contents (Elt F) → (⟨S1200000, .i1⟩ : BufTy).Contents (Elt F)),
    nullary main_c_44 (constantI S_ 32 100000#32),
    unary main_c_44 main_v192 (broadcastInDim S1200000 ![] bcast_S_S1200000 : (⟨S_, .i32⟩ : BufTy).Contents (Elt F) → (⟨S1200000, .i32⟩ : BufTy).Contents (Elt F)) ]
theorem ops11_sub : (ops11 : List (HloOp τ sig (Elt F))).Forall fun op => op.bufs ⊆ tcRefs τ sig :=
  ⟨unary_bufs_sub .., nullary_bufs_sub .., unary_bufs_sub .., binary_bufs_sub .., nullary_bufs_sub .., unary_bufs_sub ..⟩
theorem ops11_fresh : (ops11 : List (HloOp τ sig (Elt F))).Forall fun op => op.fresh = ∅ := by
  simp only [List.Forall]; repeat' constructor

abbrev wr11 : List (Ref sig .tc) := [main_v189, main_c_43, main_v190, main_v191, main_c_44, main_v192]
theorem ops11_writes : (ops11 : List (HloOp τ sig (Elt F))).Forall fun op => op.writes ⊆ (wr11.map (Proc.devRef (τ := τ) .tc)).toFinset := by
  simp only [List.Forall]; repeat' apply And.intro
  all_goals exact writes_sub_of_mem rfl (by decide)

theorem frame11 (W : Valuation τ sig (Elt F)) {r : Ref sig .tc} (hr : r ∉ wr11) :
    after ops11 W (Proc.devRef .tc r) = W (Proc.devRef .tc r) :=
  after_of_writes_sub ops11 W ops11_writes hr
theorem args11 {W : Valuation τ sig (Elt F)} {x0 x1 x2 x3 x4 x5 x6 x7} (ha : ArgsAt W x0 x1 x2 x3 x4 x5 x6 x7) : ArgsAt (after ops11 W) x0 x1 x2 x3 x4 x5 x6 x7 :=
  ha.of_frame fun r hr => frame11 W ((by decide : ∀ r ∈ argRefs, r ∉ wr11) r hr)

structure Inv11 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v188 : W (Proc.devRef .tc main_v188) = val_main_v188 (F := F) x0 x1 x2 x3 x4 x5
  v189 : W (Proc.devRef .tc main_v189) = val_main_v189 (F := F) x1 x2
  v191 : W (Proc.devRef .tc main_v191) = val_main_v191 (F := F) x1
  v192 : W (Proc.devRef .tc main_v192) = val_main_v192 (F := F)

abbrev ops12 : List (HloOp τ sig (Elt F)) :=
  [ binary main_v1 main_v192 main_v193 (addi : (⟨S1200000, .i32⟩ : BufTy).Contents (Elt F) → (⟨S1200000, .i32⟩ : BufTy).Contents (Elt F) → (⟨S1200000, .i32⟩ : BufTy).Contents (Elt F)),
    ternary main_v191 main_v193 main_v1 main_v194 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v194 main_v195 (broadcastInDim S1200000x1 ![0] bcast_S1200000_S1200000x1_0 : (⟨S1200000, .i32⟩ : BufTy).Contents (Elt F) → (⟨S1200000x1, .i32⟩ : BufTy).Contents (Elt F)),
    binary main_v188 main_v195 main_v196 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v189 main_v197 (broadcastInDim S1200000x64 ![0, 1] bcast_S1200000x1_S1200000x64_0_1 : (⟨S1200000x1, .f32⟩ : BufTy).Contents (Elt F) → (⟨S1200000x64, .f32⟩ : BufTy).Contents (Elt F)),
    binary main_v197 main_v196 main_v198 (mulf : (⟨S1200000x64, .f32⟩ : BufTy).Contents (Elt F) → (⟨S1200000x64, .f32⟩ : BufTy).Contents (Elt F) → (⟨S1200000x64, .f32⟩ : BufTy).Contents (Elt F)),
    nullary main_cst_45 (constant S_ .f32 0x00000000#32),
    unary main_cst_45 main_v199 (broadcastInDim S100000x64 ![] bcast_S_S100000x64 : (⟨S_, .f32⟩ : BufTy).Contents (Elt F) → (⟨S100000x64, .f32⟩ : BufTy).Contents (Elt F)),
    unary main_v3 main_v200 (broadcastInDim S1200000x1 ![0] bcast_S1200000_S1200000x1_0 : (⟨S1200000, .i32⟩ : BufTy).Contents (Elt F) → (⟨S1200000x1, .i32⟩ : BufTy).Contents (Elt F)),
    ternary main_v199 main_v200 main_v198 main_v201 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_46 (constant S_ .f32 0x3F4CCCCD#32),
    unary main_cst_46 main_v202 (broadcastInDim S100000x64 ![] bcast_S_S100000x64 : (⟨S_, .f32⟩ : BufTy).Contents (Elt F) → (⟨S100000x64, .f32⟩ : BufTy).Contents (Elt F)),
    binary main_v202 main_v201 main_v203 (mulf : (⟨S100000x64, .f32⟩ : BufTy).Contents (Elt F) → (⟨S100000x64, .f32⟩ : BufTy).Contents (Elt F) → (⟨S100000x64, .f32⟩ : BufTy).Contents (Elt F)),
    nullary main_cst_47 (constant S_ .f32 0x3DCCCCCD#32),
    unary main_cst_47 main_v204 (broadcastInDim S100000x64 ![] bcast_S_S100000x64 : (⟨S_, .f32⟩ : BufTy).Contents (Elt F) → (⟨S100000x64, .f32⟩ : BufTy).Contents (Elt F)),
    binary main_v204 main_v188 main_v205 (mulf : (⟨S100000x64, .f32⟩ : BufTy).Contents (Elt F) → (⟨S100000x64, .f32⟩ : BufTy).Contents (Elt F) → (⟨S100000x64, .f32⟩ : BufTy).Contents (Elt F)),
    binary main_v203 main_v205 main_v206 (addf : (⟨S100000x64, .f32⟩ : BufTy).Contents (Elt F) → (⟨S100000x64, .f32⟩ : BufTy).Contents (Elt F) → (⟨S100000x64, .f32⟩ : BufTy).Contents (Elt F)),
    nullary main_cst_48 (constant S_ .f32 0x3DCCCCCD#32),
    unary main_cst_48 main_v207 (broadcastInDim S100000x64 ![] bcast_S_S100000x64 : (⟨S_, .f32⟩ : BufTy).Contents (Elt F) → (⟨S100000x64, .f32⟩ : BufTy).Contents (Elt F)),
    binary main_v207 main_v38 main_v208 (mulf : (⟨S100000x64, .f32⟩ : BufTy).Contents (Elt F) → (⟨S100000x64, .f32⟩ : BufTy).Contents (Elt F) → (⟨S100000x64, .f32⟩ : BufTy).Contents (Elt F)),
    binary main_v206 main_v208 main_v209 (addf : (⟨S100000x64, .f32⟩ : BufTy).Contents (Elt F) → (⟨S100000x64, .f32⟩ : BufTy).Contents (Elt F) → (⟨S100000x64, .f32⟩ : BufTy).Contents (Elt F)),
    unary main_arg5 main_v210 ((extractStridedSlice S1x64x64 ![6, 0, 0] · slices_S8x64x64_S1x64x64_6_0_0) : (⟨S8x64x64, .f32⟩ : BufTy).Contents (Elt F) → (⟨S1x64x64, .f32⟩ : BufTy).Contents (Elt F)),
    reshape main_v210 main_v211 rfl shapeCasts_S1x64x64_S64x64,
    binary main_v209 main_v211 main_v212 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x64, .f32⟩) main_call9_v0) (broadcastInDim S100000x64 ![] bcast_S_S100000x64),
    TRef.binary (TRef.of (T := ⟨S100000x64, .f32⟩) main_v212) (TRef.of (T := ⟨S100000x64, .f32⟩) main_call9_v0) (TRef.of (T := ⟨S100000x64, .f32⟩) main_v213) maximumf ]
theorem ops12_sub : (ops12 : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub ..⟩
theorem ops12_fresh : (ops12 : List (HloOp τ sig (Elt F))).Forall fun op => op.fresh = ∅ := by
  simp only [List.Forall]; repeat' constructor

abbrev wr12 : List (Ref sig .tc) := [main_v193, main_v194, main_v195, main_v196, main_v197, main_v198, main_cst_45, main_v199, main_v200, main_v201, main_cst_46, main_v202, main_v203, main_cst_47, main_v204, main_v205, main_v206, main_cst_48, main_v207, main_v208, main_v209, main_v210, main_v211, main_v212, main_call9_cst, main_call9_v0, main_v213]
theorem ops12_writes : (ops12 : List (HloOp τ sig (Elt F))).Forall fun op => op.writes ⊆ (wr12.map (Proc.devRef (τ := τ) .tc)).toFinset := by
  simp only [List.Forall]; repeat' apply And.intro
  all_goals exact writes_sub_of_mem rfl (by decide)

theorem frame12 (W : Valuation τ sig (Elt F)) {r : Ref sig .tc} (hr : r ∉ wr12) :
    after ops12 W (Proc.devRef .tc r) = W (Proc.devRef .tc r) :=
  after_of_writes_sub ops12 W ops12_writes hr
theorem args12 {W : Valuation τ sig (Elt F)} {x0 x1 x2 x3 x4 x5 x6 x7} (ha : ArgsAt W x0 x1 x2 x3 x4 x5 x6 x7) : ArgsAt (after ops12 W) x0 x1 x2 x3 x4 x5 x6 x7 :=
  ha.of_frame fun r hr => frame12 W ((by decide : ∀ r ∈ argRefs, r ∉ wr12) r hr)

structure Inv12 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v1 : W (Proc.devRef .tc main_v1) = val_main_v1 (F := F) x1
  v3 : W (Proc.devRef .tc main_v3) = val_main_v3 (F := F) x1
  v33 : W (Proc.devRef .tc main_v33) = val_main_v33 (F := F) x1 x2
  v38 : W (Proc.devRef .tc main_v38) = val_main_v38 (F := F) x0 x3 x4
  v213 : W (Proc.devRef .tc main_v213) = val_main_v213 (F := F) x0 x1 x2 x3 x4 x5

abbrev ops13 : List (HloOp τ sig (Elt F)) :=
  [ unary main_v33 main_v214 (broadcastInDim S1200000x1 ![0] bcast_S1200000_S1200000x1_0 : (⟨S1200000, .f32⟩ : BufTy).Contents (Elt F) → (⟨S1200000x1, .f32⟩ : BufTy).Contents (Elt F)),
    nullary main_c_49 (constantI S_ 32 0#32),
    unary main_c_49 main_v215 (broadcastInDim S1200000 ![] bcast_S_S1200000 : (⟨S_, .i32⟩ : BufTy).Contents (Elt F) → (⟨S1200000, .i32⟩ : BufTy).Contents (Elt F)),
    binary main_v1 main_v215 main_v216 (cmpi .slt : (⟨S1200000, .i32⟩ : BufTy).Contents (Elt F) → (⟨S1200000, .i32⟩ : BufTy).Contents (Elt F) → (⟨S1200000, .i1⟩ : BufTy).Contents (Elt F)),
    nullary main_c_50 (constantI S_ 32 100000#32),
    unary main_c_50 main_v217 (broadcastInDim S1200000 ![] bcast_S_S1200000 : (⟨S_, .i32⟩ : BufTy).Contents (Elt F) → (⟨S1200000, .i32⟩ : BufTy).Contents (Elt F)),
    binary main_v1 main_v217 main_v218 (addi : (⟨S1200000, .i32⟩ : BufTy).Contents (Elt F) → (⟨S1200000, .i32⟩ : BufTy).Contents (Elt F) → (⟨S1200000, .i32⟩ : BufTy).Contents (Elt F)),
    ternary main_v216 main_v218 main_v1 main_v219 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v219 main_v220 (broadcastInDim S1200000x1 ![0] bcast_S1200000_S1200000x1_0 : (⟨S1200000, .i32⟩ : BufTy).Contents (Elt F) → (⟨S1200000x1, .i32⟩ : BufTy).Contents (Elt F)),
    binary main_v213 main_v220 main_v221 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v214 main_v222 (broadcastInDim S1200000x64 ![0, 1] bcast_S1200000x1_S1200000x64_0_1 : (⟨S1200000x1, .f32⟩ : BufTy).Contents (Elt F) → (⟨S1200000x64, .f32⟩ : BufTy).Contents (Elt F)),
    binary main_v222 main_v221 main_v223 (mulf : (⟨S1200000x64, .f32⟩ : BufTy).Contents (Elt F) → (⟨S1200000x64, .f32⟩ : BufTy).Contents (Elt F) → (⟨S1200000x64, .f32⟩ : BufTy).Contents (Elt F)),
    nullary main_cst_51 (constant S_ .f32 0x00000000#32),
    unary main_cst_51 main_v224 (broadcastInDim S100000x64 ![] bcast_S_S100000x64 : (⟨S_, .f32⟩ : BufTy).Contents (Elt F) → (⟨S100000x64, .f32⟩ : BufTy).Contents (Elt F)),
    unary main_v3 main_v225 (broadcastInDim S1200000x1 ![0] bcast_S1200000_S1200000x1_0 : (⟨S1200000, .i32⟩ : BufTy).Contents (Elt F) → (⟨S1200000x1, .i32⟩ : BufTy).Contents (Elt F)),
    ternary main_v224 main_v225 main_v223 main_v226 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_52 (constant S_ .f32 0x3F4CCCCD#32),
    unary main_cst_52 main_v227 (broadcastInDim S100000x64 ![] bcast_S_S100000x64 : (⟨S_, .f32⟩ : BufTy).Contents (Elt F) → (⟨S100000x64, .f32⟩ : BufTy).Contents (Elt F)),
    binary main_v227 main_v226 main_v228 (mulf : (⟨S100000x64, .f32⟩ : BufTy).Contents (Elt F) → (⟨S100000x64, .f32⟩ : BufTy).Contents (Elt F) → (⟨S100000x64, .f32⟩ : BufTy).Contents (Elt F)),
    nullary main_cst_53 (constant S_ .f32 0x3DCCCCCD#32),
    unary main_cst_53 main_v229 (broadcastInDim S100000x64 ![] bcast_S_S100000x64 : (⟨S_, .f32⟩ : BufTy).Contents (Elt F) → (⟨S100000x64, .f32⟩ : BufTy).Contents (Elt F)),
    binary main_v229 main_v213 main_v230 (mulf : (⟨S100000x64, .f32⟩ : BufTy).Contents (Elt F) → (⟨S100000x64, .f32⟩ : BufTy).Contents (Elt F) → (⟨S100000x64, .f32⟩ : BufTy).Contents (Elt F)),
    binary main_v228 main_v230 main_v231 (addf : (⟨S100000x64, .f32⟩ : BufTy).Contents (Elt F) → (⟨S100000x64, .f32⟩ : BufTy).Contents (Elt F) → (⟨S100000x64, .f32⟩ : BufTy).Contents (Elt F)),
    nullary main_cst_54 (constant S_ .f32 0x3DCCCCCD#32),
    unary main_cst_54 main_v232 (broadcastInDim S100000x64 ![] bcast_S_S100000x64 : (⟨S_, .f32⟩ : BufTy).Contents (Elt F) → (⟨S100000x64, .f32⟩ : BufTy).Contents (Elt F)),
    binary main_v232 main_v38 main_v233 (mulf : (⟨S100000x64, .f32⟩ : BufTy).Contents (Elt F) → (⟨S100000x64, .f32⟩ : BufTy).Contents (Elt F) → (⟨S100000x64, .f32⟩ : BufTy).Contents (Elt F)),
    binary main_v231 main_v233 main_v234 (addf : (⟨S100000x64, .f32⟩ : BufTy).Contents (Elt F) → (⟨S100000x64, .f32⟩ : BufTy).Contents (Elt F) → (⟨S100000x64, .f32⟩ : BufTy).Contents (Elt F)),
    unary main_arg5 main_v235 ((extractStridedSlice S1x64x64 ![7, 0, 0] · slices_S8x64x64_S1x64x64_7_0_0) : (⟨S8x64x64, .f32⟩ : BufTy).Contents (Elt F) → (⟨S1x64x64, .f32⟩ : BufTy).Contents (Elt F)),
    reshape main_v235 main_v236 rfl shapeCasts_S1x64x64_S64x64,
    binary main_v234 main_v236 main_v237 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x64, .f32⟩) main_call10_v0) (broadcastInDim S100000x64 ![] bcast_S_S100000x64),
    TRef.binary (TRef.of (T := ⟨S100000x64, .f32⟩) main_v237) (TRef.of (T := ⟨S100000x64, .f32⟩) main_call10_v0) (TRef.of (T := ⟨S100000x64, .f32⟩) main_v238) maximumf,
    binary main_v238 main_arg6 main_v239 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg7 main_v240 (broadcastInDim S1x40 ![1] bcast_S40_S1x40_1 : (⟨S40, .f32⟩ : BufTy).Contents (Elt F) → (⟨S1x40, .f32⟩ : BufTy).Contents (Elt F)),
    unary main_v240 main_v241 (broadcastInDim S100000x40 ![0, 1] bcast_S1x40_S100000x40_0_1 : (⟨S1x40, .f32⟩ : BufTy).Contents (Elt F) → (⟨S100000x40, .f32⟩ : BufTy).Contents (Elt F)),
    binary main_v239 main_v241 main_v242 (addf : (⟨S100000x40, .f32⟩ : BufTy).Contents (Elt F) → (⟨S100000x40, .f32⟩ : BufTy).Contents (Elt F) → (⟨S100000x40, .f32⟩ : BufTy).Contents (Elt F)) ]
theorem ops13_sub : (ops13 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub .., binary_bufs_sub .., unary_bufs_sub .., unary_bufs_sub .., binary_bufs_sub ..⟩
theorem ops13_fresh : (ops13 : List (HloOp τ sig (Elt F))).Forall fun op => op.fresh = ∅ := by
  simp only [List.Forall]; repeat' constructor

abbrev wr13 : List (Ref sig .tc) := [main_v214, main_c_49, main_v215, main_v216, main_c_50, main_v217, main_v218, main_v219, main_v220, main_v221, main_v222, main_v223, main_cst_51, main_v224, main_v225, main_v226, main_cst_52, main_v227, main_v228, main_cst_53, main_v229, main_v230, main_v231, main_cst_54, main_v232, main_v233, main_v234, main_v235, main_v236, main_v237, main_call10_cst, main_call10_v0, main_v238, main_v239, main_v240, main_v241, main_v242]
theorem ops13_writes : (ops13 : List (HloOp τ sig (Elt F))).Forall fun op => op.writes ⊆ (wr13.map (Proc.devRef (τ := τ) .tc)).toFinset := by
  simp only [List.Forall]; repeat' apply And.intro
  all_goals exact writes_sub_of_mem rfl (by decide)

theorem frame13 (W : Valuation τ sig (Elt F)) {r : Ref sig .tc} (hr : r ∉ wr13) :
    after ops13 W (Proc.devRef .tc r) = W (Proc.devRef .tc r) :=
  after_of_writes_sub ops13 W ops13_writes hr
theorem args13 {W : Valuation τ sig (Elt F)} {x0 x1 x2 x3 x4 x5 x6 x7} (ha : ArgsAt W x0 x1 x2 x3 x4 x5 x6 x7) : ArgsAt (after ops13 W) x0 x1 x2 x3 x4 x5 x6 x7 :=
  ha.of_frame fun r hr => frame13 W ((by decide : ∀ r ∈ argRefs, r ∉ wr13) r hr)

structure Inv13 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v242 : W (Proc.devRef .tc main_v242) = val_main_v242 (F := F) x0 x1 x2 x3 x4 x5 x6 x7

abbrev ops14 : List (HloOp τ sig (Elt F)) :=
  [ TRef.nullary (TRef.of (T := ⟨S_, .f32⟩) main_call11_cst) (constant S_ .f32 0xFF800000#32),
    TRef.binary (TRef.of (T := ⟨S100000x40, .f32⟩) main_v242) (TRef.of (T := ⟨S_, .f32⟩) main_call11_cst) (TRef.of (T := ⟨S100000, .f32⟩) main_call11_v0) (fun x v => Host.reduce FloatOps.maximumf x v reducesTo_S100000x40_S100000_d1 h_S_),
    TRef.nullary (TRef.of (T := ⟨S_, .f32⟩) main_call11_cst_0) (constant S_ .f32 0xFF800000#32),
    TRef.unary (TRef.of (T := ⟨S_, .f32⟩) main_call11_cst_0) (TRef.of (T := ⟨S100000, .f32⟩) main_call11_v1) (broadcastInDim S100000 ![] bcast_S_S100000),
    TRef.binary (TRef.of (T := ⟨S100000, .f32⟩) main_call11_v1) (TRef.of (T := ⟨S100000, .f32⟩) main_call11_v0) (TRef.of (T := ⟨S100000, .f32⟩) main_call11_v2) maximumf,
    TRef.unary (TRef.of (T := ⟨S100000, .f32⟩) main_call11_v2) (TRef.of (T := ⟨S100000x1, .f32⟩) main_call11_v3) (broadcastInDim S100000x1 ![0] bcast_S100000_S100000x1_0),
    TRef.unary (TRef.of (T := ⟨S100000x1, .f32⟩) main_call11_v3) (TRef.of (T := ⟨S100000x40, .f32⟩) main_call11_v4) (broadcastInDim S100000x40 ![0, 1] bcast_S100000x1_S100000x40_0_1),
    TRef.binary (TRef.of (T := ⟨S100000x40, .f32⟩) main_v242) (TRef.of (T := ⟨S100000x40, .f32⟩) main_call11_v4) (TRef.of (T := ⟨S100000x40, .f32⟩) main_call11_v5) subf,
    TRef.unary (TRef.of (T := ⟨S100000x40, .f32⟩) main_call11_v5) (TRef.of (T := ⟨S100000x40, .f32⟩) main_call11_v6) Host.exp,
    TRef.nullary (TRef.of (T := ⟨S_, .f32⟩) main_call11_cst_1) (constant S_ .f32 0x00000000#32),
    TRef.binary (TRef.of (T := ⟨S100000x40, .f32⟩) main_call11_v6) (TRef.of (T := ⟨S_, .f32⟩) main_call11_cst_1) (TRef.of (T := ⟨S100000, .f32⟩) main_call11_v7) (fun x v => Host.reduceAdd x v reducesTo_S100000x40_S100000_d1 h_S_),
    TRef.unary (TRef.of (T := ⟨S100000, .f32⟩) main_call11_v7) (TRef.of (T := ⟨S100000x1, .f32⟩) main_call11_v8) (broadcastInDim S100000x1 ![0] bcast_S100000_S100000x1_0),
    TRef.unary (TRef.of (T := ⟨S100000x1, .f32⟩) main_call11_v8) (TRef.of (T := ⟨S100000x1, .f32⟩) main_call11_v9) Host.log,
    TRef.unary (TRef.of (T := ⟨S100000x1, .f32⟩) main_call11_v9) (TRef.of (T := ⟨S100000x40, .f32⟩) main_call11_v10) (broadcastInDim S100000x40 ![0, 1] bcast_S100000x1_S100000x40_0_1),
    TRef.binary (TRef.of (T := ⟨S100000x40, .f32⟩) main_call11_v5) (TRef.of (T := ⟨S100000x40, .f32⟩) main_call11_v10) (TRef.of (T := ⟨S100000x40, .f32⟩) main_v243) subf ]
theorem ops14_sub : (ops14 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops14_fresh : (ops14 : List (HloOp τ sig (Elt F))).Forall fun op => op.fresh = ∅ := by
  simp only [List.Forall]; repeat' constructor

abbrev wr14 : List (Ref sig .tc) := [main_call11_cst, main_call11_v0, main_call11_cst_0, main_call11_v1, main_call11_v2, main_call11_v3, main_call11_v4, main_call11_v5, main_call11_v6, main_call11_cst_1, main_call11_v7, main_call11_v8, main_call11_v9, main_call11_v10, main_v243]
theorem ops14_writes : (ops14 : List (HloOp τ sig (Elt F))).Forall fun op => op.writes ⊆ (wr14.map (Proc.devRef (τ := τ) .tc)).toFinset := by
  simp only [List.Forall]; repeat' apply And.intro
  all_goals exact writes_sub_of_mem rfl (by decide)

theorem frame14 (W : Valuation τ sig (Elt F)) {r : Ref sig .tc} (hr : r ∉ wr14) :
    after ops14 W (Proc.devRef .tc r) = W (Proc.devRef .tc r) :=
  after_of_writes_sub ops14 W ops14_writes hr
theorem args14 {W : Valuation τ sig (Elt F)} {x0 x1 x2 x3 x4 x5 x6 x7} (ha : ArgsAt W x0 x1 x2 x3 x4 x5 x6 x7) : ArgsAt (after ops14 W) x0 x1 x2 x3 x4 x5 x6 x7 :=
  ha.of_frame fun r hr => frame14 W ((by decide : ∀ r ∈ argRefs, r ∉ wr14) r hr)

structure Inv14 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v243 : W (Proc.devRef .tc main_v243) = val_main_v243 (F := F) x0 x1 x2 x3 x4 x5 x6 x7

abbrev ops15 : List (HloOp τ sig (Elt F)) :=
  [ nullary main_v244 (iotaInDim S64x64 32 0),
    nullary main_v245 (iotaInDim S64x64 32 1),
    nullary main_c_55 (constantI S_ 32 0#32),
    unary main_c_55 main_v246 (broadcastInDim S64x64 ![] bcast_S_S64x64 : (⟨S_, .i32⟩ : BufTy).Contents (Elt F) → (⟨S64x64, .i32⟩ : BufTy).Contents (Elt F)),
    binary main_v244 main_v246 main_v247 (addi : (⟨S64x64, .i32⟩ : BufTy).Contents (Elt F) → (⟨S64x64, .i32⟩ : BufTy).Contents (Elt F) → (⟨S64x64, .i32⟩ : BufTy).Contents (Elt F)),
    binary main_v247 main_v245 main_v248 (cmpi .eq : (⟨S64x64, .i32⟩ : BufTy).Contents (Elt F) → (⟨S64x64, .i32⟩ : BufTy).Contents (Elt F) → (⟨S64x64, .i1⟩ : BufTy).Contents (Elt F)),
    unary main_v248 main_v249 (uitofp .f32 : (⟨S64x64, .i1⟩ : BufTy).Contents (Elt F) → (⟨S64x64, .f32⟩ : BufTy).Contents (Elt F)),
    unary main_arg5 main_v250 ((extractStridedSlice S1x64x64 ![0, 0, 0] · slices_S8x64x64_S1x64x64_0_0_0) : (⟨S8x64x64, .f32⟩ : BufTy).Contents (Elt F) → (⟨S1x64x64, .f32⟩ : BufTy).Contents (Elt F)),
    reshape main_v250 main_v251 rfl shapeCasts_S1x64x64_S64x64,
    nullary main_cst_56 (constant S_ .f32 0x3F800000#32),
    unary main_cst_56 main_v252 (broadcastInDim S64x64 ![] bcast_S_S64x64 : (⟨S_, .f32⟩ : BufTy).Contents (Elt F) → (⟨S64x64, .f32⟩ : BufTy).Contents (Elt F)),
    binary main_v249 main_v252 main_v253 (mulf : (⟨S64x64, .f32⟩ : BufTy).Contents (Elt F) → (⟨S64x64, .f32⟩ : BufTy).Contents (Elt F) → (⟨S64x64, .f32⟩ : BufTy).Contents (Elt F)),
    binary main_v251 main_v253 main_v254 (subf : (⟨S64x64, .f32⟩ : BufTy).Contents (Elt F) → (⟨S64x64, .f32⟩ : BufTy).Contents (Elt F) → (⟨S64x64, .f32⟩ : BufTy).Contents (Elt F)),
    TRef.binary (TRef.of (T := ⟨S64x64, .f32⟩) main_v254) (TRef.of (T := ⟨S64x64, .f32⟩) main_v254) (TRef.of (T := ⟨S64x64, .f32⟩) main_call12_v0) mulf,
    TRef.nullary (TRef.of (T := ⟨S_, .f32⟩) main_call12_cst) (constant S_ .f32 0x00000000#32),
    TRef.binary (TRef.of (T := ⟨S64x64, .f32⟩) main_call12_v0) (TRef.of (T := ⟨S_, .f32⟩) main_call12_cst) (TRef.of (T := ⟨S_, .f32⟩) main_call12_v1) (fun x v => Host.reduceAdd x v reducesTo_S64x64_S_d0_1 h_S_),
    TRef.unary (TRef.of (T := ⟨S_, .f32⟩) main_call12_v1) (TRef.of (T := ⟨S_, .f32⟩) main_v255) Host.sqrt,
    unary main_arg5 main_v256 ((extractStridedSlice S1x64x64 ![1, 0, 0] · slices_S8x64x64_S1x64x64_1_0_0) : (⟨S8x64x64, .f32⟩ : BufTy).Contents (Elt F) → (⟨S1x64x64, .f32⟩ : BufTy).Contents (Elt F)),
    reshape main_v256 main_v257 rfl shapeCasts_S1x64x64_S64x64,
    binary main_v257 main_v249 main_v258 (subf : (⟨S64x64, .f32⟩ : BufTy).Contents (Elt F) → (⟨S64x64, .f32⟩ : BufTy).Contents (Elt F) → (⟨S64x64, .f32⟩ : BufTy).Contents (Elt F)),
    TRef.binary (TRef.of (T := ⟨S64x64, .f32⟩) main_v258) (TRef.of (T := ⟨S64x64, .f32⟩) main_v258) (TRef.of (T := ⟨S64x64, .f32⟩) main_call13_v0) mulf,
    TRef.nullary (TRef.of (T := ⟨S_, .f32⟩) main_call13_cst) (constant S_ .f32 0x00000000#32),
    TRef.binary (TRef.of (T := ⟨S64x64, .f32⟩) main_call13_v0) (TRef.of (T := ⟨S_, .f32⟩) main_call13_cst) (TRef.of (T := ⟨S_, .f32⟩) main_call13_v1) (fun x v => Host.reduceAdd x v reducesTo_S64x64_S_d0_1 h_S_),
    TRef.unary (TRef.of (T := ⟨S_, .f32⟩) main_call13_v1) (TRef.of (T := ⟨S_, .f32⟩) main_v259) Host.sqrt,
    binary main_v255 main_v259 main_v260 (addf : (⟨S_, .f32⟩ : BufTy).Contents (Elt F) → (⟨S_, .f32⟩ : BufTy).Contents (Elt F) → (⟨S_, .f32⟩ : BufTy).Contents (Elt F)) ]
theorem ops15_sub : (ops15 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., unary_bufs_sub .., reshape_bufs_sub .., nullary_bufs_sub .., unary_bufs_sub .., binary_bufs_sub .., binary_bufs_sub .., binary_bufs_sub .., nullary_bufs_sub .., binary_bufs_sub .., unary_bufs_sub .., unary_bufs_sub .., reshape_bufs_sub .., binary_bufs_sub .., binary_bufs_sub .., nullary_bufs_sub .., binary_bufs_sub .., unary_bufs_sub .., binary_bufs_sub ..⟩
theorem ops15_fresh : (ops15 : List (HloOp τ sig (Elt F))).Forall fun op => op.fresh = ∅ := by
  simp only [List.Forall]; repeat' constructor

abbrev wr15 : List (Ref sig .tc) := [main_v244, main_v245, main_c_55, main_v246, main_v247, main_v248, main_v249, main_v250, main_v251, main_cst_56, main_v252, main_v253, main_v254, main_call12_v0, main_call12_cst, main_call12_v1, main_v255, main_v256, main_v257, main_v258, main_call13_v0, main_call13_cst, main_call13_v1, main_v259, main_v260]
theorem ops15_writes : (ops15 : List (HloOp τ sig (Elt F))).Forall fun op => op.writes ⊆ (wr15.map (Proc.devRef (τ := τ) .tc)).toFinset := by
  simp only [List.Forall]; repeat' apply And.intro
  all_goals exact writes_sub_of_mem rfl (by decide)

theorem frame15 (W : Valuation τ sig (Elt F)) {r : Ref sig .tc} (hr : r ∉ wr15) :
    after ops15 W (Proc.devRef .tc r) = W (Proc.devRef .tc r) :=
  after_of_writes_sub ops15 W ops15_writes hr
theorem args15 {W : Valuation τ sig (Elt F)} {x0 x1 x2 x3 x4 x5 x6 x7} (ha : ArgsAt W x0 x1 x2 x3 x4 x5 x6 x7) : ArgsAt (after ops15 W) x0 x1 x2 x3 x4 x5 x6 x7 :=
  ha.of_frame fun r hr => frame15 W ((by decide : ∀ r ∈ argRefs, r ∉ wr15) r hr)

structure Inv15 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v243 : W (Proc.devRef .tc main_v243) = val_main_v243 (F := F) x0 x1 x2 x3 x4 x5 x6 x7
  v249 : W (Proc.devRef .tc main_v249) = val_main_v249 (F := F)
  v260 : W (Proc.devRef .tc main_v260) = val_main_v260 (F := F) x5

abbrev ops16 : List (HloOp τ sig (Elt F)) :=
  [ unary main_arg5 main_v261 ((extractStridedSlice S1x64x64 ![2, 0, 0] · slices_S8x64x64_S1x64x64_2_0_0) : (⟨S8x64x64, .f32⟩ : BufTy).Contents (Elt F) → (⟨S1x64x64, .f32⟩ : BufTy).Contents (Elt F)),
    reshape main_v261 main_v262 rfl shapeCasts_S1x64x64_S64x64,
    binary main_v262 main_v249 main_v263 (subf : (⟨S64x64, .f32⟩ : BufTy).Contents (Elt F) → (⟨S64x64, .f32⟩ : BufTy).Contents (Elt F) → (⟨S64x64, .f32⟩ : BufTy).Contents (Elt F)),
    TRef.binary (TRef.of (T := ⟨S64x64, .f32⟩) main_v263) (TRef.of (T := ⟨S64x64, .f32⟩) main_v263) (TRef.of (T := ⟨S64x64, .f32⟩) main_call14_v0) mulf,
    TRef.nullary (TRef.of (T := ⟨S_, .f32⟩) main_call14_cst) (constant S_ .f32 0x00000000#32),
    TRef.binary (TRef.of (T := ⟨S64x64, .f32⟩) main_call14_v0) (TRef.of (T := ⟨S_, .f32⟩) main_call14_cst) (TRef.of (T := ⟨S_, .f32⟩) main_call14_v1) (fun x v => Host.reduceAdd x v reducesTo_S64x64_S_d0_1 h_S_),
    TRef.unary (TRef.of (T := ⟨S_, .f32⟩) main_call14_v1) (TRef.of (T := ⟨S_, .f32⟩) main_v264) Host.sqrt,
    binary main_v260 main_v264 main_v265 (addf : (⟨S_, .f32⟩ : BufTy).Contents (Elt F) → (⟨S_, .f32⟩ : BufTy).Contents (Elt F) → (⟨S_, .f32⟩ : BufTy).Contents (Elt F)),
    unary main_arg5 main_v266 ((extractStridedSlice S1x64x64 ![3, 0, 0] · slices_S8x64x64_S1x64x64_3_0_0) : (⟨S8x64x64, .f32⟩ : BufTy).Contents (Elt F) → (⟨S1x64x64, .f32⟩ : BufTy).Contents (Elt F)),
    reshape main_v266 main_v267 rfl shapeCasts_S1x64x64_S64x64,
    binary main_v267 main_v249 main_v268 (subf : (⟨S64x64, .f32⟩ : BufTy).Contents (Elt F) → (⟨S64x64, .f32⟩ : BufTy).Contents (Elt F) → (⟨S64x64, .f32⟩ : BufTy).Contents (Elt F)),
    TRef.binary (TRef.of (T := ⟨S64x64, .f32⟩) main_v268) (TRef.of (T := ⟨S64x64, .f32⟩) main_v268) (TRef.of (T := ⟨S64x64, .f32⟩) main_call15_v0) mulf,
    TRef.nullary (TRef.of (T := ⟨S_, .f32⟩) main_call15_cst) (constant S_ .f32 0x00000000#32),
    TRef.binary (TRef.of (T := ⟨S64x64, .f32⟩) main_call15_v0) (TRef.of (T := ⟨S_, .f32⟩) main_call15_cst) (TRef.of (T := ⟨S_, .f32⟩) main_call15_v1) (fun x v => Host.reduceAdd x v reducesTo_S64x64_S_d0_1 h_S_),
    TRef.unary (TRef.of (T := ⟨S_, .f32⟩) main_call15_v1) (TRef.of (T := ⟨S_, .f32⟩) main_v269) Host.sqrt,
    binary main_v265 main_v269 main_v270 (addf : (⟨S_, .f32⟩ : BufTy).Contents (Elt F) → (⟨S_, .f32⟩ : BufTy).Contents (Elt F) → (⟨S_, .f32⟩ : BufTy).Contents (Elt F)),
    unary main_arg5 main_v271 ((extractStridedSlice S1x64x64 ![4, 0, 0] · slices_S8x64x64_S1x64x64_4_0_0) : (⟨S8x64x64, .f32⟩ : BufTy).Contents (Elt F) → (⟨S1x64x64, .f32⟩ : BufTy).Contents (Elt F)),
    reshape main_v271 main_v272 rfl shapeCasts_S1x64x64_S64x64,
    binary main_v272 main_v249 main_v273 (subf : (⟨S64x64, .f32⟩ : BufTy).Contents (Elt F) → (⟨S64x64, .f32⟩ : BufTy).Contents (Elt F) → (⟨S64x64, .f32⟩ : BufTy).Contents (Elt F)),
    TRef.binary (TRef.of (T := ⟨S64x64, .f32⟩) main_v273) (TRef.of (T := ⟨S64x64, .f32⟩) main_v273) (TRef.of (T := ⟨S64x64, .f32⟩) main_call16_v0) mulf,
    TRef.nullary (TRef.of (T := ⟨S_, .f32⟩) main_call16_cst) (constant S_ .f32 0x00000000#32),
    TRef.binary (TRef.of (T := ⟨S64x64, .f32⟩) main_call16_v0) (TRef.of (T := ⟨S_, .f32⟩) main_call16_cst) (TRef.of (T := ⟨S_, .f32⟩) main_call16_v1) (fun x v => Host.reduceAdd x v reducesTo_S64x64_S_d0_1 h_S_),
    TRef.unary (TRef.of (T := ⟨S_, .f32⟩) main_call16_v1) (TRef.of (T := ⟨S_, .f32⟩) main_v274) Host.sqrt,
    binary main_v270 main_v274 main_v275 (addf : (⟨S_, .f32⟩ : BufTy).Contents (Elt F) → (⟨S_, .f32⟩ : BufTy).Contents (Elt F) → (⟨S_, .f32⟩ : BufTy).Contents (Elt F)) ]
theorem ops16_sub : (ops16 : List (HloOp τ sig (Elt F))).Forall fun op => op.bufs ⊆ tcRefs τ sig :=
  ⟨unary_bufs_sub .., reshape_bufs_sub .., binary_bufs_sub .., binary_bufs_sub .., nullary_bufs_sub .., binary_bufs_sub .., unary_bufs_sub .., binary_bufs_sub .., unary_bufs_sub .., reshape_bufs_sub .., binary_bufs_sub .., binary_bufs_sub .., nullary_bufs_sub .., binary_bufs_sub .., unary_bufs_sub .., binary_bufs_sub .., unary_bufs_sub .., reshape_bufs_sub .., binary_bufs_sub .., binary_bufs_sub .., nullary_bufs_sub .., binary_bufs_sub .., unary_bufs_sub .., binary_bufs_sub ..⟩
theorem ops16_fresh : (ops16 : List (HloOp τ sig (Elt F))).Forall fun op => op.fresh = ∅ := by
  simp only [List.Forall]; repeat' constructor

abbrev wr16 : List (Ref sig .tc) := [main_v261, main_v262, main_v263, main_call14_v0, main_call14_cst, main_call14_v1, main_v264, main_v265, main_v266, main_v267, main_v268, main_call15_v0, main_call15_cst, main_call15_v1, main_v269, main_v270, main_v271, main_v272, main_v273, main_call16_v0, main_call16_cst, main_call16_v1, main_v274, main_v275]
theorem ops16_writes : (ops16 : List (HloOp τ sig (Elt F))).Forall fun op => op.writes ⊆ (wr16.map (Proc.devRef (τ := τ) .tc)).toFinset := by
  simp only [List.Forall]; repeat' apply And.intro
  all_goals exact writes_sub_of_mem rfl (by decide)

theorem frame16 (W : Valuation τ sig (Elt F)) {r : Ref sig .tc} (hr : r ∉ wr16) :
    after ops16 W (Proc.devRef .tc r) = W (Proc.devRef .tc r) :=
  after_of_writes_sub ops16 W ops16_writes hr
theorem args16 {W : Valuation τ sig (Elt F)} {x0 x1 x2 x3 x4 x5 x6 x7} (ha : ArgsAt W x0 x1 x2 x3 x4 x5 x6 x7) : ArgsAt (after ops16 W) x0 x1 x2 x3 x4 x5 x6 x7 :=
  ha.of_frame fun r hr => frame16 W ((by decide : ∀ r ∈ argRefs, r ∉ wr16) r hr)

structure Inv16 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v243 : W (Proc.devRef .tc main_v243) = val_main_v243 (F := F) x0 x1 x2 x3 x4 x5 x6 x7
  v249 : W (Proc.devRef .tc main_v249) = val_main_v249 (F := F)
  v275 : W (Proc.devRef .tc main_v275) = val_main_v275 (F := F) x5

abbrev ops17 : List (HloOp τ sig (Elt F)) :=
  [ unary main_arg5 main_v276 ((extractStridedSlice S1x64x64 ![5, 0, 0] · slices_S8x64x64_S1x64x64_5_0_0) : (⟨S8x64x64, .f32⟩ : BufTy).Contents (Elt F) → (⟨S1x64x64, .f32⟩ : BufTy).Contents (Elt F)),
    reshape main_v276 main_v277 rfl shapeCasts_S1x64x64_S64x64,
    binary main_v277 main_v249 main_v278 (subf : (⟨S64x64, .f32⟩ : BufTy).Contents (Elt F) → (⟨S64x64, .f32⟩ : BufTy).Contents (Elt F) → (⟨S64x64, .f32⟩ : BufTy).Contents (Elt F)),
    TRef.binary (TRef.of (T := ⟨S64x64, .f32⟩) main_v278) (TRef.of (T := ⟨S64x64, .f32⟩) main_v278) (TRef.of (T := ⟨S64x64, .f32⟩) main_call17_v0) mulf,
    TRef.nullary (TRef.of (T := ⟨S_, .f32⟩) main_call17_cst) (constant S_ .f32 0x00000000#32),
    TRef.binary (TRef.of (T := ⟨S64x64, .f32⟩) main_call17_v0) (TRef.of (T := ⟨S_, .f32⟩) main_call17_cst) (TRef.of (T := ⟨S_, .f32⟩) main_call17_v1) (fun x v => Host.reduceAdd x v reducesTo_S64x64_S_d0_1 h_S_),
    TRef.unary (TRef.of (T := ⟨S_, .f32⟩) main_call17_v1) (TRef.of (T := ⟨S_, .f32⟩) main_v279) Host.sqrt,
    binary main_v275 main_v279 main_v280 (addf : (⟨S_, .f32⟩ : BufTy).Contents (Elt F) → (⟨S_, .f32⟩ : BufTy).Contents (Elt F) → (⟨S_, .f32⟩ : BufTy).Contents (Elt F)),
    unary main_arg5 main_v281 ((extractStridedSlice S1x64x64 ![6, 0, 0] · slices_S8x64x64_S1x64x64_6_0_0) : (⟨S8x64x64, .f32⟩ : BufTy).Contents (Elt F) → (⟨S1x64x64, .f32⟩ : BufTy).Contents (Elt F)),
    reshape main_v281 main_v282 rfl shapeCasts_S1x64x64_S64x64,
    binary main_v282 main_v249 main_v283 (subf : (⟨S64x64, .f32⟩ : BufTy).Contents (Elt F) → (⟨S64x64, .f32⟩ : BufTy).Contents (Elt F) → (⟨S64x64, .f32⟩ : BufTy).Contents (Elt F)),
    TRef.binary (TRef.of (T := ⟨S64x64, .f32⟩) main_v283) (TRef.of (T := ⟨S64x64, .f32⟩) main_v283) (TRef.of (T := ⟨S64x64, .f32⟩) main_call18_v0) mulf,
    TRef.nullary (TRef.of (T := ⟨S_, .f32⟩) main_call18_cst) (constant S_ .f32 0x00000000#32),
    TRef.binary (TRef.of (T := ⟨S64x64, .f32⟩) main_call18_v0) (TRef.of (T := ⟨S_, .f32⟩) main_call18_cst) (TRef.of (T := ⟨S_, .f32⟩) main_call18_v1) (fun x v => Host.reduceAdd x v reducesTo_S64x64_S_d0_1 h_S_),
    TRef.unary (TRef.of (T := ⟨S_, .f32⟩) main_call18_v1) (TRef.of (T := ⟨S_, .f32⟩) main_v284) Host.sqrt,
    binary main_v280 main_v284 main_v285 (addf : (⟨S_, .f32⟩ : BufTy).Contents (Elt F) → (⟨S_, .f32⟩ : BufTy).Contents (Elt F) → (⟨S_, .f32⟩ : BufTy).Contents (Elt F)),
    unary main_arg5 main_v286 ((extractStridedSlice S1x64x64 ![7, 0, 0] · slices_S8x64x64_S1x64x64_7_0_0) : (⟨S8x64x64, .f32⟩ : BufTy).Contents (Elt F) → (⟨S1x64x64, .f32⟩ : BufTy).Contents (Elt F)),
    reshape main_v286 main_v287 rfl shapeCasts_S1x64x64_S64x64,
    binary main_v287 main_v249 main_v288 (subf : (⟨S64x64, .f32⟩ : BufTy).Contents (Elt F) → (⟨S64x64, .f32⟩ : BufTy).Contents (Elt F) → (⟨S64x64, .f32⟩ : BufTy).Contents (Elt F)),
    TRef.binary (TRef.of (T := ⟨S64x64, .f32⟩) main_v288) (TRef.of (T := ⟨S64x64, .f32⟩) main_v288) (TRef.of (T := ⟨S64x64, .f32⟩) main_call19_v0) mulf,
    TRef.nullary (TRef.of (T := ⟨S_, .f32⟩) main_call19_cst) (constant S_ .f32 0x00000000#32),
    TRef.binary (TRef.of (T := ⟨S64x64, .f32⟩) main_call19_v0) (TRef.of (T := ⟨S_, .f32⟩) main_call19_cst) (TRef.of (T := ⟨S_, .f32⟩) main_call19_v1) (fun x v => Host.reduceAdd x v reducesTo_S64x64_S_d0_1 h_S_),
    TRef.unary (TRef.of (T := ⟨S_, .f32⟩) main_call19_v1) (TRef.of (T := ⟨S_, .f32⟩) main_v289) Host.sqrt,
    binary main_v285 main_v289 main_v290 (addf : (⟨S_, .f32⟩ : BufTy).Contents (Elt F) → (⟨S_, .f32⟩ : BufTy).Contents (Elt F) → (⟨S_, .f32⟩ : BufTy).Contents (Elt F)),
    nullary main_cst_57 (constant S_ .f32 0x3F800000#32),
    binary main_cst_57 main_v290 main_v291 (mulf : (⟨S_, .f32⟩ : BufTy).Contents (Elt F) → (⟨S_, .f32⟩ : BufTy).Contents (Elt F) → (⟨S_, .f32⟩ : BufTy).Contents (Elt F)) ]
theorem ops17_sub : (ops17 : List (HloOp τ sig (Elt F))).Forall fun op => op.bufs ⊆ tcRefs τ sig :=
  ⟨unary_bufs_sub .., reshape_bufs_sub .., binary_bufs_sub .., binary_bufs_sub .., nullary_bufs_sub .., binary_bufs_sub .., unary_bufs_sub .., binary_bufs_sub .., unary_bufs_sub .., reshape_bufs_sub .., binary_bufs_sub .., binary_bufs_sub .., nullary_bufs_sub .., binary_bufs_sub .., unary_bufs_sub .., binary_bufs_sub .., unary_bufs_sub .., reshape_bufs_sub .., binary_bufs_sub .., binary_bufs_sub .., nullary_bufs_sub .., binary_bufs_sub .., unary_bufs_sub .., binary_bufs_sub .., nullary_bufs_sub .., binary_bufs_sub ..⟩
theorem ops17_fresh : (ops17 : List (HloOp τ sig (Elt F))).Forall fun op => op.fresh = ∅ := by
  simp only [List.Forall]; repeat' constructor

abbrev wr17 : List (Ref sig .tc) := [main_v276, main_v277, main_v278, main_call17_v0, main_call17_cst, main_call17_v1, main_v279, main_v280, main_v281, main_v282, main_v283, main_call18_v0, main_call18_cst, main_call18_v1, main_v284, main_v285, main_v286, main_v287, main_v288, main_call19_v0, main_call19_cst, main_call19_v1, main_v289, main_v290, main_cst_57, main_v291]
theorem ops17_writes : (ops17 : List (HloOp τ sig (Elt F))).Forall fun op => op.writes ⊆ (wr17.map (Proc.devRef (τ := τ) .tc)).toFinset := by
  simp only [List.Forall]; repeat' apply And.intro
  all_goals exact writes_sub_of_mem rfl (by decide)

theorem frame17 (W : Valuation τ sig (Elt F)) {r : Ref sig .tc} (hr : r ∉ wr17) :
    after ops17 W (Proc.devRef .tc r) = W (Proc.devRef .tc r) :=
  after_of_writes_sub ops17 W ops17_writes hr
theorem args17 {W : Valuation τ sig (Elt F)} {x0 x1 x2 x3 x4 x5 x6 x7} (ha : ArgsAt W x0 x1 x2 x3 x4 x5 x6 x7) : ArgsAt (after ops17 W) x0 x1 x2 x3 x4 x5 x6 x7 :=
  ha.of_frame fun r hr => frame17 W ((by decide : ∀ r ∈ argRefs, r ∉ wr17) r hr)

structure Inv17 (W : Valuation τ sig (Elt F)) (x0 : (⟨S100000x256, .f32⟩ : BufTy).Contents (Elt F)) (x1 : (⟨S2x1200000, .i32⟩ : BufTy).Contents (Elt F)) (x2 : (⟨S1200000, .f32⟩ : BufTy).Contents (Elt F)) (x3 : (⟨S256x64, .f32⟩ : BufTy).Contents (Elt F)) (x4 : (⟨S64, .f32⟩ : BufTy).Contents (Elt F)) (x5 : (⟨S8x64x64, .f32⟩ : BufTy).Contents (Elt F)) (x6 : (⟨S64x40, .f32⟩ : BufTy).Contents (Elt F)) (x7 : (⟨S40, .f32⟩ : BufTy).Contents (Elt F)) : Prop where
  v243 : W (Proc.devRef .tc main_v243) = val_main_v243 (F := F) x0 x1 x2 x3 x4 x5 x6 x7
  v291 : W (Proc.devRef .tc main_v291) = val_main_v291 (F := F) x5

theorem forall_app {p : HloOp τ sig (Elt F) → Prop} {xs ys : List (HloOp τ sig (Elt F))} (hx : xs.Forall p) (hy : ys.Forall p) :
    (xs ++ ys).Forall p := List.forall_append.2 ⟨hx, hy⟩

abbrev opsW0 : List (HloOp τ sig (Elt F)) := ops0 ++ (ops1 ++ (ops2))
set_option maxRecDepth 8192 in
set_option maxHeartbeats 4000000 in
theorem main_part0_eq (c : Dev nD) : main_part0 (F := F) c = seq opsW0 := rfl
theorem opsW0_sub : (opsW0 : List (HloOp τ sig (Elt F))).Forall fun op => op.bufs ⊆ tcRefs τ sig :=
  forall_app ops0_sub (forall_app ops1_sub (ops2_sub))
theorem opsW0_fresh : (opsW0 : List (HloOp τ sig (Elt F))).Forall fun op => op.fresh = ∅ :=
  forall_app ops0_fresh (forall_app ops1_fresh (ops2_fresh))

abbrev opsW1 : List (HloOp τ sig (Elt F)) := ops3 ++ (ops4 ++ (ops5))
set_option maxRecDepth 8192 in
set_option maxHeartbeats 4000000 in
theorem main_part1_eq (c : Dev nD) : main_part1 (F := F) c = seq opsW1 := rfl
theorem opsW1_sub : (opsW1 : List (HloOp τ sig (Elt F))).Forall fun op => op.bufs ⊆ tcRefs τ sig :=
  forall_app ops3_sub (forall_app ops4_sub (ops5_sub))
theorem opsW1_fresh : (opsW1 : List (HloOp τ sig (Elt F))).Forall fun op => op.fresh = ∅ :=
  forall_app ops3_fresh (forall_app ops4_fresh (ops5_fresh))

abbrev opsW2 : List (HloOp τ sig (Elt F)) := ops6 ++ (ops7 ++ (ops8))
set_option maxRecDepth 8192 in
set_option maxHeartbeats 4000000 in
theorem main_part2_eq (c : Dev nD) : main_part2 (F := F) c = seq opsW2 := rfl
theorem opsW2_sub : (opsW2 : List (HloOp τ sig (Elt F))).Forall fun op => op.bufs ⊆ tcRefs τ sig :=
  forall_app ops6_sub (forall_app ops7_sub (ops8_sub))
theorem opsW2_fresh : (opsW2 : List (HloOp τ sig (Elt F))).Forall fun op => op.fresh = ∅ :=
  forall_app ops6_fresh (forall_app ops7_fresh (ops8_fresh))

abbrev opsW3 : List (HloOp τ sig (Elt F)) := ops9 ++ (ops10 ++ (ops11))
set_option maxRecDepth 8192 in
set_option maxHeartbeats 4000000 in
theorem main_part3_eq (c : Dev nD) : main_part3 (F := F) c = seq opsW3 := rfl
theorem opsW3_sub : (opsW3 : List (HloOp τ sig (Elt F))).Forall fun op => op.bufs ⊆ tcRefs τ sig :=
  forall_app ops9_sub (forall_app ops10_sub (ops11_sub))
theorem opsW3_fresh : (opsW3 : List (HloOp τ sig (Elt F))).Forall fun op => op.fresh = ∅ :=
  forall_app ops9_fresh (forall_app ops10_fresh (ops11_fresh))

abbrev opsW4 : List (HloOp τ sig (Elt F)) := ops12 ++ (ops13)
set_option maxRecDepth 8192 in
set_option maxHeartbeats 4000000 in
theorem main_part4_eq (c : Dev nD) : main_part4 (F := F) c = seq opsW4 := rfl
theorem opsW4_sub : (opsW4 : List (HloOp τ sig (Elt F))).Forall fun op => op.bufs ⊆ tcRefs τ sig :=
  forall_app ops12_sub (ops13_sub)
theorem opsW4_fresh : (opsW4 : List (HloOp τ sig (Elt F))).Forall fun op => op.fresh = ∅ :=
  forall_app ops12_fresh (ops13_fresh)

abbrev opsW5 : List (HloOp τ sig (Elt F)) := ops14 ++ (ops15 ++ (ops16 ++ (ops17)))
set_option maxRecDepth 8192 in
set_option maxHeartbeats 4000000 in
theorem main_part5_eq (c : Dev nD) : main_part5 (F := F) c = seq opsW5 := rfl
theorem opsW5_sub : (opsW5 : List (HloOp τ sig (Elt F))).Forall fun op => op.bufs ⊆ tcRefs τ sig :=
  forall_app ops14_sub (forall_app ops15_sub (forall_app ops16_sub (ops17_sub)))
theorem opsW5_fresh : (opsW5 : List (HloOp τ sig (Elt F))).Forall fun op => op.fresh = ∅ :=
  forall_app ops14_fresh (forall_app ops15_fresh (forall_app ops16_fresh (ops17_fresh)))

abbrev allOps : List (HloOp τ sig (Elt F)) := opsW0 ++ (opsW1 ++ (opsW2 ++ (opsW3 ++ (opsW4 ++ (opsW5)))))
theorem main_eq (c : Dev nD) : main (F := F) c = seq allOps := by
  unfold main
  simp only [main_part0_eq, main_part1_eq, main_part2_eq, main_part3_eq, main_part4_eq, main_part5_eq, allOps, seq_append]
theorem allOps_sub : (allOps : List (HloOp τ sig (Elt F))).Forall fun op => op.bufs ⊆ tcRefs τ sig :=
  forall_app opsW0_sub (forall_app opsW1_sub (forall_app opsW2_sub (forall_app opsW3_sub (forall_app opsW4_sub (opsW5_sub)))))
theorem allOps_fresh : (allOps : List (HloOp τ sig (Elt F))).Forall fun op => op.fresh = ∅ :=
  forall_app opsW0_fresh (forall_app opsW1_fresh (forall_app opsW2_fresh (forall_app opsW3_fresh (forall_app opsW4_fresh (opsW5_fresh)))))
theorem scopedRefs_eq : (Finset.univ.filter fun b : Ref sig .tc => b.isScoped) = ∅ := by decide
theorem scopedSems_eq : (Finset.univ.filter fun sm : SemLoc sig => sm.isScoped .tc) = ∅ := by decide

theorem after_allOps (V : Valuation τ sig (Elt F)) :
    after allOps V = after ops17 (after ops16 (after ops15 (after ops14 (after ops13 (after ops12 (after ops11 (after ops10 (after ops9 (after ops8 (after ops7 (after ops6 (after ops5 (after ops4 (after ops3 (after ops2 (after ops1 (after ops0 (V)))))))))))))))))) := by
  simp only [allOps, opsW0, opsW1, opsW2, opsW3, opsW4, opsW5, after_append]

end Cert.ReferenceIdeal.Hand

end
-- ==== Proof.RefRunS0.lean ====
/- Stretches 1 to 14 of the reference read stage by stage: after each, the buffers still to be read hold their stages of the arguments. -/
import proofs.«173786_j46231027974388_2_alg».proof.Proof.RefRunA

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem stage0 {W : Valuation τ sig (Elt F)} {x0 x1 x2 x3 x4 x5 x6 x7} (ha : ArgsAt W x0 x1 x2 x3 x4 x5 x6 x7) :
    Inv0 (after ops0 W) x0 x1 x2 x3 x4 x5 x6 x7 where
  v1 := by
    generalize hR : val_main_v1 (F := F) x1 = R
    after_results_simp
    rw [ha.arg1]
    subst hR
    rfl
  v3 := by
    generalize hR : val_main_v3 (F := F) x1 = R
    after_results_simp
    rw [ha.arg1]
    subst hR
    rfl
  v5 := by
    generalize hR : val_main_v5 (F := F) x1 = R
    after_results_simp
    rw [ha.arg1]
    subst hR
    rfl
  v7 := by
    generalize hR : val_main_v7 (F := F) x1 = R
    after_results_simp
    rw [ha.arg1]
    subst hR
    rfl
  v17 := by
    generalize hR : val_main_v17 (F := F) x1 x2 = R
    after_results_simp
    simp only [TRef.ofBuf, TRef.toBuf, cast_eq]
    rw [ha.arg1, ha.arg2]
    subst hR
    rfl

theorem stage1 {W : Valuation τ sig (Elt F)} {x0 x1 x2 x3 x4 x5 x6 x7} (ha : ArgsAt W x0 x1 x2 x3 x4 x5 x6 x7) (h : Inv0 W x0 x1 x2 x3 x4 x5 x6 x7) :
    Inv1 (after ops1 W) x0 x1 x2 x3 x4 x5 x6 x7 where
  v1 := (frame1 W (by decide)).trans h.v1
  v3 := (frame1 W (by decide)).trans h.v3
  v33 := by
    generalize hR : val_main_v33 (F := F) x1 x2 = R
    after_results_simp
    rw [h.v17, h.v5, ha.arg2, h.v7]
    subst hR
    rfl

theorem stage2 {W : Valuation τ sig (Elt F)} {x0 x1 x2 x3 x4 x5 x6 x7} (ha : ArgsAt W x0 x1 x2 x3 x4 x5 x6 x7) (h : Inv1 W x0 x1 x2 x3 x4 x5 x6 x7) :
    Inv2 (after ops2 W) x0 x1 x2 x3 x4 x5 x6 x7 where
  v1 := (frame2 W (by decide)).trans h.v1
  v3 := (frame2 W (by decide)).trans h.v3
  v33 := (frame2 W (by decide)).trans h.v33
  v38 := by
    generalize hR : val_main_v38 (F := F) x0 x3 x4 = R
    after_results_simp
    simp only [TRef.ofBuf, TRef.toBuf, cast_eq]
    rw [ha.arg0, ha.arg3, ha.arg4]
    subst hR
    rfl
  v48 := by
    generalize hR : val_main_v48 (F := F) x0 x1 x2 x3 x4 = R
    after_results_simp
    simp only [TRef.ofBuf, TRef.toBuf, cast_eq]
    rw [h.v33, ha.arg0, ha.arg3, ha.arg4, h.v1]
    subst hR
    rfl

theorem stage3 {W : Valuation τ sig (Elt F)} {x0 x1 x2 x3 x4 x5 x6 x7} (ha : ArgsAt W x0 x1 x2 x3 x4 x5 x6 x7) (h : Inv2 W x0 x1 x2 x3 x4 x5 x6 x7) :
    Inv3 (after ops3 W) x0 x1 x2 x3 x4 x5 x6 x7 where
  v1 := (frame3 W (by decide)).trans h.v1
  v3 := (frame3 W (by decide)).trans h.v3
  v33 := (frame3 W (by decide)).trans h.v33
  v38 := (frame3 W (by decide)).trans h.v38
  v63 := by
    generalize hR : val_main_v63 (F := F) x0 x1 x2 x3 x4 x5 = R
    after_results_simp
    simp only [TRef.ofBuf, TRef.toBuf, cast_eq]
    rw [h.v3, h.v48, h.v38, ha.arg5]
    subst hR
    rfl

theorem stage4 {W : Valuation τ sig (Elt F)} {x0 x1 x2 x3 x4 x5 x6 x7} (ha : ArgsAt W x0 x1 x2 x3 x4 x5 x6 x7) (h : Inv3 W x0 x1 x2 x3 x4 x5 x6 x7) :
    Inv4 (after ops4 W) x0 x1 x2 x3 x4 x5 x6 x7 where
  v1 := (frame4 W (by decide)).trans h.v1
  v3 := (frame4 W (by decide)).trans h.v3
  v33 := (frame4 W (by decide)).trans h.v33
  v38 := (frame4 W (by decide)).trans h.v38
  v88 := by
    generalize hR : val_main_v88 (F := F) x0 x1 x2 x3 x4 x5 = R
    after_results_simp
    simp only [TRef.ofBuf, TRef.toBuf, cast_eq]
    rw [h.v3, h.v33, h.v63, h.v1, h.v38, ha.arg5]
    subst hR
    rfl

theorem stage5 {W : Valuation τ sig (Elt F)} {x0 x1 x2 x3 x4 x5 x6 x7} (ha : ArgsAt W x0 x1 x2 x3 x4 x5 x6 x7) (h : Inv4 W x0 x1 x2 x3 x4 x5 x6 x7) :
    Inv5 (after ops5 W) x0 x1 x2 x3 x4 x5 x6 x7 where
  v1 := (frame5 W (by decide)).trans h.v1
  v3 := (frame5 W (by decide)).trans h.v3
  v33 := (frame5 W (by decide)).trans h.v33
  v38 := (frame5 W (by decide)).trans h.v38
  v88 := (frame5 W (by decide)).trans h.v88
  v89 := by
    generalize hR : val_main_v89 (F := F) x1 x2 = R
    after_results_simp
    rw [h.v33]
    subst hR
    rfl
  v96 := by
    generalize hR : val_main_v96 (F := F) x0 x1 x2 x3 x4 x5 = R
    after_results_simp
    rw [h.v88, h.v1]
    subst hR
    rfl

theorem stage6 {W : Valuation τ sig (Elt F)} {x0 x1 x2 x3 x4 x5 x6 x7} (ha : ArgsAt W x0 x1 x2 x3 x4 x5 x6 x7) (h : Inv5 W x0 x1 x2 x3 x4 x5 x6 x7) :
    Inv6 (after ops6 W) x0 x1 x2 x3 x4 x5 x6 x7 where
  v1 := (frame6 W (by decide)).trans h.v1
  v3 := (frame6 W (by decide)).trans h.v3
  v33 := (frame6 W (by decide)).trans h.v33
  v38 := (frame6 W (by decide)).trans h.v38
  v113 := by
    generalize hR : val_main_v113 (F := F) x0 x1 x2 x3 x4 x5 = R
    after_results_simp
    simp only [TRef.ofBuf, TRef.toBuf, cast_eq]
    rw [h.v3, h.v89, h.v96, h.v88, h.v38, ha.arg5]
    subst hR
    rfl

theorem stage7 {W : Valuation τ sig (Elt F)} {x0 x1 x2 x3 x4 x5 x6 x7} (ha : ArgsAt W x0 x1 x2 x3 x4 x5 x6 x7) (h : Inv6 W x0 x1 x2 x3 x4 x5 x6 x7) :
    Inv7 (after ops7 W) x0 x1 x2 x3 x4 x5 x6 x7 where
  v1 := (frame7 W (by decide)).trans h.v1
  v3 := (frame7 W (by decide)).trans h.v3
  v33 := (frame7 W (by decide)).trans h.v33
  v38 := (frame7 W (by decide)).trans h.v38
  v138 := by
    generalize hR : val_main_v138 (F := F) x0 x1 x2 x3 x4 x5 = R
    after_results_simp
    simp only [TRef.ofBuf, TRef.toBuf, cast_eq]
    rw [h.v3, h.v33, h.v113, h.v1, h.v38, ha.arg5]
    subst hR
    rfl

theorem stage8 {W : Valuation τ sig (Elt F)} {x0 x1 x2 x3 x4 x5 x6 x7} (ha : ArgsAt W x0 x1 x2 x3 x4 x5 x6 x7) (h : Inv7 W x0 x1 x2 x3 x4 x5 x6 x7) :
    Inv8 (after ops8 W) x0 x1 x2 x3 x4 x5 x6 x7 where
  v1 := (frame8 W (by decide)).trans h.v1
  v3 := (frame8 W (by decide)).trans h.v3
  v33 := (frame8 W (by decide)).trans h.v33
  v38 := (frame8 W (by decide)).trans h.v38
  v138 := (frame8 W (by decide)).trans h.v138
  v139 := by
    generalize hR : val_main_v139 (F := F) x1 x2 = R
    after_results_simp
    rw [h.v33]
    subst hR
    rfl
  v144 := by
    generalize hR : val_main_v144 (F := F) x1 = R
    after_results_simp
    rw [h.v1]
    subst hR
    rfl

theorem stage9 {W : Valuation τ sig (Elt F)} {x0 x1 x2 x3 x4 x5 x6 x7} (ha : ArgsAt W x0 x1 x2 x3 x4 x5 x6 x7) (h : Inv8 W x0 x1 x2 x3 x4 x5 x6 x7) :
    Inv9 (after ops9 W) x0 x1 x2 x3 x4 x5 x6 x7 where
  v1 := (frame9 W (by decide)).trans h.v1
  v3 := (frame9 W (by decide)).trans h.v3
  v33 := (frame9 W (by decide)).trans h.v33
  v38 := (frame9 W (by decide)).trans h.v38
  v163 := by
    generalize hR : val_main_v163 (F := F) x0 x1 x2 x3 x4 x5 = R
    after_results_simp
    simp only [TRef.ofBuf, TRef.toBuf, cast_eq]
    rw [h.v3, h.v139, h.v138, h.v144, h.v38, ha.arg5]
    subst hR
    rfl

theorem stage10 {W : Valuation τ sig (Elt F)} {x0 x1 x2 x3 x4 x5 x6 x7} (ha : ArgsAt W x0 x1 x2 x3 x4 x5 x6 x7) (h : Inv9 W x0 x1 x2 x3 x4 x5 x6 x7) :
    Inv10 (after ops10 W) x0 x1 x2 x3 x4 x5 x6 x7 where
  v1 := (frame10 W (by decide)).trans h.v1
  v3 := (frame10 W (by decide)).trans h.v3
  v33 := (frame10 W (by decide)).trans h.v33
  v38 := (frame10 W (by decide)).trans h.v38
  v188 := by
    generalize hR : val_main_v188 (F := F) x0 x1 x2 x3 x4 x5 = R
    after_results_simp
    simp only [TRef.ofBuf, TRef.toBuf, cast_eq]
    rw [h.v3, h.v33, h.v163, h.v1, h.v38, ha.arg5]
    subst hR
    rfl

theorem stage11 {W : Valuation τ sig (Elt F)} {x0 x1 x2 x3 x4 x5 x6 x7} (ha : ArgsAt W x0 x1 x2 x3 x4 x5 x6 x7) (h : Inv10 W x0 x1 x2 x3 x4 x5 x6 x7) :
    Inv11 (after ops11 W) x0 x1 x2 x3 x4 x5 x6 x7 where
  v1 := (frame11 W (by decide)).trans h.v1
  v3 := (frame11 W (by decide)).trans h.v3
  v33 := (frame11 W (by decide)).trans h.v33
  v38 := (frame11 W (by decide)).trans h.v38
  v188 := (frame11 W (by decide)).trans h.v188
  v189 := by
    generalize hR : val_main_v189 (F := F) x1 x2 = R
    after_results_simp
    rw [h.v33]
    subst hR
    rfl
  v191 := by
    generalize hR : val_main_v191 (F := F) x1 = R
    after_results_simp
    rw [h.v1]
    subst hR
    rfl
  v192 := by
    generalize hR : val_main_v192 (F := F) = R
    after_results_simp
    subst hR
    rfl

theorem stage12 {W : Valuation τ sig (Elt F)} {x0 x1 x2 x3 x4 x5 x6 x7} (ha : ArgsAt W x0 x1 x2 x3 x4 x5 x6 x7) (h : Inv11 W x0 x1 x2 x3 x4 x5 x6 x7) :
    Inv12 (after ops12 W) x0 x1 x2 x3 x4 x5 x6 x7 where
  v1 := (frame12 W (by decide)).trans h.v1
  v3 := (frame12 W (by decide)).trans h.v3
  v33 := (frame12 W (by decide)).trans h.v33
  v38 := (frame12 W (by decide)).trans h.v38
  v213 := by
    generalize hR : val_main_v213 (F := F) x0 x1 x2 x3 x4 x5 = R
    after_results_simp
    simp only [TRef.ofBuf, TRef.toBuf, cast_eq]
    rw [h.v3, h.v189, h.v188, h.v191, h.v1, h.v192, h.v38, ha.arg5]
    subst hR
    rfl

theorem stage13 {W : Valuation τ sig (Elt F)} {x0 x1 x2 x3 x4 x5 x6 x7} (ha : ArgsAt W x0 x1 x2 x3 x4 x5 x6 x7) (h : Inv12 W x0 x1 x2 x3 x4 x5 x6 x7) :
    Inv13 (after ops13 W) x0 x1 x2 x3 x4 x5 x6 x7 where
  v242 := by
    generalize hR : val_main_v242 (F := F) x0 x1 x2 x3 x4 x5 x6 x7 = R
    after_results_simp
    simp only [TRef.ofBuf, TRef.toBuf, cast_eq]
    rw [h.v3, h.v33, h.v213, h.v1, h.v38, ha.arg5, ha.arg6, ha.arg7]
    subst hR
    rfl

end Cert.ReferenceIdeal.Hand

end
-- ==== Proof.RefRunS14.lean ====
/- The reference's row-wise log-softmax, one operation at a time. -/
import proofs.«173786_j46231027974388_2_alg».proof.Proof.RefRunA

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev op14_1 : HloOp τ sig (Elt F) :=
  TRef.nullary (TRef.of (T := ⟨S_, .f32⟩) main_call11_cst) (constant S_ .f32 0xFF800000#32)

abbrev op14_2 : HloOp τ sig (Elt F) :=
  TRef.binary (TRef.of (T := ⟨S100000x40, .f32⟩) main_v242) (TRef.of (T := ⟨S_, .f32⟩) main_call11_cst) (TRef.of (T := ⟨S100000, .f32⟩) main_call11_v0) (fun x v => Host.reduce FloatOps.maximumf x v reducesTo_S100000x40_S100000_d1 h_S_)

abbrev op14_3 : HloOp τ sig (Elt F) :=
  TRef.nullary (TRef.of (T := ⟨S_, .f32⟩) main_call11_cst_0) (constant S_ .f32 0xFF800000#32)

abbrev op14_4 : HloOp τ sig (Elt F) :=
  TRef.unary (TRef.of (T := ⟨S_, .f32⟩) main_call11_cst_0) (TRef.of (T := ⟨S100000, .f32⟩) main_call11_v1) (broadcastInDim S100000 ![] bcast_S_S100000)

abbrev op14_5 : HloOp τ sig (Elt F) :=
  TRef.binary (TRef.of (T := ⟨S100000, .f32⟩) main_call11_v1) (TRef.of (T := ⟨S100000, .f32⟩) main_call11_v0) (TRef.of (T := ⟨S100000, .f32⟩) main_call11_v2) maximumf

abbrev op14_6 : HloOp τ sig (Elt F) :=
  TRef.unary (TRef.of (T := ⟨S100000, .f32⟩) main_call11_v2) (TRef.of (T := ⟨S100000x1, .f32⟩) main_call11_v3) (broadcastInDim S100000x1 ![0] bcast_S100000_S100000x1_0)

abbrev op14_7 : HloOp τ sig (Elt F) :=
  TRef.unary (TRef.of (T := ⟨S100000x1, .f32⟩) main_call11_v3) (TRef.of (T := ⟨S100000x40, .f32⟩) main_call11_v4) (broadcastInDim S100000x40 ![0, 1] bcast_S100000x1_S100000x40_0_1)

abbrev op14_8 : HloOp τ sig (Elt F) :=
  TRef.binary (TRef.of (T := ⟨S100000x40, .f32⟩) main_v242) (TRef.of (T := ⟨S100000x40, .f32⟩) main_call11_v4) (TRef.of (T := ⟨S100000x40, .f32⟩) main_call11_v5) subf

abbrev op14_9 : HloOp τ sig (Elt F) :=
  TRef.unary (TRef.of (T := ⟨S100000x40, .f32⟩) main_call11_v5) (TRef.of (T := ⟨S100000x40, .f32⟩) main_call11_v6) Host.exp

abbrev op14_10 : HloOp τ sig (Elt F) :=
  TRef.nullary (TRef.of (T := ⟨S_, .f32⟩) main_call11_cst_1) (constant S_ .f32 0x00000000#32)

abbrev op14_11 : HloOp τ sig (Elt F) :=
  TRef.binary (TRef.of (T := ⟨S100000x40, .f32⟩) main_call11_v6) (TRef.of (T := ⟨S_, .f32⟩) main_call11_cst_1) (TRef.of (T := ⟨S100000, .f32⟩) main_call11_v7) (fun x v => Host.reduceAdd x v reducesTo_S100000x40_S100000_d1 h_S_)

abbrev op14_12 : HloOp τ sig (Elt F) :=
  TRef.unary (TRef.of (T := ⟨S100000, .f32⟩) main_call11_v7) (TRef.of (T := ⟨S100000x1, .f32⟩) main_call11_v8) (broadcastInDim S100000x1 ![0] bcast_S100000_S100000x1_0)

abbrev op14_13 : HloOp τ sig (Elt F) :=
  TRef.unary (TRef.of (T := ⟨S100000x1, .f32⟩) main_call11_v8) (TRef.of (T := ⟨S100000x1, .f32⟩) main_call11_v9) Host.log

abbrev op14_14 : HloOp τ sig (Elt F) :=
  TRef.unary (TRef.of (T := ⟨S100000x1, .f32⟩) main_call11_v9) (TRef.of (T := ⟨S100000x40, .f32⟩) main_call11_v10) (broadcastInDim S100000x40 ![0, 1] bcast_S100000x1_S100000x40_0_1)

abbrev op14_15 : HloOp τ sig (Elt F) :=
  TRef.binary (TRef.of (T := ⟨S100000x40, .f32⟩) main_call11_v5) (TRef.of (T := ⟨S100000x40, .f32⟩) main_call11_v10) (TRef.of (T := ⟨S100000x40, .f32⟩) main_v243) subf

section Steps

variable (W : Valuation τ sig (Elt F))

theorem s14_1 : (op14_1 (F := F)).result W (Proc.devRef .tc main_call11_cst) = val_main_call11_cst (F := F) :=
  (nullary_result _ _ _ W).trans rfl
theorem s14_2 {a : (⟨S100000x40, .f32⟩ : BufTy).Contents (Elt F)} {b : (⟨S_, .f32⟩ : BufTy).Contents (Elt F)} (ha : W (Proc.devRef .tc main_v242) = a) (hb : W (Proc.devRef .tc main_call11_cst) = b) :
    (op14_2 (F := F)).result W (Proc.devRef .tc main_call11_v0) = Host.reduce FloatOps.maximumf a b reducesTo_S100000x40_S100000_d1 h_S_ := by
  subst ha hb; rw [binary_result]; simp only [TRef.ofBuf, TRef.toBuf, cast_eq]
theorem s14_3 : (op14_3 (F := F)).result W (Proc.devRef .tc main_call11_cst_0) = val_main_call11_cst_0 (F := F) :=
  (nullary_result _ _ _ W).trans rfl
theorem s14_4 {a : (⟨S_, .f32⟩ : BufTy).Contents (Elt F)} (ha : W (Proc.devRef .tc main_call11_cst_0) = a) :
    (op14_4 (F := F)).result W (Proc.devRef .tc main_call11_v1) = broadcastInDim S100000 ![] bcast_S_S100000 a := by
  subst ha; exact (unary_result _ _ _ _ _ W).trans rfl
theorem s14_5 {a b : (⟨S100000, .f32⟩ : BufTy).Contents (Elt F)} (ha : W (Proc.devRef .tc main_call11_v1) = a) (hb : W (Proc.devRef .tc main_call11_v0) = b) :
    (op14_5 (F := F)).result W (Proc.devRef .tc main_call11_v2) = maximumf a b := by
  subst ha hb; exact (binary_result _ _ _ _ _ _ _ W).trans rfl
theorem s14_6 {a : (⟨S100000, .f32⟩ : BufTy).Contents (Elt F)} (ha : W (Proc.devRef .tc main_call11_v2) = a) :
    (op14_6 (F := F)).result W (Proc.devRef .tc main_call11_v3) = broadcastInDim S100000x1 ![0] bcast_S100000_S100000x1_0 a := by
  subst ha; exact (unary_result _ _ _ _ _ W).trans rfl
theorem s14_7 {a : (⟨S100000x1, .f32⟩ : BufTy).Contents (Elt F)} (ha : W (Proc.devRef .tc main_call11_v3) = a) :
    (op14_7 (F := F)).result W (Proc.devRef .tc main_call11_v4) = broadcastInDim S100000x40 ![0, 1] bcast_S100000x1_S100000x40_0_1 a := by
  subst ha; exact (unary_result _ _ _ _ _ W).trans rfl
theorem s14_8 {a b : (⟨S100000x40, .f32⟩ : BufTy).Contents (Elt F)} (ha : W (Proc.devRef .tc main_v242) = a) (hb : W (Proc.devRef .tc main_call11_v4) = b) :
    (op14_8 (F := F)).result W (Proc.devRef .tc main_call11_v5) = subf a b := by
  subst ha hb; exact (binary_result _ _ _ _ _ _ _ W).trans rfl
theorem s14_9 {a : (⟨S100000x40, .f32⟩ : BufTy).Contents (Elt F)} (ha : W (Proc.devRef .tc main_call11_v5) = a) :
    (op14_9 (F := F)).result W (Proc.devRef .tc main_call11_v6) = Host.exp a := by
  subst ha; exact (unary_result _ _ _ _ _ W).trans rfl
theorem s14_10 : (op14_10 (F := F)).result W (Proc.devRef .tc main_call11_cst_1) = val_main_call11_cst_1 (F := F) :=
  (nullary_result _ _ _ W).trans rfl
theorem s14_11 {a : (⟨S100000x40, .f32⟩ : BufTy).Contents (Elt F)} {b : (⟨S_, .f32⟩ : BufTy).Contents (Elt F)} (ha : W (Proc.devRef .tc main_call11_v6) = a) (hb : W (Proc.devRef .tc main_call11_cst_1) = b) :
    (op14_11 (F := F)).result W (Proc.devRef .tc main_call11_v7) = Host.reduceAdd a b reducesTo_S100000x40_S100000_d1 h_S_ := by
  subst ha hb; exact (binary_result _ _ _ _ _ _ _ W).trans rfl
theorem s14_12 {a : (⟨S100000, .f32⟩ : BufTy).Contents (Elt F)} (ha : W (Proc.devRef .tc main_call11_v7) = a) :
    (op14_12 (F := F)).result W (Proc.devRef .tc main_call11_v8) = broadcastInDim S100000x1 ![0] bcast_S100000_S100000x1_0 a := by
  subst ha; exact (unary_result _ _ _ _ _ W).trans rfl
theorem s14_13 {a : (⟨S100000x1, .f32⟩ : BufTy).Contents (Elt F)} (ha : W (Proc.devRef .tc main_call11_v8) = a) :
    (op14_13 (F := F)).result W (Proc.devRef .tc main_call11_v9) = Host.log a := by
  subst ha; exact (unary_result _ _ _ _ _ W).trans rfl
theorem s14_14 {a : (⟨S100000x1, .f32⟩ : BufTy).Contents (Elt F)} (ha : W (Proc.devRef .tc main_call11_v9) = a) :
    (op14_14 (F := F)).result W (Proc.devRef .tc main_call11_v10) = broadcastInDim S100000x40 ![0, 1] bcast_S100000x1_S100000x40_0_1 a := by
  subst ha; exact (unary_result _ _ _ _ _ W).trans rfl
theorem s14_15 {a b : (⟨S100000x40, .f32⟩ : BufTy).Contents (Elt F)} (ha : W (Proc.devRef .tc main_call11_v5) = a) (hb : W (Proc.devRef .tc main_call11_v10) = b) :
    (op14_15 (F := F)).result W (Proc.devRef .tc main_v243) = subf a b := by
  subst ha hb; exact (binary_result _ _ _ _ _ _ _ W).trans rfl

theorem keep14_1 {r : Ref sig .tc} (h : r ≠ main_call11_cst) : (op14_1 (F := F)).result W (Proc.devRef .tc r) = W (Proc.devRef .tc r) :=
  nullary_result_ne _ _ _ W h
theorem keep14_2 {r : Ref sig .tc} (h : r ≠ main_call11_v0) : (op14_2 (F := F)).result W (Proc.devRef .tc r) = W (Proc.devRef .tc r) :=
  binary_result_ne _ _ _ _ _ _ _ W h
theorem keep14_3 {r : Ref sig .tc} (h : r ≠ main_call11_cst_0) : (op14_3 (F := F)).result W (Proc.devRef .tc r) = W (Proc.devRef .tc r) :=
  nullary_result_ne _ _ _ W h
theorem keep14_4 {r : Ref sig .tc} (h : r ≠ main_call11_v1) : (op14_4 (F := F)).result W (Proc.devRef .tc r) = W (Proc.devRef .tc r) :=
  unary_result_ne _ _ _ _ _ W h
theorem keep14_5 {r : Ref sig .tc} (h : r ≠ main_call11_v2) : (op14_5 (F := F)).result W (Proc.devRef .tc r) = W (Proc.devRef .tc r) :=
  binary_result_ne _ _ _ _ _ _ _ W h
theorem keep14_6 {r : Ref sig .tc} (h : r ≠ main_call11_v3) : (op14_6 (F := F)).result W (Proc.devRef .tc r) = W (Proc.devRef .tc r) :=
  unary_result_ne _ _ _ _ _ W h
theorem keep14_7 {r : Ref sig .tc} (h : r ≠ main_call11_v4) : (op14_7 (F := F)).result W (Proc.devRef .tc r) = W (Proc.devRef .tc r) :=
  unary_result_ne _ _ _ _ _ W h
theorem keep14_9 {r : Ref sig .tc} (h : r ≠ main_call11_v6) : (op14_9 (F := F)).result W (Proc.devRef .tc r) = W (Proc.devRef .tc r) :=
  unary_result_ne _ _ _ _ _ W h
theorem keep14_10 {r : Ref sig .tc} (h : r ≠ main_call11_cst_1) : (op14_10 (F := F)).result W (Proc.devRef .tc r) = W (Proc.devRef .tc r) :=
  nullary_result_ne _ _ _ W h
theorem keep14_11 {r : Ref sig .tc} (h : r ≠ main_call11_v7) : (op14_11 (F := F)).result W (Proc.devRef .tc r) = W (Proc.devRef .tc r) :=
  binary_result_ne _ _ _ _ _ _ _ W h
theorem keep14_12 {r : Ref sig .tc} (h : r ≠ main_call11_v8) : (op14_12 (F := F)).result W (Proc.devRef .tc r) = W (Proc.devRef .tc r) :=
  unary_result_ne _ _ _ _ _ W h
theorem keep14_13 {r : Ref sig .tc} (h : r ≠ main_call11_v9) : (op14_13 (F := F)).result W (Proc.devRef .tc r) = W (Proc.devRef .tc r) :=
  unary_result_ne _ _ _ _ _ W h
theorem keep14_14 {r : Ref sig .tc} (h : r ≠ main_call11_v10) : (op14_14 (F := F)).result W (Proc.devRef .tc r) = W (Proc.devRef .tc r) :=
  unary_result_ne _ _ _ _ _ W h

end Steps

theorem stage14 {W : Valuation τ sig (Elt F)} {x0 x1 x2 x3 x4 x5 x6 x7} (ha : ArgsAt W x0 x1 x2 x3 x4 x5 x6 x7)
    (h : Inv13 W x0 x1 x2 x3 x4 x5 x6 x7) : Inv14 (after ops14 W) x0 x1 x2 x3 x4 x5 x6 x7 := by
  refine ⟨?_⟩
  have e0_v242 : W (Proc.devRef .tc main_v242) = val_main_v242 (F := F) x0 x1 x2 x3 x4 x5 x6 x7 := h.v242
  show after [op14_1, op14_2, op14_3, op14_4, op14_5, op14_6, op14_7, op14_8, op14_9, op14_10, op14_11, op14_12, op14_13, op14_14, op14_15] W
    (Proc.devRef .tc main_v243) = _
  simp only [after_cons, after_nil]

  have e1_v242 := (keep14_1 W (by decide)).trans e0_v242
  have e1_cst := s14_1 W
  clear e0_v242
  generalize (op14_1 (F := F)).result W = W1 at e1_v242 e1_cst ⊢

  have e2_v242 := (keep14_2 W1 (by decide)).trans e1_v242
  have e2_v0 : (op14_2 (F := F)).result W1 (Proc.devRef .tc main_call11_v0) = val_main_call11_v0 (F := F) x0 x1 x2 x3 x4 x5 x6 x7 :=
    s14_2 W1 e1_v242 e1_cst
  clear e1_v242 e1_cst
  generalize (op14_2 (F := F)).result W1 = W2 at e2_v242 e2_v0 ⊢

  have e3_v242 := (keep14_3 W2 (by decide)).trans e2_v242
  have e3_v0 := (keep14_3 W2 (by decide)).trans e2_v0
  have e3_cst_0 := s14_3 W2
  clear e2_v242 e2_v0
  generalize (op14_3 (F := F)).result W2 = W3 at e3_v242 e3_v0 e3_cst_0 ⊢

  have e4_v242 := (keep14_4 W3 (by decide)).trans e3_v242
  have e4_v0 := (keep14_4 W3 (by decide)).trans e3_v0
  have e4_v1 : (op14_4 (F := F)).result W3 (Proc.devRef .tc main_call11_v1) = val_main_call11_v1 (F := F) :=
    s14_4 W3 e3_cst_0
  clear e3_v242 e3_v0 e3_cst_0
  generalize (op14_4 (F := F)).result W3 = W4 at e4_v242 e4_v0 e4_v1 ⊢

  have e5_v242 := (keep14_5 W4 (by decide)).trans e4_v242
  have e5_v2 : (op14_5 (F := F)).result W4 (Proc.devRef .tc main_call11_v2) = val_main_call11_v2 (F := F) x0 x1 x2 x3 x4 x5 x6 x7 :=
    s14_5 W4 e4_v1 e4_v0
  clear e4_v242 e4_v0 e4_v1
  generalize (op14_5 (F := F)).result W4 = W5 at e5_v242 e5_v2 ⊢

  have e6_v242 := (keep14_6 W5 (by decide)).trans e5_v242
  have e6_v3 : (op14_6 (F := F)).result W5 (Proc.devRef .tc main_call11_v3) = val_main_call11_v3 (F := F) x0 x1 x2 x3 x4 x5 x6 x7 :=
    s14_6 W5 e5_v2
  clear e5_v242 e5_v2
  generalize (op14_6 (F := F)).result W5 = W6 at e6_v242 e6_v3 ⊢

  have e7_v242 := (keep14_7 W6 (by decide)).trans e6_v242
  have e7_v4 : (op14_7 (F := F)).result W6 (Proc.devRef .tc main_call11_v4) = val_main_call11_v4 (F := F) x0 x1 x2 x3 x4 x5 x6 x7 :=
    s14_7 W6 e6_v3
  clear e6_v242 e6_v3
  generalize (op14_7 (F := F)).result W6 = W7 at e7_v242 e7_v4 ⊢

  have e8_v5 : (op14_8 (F := F)).result W7 (Proc.devRef .tc main_call11_v5) = val_main_call11_v5 (F := F) x0 x1 x2 x3 x4 x5 x6 x7 :=
    s14_8 W7 e7_v242 e7_v4
  clear e7_v242 e7_v4
  generalize (op14_8 (F := F)).result W7 = W8 at e8_v5 ⊢

  have e9_v5 := (keep14_9 W8 (by decide)).trans e8_v5
  have e9_v6 : (op14_9 (F := F)).result W8 (Proc.devRef .tc main_call11_v6) = val_main_call11_v6 (F := F) x0 x1 x2 x3 x4 x5 x6 x7 :=
    s14_9 W8 e8_v5
  clear e8_v5
  generalize (op14_9 (F := F)).result W8 = W9 at e9_v5 e9_v6 ⊢

  have e10_v5 := (keep14_10 W9 (by decide)).trans e9_v5
  have e10_v6 := (keep14_10 W9 (by decide)).trans e9_v6
  have e10_cst_1 := s14_10 W9
  clear e9_v5 e9_v6
  generalize (op14_10 (F := F)).result W9 = W10 at e10_v5 e10_v6 e10_cst_1 ⊢

  have e11_v5 := (keep14_11 W10 (by decide)).trans e10_v5
  have e11_v7 : (op14_11 (F := F)).result W10 (Proc.devRef .tc main_call11_v7) = val_main_call11_v7 (F := F) x0 x1 x2 x3 x4 x5 x6 x7 :=
    s14_11 W10 e10_v6 e10_cst_1
  clear e10_v5 e10_v6 e10_cst_1
  generalize (op14_11 (F := F)).result W10 = W11 at e11_v5 e11_v7 ⊢

  have e12_v5 := (keep14_12 W11 (by decide)).trans e11_v5
  have e12_v8 : (op14_12 (F := F)).result W11 (Proc.devRef .tc main_call11_v8) = val_main_call11_v8 (F := F) x0 x1 x2 x3 x4 x5 x6 x7 :=
    s14_12 W11 e11_v7
  clear e11_v5 e11_v7
  generalize (op14_12 (F := F)).result W11 = W12 at e12_v5 e12_v8 ⊢

  have e13_v5 := (keep14_13 W12 (by decide)).trans e12_v5
  have e13_v9 : (op14_13 (F := F)).result W12 (Proc.devRef .tc main_call11_v9) = val_main_call11_v9 (F := F) x0 x1 x2 x3 x4 x5 x6 x7 :=
    s14_13 W12 e12_v8
  clear e12_v5 e12_v8
  generalize (op14_13 (F := F)).result W12 = W13 at e13_v5 e13_v9 ⊢

  have e14_v5 := (keep14_14 W13 (by decide)).trans e13_v5
  have e14_v10 : (op14_14 (F := F)).result W13 (Proc.devRef .tc main_call11_v10) = val_main_call11_v10 (F := F) x0 x1 x2 x3 x4 x5 x6 x7 :=
    s14_14 W13 e13_v9
  clear e13_v5 e13_v9
  generalize (op14_14 (F := F)).result W13 = W14 at e14_v5 e14_v10 ⊢

  exact s14_15 W14 e14_v5 e14_v10

end Cert.ReferenceIdeal.Hand

end
-- ==== Proof.RefRunS1.lean ====
/- Stretches 16 to 18 of the reference: the identity matrix and the summed Frobenius norms of the weight slices minus it. -/
import proofs.«173786_j46231027974388_2_alg».proof.Proof.RefRunA

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem stage15 {W : Valuation τ sig (Elt F)} {x0 x1 x2 x3 x4 x5 x6 x7} (ha : ArgsAt W x0 x1 x2 x3 x4 x5 x6 x7) (h : Inv14 W x0 x1 x2 x3 x4 x5 x6 x7) :
    Inv15 (after ops15 W) x0 x1 x2 x3 x4 x5 x6 x7 where
  v243 := (frame15 W (by decide)).trans h.v243
  v249 := by
    generalize hR : val_main_v249 (F := F) = R
    after_results_simp
    subst hR
    rfl
  v260 := by
    generalize hR : val_main_v260 (F := F) x5 = R
    after_results_simp
    simp only [TRef.ofBuf, TRef.toBuf, cast_eq]
    rw [ha.arg5]
    subst hR
    rfl

theorem stage16 {W : Valuation τ sig (Elt F)} {x0 x1 x2 x3 x4 x5 x6 x7} (ha : ArgsAt W x0 x1 x2 x3 x4 x5 x6 x7) (h : Inv15 W x0 x1 x2 x3 x4 x5 x6 x7) :
    Inv16 (after ops16 W) x0 x1 x2 x3 x4 x5 x6 x7 where
  v243 := (frame16 W (by decide)).trans h.v243
  v249 := (frame16 W (by decide)).trans h.v249
  v275 := by
    generalize hR : val_main_v275 (F := F) x5 = R
    after_results_simp
    simp only [TRef.ofBuf, TRef.toBuf, cast_eq]
    rw [h.v260, ha.arg5, h.v249]
    subst hR
    rfl

theorem stage17 {W : Valuation τ sig (Elt F)} {x0 x1 x2 x3 x4 x5 x6 x7} (ha : ArgsAt W x0 x1 x2 x3 x4 x5 x6 x7) (h : Inv16 W x0 x1 x2 x3 x4 x5 x6 x7) :
    Inv17 (after ops17 W) x0 x1 x2 x3 x4 x5 x6 x7 where
  v243 := (frame17 W (by decide)).trans h.v243
  v291 := by
    generalize hR : val_main_v291 (F := F) x5 = R
    after_results_simp
    simp only [TRef.ofBuf, TRef.toBuf, cast_eq]
    rw [h.v275, ha.arg5, h.v249]
    subst hR
    rfl

end Cert.ReferenceIdeal.Hand

end
-- ==== Proof.RefRun.lean ====
/- The reference's run: its operations in order, every buffer ending at the fold of their results over the launch contents. -/
import proofs.«173786_j46231027974388_2_alg».proof.Proof.RefRunS0
import proofs.«173786_j46231027974388_2_alg».proof.Proof.RefRunS14
import proofs.«173786_j46231027974388_2_alg».proof.Proof.RefRunS1

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v243) = val_main_v243 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v291) = val_main_v291 (F := F) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      have a : ArgsAt (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := ⟨rfl, rfl, rfl, rfl, rfl, rfl, rfl, rfl⟩
      have a0 := args0 a
      have i0 := stage0 a
      have a1 := args1 a0
      have i1 := stage1 a0 i0
      have a2 := args2 a1
      have i2 := stage2 a1 i1
      have a3 := args3 a2
      have i3 := stage3 a2 i2
      have a4 := args4 a3
      have i4 := stage4 a3 i3
      have a5 := args5 a4
      have i5 := stage5 a4 i4
      have a6 := args6 a5
      have i6 := stage6 a5 i5
      have a7 := args7 a6
      have i7 := stage7 a6 i6
      have a8 := args8 a7
      have i8 := stage8 a7 i7
      have a9 := args9 a8
      have i9 := stage9 a8 i8
      have a10 := args10 a9
      have i10 := stage10 a9 i9
      have a11 := args11 a10
      have i11 := stage11 a10 i10
      have a12 := args12 a11
      have i12 := stage12 a11 i11
      have a13 := args13 a12
      have i13 := stage13 a12 i12
      have a14 := args14 a13
      have i14 := stage14 a13 i13
      have a15 := args15 a14
      have i15 := stage15 a14 i14
      have a16 := args16 a15
      have i16 := stage16 a15 i15
      have a17 := args17 a16
      have i17 := stage17 a16 i16
      have e := after_allOps (launchContents m c)
      exact ⟨(h c main_v243).trans (by rw [e]; exact i17.v243), (h c main_v291).trans (by rw [e]; exact i17.v291),
        (h c main_arg0).trans (by rw [e]; exact a17.arg0),
        (h c main_arg1).trans (by rw [e]; exact a17.arg1),
        (h c main_arg2).trans (by rw [e]; exact a17.arg2),
        (h c main_arg3).trans (by rw [e]; exact a17.arg3),
        (h c main_arg4).trans (by rw [e]; exact a17.arg4),
        (h c main_arg5).trans (by rw [e]; exact a17.arg5),
        (h c main_arg6).trans (by rw [e]; exact a17.arg6),
        (h c main_arg7).trans (by rw [e]; exact a17.arg7)⟩)
    (run_seq scopedRefs_eq scopedSems_eq defs main (fun _ => allOps) main_eq (fun _ => allOps_sub) m ρ
      (fun _ => List.forall_iff_forall_mem.1 allOps_fresh))

end Cert.ReferenceIdeal.Hand

end
-- ==== Proof.Claims.lean ====
/- The five claims, put together from the three programs' runs and the layer-by-layer agreement of their values. -/
import proofs.«173786_j46231027974388_2_alg».proof.Defs
import proofs.«173786_j46231027974388_2_alg».proof.Proof.Gen.Kernel
import proofs.«173786_j46231027974388_2_alg».proof.Proof.Gen.KernelIdeal
import proofs.«173786_j46231027974388_2_alg».proof.Proof.Gen.ReferenceIdeal
import proofs.«173786_j46231027974388_2_alg».proof.Proof.Gen.Pre_finite_inputs
import proofs.«173786_j46231027974388_2_alg».proof.Proof.K.Run
import proofs.«173786_j46231027974388_2_alg».proof.Proof.KI.Run
import proofs.«173786_j46231027974388_2_alg».proof.Proof.KI.Bridge
import proofs.«173786_j46231027974388_2_alg».proof.Proof.RefRun

set_option maxRecDepth 16384

noncomputable section

namespace Cert.Proof.Claims

open Idealize.ShloMosaic Idealize.ShloMosaic.TcCoe Idealize.SL.Sem

abbrev yOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v173) :=
  Cert.ReferenceIdeal.Read.val_main_v243 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))

abbrev lossOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v221) :=
  Cert.ReferenceIdeal.Read.val_main_v291 (F := Ideal) (m ((c.tc : Thread Cert.KernelIdeal.nD Cert.KernelIdeal.τ).loc Cert.KernelIdeal.main_arg5))

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.Hand.run (F := Ideal) m ρ)

theorem preserves : Cert.preserves_Kernel_KernelIdeal := trivial

theorem algebraic : Cert.algebraic_KernelIdeal_ReferenceIdeal := by
  intro m ρ m' ρ' _ hagree
  refine ⟨yOf m, lossOf m, ?_, ?_⟩
  · exact (θ_run Cert.KernelIdeal.defs _ _).mono (fun r h c =>
      ⟨(h c _ (Cert.KernelIdeal.Hand.mem_uc Cert.KernelIdeal.main_v173 (by decide))).trans (Cert.KernelIdeal.Hand.y_eq m c),
       (h c _ (Cert.KernelIdeal.Hand.mem_uc Cert.KernelIdeal.main_v221 (by decide))).trans (Cert.KernelIdeal.Hand.loss_eq m c),
       (h c _ (Cert.KernelIdeal.Hand.mem_uc Cert.KernelIdeal.main_arg0 (by decide))).trans (Cert.KernelIdeal.Gen.V40_main_arg0 m (Cert.KernelIdeal.Hand.outs m) c),
       (h c _ (Cert.KernelIdeal.Hand.mem_uc Cert.KernelIdeal.main_arg1 (by decide))).trans (Cert.KernelIdeal.Gen.V40_main_arg1 m (Cert.KernelIdeal.Hand.outs m) c),
       (h c _ (Cert.KernelIdeal.Hand.mem_uc Cert.KernelIdeal.main_arg2 (by decide))).trans (Cert.KernelIdeal.Gen.V40_main_arg2 m (Cert.KernelIdeal.Hand.outs m) c),
       (h c _ (Cert.KernelIdeal.Hand.mem_uc Cert.KernelIdeal.main_arg3 (by decide))).trans (Cert.KernelIdeal.Gen.V40_main_arg3 m (Cert.KernelIdeal.Hand.outs m) c),
       (h c _ (Cert.KernelIdeal.Hand.mem_uc Cert.KernelIdeal.main_arg4 (by decide))).trans (Cert.KernelIdeal.Gen.V40_main_arg4 m (Cert.KernelIdeal.Hand.outs m) c),
       (h c _ (Cert.KernelIdeal.Hand.mem_uc Cert.KernelIdeal.main_arg5 (by decide))).trans (Cert.KernelIdeal.Gen.V40_main_arg5 m (Cert.KernelIdeal.Hand.outs m) c),
       (h c _ (Cert.KernelIdeal.Hand.mem_uc Cert.KernelIdeal.main_arg6 (by decide))).trans (Cert.KernelIdeal.Gen.V40_main_arg6 m (Cert.KernelIdeal.Hand.outs m) c),
       (h c _ (Cert.KernelIdeal.Hand.mem_uc Cert.KernelIdeal.main_arg7 (by decide))).trans (Cert.KernelIdeal.Gen.V40_main_arg7 m (Cert.KernelIdeal.Hand.outs m) c)⟩)
      (Cert.KernelIdeal.Hand.run_all (F := Ideal) m ρ)
  · refine (θ_run Cert.ReferenceIdeal.defs _ _).mono (fun r h c => ⟨(h c).1.trans ?_, (h c).2.1.trans ?_, (h c).2.2⟩)
      (Cert.ReferenceIdeal.Hand.run (F := Ideal) m' ρ')
    · obtain ⟨e0, e1, e2, e3, e4, e5, e6, e7⟩ := hagree c
      rw [e0, e1, e2, e3, e4, e5, e6, e7]
    · rw [(hagree c).2.2.2.2.2.1]

end Cert.Proof.Claims

end
-- ==== Proof.lean ====
/-
  A graph-convolution network's forward pass (an input projection, eight residual layers, a log-softmax head, and the summed
  Frobenius norms of W_i − I) as ten row-tile kernels with the edge gather, scale and scatter on the host between them, against
  its plain jnp reference, over the extended reals. With agg(h)_v = ∑_{e : dst e = v} norm_e · h[src e], a layer is
  relu ((a · agg(h) + b · h + b · h₀) · W_i), a and b the f32 values nearest 0.8 and 0.1, the same words in both programs. The kernel
  side multiplies the edge weights by a before the scatter, the reference multiplies the aggregate: a nonnegative finite constant
  distributes over a sum of extended reals, so the inputs' finiteness is not used.
-/
import proofs.«173786_j46231027974388_2_alg».proof.Defs
import proofs.«173786_j46231027974388_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
